-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v376)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v376) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v378) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S2x2000000 : Shape := ⟨2, ![2, 2000000]⟩
abbrev S2000000 : Shape := ⟨1, ![2000000]⟩
abbrev S15x4 : Shape := ⟨2, ![15, 4]⟩
abbrev S202x32 : Shape := ⟨2, ![202, 32]⟩
abbrev S3x36x24 : Shape := ⟨3, ![3, 36, 24]⟩
abbrev S36x24 : Shape := ⟨2, ![36, 24]⟩
abbrev S24 : Shape := ⟨1, ![24]⟩
abbrev S3x24x16 : Shape := ⟨3, ![3, 24, 16]⟩
abbrev S24x16 : Shape := ⟨2, ![24, 16]⟩
abbrev S16 : Shape := ⟨1, ![16]⟩
abbrev S3x16x8 : Shape := ⟨3, ![3, 16, 8]⟩
abbrev S16x8 : Shape := ⟨2, ![16, 8]⟩
abbrev S8 : Shape := ⟨1, ![8]⟩
abbrev S3x8x4 : Shape := ⟨3, ![3, 8, 4]⟩
abbrev S8x4 : Shape := ⟨2, ![8, 4]⟩
abbrev S4 : Shape := ⟨1, ![4]⟩
abbrev S4x2 : Shape := ⟨2, ![4, 2]⟩
abbrev S2 : Shape := ⟨1, ![2]⟩
abbrev S_ : Shape := ⟨0, ![]⟩

class Facts : Prop where
  bcast_S_S15x4 : S_.BroadcastsInDim S15x4 (![] : Fin 0 → Fin S15x4.rank)
  reducesTo_S15x4_S_d0_1 : S15x4.ReducesTo [0, 1] S_
  h_S_ : 0 < S_.numel
  bcast_S_S202x32 : S_.BroadcastsInDim S202x32 (![] : Fin 0 → Fin S202x32.rank)
  reducesTo_S202x32_S_d0_1 : S202x32.ReducesTo [0, 1] S_
  bcast_S_S3x36x24 : S_.BroadcastsInDim S3x36x24 (![] : Fin 0 → Fin S3x36x24.rank)
  reducesTo_S3x36x24_S_d0_1_2 : S3x36x24.ReducesTo [0, 1, 2] S_
  bcast_S_S36x24 : S_.BroadcastsInDim S36x24 (![] : Fin 0 → Fin S36x24.rank)
  reducesTo_S36x24_S_d0_1 : S36x24.ReducesTo [0, 1] S_
  bcast_S_S24 : S_.BroadcastsInDim S24 (![] : Fin 0 → Fin S24.rank)
  reducesTo_S24_S_d0 : S24.ReducesTo [0] S_
  bcast_S_S3x24x16 : S_.BroadcastsInDim S3x24x16 (![] : Fin 0 → Fin S3x24x16.rank)
  reducesTo_S3x24x16_S_d0_1_2 : S3x24x16.ReducesTo [0, 1, 2] S_
  bcast_S_S24x16 : S_.BroadcastsInDim S24x16 (![] : Fin 0 → Fin S24x16.rank)
  reducesTo_S24x16_S_d0_1 : S24x16.ReducesTo [0, 1] S_
  bcast_S_S16 : S_.BroadcastsInDim S16 (![] : Fin 0 → Fin S16.rank)
  reducesTo_S16_S_d0 : S16.ReducesTo [0] S_
  bcast_S_S3x16x8 : S_.BroadcastsInDim S3x16x8 (![] : Fin 0 → Fin S3x16x8.rank)
  reducesTo_S3x16x8_S_d0_1_2 : S3x16x8.ReducesTo [0, 1, 2] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S3x8x4 : S_.BroadcastsInDim S3x8x4 (![] : Fin 0 → Fin S3x8x4.rank)
  reducesTo_S3x8x4_S_d0_1_2 : S3x8x4.ReducesTo [0, 1, 2] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_arg0 : IVec S1000000 32) (main_v78 : IVec S_ 1) (main_v84 : IVec S_ 1) : IVec S_ 1 :=
  let main_v85 : IVec S_ 1 := andi main_v78 main_v84
  let main_c_33 : IVec S_ 32 := constantI S_ 32 0#32
  let main_v86 : IVec S1000000 32 := broadcastInDim S1000000 ![] bcast_S_S1000000 main_c_33
  let main_v87 : IVec S1000000 1 := cmpi .sge main_arg0 main_v86
  let main_c_34 : IVec S_ 32 := constantI S_ 32 202#32
  let main_v88 : IVec S1000000 32 := broadcastInDim S1000000 ![] bcast_S_S1000000 main_c_34
  let main_v89 : IVec S1000000 1 := cmpi .slt main_arg0 main_v88
  let main_v90 : IVec S1000000 1 := andi main_v87 main_v89
  let main_c_35 : IVec S_ 1 := constantI S_ 1 1#1
  let main_v91 : IVec S_ 1 := (fun x v => Host.reduce IntOp.andi x v reducesTo_S1000000_S_d0 h_S_) main_v90 main_c_35
  let main_v92 : IVec S_ 1 := andi main_v85 main_v91
  main_v92

def fn_part4 {F : FTy → Type} [FloatOps F] (main_arg0 : IVec S1000000 32) (main_arg1 : IVec S1000000 32) (main_arg18 : FVec F S4x2 .f32) (main_arg19 : FVec F S2 .f32) (main_v63 : IVec S_ 1) (main_v67 : IVec S_ 1) : IVec S_ 1 :=
  let main_v68 : IVec S_ 1 := andi main_v63 main_v67
  let main_v69 : FVec F S4x2 .f32 := Host.absf main_arg18
  let main_cst_26 : FVec F S_ .f32 := constant S_ .f32 0x7F800000#32
  let main_v70 : FVec F S4x2 .f32 := broadcastInDim S4x2 ![] bcast_S_S4x2 main_cst_26
  let main_v71 : IVec S4x2 1 := cmpf .olt main_v69 main_v70
  let main_c_27 : IVec S_ 1 := constantI S_ 1 1#1
  let main_v72 : IVec S_ 1 := (fun x v => Host.reduce IntOp.andi x v reducesTo_S4x2_S_d0_1 h_S_) main_v71 main_c_27
  let main_v73 : IVec S_ 1 := andi main_v68 main_v72
  let main_v74 : FVec F S2 .f32 := Host.absf main_arg19
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_c_30 : IVec S_ 32 := constantI S_ 32 0#32
  let main_v79 : IVec S1000000 32 := broadcastInDim S1000000 ![] bcast_S_S1000000 main_c_30
  let main_v80 : IVec S1000000 1 := cmpi .sge main_arg1 main_v79
  let main_c_31 : IVec S_ 32 := constantI S_ 32 15#32
  let main_v81 : IVec S1000000 32 := broadcastInDim S1000000 ![] bcast_S_S1000000 main_c_31
  let main_v82 : IVec S1000000 1 := cmpi .slt main_arg1 main_v81
  let main_v83 : IVec S1000000 1 := andi main_v80 main_v82
  let main_c_32 : IVec S_ 1 := constantI S_ 1 1#1
  let main_v84 : IVec S_ 1 := (fun x v => Host.reduce IntOp.andi x v reducesTo_S1000000_S_d0 h_S_) main_v83 main_c_32
  fn_part5 (F := F) main_arg0 main_v78 main_v84

def fn_part3 {F : FTy → Type} [FloatOps F] (main_arg0 : IVec S1000000 32) (main_arg1 : IVec S1000000 32) (main_arg15 : FVec F S3x8x4 .f32) (main_arg16 : FVec F S8x4 .f32) (main_arg17 : FVec F S4 .f32) (main_arg18 : FVec F S4x2 .f32) (main_arg19 : FVec F S2 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S3x8x4 .f32 := Host.absf main_arg15
  let main_cst_20 : FVec F S_ .f32 := constant S_ .f32 0x7F800000#32
  let main_v55 : FVec F S3x8x4 .f32 := broadcastInDim S3x8x4 ![] bcast_S_S3x8x4 main_cst_20
  let main_v56 : IVec S3x8x4 1 := cmpf .olt main_v54 main_v55
  let main_c_21 : IVec S_ 1 := constantI S_ 1 1#1
  let main_v57 : IVec S_ 1 := (fun x v => Host.reduce IntOp.andi x v reducesTo_S3x8x4_S_d0_1_2 h_S_) main_v56 main_c_21
  let main_v58 : IVec S_ 1 := andi main_v53 main_v57
  let main_v59 : FVec F S8x4 .f32 := Host.absf main_arg16
  let main_cst_22 : FVec F S_ .f32 := constant S_ .f32 0x7F800000#32
  let main_v60 : FVec F S8x4 .f32 := broadcastInDim S8x4 ![] bcast_S_S8x4 main_cst_22
  let main_v61 : IVec S8x4 1 := cmpf .olt main_v59 main_v60
  let main_c_23 : IVec S_ 1 := constantI S_ 1 1#1
  let main_v62 : IVec S_ 1 := (fun x v => Host.reduce IntOp.andi x v reducesTo_S8x4_S_d0_1 h_S_) main_v61 main_c_23
  let main_v63 : IVec S_ 1 := andi main_v58 main_v62
  let main_v64 : FVec F S4 .f32 := Host.absf main_arg17
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg0 main_arg1 main_arg18 main_arg19 main_v63 main_v67

def fn_part2 {F : FTy → Type} [FloatOps F] (main_arg0 : IVec S1000000 32) (main_arg1 : IVec S1000000 32) (main_arg11 : FVec F S16 .f32) (main_arg12 : FVec F S3x16x8 .f32) (main_arg13 : FVec F S16x8 .f32) (main_arg14 : FVec F S8 .f32) (main_arg15 : FVec F S3x8x4 .f32) (main_arg16 : FVec F S8x4 .f32) (main_arg17 : FVec F S4 .f32) (main_arg18 : FVec F S4x2 .f32) (main_arg19 : FVec F S2 .f32) (main_v33 : IVec S_ 1) : IVec S_ 1 :=
  let main_v34 : FVec F S16 .f32 := Host.absf main_arg11
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S3x16x8 .f32 := Host.absf main_arg12
  let main_cst_14 : FVec F S_ .f32 := constant S_ .f32 0x7F800000#32
  let main_v40 : FVec F S3x16x8 .f32 := broadcastInDim S3x16x8 ![] bcast_S_S3x16x8 main_cst_14
  let main_v41 : IVec S3x16x8 1 := cmpf .olt main_v39 main_v40
  let main_c_15 : IVec S_ 1 := constantI S_ 1 1#1
  let main_v42 : IVec S_ 1 := (fun x v => Host.reduce IntOp.andi x v reducesTo_S3x16x8_S_d0_1_2 h_S_) main_v41 main_c_15
  let main_v43 : IVec S_ 1 := andi main_v38 main_v42
  let main_v44 : FVec F S16x8 .f32 := Host.absf main_arg13
  let main_cst_16 : FVec F S_ .f32 := constant S_ .f32 0x7F800000#32
  let main_v45 : FVec F S16x8 .f32 := broadcastInDim S16x8 ![] bcast_S_S16x8 main_cst_16
  let main_v46 : IVec S16x8 1 := cmpf .olt main_v44 main_v45
  let main_c_17 : IVec S_ 1 := constantI S_ 1 1#1
  let main_v47 : IVec S_ 1 := (fun x v => Host.reduce IntOp.andi x v reducesTo_S16x8_S_d0_1 h_S_) main_v46 main_c_17
  let main_v48 : IVec S_ 1 := andi main_v43 main_v47
  let main_v49 : FVec F S8 .f32 := Host.absf main_arg14
  let main_cst_18 : FVec F S_ .f32 := constant S_ .f32 0x7F800000#32
  let main_v50 : FVec F S8 .f32 := broadcastInDim S8 ![] bcast_S_S8 main_cst_18
  fn_part3 (F := F) main_arg0 main_arg1 main_arg15 main_arg16 main_arg17 main_arg18 main_arg19 main_v48 main_v49 main_v50

def fn_part1 {F : FTy → Type} [FloatOps F] (main_arg0 : IVec S1000000 32) (main_arg1 : IVec S1000000 32) (main_arg8 : FVec F S24 .f32) (main_arg9 : FVec F S3x24x16 .f32) (main_arg10 : FVec F S24x16 .f32) (main_arg11 : FVec F S16 .f32) (main_arg12 : FVec F S3x16x8 .f32) (main_arg13 : FVec F S16x8 .f32) (main_arg14 : FVec F S8 .f32) (main_arg15 : FVec F S3x8x4 .f32) (main_arg16 : FVec F S8x4 .f32) (main_arg17 : FVec F S4 .f32) (main_arg18 : FVec F S4x2 .f32) (main_arg19 : FVec F S2 .f32) (main_v13 : IVec S_ 1) (main_v16 : IVec S36x24 1) : IVec S_ 1 :=
  let main_c_5 : IVec S_ 1 := constantI S_ 1 1#1
  let main_v17 : IVec S_ 1 := (fun x v => Host.reduce IntOp.andi x v reducesTo_S36x24_S_d0_1 h_S_) main_v16 main_c_5
  let main_v18 : IVec S_ 1 := andi main_v13 main_v17
  let main_v19 : FVec F S24 .f32 := Host.absf main_arg8
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  let main_v24 : FVec F S3x24x16 .f32 := Host.absf main_arg9
  let main_cst_8 : FVec F S_ .f32 := constant S_ .f32 0x7F800000#32
  let main_v25 : FVec F S3x24x16 .f32 := broadcastInDim S3x24x16 ![] bcast_S_S3x24x16 main_cst_8
  let main_v26 : IVec S3x24x16 1 := cmpf .olt main_v24 main_v25
  let main_c_9 : IVec S_ 1 := constantI S_ 1 1#1
  let main_v27 : IVec S_ 1 := (fun x v => Host.reduce IntOp.andi x v reducesTo_S3x24x16_S_d0_1_2 h_S_) main_v26 main_c_9
  let main_v28 : IVec S_ 1 := andi main_v23 main_v27
  let main_v29 : FVec F S24x16 .f32 := Host.absf main_arg10
  let main_cst_10 : FVec F S_ .f32 := constant S_ .f32 0x7F800000#32
  let main_v30 : FVec F S24x16 .f32 := broadcastInDim S24x16 ![] bcast_S_S24x16 main_cst_10
  let main_v31 : IVec S24x16 1 := cmpf .olt main_v29 main_v30
  let main_c_11 : IVec S_ 1 := constantI S_ 1 1#1
  let main_v32 : IVec S_ 1 := (fun x v => Host.reduce IntOp.andi x v reducesTo_S24x16_S_d0_1 h_S_) main_v31 main_c_11
  let main_v33 : IVec S_ 1 := andi main_v28 main_v32
  fn_part2 (F := F) main_arg0 main_arg1 main_arg11 main_arg12 main_arg13 main_arg14 main_arg15 main_arg16 main_arg17 main_arg18 main_arg19 main_v33

def fn {F : FTy → Type} [FloatOps F] (main_arg0 : IVec S1000000 32) (main_arg1 : IVec S1000000 32) (main_arg2 : IVec S2x2000000 32) (main_arg3 : IVec S2000000 32) (main_arg4 : FVec F S15x4 .f32) (main_arg5 : FVec F S202x32 .f32) (main_arg6 : FVec F S3x36x24 .f32) (main_arg7 : FVec F S36x24 .f32) (main_arg8 : FVec F S24 .f32) (main_arg9 : FVec F S3x24x16 .f32) (main_arg10 : FVec F S24x16 .f32) (main_arg11 : FVec F S16 .f32) (main_arg12 : FVec F S3x16x8 .f32) (main_arg13 : FVec F S16x8 .f32) (main_arg14 : FVec F S8 .f32) (main_arg15 : FVec F S3x8x4 .f32) (main_arg16 : FVec F S8x4 .f32) (main_arg17 : FVec F S4 .f32) (main_arg18 : FVec F S4x2 .f32) (main_arg19 : FVec F S2 .f32) : IVec S_ 1 :=
  let main_v0 : FVec F S15x4 .f32 := Host.absf main_arg4
  let main_cst : FVec F S_ .f32 := constant S_ .f32 0x7F800000#32
  let main_v1 : FVec F S15x4 .f32 := broadcastInDim S15x4 ![] bcast_S_S15x4 main_cst
  let main_v2 : IVec S15x4 1 := cmpf .olt main_v0 main_v1
  let main_c : IVec S_ 1 := constantI S_ 1 1#1
  let main_v3 : IVec S_ 1 := (fun x v => Host.reduce IntOp.andi x v reducesTo_S15x4_S_d0_1 h_S_) main_v2 main_c
  let main_v4 : FVec F S202x32 .f32 := Host.absf main_arg5
  let main_cst_0 : FVec F S_ .f32 := constant S_ .f32 0x7F800000#32
  let main_v5 : FVec F S202x32 .f32 := broadcastInDim S202x32 ![] bcast_S_S202x32 main_cst_0
  let main_v6 : IVec S202x32 1 := cmpf .olt main_v4 main_v5
  let main_c_1 : IVec S_ 1 := constantI S_ 1 1#1
  let main_v7 : IVec S_ 1 := (fun x v => Host.reduce IntOp.andi x v reducesTo_S202x32_S_d0_1 h_S_) main_v6 main_c_1
  let main_v8 : IVec S_ 1 := andi main_v3 main_v7
  let main_v9 : FVec F S3x36x24 .f32 := Host.absf main_arg6
  let main_cst_2 : FVec F S_ .f32 := constant S_ .f32 0x7F800000#32
  let main_v10 : FVec F S3x36x24 .f32 := broadcastInDim S3x36x24 ![] bcast_S_S3x36x24 main_cst_2
  let main_v11 : IVec S3x36x24 1 := cmpf .olt main_v9 main_v10
  let main_c_3 : IVec S_ 1 := constantI S_ 1 1#1
  let main_v12 : IVec S_ 1 := (fun x v => Host.reduce IntOp.andi x v reducesTo_S3x36x24_S_d0_1_2 h_S_) main_v11 main_c_3
  let main_v13 : IVec S_ 1 := andi main_v8 main_v12
  let main_v14 : FVec F S36x24 .f32 := Host.absf main_arg7
  let main_cst_4 : FVec F S_ .f32 := constant S_ .f32 0x7F800000#32
  let main_v15 : FVec F S36x24 .f32 := broadcastInDim S36x24 ![] bcast_S_S36x24 main_cst_4
  let main_v16 : IVec S36x24 1 := cmpf .olt main_v14 main_v15
  fn_part1 (F := F) main_arg0 main_arg1 main_arg8 main_arg9 main_arg10 main_arg11 main_arg12 main_arg13 main_arg14 main_arg15 main_arg16 main_arg17 main_arg18 main_arg19 main_v13 main_v16
-- ==== Kernel.lean ====
abbrev S1000000 : Shape := ⟨1, ![1000000]⟩
abbrev S2x2000000 : Shape := ⟨2, ![2, 2000000]⟩
abbrev S2000000 : Shape := ⟨1, ![2000000]⟩
abbrev S15x4 : Shape := ⟨2, ![15, 4]⟩
abbrev S202x32 : Shape := ⟨2, ![202, 32]⟩
abbrev S3x36x24 : Shape := ⟨3, ![3, 36, 24]⟩
abbrev S36x24 : Shape := ⟨2, ![36, 24]⟩
abbrev S24 : Shape := ⟨1, ![24]⟩
abbrev S3x24x16 : Shape := ⟨3, ![3, 24, 16]⟩
abbrev S24x16 : Shape := ⟨2, ![24, 16]⟩
abbrev S16 : Shape := ⟨1, ![16]⟩
abbrev S3x16x8 : Shape := ⟨3, ![3, 16, 8]⟩
abbrev S16x8 : Shape := ⟨2, ![16, 8]⟩
abbrev S8 : Shape := ⟨1, ![8]⟩
abbrev S3x8x4 : Shape := ⟨3, ![3, 8, 4]⟩
abbrev S8x4 : Shape := ⟨2, ![8, 4]⟩
abbrev S4 : Shape := ⟨1, ![4]⟩
abbrev S4x2 : Shape := ⟨2, ![4, 2]⟩
abbrev S2 : Shape := ⟨1, ![2]⟩
abbrev S1x2000000 : Shape := ⟨2, ![1, 2000000]⟩
abbrev S1000000x1 : Shape := ⟨2, ![1000000, 1]⟩
abbrev S_ : Shape := ⟨0, ![]⟩
abbrev S1003520x1 : Shape := ⟨2, ![1003520, 1]⟩
abbrev S1003520x36 : Shape := ⟨2, ![1003520, 36]⟩
abbrev S4096x1 : Shape := ⟨2, ![4096, 1]⟩
abbrev S4096x36 : Shape := ⟨2, ![4096, 36]⟩
abbrev S4096x15 : Shape := ⟨2, ![4096, 15]⟩
abbrev S4096x4 : Shape := ⟨2, ![4096, 4]⟩
abbrev S4096x202 : Shape := ⟨2, ![4096, 202]⟩
abbrev S4096x32 : Shape := ⟨2, ![4096, 32]⟩
abbrev S1000000x36 : Shape := ⟨2, ![1000000, 36]⟩
abbrev S1x36x24 : Shape := ⟨3, ![1, 36, 24]⟩
abbrev S36x96 : Shape := ⟨2, ![36, 96]⟩
abbrev S72 : Shape := ⟨1, ![72]⟩
abbrev S96 : Shape := ⟨1, ![96]⟩
abbrev S1007616x36 : Shape := ⟨2, ![1007616, 36]⟩
abbrev S1007616x96 : Shape := ⟨2, ![1007616, 96]⟩
abbrev S8192x36 : Shape := ⟨2, ![8192, 36]⟩
abbrev S8192x96 : Shape := ⟨2, ![8192, 96]⟩
abbrev S1x96 : Shape := ⟨2, ![1, 96]⟩
abbrev S1000000x96 : Shape := ⟨2, ![1000000, 96]⟩
abbrev S1000000x24 : Shape := ⟨2, ![1000000, 24]⟩
abbrev S2000000x1 : Shape := ⟨2, ![2000000, 1]⟩
abbrev S2000000x24 : Shape := ⟨2, ![2000000, 24]⟩
abbrev S1x24x16 : Shape := ⟨3, ![1, 24, 16]⟩
abbrev S24x64 : Shape := ⟨2, ![24, 64]⟩
abbrev S48 : Shape := ⟨1, ![48]⟩
abbrev S64 : Shape := ⟨1, ![64]⟩
abbrev S1007616x24 : Shape := ⟨2, ![1007616, 24]⟩
abbrev S1007616x64 : Shape := ⟨2, ![1007616, 64]⟩
abbrev S8192x24 : Shape := ⟨2, ![8192, 24]⟩
abbrev S8192x64 : Shape := ⟨2, ![8192, 64]⟩
abbrev S1x64 : Shape := ⟨2, ![1, 64]⟩
abbrev S1000000x64 : Shape := ⟨2, ![1000000, 64]⟩
abbrev S1000000x16 : Shape := ⟨2, ![1000000, 16]⟩
abbrev S2000000x16 : Shape := ⟨2, ![2000000, 16]⟩
abbrev S1x16x8 : Shape := ⟨3, ![1, 16, 8]⟩
abbrev S16x32 : Shape := ⟨2, ![16, 32]⟩
abbrev S32 : Shape := ⟨1, ![32]⟩
abbrev S1007616x16 : Shape := ⟨2, ![1007616, 16]⟩
abbrev S1007616x32 : Shape := ⟨2, ![1007616, 32]⟩
abbrev S8192x16 : Shape := ⟨2, ![8192, 16]⟩
abbrev S8192x32 : Shape := ⟨2, ![8192, 32]⟩
abbrev S1x32 : Shape := ⟨2, ![1, 32]⟩
abbrev S1000000x32 : Shape := ⟨2, ![1000000, 32]⟩
abbrev S1000000x8 : Shape := ⟨2, ![1000000, 8]⟩
abbrev S2000000x8 : Shape := ⟨2, ![2000000, 8]⟩
abbrev S1x8x4 : Shape := ⟨3, ![1, 8, 4]⟩
abbrev S8x16 : Shape := ⟨2, ![8, 16]⟩
abbrev S12 : Shape := ⟨1, ![12]⟩
abbrev S1007616x8 : Shape := ⟨2, ![1007616, 8]⟩
abbrev S8192x8 : Shape := ⟨2, ![8192, 8]⟩
abbrev S1x16 : Shape := ⟨2, ![1, 16]⟩
abbrev S1000000x4 : Shape := ⟨2, ![1000000, 4]⟩
abbrev S2000000x4 : Shape := ⟨2, ![2000000, 4]⟩
abbrev S1007616x4 : Shape := ⟨2, ![1007616, 4]⟩
abbrev S1007616x2 : Shape := ⟨2, ![1007616, 2]⟩
abbrev S8192x4 : Shape := ⟨2, ![8192, 4]⟩
abbrev S8192x2 : Shape := ⟨2, ![8192, 2]⟩
abbrev S1x2 : Shape := ⟨2, ![1, 2]⟩
abbrev S1000000x2 : Shape := ⟨2, ![1000000, 2]⟩

abbrev nBuf : Space → Nat
  | .hbm => 487
  | .vmem => 38
  | .smem => 0
  | _ => 0

abbrev hbmTy0_0 (i : Nat) : BufTy := match i % 128 with
  | 0 => ⟨S1000000, .i32⟩
  | 1 => ⟨S1000000, .i32⟩
  | 2 => ⟨S2x2000000, .i32⟩
  | 3 => ⟨S2000000, .i32⟩
  | 4 => ⟨S15x4, .f32⟩
  | 5 => ⟨S202x32, .f32⟩
  | 6 => ⟨S3x36x24, .f32⟩
  | 7 => ⟨S36x24, .f32⟩
  | 8 => ⟨S24, .f32⟩
  | 9 => ⟨S3x24x16, .f32⟩
  | 10 => ⟨S24x16, .f32⟩
  | 11 => ⟨S16, .f32⟩
  | 12 => ⟨S3x16x8, .f32⟩
  | 13 => ⟨S16x8, .f32⟩
  | 14 => ⟨S8, .f32⟩
  | 15 => ⟨S3x8x4, .f32⟩
  | 16 => ⟨S8x4, .f32⟩
  | 17 => ⟨S4, .f32⟩
  | 18 => ⟨S4x2, .f32⟩
  | 19 => ⟨S2, .f32⟩
  | 20 => ⟨S1x2000000, .i32⟩
  | 21 => ⟨S2000000, .i32⟩
  | 22 => ⟨S1x2000000, .i32⟩
  | 23 => ⟨S2000000, .i32⟩
  | 24 => ⟨S1000000x1, .i32⟩
  | 25 => ⟨S_, .i32⟩
  | 26 => ⟨S_, .i32⟩
  | 27 => ⟨S1003520x1, .i32⟩
  | 28 => ⟨S1000000x1, .i32⟩
  | 29 => ⟨S_, .i32⟩
  | 30 => ⟨S_, .i32⟩
  | 31 => ⟨S1003520x1, .i32⟩
  | 32 => ⟨S1003520x36, .f32⟩
  | 33 => ⟨S1000000x36, .f32⟩
  | 34 => ⟨S1x36x24, .f32⟩
  | 35 => ⟨S36x24, .f32⟩
  | 36 => ⟨S1x36x24, .f32⟩
  | 37 => ⟨S36x24, .f32⟩
  | 38 => ⟨S1x36x24, .f32⟩
  | 39 => ⟨S36x24, .f32⟩
  | 40 => ⟨S36x96, .f32⟩
  | 41 => ⟨S_, .f32⟩
  | 42 => ⟨S72, .f32⟩
  | 43 => ⟨S96, .f32⟩
  | 44 => ⟨S_, .i32⟩
  | 45 => ⟨S_, .f32⟩
  | 46 => ⟨S1007616x36, .f32⟩
  | 47 => ⟨S1007616x96, .f32⟩
  | 48 => ⟨S1000000x96, .f32⟩
  | 49 => ⟨S1000000x24, .f32⟩
  | 50 => ⟨S_, .i32⟩
  | 51 => ⟨S2000000, .i32⟩
  | 52 => ⟨S2000000, .i1⟩
  | 53 => ⟨S2000000, .f32⟩
  | 54 => ⟨S1000000x24, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x24, .f32⟩
  | 64 => ⟨S2000000x1, .f32⟩
  | 65 => ⟨S2000000x24, .f32⟩
  | 66 => ⟨S2000000x24, .f32⟩
  | 67 => ⟨S_, .f32⟩
  | 68 => ⟨S1000000x24, .f32⟩
  | 69 => ⟨S2000000x1, .i32⟩
  | 70 => ⟨S1000000x24, .f32⟩
  | 71 => ⟨S_, .f32⟩
  | 72 => ⟨S1000000, .f32⟩
  | 73 => ⟨S2000000x1, .i32⟩
  | 74 => ⟨S1000000, .f32⟩
  | 75 => ⟨S_, .f32⟩
  | 76 => ⟨S1000000, .f32⟩
  | 77 => ⟨S1000000, .f32⟩
  | 78 => ⟨S1000000x1, .f32⟩
  | 79 => ⟨S1000000x24, .f32⟩
  | 80 => ⟨S1000000x24, .f32⟩
  | 81 => ⟨S1000000x24, .f32⟩
  | 82 => ⟨S_, .i32⟩
  | 83 => ⟨S2000000, .i32⟩
  | 84 => ⟨S2000000, .i1⟩
  | 85 => ⟨S2000000, .f32⟩
  | 86 => ⟨S1000000x24, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x24, .f32⟩
  | 96 => ⟨S2000000x1, .f32⟩
  | 97 => ⟨S2000000x24, .f32⟩
  | 98 => ⟨S2000000x24, .f32⟩
  | 99 => ⟨S_, .f32⟩
  | 100 => ⟨S1000000x24, .f32⟩
  | 101 => ⟨S2000000x1, .i32⟩
  | 102 => ⟨S1000000x24, .f32⟩
  | 103 => ⟨S_, .f32⟩
  | 104 => ⟨S1000000, .f32⟩
  | 105 => ⟨S2000000x1, .i32⟩
  | 106 => ⟨S1000000, .f32⟩
  | 107 => ⟨S_, .f32⟩
  | 108 => ⟨S1000000, .f32⟩
  | 109 => ⟨S1000000, .f32⟩
  | 110 => ⟨S1000000x1, .f32⟩
  | 111 => ⟨S1000000x24, .f32⟩
  | 112 => ⟨S1000000x24, .f32⟩
  | 113 => ⟨S1000000x24, .f32⟩
  | 114 => ⟨S_, .i32⟩
  | 115 => ⟨S2000000, .i32⟩
  | 116 => ⟨S2000000, .i1⟩
  | 117 => ⟨S2000000, .f32⟩
  | 118 => ⟨S1000000x24, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x24, .f32⟩
  | _ => ⟨S1000000, .i32⟩

abbrev hbmTy0_1 (i : Nat) : BufTy := match i % 128 with
  | 0 => ⟨S2000000x1, .f32⟩
  | 1 => ⟨S2000000x24, .f32⟩
  | 2 => ⟨S2000000x24, .f32⟩
  | 3 => ⟨S_, .f32⟩
  | 4 => ⟨S1000000x24, .f32⟩
  | 5 => ⟨S2000000x1, .i32⟩
  | 6 => ⟨S1000000x24, .f32⟩
  | 7 => ⟨S_, .f32⟩
  | 8 => ⟨S1000000, .f32⟩
  | 9 => ⟨S2000000x1, .i32⟩
  | 10 => ⟨S1000000, .f32⟩
  | 11 => ⟨S_, .f32⟩
  | 12 => ⟨S1000000, .f32⟩
  | 13 => ⟨S1000000, .f32⟩
  | 14 => ⟨S1000000x1, .f32⟩
  | 15 => ⟨S1000000x24, .f32⟩
  | 16 => ⟨S1000000x24, .f32⟩
  | 17 => ⟨S1000000x24, .f32⟩
  | 18 => ⟨S1x24x16, .f32⟩
  | 19 => ⟨S24x16, .f32⟩
  | 20 => ⟨S1x24x16, .f32⟩
  | 21 => ⟨S24x16, .f32⟩
  | 22 => ⟨S1x24x16, .f32⟩
  | 23 => ⟨S24x16, .f32⟩
  | 24 => ⟨S24x64, .f32⟩
  | 25 => ⟨S_, .f32⟩
  | 26 => ⟨S48, .f32⟩
  | 27 => ⟨S64, .f32⟩
  | 28 => ⟨S_, .i32⟩
  | 29 => ⟨S_, .f32⟩
  | 30 => ⟨S1007616x24, .f32⟩
  | 31 => ⟨S1007616x64, .f32⟩
  | 32 => ⟨S1000000x64, .f32⟩
  | 33 => ⟨S1000000x16, .f32⟩
  | 34 => ⟨S_, .i32⟩
  | 35 => ⟨S2000000, .i32⟩
  | 36 => ⟨S2000000, .i1⟩
  | 37 => ⟨S2000000, .f32⟩
  | 38 => ⟨S1000000x16, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x16, .f32⟩
  | 48 => ⟨S2000000x1, .f32⟩
  | 49 => ⟨S2000000x16, .f32⟩
  | 50 => ⟨S2000000x16, .f32⟩
  | 51 => ⟨S_, .f32⟩
  | 52 => ⟨S1000000x16, .f32⟩
  | 53 => ⟨S2000000x1, .i32⟩
  | 54 => ⟨S1000000x16, .f32⟩
  | 55 => ⟨S_, .f32⟩
  | 56 => ⟨S1000000, .f32⟩
  | 57 => ⟨S2000000x1, .i32⟩
  | 58 => ⟨S1000000, .f32⟩
  | 59 => ⟨S_, .f32⟩
  | 60 => ⟨S1000000, .f32⟩
  | 61 => ⟨S1000000, .f32⟩
  | 62 => ⟨S1000000x1, .f32⟩
  | 63 => ⟨S1000000x16, .f32⟩
  | 64 => ⟨S1000000x16, .f32⟩
  | 65 => ⟨S1000000x16, .f32⟩
  | 66 => ⟨S_, .i32⟩
  | 67 => ⟨S2000000, .i32⟩
  | 68 => ⟨S2000000, .i1⟩
  | 69 => ⟨S2000000, .f32⟩
  | 70 => ⟨S1000000x16, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x16, .f32⟩
  | 80 => ⟨S2000000x1, .f32⟩
  | 81 => ⟨S2000000x16, .f32⟩
  | 82 => ⟨S2000000x16, .f32⟩
  | 83 => ⟨S_, .f32⟩
  | 84 => ⟨S1000000x16, .f32⟩
  | 85 => ⟨S2000000x1, .i32⟩
  | 86 => ⟨S1000000x16, .f32⟩
  | 87 => ⟨S_, .f32⟩
  | 88 => ⟨S1000000, .f32⟩
  | 89 => ⟨S2000000x1, .i32⟩
  | 90 => ⟨S1000000, .f32⟩
  | 91 => ⟨S_, .f32⟩
  | 92 => ⟨S1000000, .f32⟩
  | 93 => ⟨S1000000, .f32⟩
  | 94 => ⟨S1000000x1, .f32⟩
  | 95 => ⟨S1000000x16, .f32⟩
  | 96 => ⟨S1000000x16, .f32⟩
  | 97 => ⟨S1000000x16, .f32⟩
  | 98 => ⟨S_, .i32⟩
  | 99 => ⟨S2000000, .i32⟩
  | 100 => ⟨S2000000, .i1⟩
  | 101 => ⟨S2000000, .f32⟩
  | 102 => ⟨S1000000x16, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x16, .f32⟩
  | 112 => ⟨S2000000x1, .f32⟩
  | 113 => ⟨S2000000x16, .f32⟩
  | 114 => ⟨S2000000x16, .f32⟩
  | 115 => ⟨S_, .f32⟩
  | 116 => ⟨S1000000x16, .f32⟩
  | 117 => ⟨S2000000x1, .i32⟩
  | 118 => ⟨S1000000x16, .f32⟩
  | 119 => ⟨S_, .f32⟩
  | 120 => ⟨S1000000, .f32⟩
  | 121 => ⟨S2000000x1, .i32⟩
  | 122 => ⟨S1000000, .f32⟩
  | 123 => ⟨S_, .f32⟩
  | 124 => ⟨S1000000, .f32⟩
  | 125 => ⟨S1000000, .f32⟩
  | 126 => ⟨S1000000x1, .f32⟩
  | 127 => ⟨S1000000x16, .f32⟩
  | _ => ⟨S1000000, .i32⟩

abbrev hbmTy0_2 (i : Nat) : BufTy := match i % 128 with
  | 0 => ⟨S1000000x16, .f32⟩
  | 1 => ⟨S1000000x16, .f32⟩
  | 2 => ⟨S1x16x8, .f32⟩
  | 3 => ⟨S16x8, .f32⟩
  | 4 => ⟨S1x16x8, .f32⟩
  | 5 => ⟨S16x8, .f32⟩
  | 6 => ⟨S1x16x8, .f32⟩
  | 7 => ⟨S16x8, .f32⟩
  | 8 => ⟨S16x32, .f32⟩
  | 9 => ⟨S_, .f32⟩
  | 10 => ⟨S24, .f32⟩
  | 11 => ⟨S32, .f32⟩
  | 12 => ⟨S_, .i32⟩
  | 13 => ⟨S_, .f32⟩
  | 14 => ⟨S1007616x16, .f32⟩
  | 15 => ⟨S1007616x32, .f32⟩
  | 16 => ⟨S1000000x32, .f32⟩
  | 17 => ⟨S1000000x8, .f32⟩
  | 18 => ⟨S_, .i32⟩
  | 19 => ⟨S2000000, .i32⟩
  | 20 => ⟨S2000000, .i1⟩
  | 21 => ⟨S2000000, .f32⟩
  | 22 => ⟨S1000000x8, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x8, .f32⟩
  | 32 => ⟨S2000000x1, .f32⟩
  | 33 => ⟨S2000000x8, .f32⟩
  | 34 => ⟨S2000000x8, .f32⟩
  | 35 => ⟨S_, .f32⟩
  | 36 => ⟨S1000000x8, .f32⟩
  | 37 => ⟨S2000000x1, .i32⟩
  | 38 => ⟨S1000000x8, .f32⟩
  | 39 => ⟨S_, .f32⟩
  | 40 => ⟨S1000000, .f32⟩
  | 41 => ⟨S2000000x1, .i32⟩
  | 42 => ⟨S1000000, .f32⟩
  | 43 => ⟨S_, .f32⟩
  | 44 => ⟨S1000000, .f32⟩
  | 45 => ⟨S1000000, .f32⟩
  | 46 => ⟨S1000000x1, .f32⟩
  | 47 => ⟨S1000000x8, .f32⟩
  | 48 => ⟨S1000000x8, .f32⟩
  | 49 => ⟨S1000000x8, .f32⟩
  | 50 => ⟨S_, .i32⟩
  | 51 => ⟨S2000000, .i32⟩
  | 52 => ⟨S2000000, .i1⟩
  | 53 => ⟨S2000000, .f32⟩
  | 54 => ⟨S1000000x8, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x8, .f32⟩
  | 64 => ⟨S2000000x1, .f32⟩
  | 65 => ⟨S2000000x8, .f32⟩
  | 66 => ⟨S2000000x8, .f32⟩
  | 67 => ⟨S_, .f32⟩
  | 68 => ⟨S1000000x8, .f32⟩
  | 69 => ⟨S2000000x1, .i32⟩
  | 70 => ⟨S1000000x8, .f32⟩
  | 71 => ⟨S_, .f32⟩
  | 72 => ⟨S1000000, .f32⟩
  | 73 => ⟨S2000000x1, .i32⟩
  | 74 => ⟨S1000000, .f32⟩
  | 75 => ⟨S_, .f32⟩
  | 76 => ⟨S1000000, .f32⟩
  | 77 => ⟨S1000000, .f32⟩
  | 78 => ⟨S1000000x1, .f32⟩
  | 79 => ⟨S1000000x8, .f32⟩
  | 80 => ⟨S1000000x8, .f32⟩
  | 81 => ⟨S1000000x8, .f32⟩
  | 82 => ⟨S_, .i32⟩
  | 83 => ⟨S2000000, .i32⟩
  | 84 => ⟨S2000000, .i1⟩
  | 85 => ⟨S2000000, .f32⟩
  | 86 => ⟨S1000000x8, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x8, .f32⟩
  | 96 => ⟨S2000000x1, .f32⟩
  | 97 => ⟨S2000000x8, .f32⟩
  | 98 => ⟨S2000000x8, .f32⟩
  | 99 => ⟨S_, .f32⟩
  | 100 => ⟨S1000000x8, .f32⟩
  | 101 => ⟨S2000000x1, .i32⟩
  | 102 => ⟨S1000000x8, .f32⟩
  | 103 => ⟨S_, .f32⟩
  | 104 => ⟨S1000000, .f32⟩
  | 105 => ⟨S2000000x1, .i32⟩
  | 106 => ⟨S1000000, .f32⟩
  | 107 => ⟨S_, .f32⟩
  | 108 => ⟨S1000000, .f32⟩
  | 109 => ⟨S1000000, .f32⟩
  | 110 => ⟨S1000000x1, .f32⟩
  | 111 => ⟨S1000000x8, .f32⟩
  | 112 => ⟨S1000000x8, .f32⟩
  | 113 => ⟨S1000000x8, .f32⟩
  | 114 => ⟨S1x8x4, .f32⟩
  | 115 => ⟨S8x4, .f32⟩
  | 116 => ⟨S1x8x4, .f32⟩
  | 117 => ⟨S8x4, .f32⟩
  | 118 => ⟨S1x8x4, .f32⟩
  | 119 => ⟨S8x4, .f32⟩
  | 120 => ⟨S8x16, .f32⟩
  | 121 => ⟨S_, .f32⟩
  | 122 => ⟨S12, .f32⟩
  | 123 => ⟨S16, .f32⟩
  | 124 => ⟨S_, .i32⟩
  | 125 => ⟨S_, .f32⟩
  | 126 => ⟨S1007616x8, .f32⟩
  | 127 => ⟨S1007616x16, .f32⟩
  | _ => ⟨S1000000, .i32⟩

abbrev hbmTy0_3 (i : Nat) : BufTy := match i % 128 with
  | 0 => ⟨S1000000x16, .f32⟩
  | 1 => ⟨S1000000x4, .f32⟩
  | 2 => ⟨S_, .i32⟩
  | 3 => ⟨S2000000, .i32⟩
  | 4 => ⟨S2000000, .i1⟩
  | 5 => ⟨S2000000, .f32⟩
  | 6 => ⟨S1000000x4, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x4, .f32⟩
  | 16 => ⟨S2000000x1, .f32⟩
  | 17 => ⟨S2000000x4, .f32⟩
  | 18 => ⟨S2000000x4, .f32⟩
  | 19 => ⟨S_, .f32⟩
  | 20 => ⟨S1000000x4, .f32⟩
  | 21 => ⟨S2000000x1, .i32⟩
  | 22 => ⟨S1000000x4, .f32⟩
  | 23 => ⟨S_, .f32⟩
  | 24 => ⟨S1000000, .f32⟩
  | 25 => ⟨S2000000x1, .i32⟩
  | 26 => ⟨S1000000, .f32⟩
  | 27 => ⟨S_, .f32⟩
  | 28 => ⟨S1000000, .f32⟩
  | 29 => ⟨S1000000, .f32⟩
  | 30 => ⟨S1000000x1, .f32⟩
  | 31 => ⟨S1000000x4, .f32⟩
  | 32 => ⟨S1000000x4, .f32⟩
  | 33 => ⟨S1000000x4, .f32⟩
  | 34 => ⟨S_, .i32⟩
  | 35 => ⟨S2000000, .i32⟩
  | 36 => ⟨S2000000, .i1⟩
  | 37 => ⟨S2000000, .f32⟩
  | 38 => ⟨S1000000x4, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x4, .f32⟩
  | 48 => ⟨S2000000x1, .f32⟩
  | 49 => ⟨S2000000x4, .f32⟩
  | 50 => ⟨S2000000x4, .f32⟩
  | 51 => ⟨S_, .f32⟩
  | 52 => ⟨S1000000x4, .f32⟩
  | 53 => ⟨S2000000x1, .i32⟩
  | 54 => ⟨S1000000x4, .f32⟩
  | 55 => ⟨S_, .f32⟩
  | 56 => ⟨S1000000, .f32⟩
  | 57 => ⟨S2000000x1, .i32⟩
  | 58 => ⟨S1000000, .f32⟩
  | 59 => ⟨S_, .f32⟩
  | 60 => ⟨S1000000, .f32⟩
  | 61 => ⟨S1000000, .f32⟩
  | 62 => ⟨S1000000x1, .f32⟩
  | 63 => ⟨S1000000x4, .f32⟩
  | 64 => ⟨S1000000x4, .f32⟩
  | 65 => ⟨S1000000x4, .f32⟩
  | 66 => ⟨S_, .i32⟩
  | 67 => ⟨S2000000, .i32⟩
  | 68 => ⟨S2000000, .i1⟩
  | 69 => ⟨S2000000, .f32⟩
  | 70 => ⟨S1000000x4, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x4, .f32⟩
  | 80 => ⟨S2000000x1, .f32⟩
  | 81 => ⟨S2000000x4, .f32⟩
  | 82 => ⟨S2000000x4, .f32⟩
  | 83 => ⟨S_, .f32⟩
  | 84 => ⟨S1000000x4, .f32⟩
  | 85 => ⟨S2000000x1, .i32⟩
  | 86 => ⟨S1000000x4, .f32⟩
  | 87 => ⟨S_, .f32⟩
  | 88 => ⟨S1000000, .f32⟩
  | 89 => ⟨S2000000x1, .i32⟩
  | 90 => ⟨S1000000, .f32⟩
  | 91 => ⟨S_, .f32⟩
  | 92 => ⟨S1000000, .f32⟩
  | 93 => ⟨S1000000, .f32⟩
  | 94 => ⟨S1000000x1, .f32⟩
  | 95 => ⟨S1000000x4, .f32⟩
  | 96 => ⟨S1000000x4, .f32⟩
  | 97 => ⟨S1000000x4, .f32⟩
  | 98 => ⟨S_, .i32⟩
  | 99 => ⟨S_, .f32⟩
  | 100 => ⟨S1007616x4, .f32⟩
  | 101 => ⟨S1007616x2, .f32⟩
  | 102 => ⟨S1000000x2, .f32⟩
  | _ => ⟨S1000000, .i32⟩

abbrev hbmTy (i : Nat) : BufTy := match i / 128 with
  | 0 => hbmTy0_0 i
  | 1 => hbmTy0_1 i
  | 2 => hbmTy0_2 i
  | 3 => hbmTy0_3 i
  | _ => ⟨S1000000, .i32⟩

abbrev bufTy : (tb : Table) → Fin (tcTables nBuf tb) → BufTy
  | .hbm, ⟨i, _⟩ => hbmTy i
  | .local _ .vmem, ⟨0, _⟩ => ⟨S4096x1, .i32⟩
  | .local _ .vmem, ⟨1, _⟩ => ⟨S4096x1, .i32⟩
  | .local _ .vmem, ⟨2, _⟩ => ⟨S4096x1, .i32⟩
  | .local _ .vmem, ⟨3, _⟩ => ⟨S4096x1, .i32⟩
  | .local _ .vmem, ⟨4, _⟩ => ⟨S15x4, .f32⟩
  | .local _ .vmem, ⟨5, _⟩ => ⟨S202x32, .f32⟩
  | .local _ .vmem, ⟨6, _⟩ => ⟨S4096x36, .f32⟩
  | .local _ .vmem, ⟨7, _⟩ => ⟨S4096x36, .f32⟩
  | .local _ .vmem, ⟨8, _⟩ => ⟨S8192x36, .f32⟩
  | .local _ .vmem, ⟨9, _⟩ => ⟨S8192x36, .f32⟩
  | .local _ .vmem, ⟨10, _⟩ => ⟨S36x96, .f32⟩
  | .local _ .vmem, ⟨11, _⟩ => ⟨S96, .f32⟩
  | .local _ .vmem, ⟨12, _⟩ => ⟨S8192x96, .f32⟩
  | .local _ .vmem, ⟨13, _⟩ => ⟨S8192x96, .f32⟩
  | .local _ .vmem, ⟨14, _⟩ => ⟨S8192x24, .f32⟩
  | .local _ .vmem, ⟨15, _⟩ => ⟨S8192x24, .f32⟩
  | .local _ .vmem, ⟨16, _⟩ => ⟨S24x64, .f32⟩
  | .local _ .vmem, ⟨17, _⟩ => ⟨S64, .f32⟩
  | .local _ .vmem, ⟨18, _⟩ => ⟨S8192x64, .f32⟩
  | .local _ .vmem, ⟨19, _⟩ => ⟨S8192x64, .f32⟩
  | .local _ .vmem, ⟨20, _⟩ => ⟨S8192x16, .f32⟩
  | .local _ .vmem, ⟨21, _⟩ => ⟨S8192x16, .f32⟩
  | .local _ .vmem, ⟨22, _⟩ => ⟨S16x32, .f32⟩
  | .local _ .vmem, ⟨23, _⟩ => ⟨S32, .f32⟩
  | .local _ .vmem, ⟨24, _⟩ => ⟨S8192x32, .f32⟩
  | .local _ .vmem, ⟨25, _⟩ => ⟨S8192x32, .f32⟩
  | .local _ .vmem, ⟨26, _⟩ => ⟨S8192x8, .f32⟩
  | .local _ .vmem, ⟨27, _⟩ => ⟨S8192x8, .f32⟩
  | .local _ .vmem, ⟨28, _⟩ => ⟨S8x16, .f32⟩
  | .local _ .vmem, ⟨29, _⟩ => ⟨S16, .f32⟩
  | .local _ .vmem, ⟨30, _⟩ => ⟨S8192x16, .f32⟩
  | .local _ .vmem, ⟨31, _⟩ => ⟨S8192x16, .f32⟩
  | .local _ .vmem, ⟨32, _⟩ => ⟨S8192x4, .f32⟩
  | .local _ .vmem, ⟨33, _⟩ => ⟨S8192x4, .f32⟩
  | .local _ .vmem, ⟨34, _⟩ => ⟨S4x2, .f32⟩
  | .local _ .vmem, ⟨35, _⟩ => ⟨S2, .f32⟩
  | .local _ .vmem, ⟨36, _⟩ => ⟨S8192x2, .f32⟩
  | .local _ .vmem, ⟨37, _⟩ => ⟨S8192x2, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_c_1 : Ref sig .tc := ⟨.hbm, 44, rfl⟩
abbrev main_call2_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_3 : Ref sig .tc := ⟨.hbm, 55, rfl⟩
abbrev main_v27 : Ref sig .tc := ⟨.hbm, 56, rfl⟩
abbrev main_v28 : Ref sig .tc := ⟨.hbm, 57, rfl⟩
abbrev main_c_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_15 : Ref sig .tc := ⟨.hbm, 119, rfl⟩
abbrev main_v79 : Ref sig .tc := ⟨.hbm, 120, rfl⟩
abbrev main_v80 : Ref sig .tc := ⟨.hbm, 121, rfl⟩
abbrev main_c_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_18 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_c_21 : Ref sig .tc := ⟨.hbm, 156, rfl⟩
abbrev main_call3_v0 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_22 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_23 : Ref sig .tc := ⟨.hbm, 167, rfl⟩
abbrev main_v118 : Ref sig .tc := ⟨.hbm, 168, rfl⟩
abbrev main_v119 : Ref sig .tc := ⟨.hbm, 169, rfl⟩
abbrev main_c_24 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_25 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_26 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_27 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_c_28 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_29 : Ref sig .tc := ⟨.hbm, 199, rfl⟩
abbrev main_v144 : Ref sig .tc := ⟨.hbm, 200, rfl⟩
abbrev main_v145 : Ref sig .tc := ⟨.hbm, 201, rfl⟩
abbrev main_c_30 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_31 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_32 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_33 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_c_34 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_c_35 : Ref sig .tc := ⟨.hbm, 231, rfl⟩
abbrev main_v170 : Ref sig .tc := ⟨.hbm, 232, rfl⟩
abbrev main_v171 : Ref sig .tc := ⟨.hbm, 233, rfl⟩
abbrev main_c_36 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_37 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_38 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_39 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_cst_40 : Ref sig .tc := ⟨.hbm, 265, rfl⟩
abbrev main_v199 : Ref sig .tc := ⟨.hbm, 266, rfl⟩
abbrev main_v200 : Ref sig .tc := ⟨.hbm, 267, rfl⟩
abbrev main_c_41 : Ref sig .tc := ⟨.hbm, 268, rfl⟩
abbrev main_call4_v0 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_c_42 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_c_43 : Ref sig .tc := ⟨.hbm, 279, rfl⟩
abbrev main_v209 : Ref sig .tc := ⟨.hbm, 280, rfl⟩
abbrev main_v210 : Ref sig .tc := ⟨.hbm, 281, rfl⟩
abbrev main_c_44 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_cst_45 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_cst_46 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_cst_47 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_c_48 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_c_49 : Ref sig .tc := ⟨.hbm, 311, rfl⟩
abbrev main_v235 : Ref sig .tc := ⟨.hbm, 312, rfl⟩
abbrev main_v236 : Ref sig .tc := ⟨.hbm, 313, rfl⟩
abbrev main_c_50 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_cst_51 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_cst_52 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_cst_53 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_c_54 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_c_55 : Ref sig .tc := ⟨.hbm, 343, rfl⟩
abbrev main_v261 : Ref sig .tc := ⟨.hbm, 344, rfl⟩
abbrev main_v262 : Ref sig .tc := ⟨.hbm, 345, rfl⟩
abbrev main_c_56 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_cst_57 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_cst_58 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_cst_59 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_cst_60 : Ref sig .tc := ⟨.hbm, 377, rfl⟩
abbrev main_v290 : Ref sig .tc := ⟨.hbm, 378, rfl⟩
abbrev main_v291 : Ref sig .tc := ⟨.hbm, 379, rfl⟩
abbrev main_c_61 : Ref sig .tc := ⟨.hbm, 380, rfl⟩
abbrev main_call5_v0 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_c_62 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_c_63 : Ref sig .tc := ⟨.hbm, 391, rfl⟩
abbrev main_v300 : Ref sig .tc := ⟨.hbm, 392, rfl⟩
abbrev main_v301 : Ref sig .tc := ⟨.hbm, 393, rfl⟩
abbrev main_c_64 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_cst_65 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_cst_66 : Ref sig .tc := ⟨.hbm, 407, rfl⟩
abbrev main_v313 : Ref sig .tc := ⟨.hbm, 408, rfl⟩
abbrev main_v314 : Ref sig .tc := ⟨.hbm, 409, rfl⟩
abbrev main_v315 : Ref sig .tc := ⟨.hbm, 410, rfl⟩
abbrev main_cst_67 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_c_68 : Ref sig .tc := ⟨.hbm, 418, rfl⟩
abbrev main_v322 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_c_69 : Ref sig .tc := ⟨.hbm, 423, rfl⟩
abbrev main_v326 : Ref sig .tc := ⟨.hbm, 424, rfl⟩
abbrev main_v327 : Ref sig .tc := ⟨.hbm, 425, rfl⟩
abbrev main_c_70 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_cst_71 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_cst_72 : Ref sig .tc := ⟨.hbm, 439, rfl⟩
abbrev main_v339 : Ref sig .tc := ⟨.hbm, 440, rfl⟩
abbrev main_v340 : Ref sig .tc := ⟨.hbm, 441, rfl⟩
abbrev main_v341 : Ref sig .tc := ⟨.hbm, 442, rfl⟩
abbrev main_cst_73 : Ref sig .tc := ⟨.hbm, 443, rfl⟩
abbrev main_v342 : Ref sig .tc := ⟨.hbm, 444, rfl⟩
abbrev main_v343 : Ref sig .tc := ⟨.hbm, 445, rfl⟩
abbrev main_v344 : Ref sig .tc := ⟨.hbm, 446, rfl⟩
abbrev main_v345 : Ref sig .tc := ⟨.hbm, 447, rfl⟩
abbrev main_v346 : Ref sig .tc := ⟨.hbm, 448, rfl⟩
abbrev main_v347 : Ref sig .tc := ⟨.hbm, 449, rfl⟩
abbrev main_c_74 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_v351 : Ref sig .tc := ⟨.hbm, 454, rfl⟩
abbrev main_c_75 : Ref sig .tc := ⟨.hbm, 455, rfl⟩
abbrev main_v352 : Ref sig .tc := ⟨.hbm, 456, rfl⟩
abbrev main_v353 : Ref sig .tc := ⟨.hbm, 457, rfl⟩
abbrev main_c_76 : Ref sig .tc := ⟨.hbm, 458, rfl⟩
abbrev main_v354 : Ref sig .tc := ⟨.hbm, 459, rfl⟩
abbrev main_v355 : Ref sig .tc := ⟨.hbm, 460, rfl⟩
abbrev main_v356 : Ref sig .tc := ⟨.hbm, 461, rfl⟩
abbrev main_v357 : Ref sig .tc := ⟨.hbm, 462, rfl⟩
abbrev main_v358 : Ref sig .tc := ⟨.hbm, 463, rfl⟩
abbrev main_v359 : Ref sig .tc := ⟨.hbm, 464, rfl⟩
abbrev main_v360 : Ref sig .tc := ⟨.hbm, 465, rfl⟩
abbrev main_v361 : Ref sig .tc := ⟨.hbm, 466, rfl⟩
abbrev main_cst_77 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_cst_78 : Ref sig .tc := ⟨.hbm, 471, rfl⟩
abbrev main_v365 : Ref sig .tc := ⟨.hbm, 472, rfl⟩
abbrev main_v366 : Ref sig .tc := ⟨.hbm, 473, rfl⟩
abbrev main_v367 : Ref sig .tc := ⟨.hbm, 474, rfl⟩
abbrev main_cst_79 : Ref sig .tc := ⟨.hbm, 475, rfl⟩
abbrev main_v368 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_v373 : Ref sig .tc := ⟨.hbm, 481, rfl⟩
abbrev main_c_80 : Ref sig .tc := ⟨.hbm, 482, rfl⟩
abbrev main_call6_v0 : Ref sig .tc := ⟨.hbm, 483, rfl⟩
abbrev main_v374 : Ref sig .tc := ⟨.hbm, 484, rfl⟩
abbrev main_v375 : Ref sig .tc := ⟨.hbm, 485, rfl⟩
abbrev main_v376 : Ref sig .tc := ⟨.hbm, 486, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S202x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x36 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S36x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S24x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![123], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![123], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![123], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x4 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8192x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S1000000_S1000000x1 : S1000000.ShapeCasts S1000000x1
  pads_S1000000x1_S1003520x1_035200_000 : S1000000x1.Pads (![0, 0] : Fin 2 → Nat) ![3520, 0] ![0, 0] S1003520x1
  h_S_ : 0 < S_.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x15_d1_w32 : S4096x15.Iotas .tc 32 [1]
  broadcasts_S4096x1_S4096x15 : S4096x1.Broadcasts S4096x15
  natLt_1_32 : 1 < 32
  bitsLt_bf16_f32 : FTy.bits .bf16 < FTy.bits .f32
  inb_S15x4_S15x4_0_0 : ∀ a, (![0, 0] : Fin 2 → Nat) a + S15x4.size a ≤ S15x4.size a
  h_S15x4 : 0 < S15x4.numel
  iota_S4096x202_d1_w32 : S4096x202.Iotas .tc 32 [1]
  broadcasts_S4096x1_S4096x202 : S4096x1.Broadcasts S4096x202
  inb_S202x32_S202x32_0_0 : ∀ a, (![0, 0] : Fin 2 → Nat) a + S202x32.size a ≤ S202x32.size a
  h_S202x32 : 0 < S202x32.numel
  concatenates_S4096x4_S4096x32_S4096x36_d1 : Shape.Concatenates [S4096x4, S4096x32] S4096x36 1
  inb_S4096x36_S4096x36_0_0 : ∀ a, (![0, 0] : Fin 2 → Nat) a + S4096x36.size a ≤ S4096x36.size a
  h_S4096x36 : 0 < S4096x36.numel
  slices_S1003520x36_S1000000x36_0_0 : S1003520x36.Slices ![0, 0] S1000000x36
  slices_S3x36x24_S1x36x24_0_0_0 : S3x36x24.Slices ![0, 0, 0] S1x36x24
  shapeCasts_S1x36x24_S36x24 : S1x36x24.ShapeCasts S36x24
  slices_S3x36x24_S1x36x24_1_0_0 : S3x36x24.Slices ![1, 0, 0] S1x36x24
  slices_S3x36x24_S1x36x24_2_0_0 : S3x36x24.Slices ![2, 0, 0] S1x36x24
  concatenates_S36x24_S36x24_S36x24_S36x24_S36x96_d1 : Shape.Concatenates [S36x24, S36x24, S36x24, S36x24] S36x96 1
  bcast_S_S72 : S_.BroadcastsInDim S72 (![] : Fin 0 → Fin S72.rank)
  concatenates_S24_S72_S96_d0 : Shape.Concatenates [S24, S72] S96 0
  pads_S1000000x36_S1007616x36_076160_000 : S1000000x36.Pads (![0, 0] : Fin 2 → Nat) ![7616, 0] ![0, 0] S1007616x36
  inb_S8192x36_S8192x36_0_0 : ∀ a, (![0, 0] : Fin 2 → Nat) a + S8192x36.size a ≤ S8192x36.size a
  h_S8192x36 : 0 < S8192x36.numel
  shapeCasts_S8192x36_S8192x36 : S8192x36.ShapeCasts S8192x36
  inb_S36x96_S36x96_0_0 : ∀ a, (![0, 0] : Fin 2 → Nat) a + S36x96.size a ≤ S36x96.size a
  h_S36x96 : 0 < S36x96.numel
  shapeCasts_S36x96_S36x96 : S36x96.ShapeCasts S36x96
  inb_S96_S96_0 : ∀ a, (![0] : Fin 1 → Nat) a + S96.size a ≤ S96.size a
  h_S96 : 0 < S96.numel
  shapeCasts_S96_S96 : S96.ShapeCasts S96
  shapeCasts_S96_S1x96 : S96.ShapeCasts S1x96
  broadcasts_S1x96_S8192x96 : S1x96.Broadcasts S8192x96
  inb_S8192x96_S8192x96_0_0 : ∀ a, (![0, 0] : Fin 2 → Nat) a + S8192x96.size a ≤ S8192x96.size a
  h_S8192x96 : 0 < S8192x96.numel
  slices_S1007616x96_S1000000x96_0_0 : S1007616x96.Slices ![0, 0] S1000000x96
  slices_S1000000x96_S1000000x24_0_0 : S1000000x96.Slices ![0, 0] S1000000x24
  bcast_S_S2000000 : S_.BroadcastsInDim S2000000 (![] : Fin 0 → Fin S2000000.rank)
  slices_S1000000x96_S1000000x24_0_24 : S1000000x96.Slices ![0, 24] S1000000x24
  bcast_S2000000_S2000000x1_0 : S2000000.BroadcastsInDim S2000000x1 (![0] : Fin 1 → Fin S2000000x1.rank)
  bcast_S2000000x1_S2000000x24_0_1 : S2000000x1.BroadcastsInDim S2000000x24 (![0, 1] : Fin 2 → Fin S2000000x24.rank)
  bcast_S_S1000000x24 : S_.BroadcastsInDim S1000000x24 (![] : Fin 0 → Fin S1000000x24.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x24_0_1 : S1000000x1.BroadcastsInDim S1000000x24 (![0, 1] : Fin 2 → Fin S1000000x24.rank)
  slices_S1000000x96_S1000000x24_0_48 : S1000000x96.Slices ![0, 48] S1000000x24
  slices_S1000000x96_S1000000x24_0_72 : S1000000x96.Slices ![0, 72] S1000000x24
  slices_S3x24x16_S1x24x16_0_0_0 : S3x24x16.Slices ![0, 0, 0] S1x24x16
  shapeCasts_S1x24x16_S24x16 : S1x24x16.ShapeCasts S24x16
  slices_S3x24x16_S1x24x16_1_0_0 : S3x24x16.Slices ![1, 0, 0] S1x24x16
  slices_S3x24x16_S1x24x16_2_0_0 : S3x24x16.Slices ![2, 0, 0] S1x24x16
  concatenates_S24x16_S24x16_S24x16_S24x16_S24x64_d1 : Shape.Concatenates [S24x16, S24x16, S24x16, S24x16] S24x64 1
  bcast_S_S48 : S_.BroadcastsInDim S48 (![] : Fin 0 → Fin S48.rank)
  concatenates_S16_S48_S64_d0 : Shape.Concatenates [S16, S48] S64 0
  pads_S1000000x24_S1007616x24_076160_000 : S1000000x24.Pads (![0, 0] : Fin 2 → Nat) ![7616, 0] ![0, 0] S1007616x24
  inb_S8192x24_S8192x24_0_0 : ∀ a, (![0, 0] : Fin 2 → Nat) a + S8192x24.size a ≤ S8192x24.size a
  h_S8192x24 : 0 < S8192x24.numel
  shapeCasts_S8192x24_S8192x24 : S8192x24.ShapeCasts S8192x24
  inb_S24x64_S24x64_0_0 : ∀ a, (![0, 0] : Fin 2 → Nat) a + S24x64.size a ≤ S24x64.size a
  h_S24x64 : 0 < S24x64.numel
  shapeCasts_S24x64_S24x64 : S24x64.ShapeCasts S24x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  slices_S1007616x64_S1000000x64_0_0 : S1007616x64.Slices ![0, 0] S1000000x64
  slices_S1000000x64_S1000000x16_0_0 : S1000000x64.Slices ![0, 0] S1000000x16
  slices_S1000000x64_S1000000x16_0_16 : S1000000x64.Slices ![0, 16] S1000000x16
  bcast_S2000000x1_S2000000x16_0_1 : S2000000x1.BroadcastsInDim S2000000x16 (![0, 1] : Fin 2 → Fin S2000000x16.rank)
  bcast_S_S1000000x16 : S_.BroadcastsInDim S1000000x16 (![] : Fin 0 → Fin S1000000x16.rank)
  bcast_S1000000x1_S1000000x16_0_1 : S1000000x1.BroadcastsInDim S1000000x16 (![0, 1] : Fin 2 → Fin S1000000x16.rank)
  slices_S1000000x64_S1000000x16_0_32 : S1000000x64.Slices ![0, 32] S1000000x16
  slices_S1000000x64_S1000000x16_0_48 : S1000000x64.Slices ![0, 48] S1000000x16
  slices_S3x16x8_S1x16x8_0_0_0 : S3x16x8.Slices ![0, 0, 0] S1x16x8
  shapeCasts_S1x16x8_S16x8 : S1x16x8.ShapeCasts S16x8
  slices_S3x16x8_S1x16x8_1_0_0 : S3x16x8.Slices ![1, 0, 0] S1x16x8
  slices_S3x16x8_S1x16x8_2_0_0 : S3x16x8.Slices ![2, 0, 0] S1x16x8
  concatenates_S16x8_S16x8_S16x8_S16x8_S16x32_d1 : Shape.Concatenates [S16x8, S16x8, S16x8, S16x8] S16x32 1
  bcast_S_S24 : S_.BroadcastsInDim S24 (![] : Fin 0 → Fin S24.rank)
  concatenates_S8_S24_S32_d0 : Shape.Concatenates [S8, S24] S32 0
  pads_S1000000x16_S1007616x16_076160_000 : S1000000x16.Pads (![0, 0] : Fin 2 → Nat) ![7616, 0] ![0, 0] S1007616x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  slices_S1007616x32_S1000000x32_0_0 : S1007616x32.Slices ![0, 0] S1000000x32
  slices_S1000000x32_S1000000x8_0_0 : S1000000x32.Slices ![0, 0] S1000000x8
  slices_S1000000x32_S1000000x8_0_8 : S1000000x32.Slices ![0, 8] S1000000x8
  bcast_S2000000x1_S2000000x8_0_1 : S2000000x1.BroadcastsInDim S2000000x8 (![0, 1] : Fin 2 → Fin S2000000x8.rank)
  bcast_S_S1000000x8 : S_.BroadcastsInDim S1000000x8 (![] : Fin 0 → Fin S1000000x8.rank)
  bcast_S1000000x1_S1000000x8_0_1 : S1000000x1.BroadcastsInDim S1000000x8 (![0, 1] : Fin 2 → Fin S1000000x8.rank)
  slices_S1000000x32_S1000000x8_0_16 : S1000000x32.Slices ![0, 16] S1000000x8
  slices_S1000000x32_S1000000x8_0_24 : S1000000x32.Slices ![0, 24] S1000000x8
  slices_S3x8x4_S1x8x4_0_0_0 : S3x8x4.Slices ![0, 0, 0] S1x8x4
  shapeCasts_S1x8x4_S8x4 : S1x8x4.ShapeCasts S8x4
  slices_S3x8x4_S1x8x4_1_0_0 : S3x8x4.Slices ![1, 0, 0] S1x8x4
  slices_S3x8x4_S1x8x4_2_0_0 : S3x8x4.Slices ![2, 0, 0] S1x8x4
  concatenates_S8x4_S8x4_S8x4_S8x4_S8x16_d1 : Shape.Concatenates [S8x4, S8x4, S8x4, S8x4] S8x16 1
  bcast_S_S12 : S_.BroadcastsInDim S12 (![] : Fin 0 → Fin S12.rank)
  concatenates_S4_S12_S16_d0 : Shape.Concatenates [S4, S12] S16 0
  pads_S1000000x8_S1007616x8_076160_000 : S1000000x8.Pads (![0, 0] : Fin 2 → Nat) ![7616, 0] ![0, 0] S1007616x8
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S16_S16_0 : ∀ a, (![0] : Fin 1 → Nat) a + S16.size a ≤ S16.size a
  h_S16 : 0 < S16.numel
  shapeCasts_S16_S16 : S16.ShapeCasts S16
  shapeCasts_S16_S1x16 : S16.ShapeCasts S1x16
  broadcasts_S1x16_S8192x16 : S1x16.Broadcasts S8192x16
  slices_S1007616x16_S1000000x16_0_0 : S1007616x16.Slices ![0, 0] S1000000x16
  slices_S1000000x16_S1000000x4_0_0 : S1000000x16.Slices ![0, 0] S1000000x4
  slices_S1000000x16_S1000000x4_0_4 : S1000000x16.Slices ![0, 4] S1000000x4
  bcast_S2000000x1_S2000000x4_0_1 : S2000000x1.BroadcastsInDim S2000000x4 (![0, 1] : Fin 2 → Fin S2000000x4.rank)
  bcast_S_S1000000x4 : S_.BroadcastsInDim S1000000x4 (![] : Fin 0 → Fin S1000000x4.rank)
  bcast_S1000000x1_S1000000x4_0_1 : S1000000x1.BroadcastsInDim S1000000x4 (![0, 1] : Fin 2 → Fin S1000000x4.rank)
  slices_S1000000x16_S1000000x4_0_8 : S1000000x16.Slices ![0, 8] S1000000x4
  slices_S1000000x16_S1000000x4_0_12 : S1000000x16.Slices ![0, 12] S1000000x4
  pads_S1000000x4_S1007616x4_076160_000 : S1000000x4.Pads (![0, 0] : Fin 2 → Nat) ![7616, 0] ![0, 0] S1007616x4
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  inb_S4x2_S4x2_0_0 : ∀ a, (![0, 0] : Fin 2 → Nat) a + S4x2.size a ≤ S4x2.size a
  h_S4x2 : 0 < S4x2.numel
  inb_S2_S2_0 : ∀ a, (![0] : Fin 1 → Nat) a + S2.size a ≤ S2.size a
  h_S2 : 0 < S2.numel
  shapeCasts_S2_S1x2 : S2.ShapeCasts S1x2
  broadcasts_S1x2_S8192x2 : S1x2.Broadcasts S8192x2
  inb_S8192x2_S8192x2_0_0 : ∀ a, (![0, 0] : Fin 2 → Nat) a + S8192x2.size a ≤ S8192x2.size a
  h_S8192x2 : 0 < S8192x2.numel
  slices_S1007616x2_S1000000x2_0_0 : S1007616x2.Slices ![0, 0] S1000000x2
  dot_S4096x15_S15x4_S4096x4_1_0_0_1_n_n_wf : DotDims.WF S4096x15 S15x4 S4096x4 [1] [0] [0] [1] [] []
  dot_S4096x202_S202x32_S4096x32_1_0_0_1_n_n_wf : DotDims.WF S4096x202 S202x32 S4096x32 [1] [0] [0] [1] [] []
  dot_S8192x36_S36x96_S8192x96_1_0_0_1_n_n_wf : DotDims.WF S8192x36 S36x96 S8192x96 [1] [0] [0] [1] [] []
  gather_S1000000x24_S2000000x1_S2000000x24_1_0_n_n_0_1_124_wf : GatherDims.WF S1000000x24 S2000000x1 S2000000x24 [1] [0] [] [0] [] 1 ![1, 24]
  scatter_S1000000x24_S2000000x1_S2000000x24_1_0_0_1_wf : ScatterDims.WF S1000000x24 S2000000x1 S2000000x24 [1] [0] [0] 1
  scatter_S1000000_S2000000x1_S2000000_n_0_0_1_wf : ScatterDims.WF S1000000 S2000000x1 S2000000 [] [0] [0] 1
  dot_S8192x24_S24x64_S8192x64_1_0_0_1_n_n_wf : DotDims.WF S8192x24 S24x64 S8192x64 [1] [0] [0] [1] [] []
  gather_S1000000x16_S2000000x1_S2000000x16_1_0_n_n_0_1_116_wf : GatherDims.WF S1000000x16 S2000000x1 S2000000x16 [1] [0] [] [0] [] 1 ![1, 16]
  scatter_S1000000x16_S2000000x1_S2000000x16_1_0_0_1_wf : ScatterDims.WF S1000000x16 S2000000x1 S2000000x16 [1] [0] [0] 1
  dot_S8192x16_S16x32_S8192x32_1_0_0_1_n_n_wf : DotDims.WF S8192x16 S16x32 S8192x32 [1] [0] [0] [1] [] []
  gather_S1000000x8_S2000000x1_S2000000x8_1_0_n_n_0_1_18_wf : GatherDims.WF S1000000x8 S2000000x1 S2000000x8 [1] [0] [] [0] [] 1 ![1, 8]
  scatter_S1000000x8_S2000000x1_S2000000x8_1_0_0_1_wf : ScatterDims.WF S1000000x8 S2000000x1 S2000000x8 [1] [0] [0] 1
  dot_S8192x8_S8x16_S8192x16_1_0_0_1_n_n_wf : DotDims.WF S8192x8 S8x16 S8192x16 [1] [0] [0] [1] [] []
  gather_S1000000x4_S2000000x1_S2000000x4_1_0_n_n_0_1_14_wf : GatherDims.WF S1000000x4 S2000000x1 S2000000x4 [1] [0] [] [0] [] 1 ![1, 4]
  scatter_S1000000x4_S2000000x1_S2000000x4_1_0_0_1_wf : ScatterDims.WF S1000000x4 S2000000x1 S2000000x4 [1] [0] [0] 1
  dot_S8192x4_S4x2_S8192x2_1_0_0_1_n_n_wf : DotDims.WF S8192x4 S4x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1003520x1.size a
  hwx0_0 : ∀ i : grid0.Coords, EltTy.bits .i32 = 32 ∨ (Rect.block (s := S1003520x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1003520x1.size a
  hwx0_1 : ∀ i : grid0.Coords, EltTy.bits .i32 = 32 ∨ (Rect.block (s := S1003520x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x4.size a ≤ S15x4.size a
  hwx0_2 : ∀ i : grid0.Coords, EltTy.bits .f32 = 32 ∨ (Rect.block (s := S15x4) S15x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S202x32.size a ≤ S202x32.size a
  hwx0_3 : ∀ i : grid0.Coords, EltTy.bits .f32 = 32 ∨ (Rect.block (s := S202x32) S202x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x36.size a ≤ S1003520x36.size a
  hwx0_4 : ∀ i : grid0.Coords, EltTy.bits .f32 = 32 ∨ (Rect.block (s := S1003520x36) S4096x36.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x36.size a ≤ S1007616x36.size a
  hwx1_0 : ∀ i : grid1.Coords, EltTy.bits .f32 = 32 ∨ (Rect.block (s := S1007616x36) S8192x36.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S36x96.size a ≤ S36x96.size a
  hwx1_1 : ∀ i : grid1.Coords, EltTy.bits .f32 = 32 ∨ (Rect.block (s := S36x96) S36x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x96.size a ≤ S1007616x96.size a
  hwx1_3 : ∀ i : grid1.Coords, EltTy.bits .f32 = 32 ∨ (Rect.block (s := S1007616x96) S8192x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x24.size a ≤ S1007616x24.size a
  hwx2_0 : ∀ i : grid2.Coords, EltTy.bits .f32 = 32 ∨ (Rect.block (s := S1007616x24) S8192x24.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S24x64.size a ≤ S24x64.size a
  hwx2_1 : ∀ i : grid2.Coords, EltTy.bits .f32 = 32 ∨ (Rect.block (s := S24x64) S24x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S1007616x64.size a
  hwx2_3 : ∀ i : grid2.Coords, EltTy.bits .f32 = 32 ∨ (Rect.block (s := S1007616x64) S8192x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x16.size a ≤ S1007616x16.size a
  hwx3_0 : ∀ i : grid3.Coords, EltTy.bits .f32 = 32 ∨ (Rect.block (s := S1007616x16) S8192x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x32.size a ≤ S1007616x32.size a
  hwx3_3 : ∀ i : grid3.Coords, EltTy.bits .f32 = 32 ∨ (Rect.block (s := S1007616x32) S8192x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x8.size a ≤ S1007616x8.size a
  hwx4_0 : ∀ i : grid4.Coords, EltTy.bits .f32 = 32 ∨ (Rect.block (s := S1007616x8) S8192x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x16.size a ≤ S8x16.size a
  hwx4_1 : ∀ i : grid4.Coords, EltTy.bits .f32 = 32 ∨ (Rect.block (s := S8x16) S8x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16.size a ≤ S16.size a
  hwx4_2 : ∀ i : grid4.Coords, EltTy.bits .f32 = 32 ∨ (Rect.block (s := S16) S16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x16.size a ≤ S1007616x16.size a
  hwx4_3 : ∀ i : grid4.Coords, EltTy.bits .f32 = 32 ∨ (Rect.block (s := S1007616x16) S8192x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x4.size a ≤ S1007616x4.size a
  hwx5_0 : ∀ i : grid5.Coords, EltTy.bits .f32 = 32 ∨ (Rect.block (s := S1007616x4) S8192x4.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4x2.size a ≤ S4x2.size a
  hwx5_1 : ∀ i : grid5.Coords, EltTy.bits .f32 = 32 ∨ (Rect.block (s := S4x2) S4x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2.size a ≤ S2.size a
  hwx5_2 : ∀ i : grid5.Coords, EltTy.bits .f32 = 32 ∨ (Rect.block (s := S2) S2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x2.size a ≤ S1007616x2.size a
  hwx5_3 : ∀ i : grid5.Coords, EltTy.bits .f32 = 32 ∨ (Rect.block (s := S1007616x2) S8192x2.size (cc5_transform_3 i) (hinb5_3 i)).WholeWords (EltTy.packing .f32)

variable [Facts₀]

def dot_S4096x15_S15x4_S4096x4_1_0_0_1_n_n : DotDims S4096x15 S15x4 S4096x4 where
  lhsContracting := [1]
  rhsContracting := [0]
  lhsNonContracting := [0]
  rhsNonContracting := [1]
  lhsBatch := []
  rhsBatch := []
  wf := dot_S4096x15_S15x4_S4096x4_1_0_0_1_n_n_wf
def dot_S4096x202_S202x32_S4096x32_1_0_0_1_n_n : DotDims S4096x202 S202x32 S4096x32 where
  lhsContracting := [1]
  rhsContracting := [0]
  lhsNonContracting := [0]
  rhsNonContracting := [1]
  lhsBatch := []
  rhsBatch := []
  wf := dot_S4096x202_S202x32_S4096x32_1_0_0_1_n_n_wf
def dot_S8192x36_S36x96_S8192x96_1_0_0_1_n_n : DotDims S8192x36 S36x96 S8192x96 where
  lhsContracting := [1]
  rhsContracting := [0]
  lhsNonContracting := [0]
  rhsNonContracting := [1]
  lhsBatch := []
  rhsBatch := []
  wf := dot_S8192x36_S36x96_S8192x96_1_0_0_1_n_n_wf
def gather_S1000000x24_S2000000x1_S2000000x24_1_0_n_n_0_1_124 : GatherDims S1000000x24 S2000000x1 S2000000x24 where
  offsetDims := [1]
  collapsedSliceDims := [0]
  operandBatchingDims := []
  startIndicesBatchingDims := []
  startIndexMap := [0]
  indexVectorDim := 1
  sliceSizes := ![1, 24]
  wf := gather_S1000000x24_S2000000x1_S2000000x24_1_0_n_n_0_1_124_wf
def scatter_S1000000x24_S2000000x1_S2000000x24_1_0_0_1 : ScatterDims S1000000x24 S2000000x1 S2000000x24 where
  updateWindowDims := [1]
  insertedWindowDims := [0]
  scatterDimsToOperandDims := [0]
  indexVectorDim := 1
  wf := scatter_S1000000x24_S2000000x1_S2000000x24_1_0_0_1_wf
def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf
def dot_S8192x24_S24x64_S8192x64_1_0_0_1_n_n : DotDims S8192x24 S24x64 S8192x64 where
  lhsContracting := [1]
  rhsContracting := [0]
  lhsNonContracting := [0]
  rhsNonContracting := [1]
  lhsBatch := []
  rhsBatch := []
  wf := dot_S8192x24_S24x64_S8192x64_1_0_0_1_n_n_wf
def gather_S1000000x16_S2000000x1_S2000000x16_1_0_n_n_0_1_116 : GatherDims S1000000x16 S2000000x1 S2000000x16 where
  offsetDims := [1]
  collapsedSliceDims := [0]
  operandBatchingDims := []
  startIndicesBatchingDims := []
  startIndexMap := [0]
  indexVectorDim := 1
  sliceSizes := ![1, 16]
  wf := gather_S1000000x16_S2000000x1_S2000000x16_1_0_n_n_0_1_116_wf
def scatter_S1000000x16_S2000000x1_S2000000x16_1_0_0_1 : ScatterDims S1000000x16 S2000000x1 S2000000x16 where
  updateWindowDims := [1]
  insertedWindowDims := [0]
  scatterDimsToOperandDims := [0]
  indexVectorDim := 1
  wf := scatter_S1000000x16_S2000000x1_S2000000x16_1_0_0_1_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def gather_S1000000x8_S2000000x1_S2000000x8_1_0_n_n_0_1_18 : GatherDims S1000000x8 S2000000x1 S2000000x8 where
  offsetDims := [1]
  collapsedSliceDims := [0]
  operandBatchingDims := []
  startIndicesBatchingDims := []
  startIndexMap := [0]
  indexVectorDim := 1
  sliceSizes := ![1, 8]
  wf := gather_S1000000x8_S2000000x1_S2000000x8_1_0_n_n_0_1_18_wf
def scatter_S1000000x8_S2000000x1_S2000000x8_1_0_0_1 : ScatterDims S1000000x8 S2000000x1 S2000000x8 where
  updateWindowDims := [1]
  insertedWindowDims := [0]
  scatterDimsToOperandDims := [0]
  indexVectorDim := 1
  wf := scatter_S1000000x8_S2000000x1_S2000000x8_1_0_0_1_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def gather_S1000000x4_S2000000x1_S2000000x4_1_0_n_n_0_1_14 : GatherDims S1000000x4 S2000000x1 S2000000x4 where
  offsetDims := [1]
  collapsedSliceDims := [0]
  operandBatchingDims := []
  startIndicesBatchingDims := []
  startIndexMap := [0]
  indexVectorDim := 1
  sliceSizes := ![1, 4]
  wf := gather_S1000000x4_S2000000x1_S2000000x4_1_0_n_n_0_1_14_wf
def scatter_S1000000x4_S2000000x1_S2000000x4_1_0_0_1 : ScatterDims S1000000x4 S2000000x1 S2000000x4 where
  updateWindowDims := [1]
  insertedWindowDims := [0]
  scatterDimsToOperandDims := [0]
  indexVectorDim := 1
  wf := scatter_S1000000x4_S2000000x1_S2000000x4_1_0_0_1_wf
def dot_S8192x4_S4x2_S8192x2_1_0_0_1_n_n : DotDims S8192x4 S4x2 S8192x2 where
  lhsContracting := [1]
  rhsContracting := [0]
  lhsNonContracting := [0]
  rhsNonContracting := [1]
  lhsBatch := []
  rhsBatch := []
  wf := dot_S8192x4_S4x2_S8192x2_1_0_0_1_n_n_wf

abbrev win0_0 : Pipeline.Window sig grid0 :=
  Pipeline.Window.ofSpec (Memref.whole main_v5) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S15x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S202x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x36.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S8192x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S36x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S8192x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v110) S8192x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v107) S24x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v109) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v111) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v201) S8192x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v198) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v200) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v202) S8192x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v292) S8192x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v289) S8x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v291) S16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v293) S8192x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v374) S8192x4.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S4x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg19) S2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v375) S8192x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S1000000 : Shape := ⟨1, ![1000000]⟩
abbrev S2x2000000 : Shape := ⟨2, ![2, 2000000]⟩
abbrev S2000000 : Shape := ⟨1, ![2000000]⟩
abbrev S15x4 : Shape := ⟨2, ![15, 4]⟩
abbrev S202x32 : Shape := ⟨2, ![202, 32]⟩
abbrev S3x36x24 : Shape := ⟨3, ![3, 36, 24]⟩
abbrev S36x24 : Shape := ⟨2, ![36, 24]⟩
abbrev S24 : Shape := ⟨1, ![24]⟩
abbrev S3x24x16 : Shape := ⟨3, ![3, 24, 16]⟩
abbrev S24x16 : Shape := ⟨2, ![24, 16]⟩
abbrev S16 : Shape := ⟨1, ![16]⟩
abbrev S3x16x8 : Shape := ⟨3, ![3, 16, 8]⟩
abbrev S16x8 : Shape := ⟨2, ![16, 8]⟩
abbrev S8 : Shape := ⟨1, ![8]⟩
abbrev S3x8x4 : Shape := ⟨3, ![3, 8, 4]⟩
abbrev S8x4 : Shape := ⟨2, ![8, 4]⟩
abbrev S4 : Shape := ⟨1, ![4]⟩
abbrev S4x2 : Shape := ⟨2, ![4, 2]⟩
abbrev S2 : Shape := ⟨1, ![2]⟩
abbrev S1x2000000 : Shape := ⟨2, ![1, 2000000]⟩
abbrev S_ : Shape := ⟨0, ![]⟩
abbrev S1000000x1 : Shape := ⟨2, ![1000000, 1]⟩
abbrev S1000000x4 : Shape := ⟨2, ![1000000, 4]⟩
abbrev S1000000x32 : Shape := ⟨2, ![1000000, 32]⟩
abbrev S1000000x36 : Shape := ⟨2, ![1000000, 36]⟩
abbrev S1000000x24 : Shape := ⟨2, ![1000000, 24]⟩
abbrev S1x24 : Shape := ⟨2, ![1, 24]⟩
abbrev S1x36x24 : Shape := ⟨3, ![1, 36, 24]⟩
abbrev S2000000x1 : Shape := ⟨2, ![2000000, 1]⟩
abbrev S2000000x24 : Shape := ⟨2, ![2000000, 24]⟩
abbrev S1000000x16 : Shape := ⟨2, ![1000000, 16]⟩
abbrev S1x16 : Shape := ⟨2, ![1, 16]⟩
abbrev S1x24x16 : Shape := ⟨3, ![1, 24, 16]⟩
abbrev S2000000x16 : Shape := ⟨2, ![2000000, 16]⟩
abbrev S1000000x8 : Shape := ⟨2, ![1000000, 8]⟩
abbrev S1x8 : Shape := ⟨2, ![1, 8]⟩
abbrev S1x16x8 : Shape := ⟨3, ![1, 16, 8]⟩
abbrev S2000000x8 : Shape := ⟨2, ![2000000, 8]⟩
abbrev S1x4 : Shape := ⟨2, ![1, 4]⟩
abbrev S1x8x4 : Shape := ⟨3, ![1, 8, 4]⟩
abbrev S2000000x4 : Shape := ⟨2, ![2000000, 4]⟩
abbrev S1000000x2 : Shape := ⟨2, ![1000000, 2]⟩
abbrev S1x2 : Shape := ⟨2, ![1, 2]⟩

abbrev nBuf : Space → Nat
  | .hbm => 483
  | .vmem => 0
  | .smem => 0
  | _ => 0

abbrev hbmTy0_0 (i : Nat) : BufTy := match i % 128 with
  | 0 => ⟨S1000000, .i32⟩
  | 1 => ⟨S1000000, .i32⟩
  | 2 => ⟨S2x2000000, .i32⟩
  | 3 => ⟨S2000000, .i32⟩
  | 4 => ⟨S15x4, .f32⟩
  | 5 => ⟨S202x32, .f32⟩
  | 6 => ⟨S3x36x24, .f32⟩
  | 7 => ⟨S36x24, .f32⟩
  | 8 => ⟨S24, .f32⟩
  | 9 => ⟨S3x24x16, .f32⟩
  | 10 => ⟨S24x16, .f32⟩
  | 11 => ⟨S16, .f32⟩
  | 12 => ⟨S3x16x8, .f32⟩
  | 13 => ⟨S16x8, .f32⟩
  | 14 => ⟨S8, .f32⟩
  | 15 => ⟨S3x8x4, .f32⟩
  | 16 => ⟨S8x4, .f32⟩
  | 17 => ⟨S4, .f32⟩
  | 18 => ⟨S4x2, .f32⟩
  | 19 => ⟨S2, .f32⟩
  | 20 => ⟨S1x2000000, .i32⟩
  | 21 => ⟨S2000000, .i32⟩
  | 22 => ⟨S1x2000000, .i32⟩
  | 23 => ⟨S2000000, .i32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x4, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x32, .f32⟩
  | 42 => ⟨S1000000x36, .f32⟩
  | 43 => ⟨S1000000x24, .f32⟩
  | 44 => ⟨S1x24, .f32⟩
  | 45 => ⟨S1000000x24, .f32⟩
  | 46 => ⟨S1000000x24, .f32⟩
  | 47 => ⟨S_, .i32⟩
  | 48 => ⟨S2000000, .i32⟩
  | 49 => ⟨S2000000, .i1⟩
  | 50 => ⟨S2000000, .f32⟩
  | 51 => ⟨S1x36x24, .f32⟩
  | 52 => ⟨S36x24, .f32⟩
  | 53 => ⟨S1000000x24, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x24, .f32⟩
  | 63 => ⟨S2000000x1, .f32⟩
  | 64 => ⟨S2000000x24, .f32⟩
  | 65 => ⟨S2000000x24, .f32⟩
  | 66 => ⟨S_, .f32⟩
  | 67 => ⟨S1000000x24, .f32⟩
  | 68 => ⟨S2000000x1, .i32⟩
  | 69 => ⟨S1000000x24, .f32⟩
  | 70 => ⟨S_, .f32⟩
  | 71 => ⟨S1000000, .f32⟩
  | 72 => ⟨S2000000x1, .i32⟩
  | 73 => ⟨S1000000, .f32⟩
  | 74 => ⟨S_, .f32⟩
  | 75 => ⟨S1000000, .f32⟩
  | 76 => ⟨S1000000, .f32⟩
  | 77 => ⟨S1000000x1, .f32⟩
  | 78 => ⟨S1000000x24, .f32⟩
  | 79 => ⟨S1000000x24, .f32⟩
  | 80 => ⟨S1000000x24, .f32⟩
  | 81 => ⟨S_, .i32⟩
  | 82 => ⟨S2000000, .i32⟩
  | 83 => ⟨S2000000, .i1⟩
  | 84 => ⟨S2000000, .f32⟩
  | 85 => ⟨S1x36x24, .f32⟩
  | 86 => ⟨S36x24, .f32⟩
  | 87 => ⟨S1000000x24, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x24, .f32⟩
  | 97 => ⟨S2000000x1, .f32⟩
  | 98 => ⟨S2000000x24, .f32⟩
  | 99 => ⟨S2000000x24, .f32⟩
  | 100 => ⟨S_, .f32⟩
  | 101 => ⟨S1000000x24, .f32⟩
  | 102 => ⟨S2000000x1, .i32⟩
  | 103 => ⟨S1000000x24, .f32⟩
  | 104 => ⟨S_, .f32⟩
  | 105 => ⟨S1000000, .f32⟩
  | 106 => ⟨S2000000x1, .i32⟩
  | 107 => ⟨S1000000, .f32⟩
  | 108 => ⟨S_, .f32⟩
  | 109 => ⟨S1000000, .f32⟩
  | 110 => ⟨S1000000, .f32⟩
  | 111 => ⟨S1000000x1, .f32⟩
  | 112 => ⟨S1000000x24, .f32⟩
  | 113 => ⟨S1000000x24, .f32⟩
  | 114 => ⟨S1000000x24, .f32⟩
  | 115 => ⟨S_, .i32⟩
  | 116 => ⟨S2000000, .i32⟩
  | 117 => ⟨S2000000, .i1⟩
  | 118 => ⟨S2000000, .f32⟩
  | 119 => ⟨S1x36x24, .f32⟩
  | 120 => ⟨S36x24, .f32⟩
  | 121 => ⟨S1000000x24, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S1000000, .i32⟩

abbrev hbmTy0_1 (i : Nat) : BufTy := match i % 128 with
  | 0 => ⟨S2000000, .i32⟩
  | 1 => ⟨S2000000x1, .i32⟩
  | 2 => ⟨S2000000x24, .f32⟩
  | 3 => ⟨S2000000x1, .f32⟩
  | 4 => ⟨S2000000x24, .f32⟩
  | 5 => ⟨S2000000x24, .f32⟩
  | 6 => ⟨S_, .f32⟩
  | 7 => ⟨S1000000x24, .f32⟩
  | 8 => ⟨S2000000x1, .i32⟩
  | 9 => ⟨S1000000x24, .f32⟩
  | 10 => ⟨S_, .f32⟩
  | 11 => ⟨S1000000, .f32⟩
  | 12 => ⟨S2000000x1, .i32⟩
  | 13 => ⟨S1000000, .f32⟩
  | 14 => ⟨S_, .f32⟩
  | 15 => ⟨S1000000, .f32⟩
  | 16 => ⟨S1000000, .f32⟩
  | 17 => ⟨S1000000x1, .f32⟩
  | 18 => ⟨S1000000x24, .f32⟩
  | 19 => ⟨S1000000x24, .f32⟩
  | 20 => ⟨S1000000x24, .f32⟩
  | 21 => ⟨S_, .f32⟩
  | 22 => ⟨S1000000x24, .f32⟩
  | 23 => ⟨S1000000x24, .f32⟩
  | 24 => ⟨S1000000x16, .f32⟩
  | 25 => ⟨S1x16, .f32⟩
  | 26 => ⟨S1000000x16, .f32⟩
  | 27 => ⟨S1000000x16, .f32⟩
  | 28 => ⟨S_, .i32⟩
  | 29 => ⟨S2000000, .i32⟩
  | 30 => ⟨S2000000, .i1⟩
  | 31 => ⟨S2000000, .f32⟩
  | 32 => ⟨S1x24x16, .f32⟩
  | 33 => ⟨S24x16, .f32⟩
  | 34 => ⟨S1000000x16, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x16, .f32⟩
  | 44 => ⟨S2000000x1, .f32⟩
  | 45 => ⟨S2000000x16, .f32⟩
  | 46 => ⟨S2000000x16, .f32⟩
  | 47 => ⟨S_, .f32⟩
  | 48 => ⟨S1000000x16, .f32⟩
  | 49 => ⟨S2000000x1, .i32⟩
  | 50 => ⟨S1000000x16, .f32⟩
  | 51 => ⟨S_, .f32⟩
  | 52 => ⟨S1000000, .f32⟩
  | 53 => ⟨S2000000x1, .i32⟩
  | 54 => ⟨S1000000, .f32⟩
  | 55 => ⟨S_, .f32⟩
  | 56 => ⟨S1000000, .f32⟩
  | 57 => ⟨S1000000, .f32⟩
  | 58 => ⟨S1000000x1, .f32⟩
  | 59 => ⟨S1000000x16, .f32⟩
  | 60 => ⟨S1000000x16, .f32⟩
  | 61 => ⟨S1000000x16, .f32⟩
  | 62 => ⟨S_, .i32⟩
  | 63 => ⟨S2000000, .i32⟩
  | 64 => ⟨S2000000, .i1⟩
  | 65 => ⟨S2000000, .f32⟩
  | 66 => ⟨S1x24x16, .f32⟩
  | 67 => ⟨S24x16, .f32⟩
  | 68 => ⟨S1000000x16, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x16, .f32⟩
  | 78 => ⟨S2000000x1, .f32⟩
  | 79 => ⟨S2000000x16, .f32⟩
  | 80 => ⟨S2000000x16, .f32⟩
  | 81 => ⟨S_, .f32⟩
  | 82 => ⟨S1000000x16, .f32⟩
  | 83 => ⟨S2000000x1, .i32⟩
  | 84 => ⟨S1000000x16, .f32⟩
  | 85 => ⟨S_, .f32⟩
  | 86 => ⟨S1000000, .f32⟩
  | 87 => ⟨S2000000x1, .i32⟩
  | 88 => ⟨S1000000, .f32⟩
  | 89 => ⟨S_, .f32⟩
  | 90 => ⟨S1000000, .f32⟩
  | 91 => ⟨S1000000, .f32⟩
  | 92 => ⟨S1000000x1, .f32⟩
  | 93 => ⟨S1000000x16, .f32⟩
  | 94 => ⟨S1000000x16, .f32⟩
  | 95 => ⟨S1000000x16, .f32⟩
  | 96 => ⟨S_, .i32⟩
  | 97 => ⟨S2000000, .i32⟩
  | 98 => ⟨S2000000, .i1⟩
  | 99 => ⟨S2000000, .f32⟩
  | 100 => ⟨S1x24x16, .f32⟩
  | 101 => ⟨S24x16, .f32⟩
  | 102 => ⟨S1000000x16, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x16, .f32⟩
  | 112 => ⟨S2000000x1, .f32⟩
  | 113 => ⟨S2000000x16, .f32⟩
  | 114 => ⟨S2000000x16, .f32⟩
  | 115 => ⟨S_, .f32⟩
  | 116 => ⟨S1000000x16, .f32⟩
  | 117 => ⟨S2000000x1, .i32⟩
  | 118 => ⟨S1000000x16, .f32⟩
  | 119 => ⟨S_, .f32⟩
  | 120 => ⟨S1000000, .f32⟩
  | 121 => ⟨S2000000x1, .i32⟩
  | 122 => ⟨S1000000, .f32⟩
  | 123 => ⟨S_, .f32⟩
  | 124 => ⟨S1000000, .f32⟩
  | 125 => ⟨S1000000, .f32⟩
  | 126 => ⟨S1000000x1, .f32⟩
  | 127 => ⟨S1000000x16, .f32⟩
  | _ => ⟨S1000000, .i32⟩

abbrev hbmTy0_2 (i : Nat) : BufTy := match i % 128 with
  | 0 => ⟨S1000000x16, .f32⟩
  | 1 => ⟨S1000000x16, .f32⟩
  | 2 => ⟨S_, .f32⟩
  | 3 => ⟨S1000000x16, .f32⟩
  | 4 => ⟨S1000000x16, .f32⟩
  | 5 => ⟨S1000000x8, .f32⟩
  | 6 => ⟨S1x8, .f32⟩
  | 7 => ⟨S1000000x8, .f32⟩
  | 8 => ⟨S1000000x8, .f32⟩
  | 9 => ⟨S_, .i32⟩
  | 10 => ⟨S2000000, .i32⟩
  | 11 => ⟨S2000000, .i1⟩
  | 12 => ⟨S2000000, .f32⟩
  | 13 => ⟨S1x16x8, .f32⟩
  | 14 => ⟨S16x8, .f32⟩
  | 15 => ⟨S1000000x8, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S2000000x8, .f32⟩
  | 25 => ⟨S2000000x1, .f32⟩
  | 26 => ⟨S2000000x8, .f32⟩
  | 27 => ⟨S2000000x8, .f32⟩
  | 28 => ⟨S_, .f32⟩
  | 29 => ⟨S1000000x8, .f32⟩
  | 30 => ⟨S2000000x1, .i32⟩
  | 31 => ⟨S1000000x8, .f32⟩
  | 32 => ⟨S_, .f32⟩
  | 33 => ⟨S1000000, .f32⟩
  | 34 => ⟨S2000000x1, .i32⟩
  | 35 => ⟨S1000000, .f32⟩
  | 36 => ⟨S_, .f32⟩
  | 37 => ⟨S1000000, .f32⟩
  | 38 => ⟨S1000000, .f32⟩
  | 39 => ⟨S1000000x1, .f32⟩
  | 40 => ⟨S1000000x8, .f32⟩
  | 41 => ⟨S1000000x8, .f32⟩
  | 42 => ⟨S1000000x8, .f32⟩
  | 43 => ⟨S_, .i32⟩
  | 44 => ⟨S2000000, .i32⟩
  | 45 => ⟨S2000000, .i1⟩
  | 46 => ⟨S2000000, .f32⟩
  | 47 => ⟨S1x16x8, .f32⟩
  | 48 => ⟨S16x8, .f32⟩
  | 49 => ⟨S1000000x8, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x8, .f32⟩
  | 59 => ⟨S2000000x1, .f32⟩
  | 60 => ⟨S2000000x8, .f32⟩
  | 61 => ⟨S2000000x8, .f32⟩
  | 62 => ⟨S_, .f32⟩
  | 63 => ⟨S1000000x8, .f32⟩
  | 64 => ⟨S2000000x1, .i32⟩
  | 65 => ⟨S1000000x8, .f32⟩
  | 66 => ⟨S_, .f32⟩
  | 67 => ⟨S1000000, .f32⟩
  | 68 => ⟨S2000000x1, .i32⟩
  | 69 => ⟨S1000000, .f32⟩
  | 70 => ⟨S_, .f32⟩
  | 71 => ⟨S1000000, .f32⟩
  | 72 => ⟨S1000000, .f32⟩
  | 73 => ⟨S1000000x1, .f32⟩
  | 74 => ⟨S1000000x8, .f32⟩
  | 75 => ⟨S1000000x8, .f32⟩
  | 76 => ⟨S1000000x8, .f32⟩
  | 77 => ⟨S_, .i32⟩
  | 78 => ⟨S2000000, .i32⟩
  | 79 => ⟨S2000000, .i1⟩
  | 80 => ⟨S2000000, .f32⟩
  | 81 => ⟨S1x16x8, .f32⟩
  | 82 => ⟨S16x8, .f32⟩
  | 83 => ⟨S1000000x8, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x8, .f32⟩
  | 93 => ⟨S2000000x1, .f32⟩
  | 94 => ⟨S2000000x8, .f32⟩
  | 95 => ⟨S2000000x8, .f32⟩
  | 96 => ⟨S_, .f32⟩
  | 97 => ⟨S1000000x8, .f32⟩
  | 98 => ⟨S2000000x1, .i32⟩
  | 99 => ⟨S1000000x8, .f32⟩
  | 100 => ⟨S_, .f32⟩
  | 101 => ⟨S1000000, .f32⟩
  | 102 => ⟨S2000000x1, .i32⟩
  | 103 => ⟨S1000000, .f32⟩
  | 104 => ⟨S_, .f32⟩
  | 105 => ⟨S1000000, .f32⟩
  | 106 => ⟨S1000000, .f32⟩
  | 107 => ⟨S1000000x1, .f32⟩
  | 108 => ⟨S1000000x8, .f32⟩
  | 109 => ⟨S1000000x8, .f32⟩
  | 110 => ⟨S1000000x8, .f32⟩
  | 111 => ⟨S_, .f32⟩
  | 112 => ⟨S1000000x8, .f32⟩
  | 113 => ⟨S1000000x8, .f32⟩
  | 114 => ⟨S1000000x4, .f32⟩
  | 115 => ⟨S1x4, .f32⟩
  | 116 => ⟨S1000000x4, .f32⟩
  | 117 => ⟨S1000000x4, .f32⟩
  | 118 => ⟨S_, .i32⟩
  | 119 => ⟨S2000000, .i32⟩
  | 120 => ⟨S2000000, .i1⟩
  | 121 => ⟨S2000000, .f32⟩
  | 122 => ⟨S1x8x4, .f32⟩
  | 123 => ⟨S8x4, .f32⟩
  | 124 => ⟨S1000000x4, .f32⟩
  | 125 => ⟨S_, .i32⟩
  | 126 => ⟨S2000000, .i32⟩
  | 127 => ⟨S2000000, .i1⟩
  | _ => ⟨S1000000, .i32⟩

abbrev hbmTy0_3 (i : Nat) : BufTy := match i % 128 with
  | 0 => ⟨S_, .i32⟩
  | 1 => ⟨S2000000, .i32⟩
  | 2 => ⟨S2000000, .i32⟩
  | 3 => ⟨S2000000, .i32⟩
  | 4 => ⟨S2000000x1, .i32⟩
  | 5 => ⟨S2000000x4, .f32⟩
  | 6 => ⟨S2000000x1, .f32⟩
  | 7 => ⟨S2000000x4, .f32⟩
  | 8 => ⟨S2000000x4, .f32⟩
  | 9 => ⟨S_, .f32⟩
  | 10 => ⟨S1000000x4, .f32⟩
  | 11 => ⟨S2000000x1, .i32⟩
  | 12 => ⟨S1000000x4, .f32⟩
  | 13 => ⟨S_, .f32⟩
  | 14 => ⟨S1000000, .f32⟩
  | 15 => ⟨S2000000x1, .i32⟩
  | 16 => ⟨S1000000, .f32⟩
  | 17 => ⟨S_, .f32⟩
  | 18 => ⟨S1000000, .f32⟩
  | 19 => ⟨S1000000, .f32⟩
  | 20 => ⟨S1000000x1, .f32⟩
  | 21 => ⟨S1000000x4, .f32⟩
  | 22 => ⟨S1000000x4, .f32⟩
  | 23 => ⟨S1000000x4, .f32⟩
  | 24 => ⟨S_, .i32⟩
  | 25 => ⟨S2000000, .i32⟩
  | 26 => ⟨S2000000, .i1⟩
  | 27 => ⟨S2000000, .f32⟩
  | 28 => ⟨S1x8x4, .f32⟩
  | 29 => ⟨S8x4, .f32⟩
  | 30 => ⟨S1000000x4, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x4, .f32⟩
  | 40 => ⟨S2000000x1, .f32⟩
  | 41 => ⟨S2000000x4, .f32⟩
  | 42 => ⟨S2000000x4, .f32⟩
  | 43 => ⟨S_, .f32⟩
  | 44 => ⟨S1000000x4, .f32⟩
  | 45 => ⟨S2000000x1, .i32⟩
  | 46 => ⟨S1000000x4, .f32⟩
  | 47 => ⟨S_, .f32⟩
  | 48 => ⟨S1000000, .f32⟩
  | 49 => ⟨S2000000x1, .i32⟩
  | 50 => ⟨S1000000, .f32⟩
  | 51 => ⟨S_, .f32⟩
  | 52 => ⟨S1000000, .f32⟩
  | 53 => ⟨S1000000, .f32⟩
  | 54 => ⟨S1000000x1, .f32⟩
  | 55 => ⟨S1000000x4, .f32⟩
  | 56 => ⟨S1000000x4, .f32⟩
  | 57 => ⟨S1000000x4, .f32⟩
  | 58 => ⟨S_, .i32⟩
  | 59 => ⟨S2000000, .i32⟩
  | 60 => ⟨S2000000, .i1⟩
  | 61 => ⟨S2000000, .f32⟩
  | 62 => ⟨S1x8x4, .f32⟩
  | 63 => ⟨S8x4, .f32⟩
  | 64 => ⟨S1000000x4, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x4, .f32⟩
  | 74 => ⟨S2000000x1, .f32⟩
  | 75 => ⟨S2000000x4, .f32⟩
  | 76 => ⟨S2000000x4, .f32⟩
  | 77 => ⟨S_, .f32⟩
  | 78 => ⟨S1000000x4, .f32⟩
  | 79 => ⟨S2000000x1, .i32⟩
  | 80 => ⟨S1000000x4, .f32⟩
  | 81 => ⟨S_, .f32⟩
  | 82 => ⟨S1000000, .f32⟩
  | 83 => ⟨S2000000x1, .i32⟩
  | 84 => ⟨S1000000, .f32⟩
  | 85 => ⟨S_, .f32⟩
  | 86 => ⟨S1000000, .f32⟩
  | 87 => ⟨S1000000, .f32⟩
  | 88 => ⟨S1000000x1, .f32⟩
  | 89 => ⟨S1000000x4, .f32⟩
  | 90 => ⟨S1000000x4, .f32⟩
  | 91 => ⟨S1000000x4, .f32⟩
  | 92 => ⟨S_, .f32⟩
  | 93 => ⟨S1000000x4, .f32⟩
  | 94 => ⟨S1000000x4, .f32⟩
  | 95 => ⟨S1000000x2, .f32⟩
  | 96 => ⟨S1x2, .f32⟩
  | 97 => ⟨S1000000x2, .f32⟩
  | 98 => ⟨S1000000x2, .f32⟩
  | _ => ⟨S1000000, .i32⟩

abbrev hbmTy (i : Nat) : BufTy := match i / 128 with
  | 0 => hbmTy0_0 i
  | 1 => hbmTy0_1 i
  | 2 => hbmTy0_2 i
  | 3 => hbmTy0_3 i
  | _ => ⟨S1000000, .i32⟩

abbrev bufTy : (tb : Table) → Fin (tcTables nBuf tb) → BufTy
  | .hbm, ⟨i, _⟩ => hbmTy i
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_15 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_18 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_19 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_call0_cst : Ref sig .tc := ⟨.hbm, 149, rfl⟩
abbrev main_call0_v0 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c_20 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_21 : Ref sig .tc := ⟨.hbm, 163, rfl⟩
abbrev main_v118 : Ref sig .tc := ⟨.hbm, 164, rfl⟩
abbrev main_v119 : Ref sig .tc := ⟨.hbm, 165, rfl⟩
abbrev main_c_22 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_23 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_24 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_25 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_26 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_c_27 : Ref sig .tc := ⟨.hbm, 197, rfl⟩
abbrev main_v146 : Ref sig .tc := ⟨.hbm, 198, rfl⟩
abbrev main_v147 : Ref sig .tc := ⟨.hbm, 199, rfl⟩
abbrev main_c_28 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_29 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_30 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_31 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_c_32 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_c_33 : Ref sig .tc := ⟨.hbm, 231, rfl⟩
abbrev main_v174 : Ref sig .tc := ⟨.hbm, 232, rfl⟩
abbrev main_v175 : Ref sig .tc := ⟨.hbm, 233, rfl⟩
abbrev main_c_34 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_35 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_36 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_37 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_call1_cst : Ref sig .tc := ⟨.hbm, 258, rfl⟩
abbrev main_call1_v0 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_c_38 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_c_39 : Ref sig .tc := ⟨.hbm, 272, rfl⟩
abbrev main_v207 : Ref sig .tc := ⟨.hbm, 273, rfl⟩
abbrev main_v208 : Ref sig .tc := ⟨.hbm, 274, rfl⟩
abbrev main_c_40 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_41 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_cst_42 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_cst_43 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_c_44 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_c_45 : Ref sig .tc := ⟨.hbm, 306, rfl⟩
abbrev main_v235 : Ref sig .tc := ⟨.hbm, 307, rfl⟩
abbrev main_v236 : Ref sig .tc := ⟨.hbm, 308, rfl⟩
abbrev main_c_46 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_cst_47 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_cst_48 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_cst_49 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_c_50 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_c_51 : Ref sig .tc := ⟨.hbm, 340, rfl⟩
abbrev main_v263 : Ref sig .tc := ⟨.hbm, 341, rfl⟩
abbrev main_v264 : Ref sig .tc := ⟨.hbm, 342, rfl⟩
abbrev main_c_52 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_cst_53 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_cst_54 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_cst_55 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_call2_cst : Ref sig .tc := ⟨.hbm, 367, rfl⟩
abbrev main_call2_v0 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_c_56 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_c_57 : Ref sig .tc := ⟨.hbm, 381, rfl⟩
abbrev main_v296 : Ref sig .tc := ⟨.hbm, 382, rfl⟩
abbrev main_v297 : Ref sig .tc := ⟨.hbm, 383, rfl⟩
abbrev main_c_58 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_cst_59 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_cst_60 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_cst_61 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_c_62 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_c_63 : Ref sig .tc := ⟨.hbm, 415, rfl⟩
abbrev main_v324 : Ref sig .tc := ⟨.hbm, 416, rfl⟩
abbrev main_v325 : Ref sig .tc := ⟨.hbm, 417, rfl⟩
abbrev main_c_64 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_cst_65 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_cst_66 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_cst_67 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_c_68 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_c_69 : Ref sig .tc := ⟨.hbm, 449, rfl⟩
abbrev main_v352 : Ref sig .tc := ⟨.hbm, 450, rfl⟩
abbrev main_v353 : Ref sig .tc := ⟨.hbm, 451, rfl⟩
abbrev main_c_70 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_v357 : Ref sig .tc := ⟨.hbm, 456, rfl⟩
abbrev main_v358 : Ref sig .tc := ⟨.hbm, 457, rfl⟩
abbrev main_v359 : Ref sig .tc := ⟨.hbm, 458, rfl⟩
abbrev main_v360 : Ref sig .tc := ⟨.hbm, 459, rfl⟩
abbrev main_v361 : Ref sig .tc := ⟨.hbm, 460, rfl⟩
abbrev main_cst_71 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_cst_72 : Ref sig .tc := ⟨.hbm, 465, rfl⟩
abbrev main_v365 : Ref sig .tc := ⟨.hbm, 466, rfl⟩
abbrev main_v366 : Ref sig .tc := ⟨.hbm, 467, rfl⟩
abbrev main_v367 : Ref sig .tc := ⟨.hbm, 468, rfl⟩
abbrev main_cst_73 : Ref sig .tc := ⟨.hbm, 469, rfl⟩
abbrev main_v368 : Ref sig .tc := ⟨.hbm, 470, rfl⟩
abbrev main_v369 : Ref sig .tc := ⟨.hbm, 471, rfl⟩
abbrev main_v370 : Ref sig .tc := ⟨.hbm, 472, rfl⟩
abbrev main_v371 : Ref sig .tc := ⟨.hbm, 473, rfl⟩
abbrev main_v372 : Ref sig .tc := ⟨.hbm, 474, rfl⟩
abbrev main_v373 : Ref sig .tc := ⟨.hbm, 475, rfl⟩
abbrev main_call3_cst : Ref sig .tc := ⟨.hbm, 476, rfl⟩
abbrev main_call3_v0 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_v377 : Ref sig .tc := ⟨.hbm, 481, rfl⟩
abbrev main_v378 : Ref sig .tc := ⟨.hbm, 482, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x4_S1000000x32_S1000000x36_d1 : Shape.Concatenates [S1000000x4, S1000000x32] S1000000x36 1
  bcast_S24_S1x24_1 : S24.BroadcastsInDim S1x24 (![1] : Fin 1 → Fin S1x24.rank)
  bcast_S1x24_S1000000x24_0_1 : S1x24.BroadcastsInDim S1000000x24 (![0, 1] : Fin 2 → Fin S1000000x24.rank)
  bcast_S_S2000000 : S_.BroadcastsInDim S2000000 (![] : Fin 0 → Fin S2000000.rank)
  slices_S3x36x24_S1x36x24_0_0_0 : S3x36x24.Slices ![0, 0, 0] S1x36x24
  shapeCasts_S1x36x24_S36x24 : S1x36x24.ShapeCasts S36x24
  bcast_S2000000_S2000000x1_0 : S2000000.BroadcastsInDim S2000000x1 (![0] : Fin 1 → Fin S2000000x1.rank)
  bcast_S2000000x1_S2000000x24_0_1 : S2000000x1.BroadcastsInDim S2000000x24 (![0, 1] : Fin 2 → Fin S2000000x24.rank)
  bcast_S_S1000000x24 : S_.BroadcastsInDim S1000000x24 (![] : Fin 0 → Fin S1000000x24.rank)
  bcast_S1000000x1_S1000000x24_0_1 : S1000000x1.BroadcastsInDim S1000000x24 (![0, 1] : Fin 2 → Fin S1000000x24.rank)
  slices_S3x36x24_S1x36x24_1_0_0 : S3x36x24.Slices ![1, 0, 0] S1x36x24
  slices_S3x36x24_S1x36x24_2_0_0 : S3x36x24.Slices ![2, 0, 0] S1x36x24
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  slices_S3x24x16_S1x24x16_0_0_0 : S3x24x16.Slices ![0, 0, 0] S1x24x16
  shapeCasts_S1x24x16_S24x16 : S1x24x16.ShapeCasts S24x16
  bcast_S2000000x1_S2000000x16_0_1 : S2000000x1.BroadcastsInDim S2000000x16 (![0, 1] : Fin 2 → Fin S2000000x16.rank)
  bcast_S_S1000000x16 : S_.BroadcastsInDim S1000000x16 (![] : Fin 0 → Fin S1000000x16.rank)
  bcast_S1000000x1_S1000000x16_0_1 : S1000000x1.BroadcastsInDim S1000000x16 (![0, 1] : Fin 2 → Fin S1000000x16.rank)
  slices_S3x24x16_S1x24x16_1_0_0 : S3x24x16.Slices ![1, 0, 0] S1x24x16
  slices_S3x24x16_S1x24x16_2_0_0 : S3x24x16.Slices ![2, 0, 0] S1x24x16
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  slices_S3x16x8_S1x16x8_0_0_0 : S3x16x8.Slices ![0, 0, 0] S1x16x8
  shapeCasts_S1x16x8_S16x8 : S1x16x8.ShapeCasts S16x8
  bcast_S2000000x1_S2000000x8_0_1 : S2000000x1.BroadcastsInDim S2000000x8 (![0, 1] : Fin 2 → Fin S2000000x8.rank)
  bcast_S_S1000000x8 : S_.BroadcastsInDim S1000000x8 (![] : Fin 0 → Fin S1000000x8.rank)
  bcast_S1000000x1_S1000000x8_0_1 : S1000000x1.BroadcastsInDim S1000000x8 (![0, 1] : Fin 2 → Fin S1000000x8.rank)
  slices_S3x16x8_S1x16x8_1_0_0 : S3x16x8.Slices ![1, 0, 0] S1x16x8
  slices_S3x16x8_S1x16x8_2_0_0 : S3x16x8.Slices ![2, 0, 0] S1x16x8
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  slices_S3x8x4_S1x8x4_0_0_0 : S3x8x4.Slices ![0, 0, 0] S1x8x4
  shapeCasts_S1x8x4_S8x4 : S1x8x4.ShapeCasts S8x4
  bcast_S2000000x1_S2000000x4_0_1 : S2000000x1.BroadcastsInDim S2000000x4 (![0, 1] : Fin 2 → Fin S2000000x4.rank)
  bcast_S_S1000000x4 : S_.BroadcastsInDim S1000000x4 (![] : Fin 0 → Fin S1000000x4.rank)
  bcast_S1000000x1_S1000000x4_0_1 : S1000000x1.BroadcastsInDim S1000000x4 (![0, 1] : Fin 2 → Fin S1000000x4.rank)
  slices_S3x8x4_S1x8x4_1_0_0 : S3x8x4.Slices ![1, 0, 0] S1x8x4
  slices_S3x8x4_S1x8x4_2_0_0 : S3x8x4.Slices ![2, 0, 0] S1x8x4
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  gather_S15x4_S1000000x1_S1000000x4_1_0_n_n_0_1_14_wf : GatherDims.WF S15x4 S1000000x1 S1000000x4 [1] [0] [] [0] [] 1 ![1, 4]
  gather_S202x32_S1000000x1_S1000000x32_1_0_n_n_0_1_132_wf : GatherDims.WF S202x32 S1000000x1 S1000000x32 [1] [0] [] [0] [] 1 ![1, 32]
  dot_S1000000x36_S36x24_S1000000x24_1_0_0_1_n_n_wf : DotDims.WF S1000000x36 S36x24 S1000000x24 [1] [0] [0] [1] [] []
  gather_S1000000x24_S2000000x1_S2000000x24_1_0_n_n_0_1_124_wf : GatherDims.WF S1000000x24 S2000000x1 S2000000x24 [1] [0] [] [0] [] 1 ![1, 24]
  scatter_S1000000x24_S2000000x1_S2000000x24_1_0_0_1_wf : ScatterDims.WF S1000000x24 S2000000x1 S2000000x24 [1] [0] [0] 1
  scatter_S1000000_S2000000x1_S2000000_n_0_0_1_wf : ScatterDims.WF S1000000 S2000000x1 S2000000 [] [0] [0] 1
  dot_S1000000x24_S24x16_S1000000x16_1_0_0_1_n_n_wf : DotDims.WF S1000000x24 S24x16 S1000000x16 [1] [0] [0] [1] [] []
  gather_S1000000x16_S2000000x1_S2000000x16_1_0_n_n_0_1_116_wf : GatherDims.WF S1000000x16 S2000000x1 S2000000x16 [1] [0] [] [0] [] 1 ![1, 16]
  scatter_S1000000x16_S2000000x1_S2000000x16_1_0_0_1_wf : ScatterDims.WF S1000000x16 S2000000x1 S2000000x16 [1] [0] [0] 1
  dot_S1000000x16_S16x8_S1000000x8_1_0_0_1_n_n_wf : DotDims.WF S1000000x16 S16x8 S1000000x8 [1] [0] [0] [1] [] []
  gather_S1000000x8_S2000000x1_S2000000x8_1_0_n_n_0_1_18_wf : GatherDims.WF S1000000x8 S2000000x1 S2000000x8 [1] [0] [] [0] [] 1 ![1, 8]
  scatter_S1000000x8_S2000000x1_S2000000x8_1_0_0_1_wf : ScatterDims.WF S1000000x8 S2000000x1 S2000000x8 [1] [0] [0] 1
  dot_S1000000x8_S8x4_S1000000x4_1_0_0_1_n_n_wf : DotDims.WF S1000000x8 S8x4 S1000000x4 [1] [0] [0] [1] [] []
  gather_S1000000x4_S2000000x1_S2000000x4_1_0_n_n_0_1_14_wf : GatherDims.WF S1000000x4 S2000000x1 S2000000x4 [1] [0] [] [0] [] 1 ![1, 4]
  scatter_S1000000x4_S2000000x1_S2000000x4_1_0_0_1_wf : ScatterDims.WF S1000000x4 S2000000x1 S2000000x4 [1] [0] [0] 1
  dot_S1000000x4_S4x2_S1000000x2_1_0_0_1_n_n_wf : DotDims.WF S1000000x4 S4x2 S1000000x2 [1] [0] [0] [1] [] []

variable [Facts₀]

def gather_S15x4_S1000000x1_S1000000x4_1_0_n_n_0_1_14 : GatherDims S15x4 S1000000x1 S1000000x4 where
  offsetDims := [1]
  collapsedSliceDims := [0]
  operandBatchingDims := []
  startIndicesBatchingDims := []
  startIndexMap := [0]
  indexVectorDim := 1
  sliceSizes := ![1, 4]
  wf := gather_S15x4_S1000000x1_S1000000x4_1_0_n_n_0_1_14_wf
def gather_S202x32_S1000000x1_S1000000x32_1_0_n_n_0_1_132 : GatherDims S202x32 S1000000x1 S1000000x32 where
  offsetDims := [1]
  collapsedSliceDims := [0]
  operandBatchingDims := []
  startIndicesBatchingDims := []
  startIndexMap := [0]
  indexVectorDim := 1
  sliceSizes := ![1, 32]
  wf := gather_S202x32_S1000000x1_S1000000x32_1_0_n_n_0_1_132_wf
def dot_S1000000x36_S36x24_S1000000x24_1_0_0_1_n_n : DotDims S1000000x36 S36x24 S1000000x24 where
  lhsContracting := [1]
  rhsContracting := [0]
  lhsNonContracting := [0]
  rhsNonContracting := [1]
  lhsBatch := []
  rhsBatch := []
  wf := dot_S1000000x36_S36x24_S1000000x24_1_0_0_1_n_n_wf
def gather_S1000000x24_S2000000x1_S2000000x24_1_0_n_n_0_1_124 : GatherDims S1000000x24 S2000000x1 S2000000x24 where
  offsetDims := [1]
  collapsedSliceDims := [0]
  operandBatchingDims := []
  startIndicesBatchingDims := []
  startIndexMap := [0]
  indexVectorDim := 1
  sliceSizes := ![1, 24]
  wf := gather_S1000000x24_S2000000x1_S2000000x24_1_0_n_n_0_1_124_wf
def scatter_S1000000x24_S2000000x1_S2000000x24_1_0_0_1 : ScatterDims S1000000x24 S2000000x1 S2000000x24 where
  updateWindowDims := [1]
  insertedWindowDims := [0]
  scatterDimsToOperandDims := [0]
  indexVectorDim := 1
  wf := scatter_S1000000x24_S2000000x1_S2000000x24_1_0_0_1_wf
def scatter_S1000000_S2000000x1_S2000000_n_0_0_1 : ScatterDims S1000000 S2000000x1 S2000000 where
  updateWindowDims := []
  insertedWindowDims := [0]
  scatterDimsToOperandDims := [0]
  indexVectorDim := 1
  wf := scatter_S1000000_S2000000x1_S2000000_n_0_0_1_wf
def dot_S1000000x24_S24x16_S1000000x16_1_0_0_1_n_n : DotDims S1000000x24 S24x16 S1000000x16 where
  lhsContracting := [1]
  rhsContracting := [0]
  lhsNonContracting := [0]
  rhsNonContracting := [1]
  lhsBatch := []
  rhsBatch := []
  wf := dot_S1000000x24_S24x16_S1000000x16_1_0_0_1_n_n_wf
def gather_S1000000x16_S2000000x1_S2000000x16_1_0_n_n_0_1_116 : GatherDims S1000000x16 S2000000x1 S2000000x16 where
  offsetDims := [1]
  collapsedSliceDims := [0]
  operandBatchingDims := []
  startIndicesBatchingDims := []
  startIndexMap := [0]
  indexVectorDim := 1
  sliceSizes := ![1, 16]
  wf := gather_S1000000x16_S2000000x1_S2000000x16_1_0_n_n_0_1_116_wf
def scatter_S1000000x16_S2000000x1_S2000000x16_1_0_0_1 : ScatterDims S1000000x16 S2000000x1 S2000000x16 where
  updateWindowDims := [1]
  insertedWindowDims := [0]
  scatterDimsToOperandDims := [0]
  indexVectorDim := 1
  wf := scatter_S1000000x16_S2000000x1_S2000000x16_1_0_0_1_wf
def dot_S1000000x16_S16x8_S1000000x8_1_0_0_1_n_n : DotDims S1000000x16 S16x8 S1000000x8 where
  lhsContracting := [1]
  rhsContracting := [0]
  lhsNonContracting := [0]
  rhsNonContracting := [1]
  lhsBatch := []
  rhsBatch := []
  wf := dot_S1000000x16_S16x8_S1000000x8_1_0_0_1_n_n_wf
def gather_S1000000x8_S2000000x1_S2000000x8_1_0_n_n_0_1_18 : GatherDims S1000000x8 S2000000x1 S2000000x8 where
  offsetDims := [1]
  collapsedSliceDims := [0]
  operandBatchingDims := []
  startIndicesBatchingDims := []
  startIndexMap := [0]
  indexVectorDim := 1
  sliceSizes := ![1, 8]
  wf := gather_S1000000x8_S2000000x1_S2000000x8_1_0_n_n_0_1_18_wf
def scatter_S1000000x8_S2000000x1_S2000000x8_1_0_0_1 : ScatterDims S1000000x8 S2000000x1 S2000000x8 where
  updateWindowDims := [1]
  insertedWindowDims := [0]
  scatterDimsToOperandDims := [0]
  indexVectorDim := 1
  wf := scatter_S1000000x8_S2000000x1_S2000000x8_1_0_0_1_wf
def dot_S1000000x8_S8x4_S1000000x4_1_0_0_1_n_n : DotDims S1000000x8 S8x4 S1000000x4 where
  lhsContracting := [1]
  rhsContracting := [0]
  lhsNonContracting := [0]
  rhsNonContracting := [1]
  lhsBatch := []
  rhsBatch := []
  wf := dot_S1000000x8_S8x4_S1000000x4_1_0_0_1_n_n_wf
def gather_S1000000x4_S2000000x1_S2000000x4_1_0_n_n_0_1_14 : GatherDims S1000000x4 S2000000x1 S2000000x4 where
  offsetDims := [1]
  collapsedSliceDims := [0]
  operandBatchingDims := []
  startIndicesBatchingDims := []
  startIndexMap := [0]
  indexVectorDim := 1
  sliceSizes := ![1, 4]
  wf := gather_S1000000x4_S2000000x1_S2000000x4_1_0_n_n_0_1_14_wf
def scatter_S1000000x4_S2000000x1_S2000000x4_1_0_0_1 : ScatterDims S1000000x4 S2000000x1 S2000000x4 where
  updateWindowDims := [1]
  insertedWindowDims := [0]
  scatterDimsToOperandDims := [0]
  indexVectorDim := 1
  wf := scatter_S1000000x4_S2000000x1_S2000000x4_1_0_0_1_wf
def dot_S1000000x4_S4x2_S1000000x2_1_0_0_1_n_n : DotDims S1000000x4 S4x2 S1000000x2 where
  lhsContracting := [1]
  rhsContracting := [0]
  lhsNonContracting := [0]
  rhsNonContracting := [1]
  lhsBatch := []
  rhsBatch := []
  wf := dot_S1000000x4_S4x2_S1000000x2_1_0_0_1_n_n_wf

class Facts : Prop extends Facts₀ where

variable [Facts]
-- ==== Proof.KBody0.lean ====
/- The body half of region 0 (the embedding kernel) of the program's frame, at a parameter `V`: the
   TensorCore's buffer contents when the region is entered. Each window's block at a grid point, what the
   body finds in each input window's staging buffer (its block, fetched there or not), what its one store
   leaves in the output window's buffer as a closed function of the four input blocks, the body's triple,
   the pipeline's proof data and the body obligation at every point. Generic in the float family. -/
import proofs.«415972_j72490458022035_1_alg».proof.Proof.Gen.Kernel.Launch
import proofs.«415972_j72490458022035_1_alg».proof.Proof.Gen.Kernel.Skeleton
import proofs.«415972_j72490458022035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 rows: the structural look recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 0: the embedding kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved, so the buffer still holds this point's block. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved, so the buffer still holds this point's block. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved, so the buffer still holds this point's block. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved, so the buffer still holds this point's block. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S4096x1 := Rect.unit (s := S4096x1) ![0, 0] S4096x1.size inb_S4096x1_S4096x1_0_0
abbrev r0_1 : Rect S15x4 := Rect.unit (s := S15x4) ![0, 0] S15x4.size inb_S15x4_S15x4_0_0
abbrev r0_2 : Rect S202x32 := Rect.unit (s := S202x32) ![0, 0] S202x32.size inb_S202x32_S202x32_0_0
abbrev r0_3 : Rect S4096x36 := Rect.unit (s := S4096x36) ![0, 0] S4096x36.size inb_S4096x36_S4096x36_0_0

/-! ## What the body leaves in the output window's buffer -/

/-- Window 4's staging buffer after the body, from the four input windows' blocks: its one store, of the
    concatenated pair of one-hot products, laid over the whole buffer. -/
def out0_4 (x0 x1 : Vec F S4096x1 .i32) (x2 : Vec F S15x4 .f32) (x3 : Vec F S202x32 .f32) : Vec F S4096x36 .f32 :=
  View.canon [⟨r0_3, k0_pay1 (View.ld x0 r0_0) (View.ld x1 r0_0) (View.ld x2 r0_1) (View.ld x3 r0_2)⟩]

/-- The one store is the whole buffer, so it covers it. -/
theorem cover0_4 (p0 : Vec F S4096x36 .f32) (y : S4096x36.Idx) :
    ∃ pc ∈ ([⟨r0_3, p0⟩] : List (View.Piece (Elt F) S4096x36 .f32)), y ∈ pc.1.set :=
  View.cover_of_tiled [⟨r0_3, p0⟩] S4096x36.size (by rfl) y

/-! ## The body's triple -/

set_option maxHeartbeats 1000000 in
/-- The kernel body on whole staging memrefs, the four inputs' at read contents `x0 … x3` and the output's at
    anything, runs to the continuation holding the inputs' as they were and the output's at `out0_4` of the
    inputs'. The body also loads the output's buffer before it stores over all of it; that value is unused. -/
theorem sound_kernel0 (c : Dev nD) (E : Set ℕ) (i : grid0.Coords)
    (arg0 : Memref sig .tc .vmem S4096x1 .i32) (harg0 : arg0.IsWhole) (arg1 : Memref sig .tc .vmem S4096x1 .i32) (harg1 : arg1.IsWhole)
    (arg2 : Memref sig .tc .vmem S15x4 .f32) (harg2 : arg2.IsWhole) (arg3 : Memref sig .tc .vmem S202x32 .f32) (harg3 : arg3.IsWhole)
    (arg4 : Memref sig .tc .vmem S4096x36 .f32) (harg4 : arg4.IsWhole)
    (x0 x1 : Vec F S4096x1 .i32) (x2 : Vec F S15x4 .f32) (x3 : Vec F S202x32 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2 x3)) -∗ K ⟨⟩))
      ⊢ wp frame (wpE (defs₀ (F := F)) Variants.none c none) E (cc0__embed_kernel i arg0 harg0 arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the four input blocks; the
    invariant holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and the five windows' current
    staging buffers, one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_w`), so the body's triple applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Gen
-- ==== Proof.KFold.lean ====
import proofs.«415972_j72490458022035_1_alg».proof.Proof.KBody0
import proofs.«415972_j72490458022035_1_alg».proof.Proof.KBody1
import proofs.«415972_j72490458022035_1_alg».proof.Proof.KBody2
import proofs.«415972_j72490458022035_1_alg».proof.Proof.KBody3
import proofs.«415972_j72490458022035_1_alg».proof.Proof.KBody4
import proofs.«415972_j72490458022035_1_alg».proof.Proof.KBody5
import Idealize.ShloMosaic.Lib.Pipeline.FrameSuffix

set_option maxRecDepth 16384

noncomputable section

namespace Cert.Kernel.Gen

open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb

abbrev W6 : Dev nD → Valuation τ sig (Elt F) := fun c => StableHlo.after hostOps1 (W5 m ρ c)

abbrev W7 : Dev nD → Valuation τ sig (Elt F) := fun c => StableHlo.after hostOps1_1 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb

abbrev W9 : Dev nD → Valuation τ sig (Elt F) := fun c => StableHlo.after hostOps2 (W8 m ρ c)

abbrev W10 : Dev nD → Valuation τ sig (Elt F) := fun c => StableHlo.after hostOps2_1 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb

abbrev W12 : Dev nD → Valuation τ sig (Elt F) := fun c => StableHlo.after hostOps3 (W11 m ρ c)

abbrev W13 : Dev nD → Valuation τ sig (Elt F) := fun c => StableHlo.after hostOps3_1 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb

abbrev W15 : Dev nD → Valuation τ sig (Elt F) := fun c => StableHlo.after hostOps4 (W14 m ρ c)

abbrev W16 : Dev nD → Valuation τ sig (Elt F) := fun c => StableHlo.after hostOps4_1 (W15 m ρ c)

abbrev V16 : (c : Dev nD) → (b : Ref sig .tc) → Buf (Elt F) ((c : Thread nD τ).loc b) := fun c b => W16 m ρ c b

def W17 (c : Dev nD) : Valuation τ sig (Elt F) :=
  Pipeline.withArrays spec4 c (W16 m ρ c) fun w => (dat4 (V16 m ρ) c).arrAt w cfg4.N
theorem W17_arr (c : Dev nD) (w : Fin cfg4.W) :
    W17 m ρ c (Proc.devRef .tc (Pipeline.arrRef spec4 w)) = (dat4 (V16 m ρ) c).arrAt w cfg4.N := by
  unfold W17; exact Pipeline.withArrays_arr spec4 launch4.win.arr_inj c _ _ w
theorem W17_of_ne (c : Dev nD) (b : Ref sig .tc) (hb : ∀ w, Pipeline.arrRef spec4 w ≠ b) :
    W17 m ρ c (Proc.devRef .tc b) = W16 m ρ c (Proc.devRef .tc b) := by
  unfold W17; exact Pipeline.withArrays_of_ne spec4 c _ _ b hb

abbrev W18 : Dev nD → Valuation τ sig (Elt F) := fun c => StableHlo.after hostOps5 (W17 m ρ c)

abbrev W19 : Dev nD → Valuation τ sig (Elt F) := fun c => StableHlo.after hostOps5_1 (W18 m ρ c)

abbrev V19 : (c : Dev nD) → (b : Ref sig .tc) → Buf (Elt F) ((c : Thread nD τ).loc b) := fun c b => W19 m ρ c b

def W20 (c : Dev nD) : Valuation τ sig (Elt F) :=
  Pipeline.withArrays spec5 c (W19 m ρ c) fun w => (dat5 (V19 m ρ) c).arrAt w cfg5.N
theorem W20_arr (c : Dev nD) (w : Fin cfg5.W) :
    W20 m ρ c (Proc.devRef .tc (Pipeline.arrRef spec5 w)) = (dat5 (V19 m ρ) c).arrAt w cfg5.N := by
  unfold W20; exact Pipeline.withArrays_arr spec5 launch5.win.arr_inj c _ _ w
theorem W20_of_ne (c : Dev nD) (b : Ref sig .tc) (hb : ∀ w, Pipeline.arrRef spec5 w ≠ b) :
    W20 m ρ c (Proc.devRef .tc b) = W19 m ρ c (Proc.devRef .tc b) := by
  unfold W20; exact Pipeline.withArrays_of_ne spec5 c _ _ b hb

abbrev W21 : Dev nD → Valuation τ sig (Elt F) := fun c => StableHlo.after hostOps6 (W20 m ρ c)

abbrev hostOps0_W : List (Ref sig .tc) :=
  [main_v0, main_v1, main_v2, main_v3, main_v4, main_c]

theorem W1_keep (c : Dev nD) (r : Ref sig .tc) (h : r ∉ hostOps0_W) :
    W1 m ρ c (Proc.devRef .tc r) = W0 m ρ c (Proc.devRef .tc r) :=
  StableHlo.after_of_writes_sub hostOps0 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps0_1_W : List (Ref sig .tc) :=
  [main_call0_v0, main_v5]

theorem W2_keep (c : Dev nD) (r : Ref sig .tc) (h : r ∉ hostOps0_1_W) :
    W2 m ρ c (Proc.devRef .tc r) = W1 m ρ c (Proc.devRef .tc r) :=
  StableHlo.after_of_writes_sub hostOps0_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps0_2_W : List (Ref sig .tc) :=
  [main_v6, main_c_0]

theorem W3_keep (c : Dev nD) (r : Ref sig .tc) (h : r ∉ hostOps0_2_W) :
    W3 m ρ c (Proc.devRef .tc r) = W2 m ρ c (Proc.devRef .tc r) :=
  StableHlo.after_of_writes_sub hostOps0_2 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps0_3_W : List (Ref sig .tc) :=
  [main_call1_v0, main_v7]

theorem W4_keep (c : Dev nD) (r : Ref sig .tc) (h : r ∉ hostOps0_3_W) :
    W4 m ρ c (Proc.devRef .tc r) = W3 m ρ c (Proc.devRef .tc r) :=
  StableHlo.after_of_writes_sub hostOps0_3 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps1_W : List (Ref sig .tc) :=
  [main_v9, main_v10, main_v11, main_v12, main_v13, main_v14, main_v15, main_v16, main_cst, main_v17, main_v18,
   main_c_1]

theorem W6_keep (c : Dev nD) (r : Ref sig .tc) (h : r ∉ hostOps1_W) :
    W6 m ρ c (Proc.devRef .tc r) = W5 m ρ c (Proc.devRef .tc r) :=
  StableHlo.after_of_writes_sub hostOps1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps1_1_W : List (Ref sig .tc) :=
  [main_call2_v0, main_v19]

theorem W7_keep (c : Dev nD) (r : Ref sig .tc) (h : r ∉ hostOps1_1_W) :
    W7 m ρ c (Proc.devRef .tc r) = W6 m ρ c (Proc.devRef .tc r) :=
  StableHlo.after_of_writes_sub hostOps1_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps2_W : List (Ref sig .tc) :=
  [main_v21, main_v22, main_c_2, main_v23, main_v24, main_v25, main_v26, main_c_3, main_v27, main_v28,
   main_c_4, main_v29, main_v30, main_v31, main_v32, main_v33, main_v34, main_v35, main_v36, main_cst_5,
   main_v37, main_v38, main_v39, main_cst_6, main_v40, main_v41, main_v42, main_cst_7, main_v43, main_v44,
   main_v45, main_v46, main_v47, main_v48, main_c_8, main_v49, main_v50, main_v51, main_v52, main_c_9,
   main_v53, main_v54, main_c_10, main_v55, main_v56, main_v57, main_v58, main_v59, main_v60, main_v61,
   main_v62, main_cst_11, main_v63, main_v64, main_v65, main_cst_12, main_v66, main_v67, main_v68, main_cst_13,
   main_v69, main_v70, main_v71, main_v72, main_v73, main_v74, main_c_14, main_v75, main_v76, main_v77,
   main_v78, main_c_15, main_v79, main_v80, main_c_16, main_v81, main_v82, main_v83, main_v84, main_v85,
   main_v86, main_v87, main_v88, main_cst_17, main_v89, main_v90, main_v91, main_cst_18, main_v92, main_v93,
   main_v94, main_cst_19, main_v95, main_v96, main_v97, main_v98, main_v99, main_v100, main_v101, main_v102,
   main_v103, main_v104, main_v105, main_v106, main_v107, main_cst_20, main_v108, main_v109, main_c_21]

theorem W9_keep (c : Dev nD) (r : Ref sig .tc) (h : r ∉ hostOps2_W) :
    W9 m ρ c (Proc.devRef .tc r) = W8 m ρ c (Proc.devRef .tc r) :=
  StableHlo.after_of_writes_sub hostOps2 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps2_1_W : List (Ref sig .tc) :=
  [main_call3_v0, main_v110]

theorem W10_keep (c : Dev nD) (r : Ref sig .tc) (h : r ∉ hostOps2_1_W) :
    W10 m ρ c (Proc.devRef .tc r) = W9 m ρ c (Proc.devRef .tc r) :=
  StableHlo.after_of_writes_sub hostOps2_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps3_W : List (Ref sig .tc) :=
  [main_v112, main_v113, main_c_22, main_v114, main_v115, main_v116, main_v117, main_c_23, main_v118,
   main_v119, main_c_24, main_v120, main_v121, main_v122, main_v123, main_v124, main_v125, main_v126,
   main_v127, main_cst_25, main_v128, main_v129, main_v130, main_cst_26, main_v131, main_v132, main_v133,
   main_cst_27, main_v134, main_v135, main_v136, main_v137, main_v138, main_v139, main_c_28, main_v140,
   main_v141, main_v142, main_v143, main_c_29, main_v144, main_v145, main_c_30, main_v146, main_v147,
   main_v148, main_v149, main_v150, main_v151, main_v152, main_v153, main_cst_31, main_v154, main_v155,
   main_v156, main_cst_32, main_v157, main_v158, main_v159, main_cst_33, main_v160, main_v161, main_v162,
   main_v163, main_v164, main_v165, main_c_34, main_v166, main_v167, main_v168, main_v169, main_c_35,
   main_v170, main_v171, main_c_36, main_v172, main_v173, main_v174, main_v175, main_v176, main_v177,
   main_v178, main_v179, main_cst_37, main_v180, main_v181, main_v182, main_cst_38, main_v183, main_v184,
   main_v185, main_cst_39, main_v186, main_v187, main_v188, main_v189, main_v190, main_v191, main_v192,
   main_v193, main_v194, main_v195, main_v196, main_v197, main_v198, main_cst_40, main_v199, main_v200,
   main_c_41]

theorem W12_keep (c : Dev nD) (r : Ref sig .tc) (h : r ∉ hostOps3_W) :
    W12 m ρ c (Proc.devRef .tc r) = W11 m ρ c (Proc.devRef .tc r) :=
  StableHlo.after_of_writes_sub hostOps3 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps3_1_W : List (Ref sig .tc) :=
  [main_call4_v0, main_v201]

theorem W13_keep (c : Dev nD) (r : Ref sig .tc) (h : r ∉ hostOps3_1_W) :
    W13 m ρ c (Proc.devRef .tc r) = W12 m ρ c (Proc.devRef .tc r) :=
  StableHlo.after_of_writes_sub hostOps3_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps4_W : List (Ref sig .tc) :=
  [main_v203, main_v204, main_c_42, main_v205, main_v206, main_v207, main_v208, main_c_43, main_v209,
   main_v210, main_c_44, main_v211, main_v212, main_v213, main_v214, main_v215, main_v216, main_v217,
   main_v218, main_cst_45, main_v219, main_v220, main_v221, main_cst_46, main_v222, main_v223, main_v224,
   main_cst_47, main_v225, main_v226, main_v227, main_v228, main_v229, main_v230, main_c_48, main_v231,
   main_v232, main_v233, main_v234, main_c_49, main_v235, main_v236, main_c_50, main_v237, main_v238,
   main_v239, main_v240, main_v241, main_v242, main_v243, main_v244, main_cst_51, main_v245, main_v246,
   main_v247, main_cst_52, main_v248, main_v249, main_v250, main_cst_53, main_v251, main_v252, main_v253,
   main_v254, main_v255, main_v256, main_c_54, main_v257, main_v258, main_v259, main_v260, main_c_55,
   main_v261, main_v262, main_c_56, main_v263, main_v264, main_v265, main_v266, main_v267, main_v268,
   main_v269, main_v270, main_cst_57, main_v271, main_v272, main_v273, main_cst_58, main_v274, main_v275,
   main_v276, main_cst_59, main_v277, main_v278, main_v279, main_v280, main_v281, main_v282, main_v283,
   main_v284, main_v285, main_v286, main_v287, main_v288, main_v289, main_cst_60, main_v290, main_v291,
   main_c_61]

theorem W15_keep (c : Dev nD) (r : Ref sig .tc) (h : r ∉ hostOps4_W) :
    W15 m ρ c (Proc.devRef .tc r) = W14 m ρ c (Proc.devRef .tc r) :=
  StableHlo.after_of_writes_sub hostOps4 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps4_1_W : List (Ref sig .tc) :=
  [main_call5_v0, main_v292]

theorem W16_keep (c : Dev nD) (r : Ref sig .tc) (h : r ∉ hostOps4_1_W) :
    W16 m ρ c (Proc.devRef .tc r) = W15 m ρ c (Proc.devRef .tc r) :=
  StableHlo.after_of_writes_sub hostOps4_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps5_W : List (Ref sig .tc) :=
  [main_v294, main_v295, main_c_62, main_v296, main_v297, main_v298, main_v299, main_c_63, main_v300,
   main_v301, main_c_64, main_v302, main_v303, main_v304, main_v305, main_v306, main_v307, main_v308,
   main_v309, main_cst_65, main_v310, main_v311, main_v312, main_cst_66, main_v313, main_v314, main_v315,
   main_cst_67, main_v316, main_v317, main_v318, main_v319, main_v320, main_v321, main_c_68, main_v322,
   main_v323, main_v324, main_v325, main_c_69, main_v326, main_v327, main_c_70, main_v328, main_v329,
   main_v330, main_v331, main_v332, main_v333, main_v334, main_v335, main_cst_71, main_v336, main_v337,
   main_v338, main_cst_72, main_v339, main_v340, main_v341, main_cst_73, main_v342, main_v343, main_v344,
   main_v345, main_v346, main_v347, main_c_74, main_v348, main_v349, main_v350, main_v351, main_c_75,
   main_v352, main_v353, main_c_76, main_v354, main_v355, main_v356, main_v357, main_v358, main_v359,
   main_v360, main_v361, main_cst_77, main_v362, main_v363, main_v364, main_cst_78, main_v365, main_v366,
   main_v367, main_cst_79, main_v368, main_v369, main_v370, main_v371, main_v372, main_v373, main_c_80]

theorem W18_keep (c : Dev nD) (r : Ref sig .tc) (h : r ∉ hostOps5_W) :
    W18 m ρ c (Proc.devRef .tc r) = W17 m ρ c (Proc.devRef .tc r) :=
  StableHlo.after_of_writes_sub hostOps5 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps5_1_W : List (Ref sig .tc) :=
  [main_call6_v0, main_v374]

theorem W19_keep (c : Dev nD) (r : Ref sig .tc) (h : r ∉ hostOps5_1_W) :
    W19 m ρ c (Proc.devRef .tc r) = W18 m ρ c (Proc.devRef .tc r) :=
  StableHlo.after_of_writes_sub hostOps5_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps6_W : List (Ref sig .tc) :=
  [main_v376]

theorem W21_keep (c : Dev nD) (r : Ref sig .tc) (h : r ∉ hostOps6_W) :
    W21 m ρ c (Proc.devRef .tc r) = W20 m ρ c (Proc.devRef .tc r) :=
  StableHlo.after_of_writes_sub hostOps6 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

end Cert.Kernel.Gen

end
-- ==== Proof.KRun.lean ====
import proofs.«415972_j72490458022035_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V10 m ρ) c
  | ⟨3, _⟩ => fun c => dat3 (V13 m ρ) c
  | ⟨4, _⟩ => fun c => dat4 (V16 m ρ) c
  | ⟨5, _⟩ => fun c => dat5 (V19 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W21 m ρ c) ∗ ∃ r, prngReg c r)

theorem last_link (c : Dev nD) :
    iprop(StableHlo.held (c : Thread nD τ) (Pipeline.ucRefs τ sig) (W21 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

/-- The six regions' proof data differ only in contents: these four fields are the same constants in each. -/
theorem pdats_plain (p : Fin 6) (c : Dev nD) : (∀ t, (pdats m ρ p c).Φ t = Pipeline.ΦA (cfgs p).spec c)
    ∧ (∀ w, (pdats m ρ p c).q w = fullShare) ∧ (∀ t, (pdats m ρ p c).owed t = 0) ∧ ∀ t x, x ∈ (pdats m ρ p c).recorded t := by
  fin_cases p <;> exact ⟨fun _ => rfl, fun _ => rfl, fun _ => rfl, fun _ _ => trivial⟩

/-- The one record all six regions are instances of: entered at the buffers `Wi`, left at `Wo`. -/
def regOf (p : Fin 6) (hl : Pipeline.LaunchFacts (nD := nD) (τ := τ) cfgs p) (Wi Wo : Dev nD → Valuation τ sig (Elt F))
    (hbody : ∀ c, Pipeline.BodyObligationLoose (pdats m ρ p c) defs₀ 𝒱₀ () Set.univ)
    (hA : ∀ c w, (pdats m ρ p c).A w = Wi c (Pipeline.arrRef (cfgs p).spec w))
    (hF : ∀ c w, Wo c (Pipeline.arrRef (cfgs p).spec w) = (pdats m ρ p c).arrAt w (cfgs p).N)
    (hrest : ∀ c (b : Ref sig .tc), (∀ w, Pipeline.arrRef (cfgs p).spec w ≠ b) → Wo c b = Wi c b) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p fun c => (pdats_plain m ρ p c).2.2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) hl.win hl.arr_whole c
      ((pdats m ρ p c).share_full (pdats_plain m ρ p c).2.1) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_plain m ρ p c).2.2.1]
      icases HO with ⟨%W, HO⟩; iexists W; isplitr; · ipureintro; exact fun _ _ => Or.inl ((pdats_plain m ρ p c).2.2.2 0 _)
      iexact HO
    isplitl [Hp]; · iexact Hp
    iexact Hrest
  hin c := by
    rw [(pdats_plain m ρ p c).1]; unfold Pipeline.ΦA
    iintro ⟨Hp, -, Hr⟩
    isplitl [Hr]; · iexact Hr
    iexact Hp
  hout c := by
    rw [Pipeline.ownSems0_none, (pdats_plain m ρ p c).1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (pdats_plain m ρ p c).2.1)
      (fun b => Wi c b) (fun b => Wo c b) ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(pdats_plain m ρ p c).2.2.1]
    icases HO with ⟨%W, -, HO⟩; iexists W; iexact HO

def reg0 : Pipeline.RegionSeg (pcfgs (F := F)) adm (pdats m ρ) () defs₀ 𝒱₀ L lv 0 :=
  regOf m ρ 0 launch0 (W4 m ρ) (W5 m ρ) (fun c => (body_obligation0 (V4 m ρ) c).loose) (A_eq0 (V4 m ρ)) (W5_arr m ρ) (W5_of_ne m ρ)

def reg1 : Pipeline.RegionSeg (pcfgs (F := F)) adm (pdats m ρ) () defs₀ 𝒱₀ L lv 1 :=
  regOf m ρ 1 launch1 (W7 m ρ) (W8 m ρ) (fun c => (body_obligation1 (V7 m ρ) c).loose) (A_eq1 (V7 m ρ)) (W8_arr m ρ) (W8_of_ne m ρ)

def reg2 : Pipeline.RegionSeg (pcfgs (F := F)) adm (pdats m ρ) () defs₀ 𝒱₀ L lv 2 :=
  regOf m ρ 2 launch2 (W10 m ρ) (W11 m ρ) (fun c => (body_obligation2 (V10 m ρ) c).loose) (A_eq2 (V10 m ρ)) (W11_arr m ρ) (W11_of_ne m ρ)

def reg3 : Pipeline.RegionSeg (pcfgs (F := F)) adm (pdats m ρ) () defs₀ 𝒱₀ L lv 3 :=
  regOf m ρ 3 launch3 (W13 m ρ) (W14 m ρ) (fun c => (body_obligation3 (V13 m ρ) c).loose) (A_eq3 (V13 m ρ)) (W14_arr m ρ) (W14_of_ne m ρ)

def reg4 : Pipeline.RegionSeg (pcfgs (F := F)) adm (pdats m ρ) () defs₀ 𝒱₀ L lv 4 :=
  regOf m ρ 4 launch4 (W16 m ρ) (W17 m ρ) (fun c => (body_obligation4 (V16 m ρ) c).loose) (A_eq4 (V16 m ρ)) (W17_arr m ρ) (W17_of_ne m ρ)

def reg5 : Pipeline.RegionSeg (pcfgs (F := F)) adm (pdats m ρ) () defs₀ 𝒱₀ L lv 5 :=
  regOf m ρ 5 launch5 (W19 m ρ) (W20 m ρ) (fun c => (body_obligation5 (V19 m ρ) c).loose) (A_eq5 (V19 m ρ)) (W20_arr m ρ) (W20_of_ne m ρ)

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .region (reg0 m ρ),
    .host (hseg hostOps1 hostOps1_sub (W5 m ρ)),
    .host (hseg hostOps1_1 hostOps1_1_sub (W6 m ρ)),
    .region (reg1 m ρ),
    .host (hseg hostOps2 hostOps2_sub (W8 m ρ)),
    .host (hseg hostOps2_1 hostOps2_1_sub (W9 m ρ)),
    .region (reg2 m ρ),
    .host (hseg hostOps3 hostOps3_sub (W11 m ρ)),
    .host (hseg hostOps3_1 hostOps3_1_sub (W12 m ρ)),
    .region (reg3 m ρ),
    .host (hseg hostOps4 hostOps4_sub (W14 m ρ)),
    .host (hseg hostOps4_1 hostOps4_1_sub (W15 m ρ)),
    .region (reg4 m ρ),
    .host (hseg hostOps5 hostOps5_sub (W17 m ρ)),
    .host (hseg hostOps5_1 hostOps5_1_sub (W18 m ρ)),
    .region (reg5 m ρ),
    .host (hseg hostOps6 hostOps6_sub (W20 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- For walking a buffer's contents back across a region: only an output window's array can change there. -/
theorem W5_kept (c : Dev nD) (b : Ref sig .tc) (h : ∀ w, Pipeline.arrRef spec0 w = b → (cfg0.win w).isOut = false) :
    W5 m ρ c (Proc.devRef .tc b) = W4 m ρ c (Proc.devRef .tc b) := by
  by_cases hb : ∃ w, Pipeline.arrRef spec0 w = b
  · obtain ⟨w, rfl⟩ := hb
    exact (W5_arr m ρ c w).trans (((dat0 (V4 m ρ) c).arrAt_in w (h w rfl) _).trans (A_eq0 (V4 m ρ) c w))
  · exact W5_of_ne m ρ c b fun w e => hb ⟨w, e⟩
theorem W8_kept (c : Dev nD) (b : Ref sig .tc) (h : ∀ w, Pipeline.arrRef spec1 w = b → (cfg1.win w).isOut = false) :
    W8 m ρ c (Proc.devRef .tc b) = W7 m ρ c (Proc.devRef .tc b) := by
  by_cases hb : ∃ w, Pipeline.arrRef spec1 w = b
  · obtain ⟨w, rfl⟩ := hb
    exact (W8_arr m ρ c w).trans (((dat1 (V7 m ρ) c).arrAt_in w (h w rfl) _).trans (A_eq1 (V7 m ρ) c w))
  · exact W8_of_ne m ρ c b fun w e => hb ⟨w, e⟩
theorem W11_kept (c : Dev nD) (b : Ref sig .tc) (h : ∀ w, Pipeline.arrRef spec2 w = b → (cfg2.win w).isOut = false) :
    W11 m ρ c (Proc.devRef .tc b) = W10 m ρ c (Proc.devRef .tc b) := by
  by_cases hb : ∃ w, Pipeline.arrRef spec2 w = b
  · obtain ⟨w, rfl⟩ := hb
    exact (W11_arr m ρ c w).trans (((dat2 (V10 m ρ) c).arrAt_in w (h w rfl) _).trans (A_eq2 (V10 m ρ) c w))
  · exact W11_of_ne m ρ c b fun w e => hb ⟨w, e⟩
theorem W14_kept (c : Dev nD) (b : Ref sig .tc) (h : ∀ w, Pipeline.arrRef spec3 w = b → (cfg3.win w).isOut = false) :
    W14 m ρ c (Proc.devRef .tc b) = W13 m ρ c (Proc.devRef .tc b) := by
  by_cases hb : ∃ w, Pipeline.arrRef spec3 w = b
  · obtain ⟨w, rfl⟩ := hb
    exact (W14_arr m ρ c w).trans (((dat3 (V13 m ρ) c).arrAt_in w (h w rfl) _).trans (A_eq3 (V13 m ρ) c w))
  · exact W14_of_ne m ρ c b fun w e => hb ⟨w, e⟩
theorem W17_kept (c : Dev nD) (b : Ref sig .tc) (h : ∀ w, Pipeline.arrRef spec4 w = b → (cfg4.win w).isOut = false) :
    W17 m ρ c (Proc.devRef .tc b) = W16 m ρ c (Proc.devRef .tc b) := by
  by_cases hb : ∃ w, Pipeline.arrRef spec4 w = b
  · obtain ⟨w, rfl⟩ := hb
    exact (W17_arr m ρ c w).trans (((dat4 (V16 m ρ) c).arrAt_in w (h w rfl) _).trans (A_eq4 (V16 m ρ) c w))
  · exact W17_of_ne m ρ c b fun w e => hb ⟨w, e⟩
theorem W20_kept (c : Dev nD) (b : Ref sig .tc) (h : ∀ w, Pipeline.arrRef spec5 w = b → (cfg5.win w).isOut = false) :
    W20 m ρ c (Proc.devRef .tc b) = W19 m ρ c (Proc.devRef .tc b) := by
  by_cases hb : ∃ w, Pipeline.arrRef spec5 w = b
  · obtain ⟨w, rfl⟩ := hb
    exact (W20_arr m ρ c w).trans (((dat5 (V19 m ρ) c).arrAt_in w (h w rfl) _).trans (A_eq5 (V19 m ρ) c w))
  · exact W20_of_ne m ρ c b fun w e => hb ⟨w, e⟩

/-- The condition under which a buffer ends as launched. -/
abbrev Unwritten (b : Ref sig .tc) : Prop :=
  (b ∉ hostOps0_W ∧ b ∉ hostOps0_1_W ∧ b ∉ hostOps0_2_W ∧ b ∉ hostOps0_3_W ∧ b ∉ hostOps1_W ∧ b ∉ hostOps1_1_W ∧ b ∉ hostOps2_W ∧ b ∉ hostOps2_1_W ∧ b ∉ hostOps3_W ∧ b ∉ hostOps3_1_W ∧ b ∉ hostOps4_W ∧ b ∉ hostOps4_1_W ∧ b ∉ hostOps5_W ∧ b ∉ hostOps5_1_W ∧ b ∉ hostOps6_W)
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ (∀ w, Pipeline.arrRef spec3 w = b → (cfg3.win w).isOut = false)
    ∧ (∀ w, Pipeline.arrRef spec4 w = b → (cfg4.win w).isOut = false)
    ∧ (∀ w, Pipeline.arrRef spec5 w = b → (cfg5.win w).isOut = false)

/-- The fold at an unwritten buffer walks back, item by item, to the launch memory. -/
theorem W21_unwritten (c : Dev nD) (b : Ref sig .tc) (h : Unwritten b) :
    W21 m ρ c (Proc.devRef .tc b) = m ((c : Thread nD τ).loc b) := by
  obtain ⟨⟨h1, h2, h3, h4, h6, h7, h9, h10, h12, h13, h15, h16, h18, h19, h21⟩, h5, h8, h11, h14, h17, h20⟩ := h
  exact (W21_keep m ρ c b h21).trans <| (W20_kept m ρ c b h20).trans <| (W19_keep m ρ c b h19).trans <| (W18_keep m ρ c b h18).trans <| (W17_kept m ρ c b h17).trans <| (W16_keep m ρ c b h16).trans <| (W15_keep m ρ c b h15).trans <| (W14_kept m ρ c b h14).trans <| (W13_keep m ρ c b h13).trans <| (W12_keep m ρ c b h12).trans <| (W11_kept m ρ c b h11).trans <| (W10_keep m ρ c b h10).trans <| (W9_keep m ρ c b h9).trans <| (W8_kept m ρ c b h8).trans <| (W7_keep m ρ c b h7).trans <| (W6_keep m ρ c b h6).trans <| (W5_kept m ρ c b h5).trans <| (W4_keep m ρ c b h4).trans <| (W3_keep m ρ c b h3).trans <| (W2_keep m ρ c b h2).trans <| W1_keep m ρ c b h1
theorem run_kept : θ_run defs (onTc (τ := τ) (main (F := F))) ⟨m, fun _ => 0, ρ⟩ (fun r => ∀ (c : Dev nD) (b : Ref sig .tc),
      ¬ (Proc.devRef .tc b : DevRef τ sig).isScoped → Unwritten b →
      r.2.mem ((c.tc : Thread nD τ).loc b) = m ((c.tc : Thread nD τ).loc b)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W21 m ρ c b)
    (fun r h c b hs hb => (h c _ (mem_uc b hs)).trans (W21_unwritten m ρ c b hb)) (run_all m ρ)

end Cert.Kernel.Gen

end
-- ==== Proof.KIBody0.lean ====
import proofs.«415972_j72490458022035_1_alg».proof.Proof.Gen.KernelIdeal.Launch
import proofs.«415972_j72490458022035_1_alg».proof.Proof.Gen.KernelIdeal.Skeleton
import proofs.«415972_j72490458022035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S4096x1 := Rect.unit (s := S4096x1) ![0, 0] S4096x1.size inb_S4096x1_S4096x1_0_0
abbrev r0_1 : Rect S15x4 := Rect.unit (s := S15x4) ![0, 0] S15x4.size inb_S15x4_S15x4_0_0
abbrev r0_2 : Rect S202x32 := Rect.unit (s := S202x32) ![0, 0] S202x32.size inb_S202x32_S202x32_0_0
abbrev r0_3 : Rect S4096x36 := Rect.unit (s := S4096x36) ![0, 0] S4096x36.size inb_S4096x36_S4096x36_0_0

def out0_4 (x0 x1 : Vec F S4096x1 .i32) (x2 : Vec F S15x4 .f32) (x3 : Vec F S202x32 .f32) : Vec F S4096x36 .f32 :=
  View.canon [⟨r0_3, k0_pay1 (View.ld x0 r0_0) (View.ld x1 r0_0) (View.ld x2 r0_1) (View.ld x3 r0_2)⟩]

theorem cover0_4 (p0 : Vec F S4096x36 .f32) (y : S4096x36.Idx) :
    ∃ pc ∈ ([⟨r0_3, p0⟩] : List (View.Piece (Elt F) S4096x36 .f32)), y ∈ pc.1.set :=
  View.cover_of_tiled [⟨r0_3, p0⟩] S4096x36.size (by rfl) y

set_option maxHeartbeats 1000000 in

theorem sound_kernel0 (c : Dev nD) (E : Set ℕ) (i : grid0.Coords)
    (arg0 : Memref sig .tc .vmem S4096x1 .i32) (harg0 : arg0.IsWhole) (arg1 : Memref sig .tc .vmem S4096x1 .i32) (harg1 : arg1.IsWhole)
    (arg2 : Memref sig .tc .vmem S15x4 .f32) (harg2 : arg2.IsWhole) (arg3 : Memref sig .tc .vmem S202x32 .f32) (harg3 : arg3.IsWhole)
    (arg4 : Memref sig .tc .vmem S4096x36 .f32) (harg4 : arg4.IsWhole)
    (x0 x1 : Vec F S4096x1 .i32) (x2 : Vec F S15x4 .f32) (x3 : Vec F S202x32 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2 x3)) -∗ K ⟨⟩))
      ⊢ wp frame (wpE (defs₀ (F := F)) Variants.none c none) E (cc0__embed_kernel i arg0 harg0 arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Regions

end Cert.KernelIdeal.Gen
-- ==== Proof.KIBody1.lean ====
import proofs.«415972_j72490458022035_1_alg».proof.Proof.Gen.KernelIdeal.Launch
import proofs.«415972_j72490458022035_1_alg».proof.Proof.Gen.KernelIdeal.Skeleton
import proofs.«415972_j72490458022035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S8192x36 := Rect.unit (s := S8192x36) ![0, 0] S8192x36.size inb_S8192x36_S8192x36_0_0
abbrev r1_1 : Rect S36x96 := Rect.unit (s := S36x96) ![0, 0] S36x96.size inb_S36x96_S36x96_0_0
abbrev r1_2 : Rect S96 := Rect.unit (s := S96) ![0] S96.size inb_S96_S96_0
abbrev r1_3 : Rect S8192x96 := Rect.unit (s := S8192x96) ![0, 0] S8192x96.size inb_S8192x96_S8192x96_0_0

def out1_3 (x0 : Vec F S8192x36 .f32) (x1 : Vec F S36x96 .f32) (x2 : Vec F S96 .f32) : Vec F S8192x96 .f32 :=
  View.canon [⟨r1_3, k1_pay1 (View.ld x0 r1_0) (View.ld x1 r1_1) (View.ld x2 r1_2)⟩]

theorem cover1_3 (p0 : Vec F S8192x96 .f32) (y : S8192x96.Idx) :
    ∃ pc ∈ ([⟨r1_3, p0⟩] : List (View.Piece (Elt F) S8192x96 .f32)), y ∈ pc.1.set :=
  View.cover_of_tiled [⟨r1_3, p0⟩] S8192x96.size (by rfl) y

set_option maxHeartbeats 1000000 in

theorem sound_kernel1 (c : Dev nD) (E : Set ℕ) (i : grid1.Coords)
    (arg1 : Memref sig .tc .vmem S8192x36 .f32) (harg1 : arg1.IsWhole) (arg2 : Memref sig .tc .vmem S36x96 .f32) (harg2 : arg2.IsWhole)
    (arg3 : Memref sig .tc .vmem S96 .f32) (harg3 : arg3.IsWhole) (arg4 : Memref sig .tc .vmem S8192x96 .f32) (harg4 : arg4.IsWhole)
    (x0 : Vec F S8192x36 .f32) (x1 : Vec F S36x96 .f32) (x2 : Vec F S96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Gen

end
-- ==== Proof.KIFold.lean ====
import proofs.«415972_j72490458022035_1_alg».proof.Proof.KIBody0
import proofs.«415972_j72490458022035_1_alg».proof.Proof.KIBody1
import proofs.«415972_j72490458022035_1_alg».proof.Proof.KIBody2
import proofs.«415972_j72490458022035_1_alg».proof.Proof.KIBody3
import proofs.«415972_j72490458022035_1_alg».proof.Proof.KIBody4
import proofs.«415972_j72490458022035_1_alg».proof.Proof.KIBody5
import Idealize.ShloMosaic.Lib.Pipeline.FrameSuffix

set_option maxRecDepth 16384

noncomputable section

namespace Cert.KernelIdeal.Gen

open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb

abbrev W6 : Dev nD → Valuation τ sig (Elt F) := fun c => StableHlo.after hostOps1 (W5 m ρ c)

abbrev W7 : Dev nD → Valuation τ sig (Elt F) := fun c => StableHlo.after hostOps1_1 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb

abbrev W9 : Dev nD → Valuation τ sig (Elt F) := fun c => StableHlo.after hostOps2 (W8 m ρ c)

abbrev W10 : Dev nD → Valuation τ sig (Elt F) := fun c => StableHlo.after hostOps2_1 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb

abbrev W12 : Dev nD → Valuation τ sig (Elt F) := fun c => StableHlo.after hostOps3 (W11 m ρ c)

abbrev W13 : Dev nD → Valuation τ sig (Elt F) := fun c => StableHlo.after hostOps3_1 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb

abbrev W15 : Dev nD → Valuation τ sig (Elt F) := fun c => StableHlo.after hostOps4 (W14 m ρ c)

abbrev W16 : Dev nD → Valuation τ sig (Elt F) := fun c => StableHlo.after hostOps4_1 (W15 m ρ c)

abbrev V16 : (c : Dev nD) → (b : Ref sig .tc) → Buf (Elt F) ((c : Thread nD τ).loc b) := fun c b => W16 m ρ c b

def W17 (c : Dev nD) : Valuation τ sig (Elt F) :=
  Pipeline.withArrays spec4 c (W16 m ρ c) fun w => (dat4 (V16 m ρ) c).arrAt w cfg4.N
theorem W17_arr (c : Dev nD) (w : Fin cfg4.W) :
    W17 m ρ c (Proc.devRef .tc (Pipeline.arrRef spec4 w)) = (dat4 (V16 m ρ) c).arrAt w cfg4.N := by
  unfold W17; exact Pipeline.withArrays_arr spec4 launch4.win.arr_inj c _ _ w
theorem W17_of_ne (c : Dev nD) (b : Ref sig .tc) (hb : ∀ w, Pipeline.arrRef spec4 w ≠ b) :
    W17 m ρ c (Proc.devRef .tc b) = W16 m ρ c (Proc.devRef .tc b) := by
  unfold W17; exact Pipeline.withArrays_of_ne spec4 c _ _ b hb

abbrev W18 : Dev nD → Valuation τ sig (Elt F) := fun c => StableHlo.after hostOps5 (W17 m ρ c)

abbrev W19 : Dev nD → Valuation τ sig (Elt F) := fun c => StableHlo.after hostOps5_1 (W18 m ρ c)

abbrev V19 : (c : Dev nD) → (b : Ref sig .tc) → Buf (Elt F) ((c : Thread nD τ).loc b) := fun c b => W19 m ρ c b

def W20 (c : Dev nD) : Valuation τ sig (Elt F) :=
  Pipeline.withArrays spec5 c (W19 m ρ c) fun w => (dat5 (V19 m ρ) c).arrAt w cfg5.N
theorem W20_arr (c : Dev nD) (w : Fin cfg5.W) :
    W20 m ρ c (Proc.devRef .tc (Pipeline.arrRef spec5 w)) = (dat5 (V19 m ρ) c).arrAt w cfg5.N := by
  unfold W20; exact Pipeline.withArrays_arr spec5 launch5.win.arr_inj c _ _ w
theorem W20_of_ne (c : Dev nD) (b : Ref sig .tc) (hb : ∀ w, Pipeline.arrRef spec5 w ≠ b) :
    W20 m ρ c (Proc.devRef .tc b) = W19 m ρ c (Proc.devRef .tc b) := by
  unfold W20; exact Pipeline.withArrays_of_ne spec5 c _ _ b hb

abbrev W21 : Dev nD → Valuation τ sig (Elt F) := fun c => StableHlo.after hostOps6 (W20 m ρ c)

abbrev hostOps0_W : List (Ref sig .tc) :=
  [main_v0, main_v1, main_v2, main_v3, main_v4, main_c]

theorem W1_keep (c : Dev nD) (r : Ref sig .tc) (h : r ∉ hostOps0_W) :
    W1 m ρ c (Proc.devRef .tc r) = W0 m ρ c (Proc.devRef .tc r) :=
  StableHlo.after_of_writes_sub hostOps0 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps0_1_W : List (Ref sig .tc) :=
  [main_call0_v0, main_v5]

theorem W2_keep (c : Dev nD) (r : Ref sig .tc) (h : r ∉ hostOps0_1_W) :
    W2 m ρ c (Proc.devRef .tc r) = W1 m ρ c (Proc.devRef .tc r) :=
  StableHlo.after_of_writes_sub hostOps0_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps0_2_W : List (Ref sig .tc) :=
  [main_v6, main_c_0]

theorem W3_keep (c : Dev nD) (r : Ref sig .tc) (h : r ∉ hostOps0_2_W) :
    W3 m ρ c (Proc.devRef .tc r) = W2 m ρ c (Proc.devRef .tc r) :=
  StableHlo.after_of_writes_sub hostOps0_2 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps0_3_W : List (Ref sig .tc) :=
  [main_call1_v0, main_v7]

theorem W4_keep (c : Dev nD) (r : Ref sig .tc) (h : r ∉ hostOps0_3_W) :
    W4 m ρ c (Proc.devRef .tc r) = W3 m ρ c (Proc.devRef .tc r) :=
  StableHlo.after_of_writes_sub hostOps0_3 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps1_W : List (Ref sig .tc) :=
  [main_v9, main_v10, main_v11, main_v12, main_v13, main_v14, main_v15, main_v16, main_cst, main_v17, main_v18,
   main_c_1]

theorem W6_keep (c : Dev nD) (r : Ref sig .tc) (h : r ∉ hostOps1_W) :
    W6 m ρ c (Proc.devRef .tc r) = W5 m ρ c (Proc.devRef .tc r) :=
  StableHlo.after_of_writes_sub hostOps1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps1_1_W : List (Ref sig .tc) :=
  [main_call2_v0, main_v19]

theorem W7_keep (c : Dev nD) (r : Ref sig .tc) (h : r ∉ hostOps1_1_W) :
    W7 m ρ c (Proc.devRef .tc r) = W6 m ρ c (Proc.devRef .tc r) :=
  StableHlo.after_of_writes_sub hostOps1_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps2_W : List (Ref sig .tc) :=
  [main_v21, main_v22, main_c_2, main_v23, main_v24, main_v25, main_v26, main_c_3, main_v27, main_v28,
   main_c_4, main_v29, main_v30, main_v31, main_v32, main_v33, main_v34, main_v35, main_v36, main_cst_5,
   main_v37, main_v38, main_v39, main_cst_6, main_v40, main_v41, main_v42, main_cst_7, main_v43, main_v44,
   main_v45, main_v46, main_v47, main_v48, main_c_8, main_v49, main_v50, main_v51, main_v52, main_c_9,
   main_v53, main_v54, main_c_10, main_v55, main_v56, main_v57, main_v58, main_v59, main_v60, main_v61,
   main_v62, main_cst_11, main_v63, main_v64, main_v65, main_cst_12, main_v66, main_v67, main_v68, main_cst_13,
   main_v69, main_v70, main_v71, main_v72, main_v73, main_v74, main_c_14, main_v75, main_v76, main_v77,
   main_v78, main_c_15, main_v79, main_v80, main_c_16, main_v81, main_v82, main_v83, main_v84, main_v85,
   main_v86, main_v87, main_v88, main_cst_17, main_v89, main_v90, main_v91, main_cst_18, main_v92, main_v93,
   main_v94, main_cst_19, main_v95, main_v96, main_v97, main_v98, main_v99, main_v100, main_v101, main_v102,
   main_v103, main_v104, main_v105, main_v106, main_v107, main_cst_20, main_v108, main_v109, main_c_21]

theorem W9_keep (c : Dev nD) (r : Ref sig .tc) (h : r ∉ hostOps2_W) :
    W9 m ρ c (Proc.devRef .tc r) = W8 m ρ c (Proc.devRef .tc r) :=
  StableHlo.after_of_writes_sub hostOps2 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps2_1_W : List (Ref sig .tc) :=
  [main_call3_v0, main_v110]

theorem W10_keep (c : Dev nD) (r : Ref sig .tc) (h : r ∉ hostOps2_1_W) :
    W10 m ρ c (Proc.devRef .tc r) = W9 m ρ c (Proc.devRef .tc r) :=
  StableHlo.after_of_writes_sub hostOps2_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps3_W : List (Ref sig .tc) :=
  [main_v112, main_v113, main_c_22, main_v114, main_v115, main_v116, main_v117, main_c_23, main_v118,
   main_v119, main_c_24, main_v120, main_v121, main_v122, main_v123, main_v124, main_v125, main_v126,
   main_v127, main_cst_25, main_v128, main_v129, main_v130, main_cst_26, main_v131, main_v132, main_v133,
   main_cst_27, main_v134, main_v135, main_v136, main_v137, main_v138, main_v139, main_c_28, main_v140,
   main_v141, main_v142, main_v143, main_c_29, main_v144, main_v145, main_c_30, main_v146, main_v147,
   main_v148, main_v149, main_v150, main_v151, main_v152, main_v153, main_cst_31, main_v154, main_v155,
   main_v156, main_cst_32, main_v157, main_v158, main_v159, main_cst_33, main_v160, main_v161, main_v162,
   main_v163, main_v164, main_v165, main_c_34, main_v166, main_v167, main_v168, main_v169, main_c_35,
   main_v170, main_v171, main_c_36, main_v172, main_v173, main_v174, main_v175, main_v176, main_v177,
   main_v178, main_v179, main_cst_37, main_v180, main_v181, main_v182, main_cst_38, main_v183, main_v184,
   main_v185, main_cst_39, main_v186, main_v187, main_v188, main_v189, main_v190, main_v191, main_v192,
   main_v193, main_v194, main_v195, main_v196, main_v197, main_v198, main_cst_40, main_v199, main_v200,
   main_c_41]

theorem W12_keep (c : Dev nD) (r : Ref sig .tc) (h : r ∉ hostOps3_W) :
    W12 m ρ c (Proc.devRef .tc r) = W11 m ρ c (Proc.devRef .tc r) :=
  StableHlo.after_of_writes_sub hostOps3 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps3_1_W : List (Ref sig .tc) :=
  [main_call4_v0, main_v201]

theorem W13_keep (c : Dev nD) (r : Ref sig .tc) (h : r ∉ hostOps3_1_W) :
    W13 m ρ c (Proc.devRef .tc r) = W12 m ρ c (Proc.devRef .tc r) :=
  StableHlo.after_of_writes_sub hostOps3_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps4_W : List (Ref sig .tc) :=
  [main_v203, main_v204, main_c_42, main_v205, main_v206, main_v207, main_v208, main_c_43, main_v209,
   main_v210, main_c_44, main_v211, main_v212, main_v213, main_v214, main_v215, main_v216, main_v217,
   main_v218, main_cst_45, main_v219, main_v220, main_v221, main_cst_46, main_v222, main_v223, main_v224,
   main_cst_47, main_v225, main_v226, main_v227, main_v228, main_v229, main_v230, main_c_48, main_v231,
   main_v232, main_v233, main_v234, main_c_49, main_v235, main_v236, main_c_50, main_v237, main_v238,
   main_v239, main_v240, main_v241, main_v242, main_v243, main_v244, main_cst_51, main_v245, main_v246,
   main_v247, main_cst_52, main_v248, main_v249, main_v250, main_cst_53, main_v251, main_v252, main_v253,
   main_v254, main_v255, main_v256, main_c_54, main_v257, main_v258, main_v259, main_v260, main_c_55,
   main_v261, main_v262, main_c_56, main_v263, main_v264, main_v265, main_v266, main_v267, main_v268,
   main_v269, main_v270, main_cst_57, main_v271, main_v272, main_v273, main_cst_58, main_v274, main_v275,
   main_v276, main_cst_59, main_v277, main_v278, main_v279, main_v280, main_v281, main_v282, main_v283,
   main_v284, main_v285, main_v286, main_v287, main_v288, main_v289, main_cst_60, main_v290, main_v291,
   main_c_61]

theorem W15_keep (c : Dev nD) (r : Ref sig .tc) (h : r ∉ hostOps4_W) :
    W15 m ρ c (Proc.devRef .tc r) = W14 m ρ c (Proc.devRef .tc r) :=
  StableHlo.after_of_writes_sub hostOps4 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps4_1_W : List (Ref sig .tc) :=
  [main_call5_v0, main_v292]

theorem W16_keep (c : Dev nD) (r : Ref sig .tc) (h : r ∉ hostOps4_1_W) :
    W16 m ρ c (Proc.devRef .tc r) = W15 m ρ c (Proc.devRef .tc r) :=
  StableHlo.after_of_writes_sub hostOps4_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps5_W : List (Ref sig .tc) :=
  [main_v294, main_v295, main_c_62, main_v296, main_v297, main_v298, main_v299, main_c_63, main_v300,
   main_v301, main_c_64, main_v302, main_v303, main_v304, main_v305, main_v306, main_v307, main_v308,
   main_v309, main_cst_65, main_v310, main_v311, main_v312, main_cst_66, main_v313, main_v314, main_v315,
   main_cst_67, main_v316, main_v317, main_v318, main_v319, main_v320, main_v321, main_c_68, main_v322,
   main_v323, main_v324, main_v325, main_c_69, main_v326, main_v327, main_c_70, main_v328, main_v329,
   main_v330, main_v331, main_v332, main_v333, main_v334, main_v335, main_cst_71, main_v336, main_v337,
   main_v338, main_cst_72, main_v339, main_v340, main_v341, main_cst_73, main_v342, main_v343, main_v344,
   main_v345, main_v346, main_v347, main_c_74, main_v348, main_v349, main_v350, main_v351, main_c_75,
   main_v352, main_v353, main_c_76, main_v354, main_v355, main_v356, main_v357, main_v358, main_v359,
   main_v360, main_v361, main_cst_77, main_v362, main_v363, main_v364, main_cst_78, main_v365, main_v366,
   main_v367, main_cst_79, main_v368, main_v369, main_v370, main_v371, main_v372, main_v373, main_c_80]

theorem W18_keep (c : Dev nD) (r : Ref sig .tc) (h : r ∉ hostOps5_W) :
    W18 m ρ c (Proc.devRef .tc r) = W17 m ρ c (Proc.devRef .tc r) :=
  StableHlo.after_of_writes_sub hostOps5 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps5_1_W : List (Ref sig .tc) :=
  [main_call6_v0, main_v374]

theorem W19_keep (c : Dev nD) (r : Ref sig .tc) (h : r ∉ hostOps5_1_W) :
    W19 m ρ c (Proc.devRef .tc r) = W18 m ρ c (Proc.devRef .tc r) :=
  StableHlo.after_of_writes_sub hostOps5_1 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

abbrev hostOps6_W : List (Ref sig .tc) :=
  [main_v376]

theorem W21_keep (c : Dev nD) (r : Ref sig .tc) (h : r ∉ hostOps6_W) :
    W21 m ρ c (Proc.devRef .tc r) = W20 m ρ c (Proc.devRef .tc r) :=
  StableHlo.after_of_writes_sub hostOps6 _ (by
    simp only [List.Forall]
    repeat' apply And.intro
    all_goals
      simp only [StableHlo.nullary_writes, StableHlo.unary_writes, StableHlo.binary_writes, StableHlo.ternary_writes,
        StableHlo.quaternary_writes, StableHlo.reshape_writes, StableHlo.binaryIndexed_writes, StableHlo.unaryIndexed_writes,
        StableHlo.nary_writes, Finset.singleton_subset_iff, List.mem_toFinset]
      exact List.mem_map_of_mem (by decide)) h

end Cert.KernelIdeal.Gen

end
-- ==== Proof.KIRun.lean ====
import proofs.«415972_j72490458022035_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V10 m ρ) c
  | ⟨3, _⟩ => fun c => dat3 (V13 m ρ) c
  | ⟨4, _⟩ => fun c => dat4 (V16 m ρ) c
  | ⟨5, _⟩ => fun c => dat5 (V19 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W21 m ρ c) ∗ ∃ r, prngReg c r)

theorem last_link (c : Dev nD) :
    iprop(StableHlo.held (c : Thread nD τ) (Pipeline.ucRefs τ sig) (W21 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

/-- The six regions' proof data differ only in contents: these four fields are the same constants in each. -/
theorem pdats_plain (p : Fin 6) (c : Dev nD) : (∀ t, (pdats m ρ p c).Φ t = Pipeline.ΦA (cfgs p).spec c)
    ∧ (∀ w, (pdats m ρ p c).q w = fullShare) ∧ (∀ t, (pdats m ρ p c).owed t = 0) ∧ ∀ t x, x ∈ (pdats m ρ p c).recorded t := by
  fin_cases p <;> exact ⟨fun _ => rfl, fun _ => rfl, fun _ => rfl, fun _ _ => trivial⟩

/-- The one record all six regions are instances of: entered at the buffers `Wi`, left at `Wo`. -/
def regOf (p : Fin 6) (hl : Pipeline.LaunchFacts (nD := nD) (τ := τ) cfgs p) (Wi Wo : Dev nD → Valuation τ sig (Elt F))
    (hbody : ∀ c, Pipeline.BodyObligationLoose (pdats m ρ p c) defs₀ 𝒱₀ () Set.univ)
    (hA : ∀ c w, (pdats m ρ p c).A w = Wi c (Pipeline.arrRef (cfgs p).spec w))
    (hF : ∀ c w, Wo c (Pipeline.arrRef (cfgs p).spec w) = (pdats m ρ p c).arrAt w (cfgs p).N)
    (hrest : ∀ c (b : Ref sig .tc), (∀ w, Pipeline.arrRef (cfgs p).spec w ≠ b) → Wo c b = Wi c b) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p fun c => (pdats_plain m ρ p c).2.2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) hl.win hl.arr_whole c
      ((pdats m ρ p c).share_full (pdats_plain m ρ p c).2.1) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_plain m ρ p c).2.2.1]
      icases HO with ⟨%W, HO⟩; iexists W; isplitr; · ipureintro; exact fun _ _ => Or.inl ((pdats_plain m ρ p c).2.2.2 0 _)
      iexact HO
    isplitl [Hp]; · iexact Hp
    iexact Hrest
  hin c := by
    rw [(pdats_plain m ρ p c).1]; unfold Pipeline.ΦA
    iintro ⟨Hp, -, Hr⟩
    isplitl [Hr]; · iexact Hr
    iexact Hp
  hout c := by
    rw [Pipeline.ownSems0_none, (pdats_plain m ρ p c).1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (pdats_plain m ρ p c).2.1)
      (fun b => Wi c b) (fun b => Wo c b) ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(pdats_plain m ρ p c).2.2.1]
    icases HO with ⟨%W, -, HO⟩; iexists W; iexact HO

def reg0 : Pipeline.RegionSeg (pcfgs (F := F)) adm (pdats m ρ) () defs₀ 𝒱₀ L lv 0 :=
  regOf m ρ 0 launch0 (W4 m ρ) (W5 m ρ) (fun c => (body_obligation0 (V4 m ρ) c).loose) (A_eq0 (V4 m ρ)) (W5_arr m ρ) (W5_of_ne m ρ)

def reg1 : Pipeline.RegionSeg (pcfgs (F := F)) adm (pdats m ρ) () defs₀ 𝒱₀ L lv 1 :=
  regOf m ρ 1 launch1 (W7 m ρ) (W8 m ρ) (fun c => (body_obligation1 (V7 m ρ) c).loose) (A_eq1 (V7 m ρ)) (W8_arr m ρ) (W8_of_ne m ρ)

def reg2 : Pipeline.RegionSeg (pcfgs (F := F)) adm (pdats m ρ) () defs₀ 𝒱₀ L lv 2 :=
  regOf m ρ 2 launch2 (W10 m ρ) (W11 m ρ) (fun c => (body_obligation2 (V10 m ρ) c).loose) (A_eq2 (V10 m ρ)) (W11_arr m ρ) (W11_of_ne m ρ)

def reg3 : Pipeline.RegionSeg (pcfgs (F := F)) adm (pdats m ρ) () defs₀ 𝒱₀ L lv 3 :=
  regOf m ρ 3 launch3 (W13 m ρ) (W14 m ρ) (fun c => (body_obligation3 (V13 m ρ) c).loose) (A_eq3 (V13 m ρ)) (W14_arr m ρ) (W14_of_ne m ρ)

def reg4 : Pipeline.RegionSeg (pcfgs (F := F)) adm (pdats m ρ) () defs₀ 𝒱₀ L lv 4 :=
  regOf m ρ 4 launch4 (W16 m ρ) (W17 m ρ) (fun c => (body_obligation4 (V16 m ρ) c).loose) (A_eq4 (V16 m ρ)) (W17_arr m ρ) (W17_of_ne m ρ)

def reg5 : Pipeline.RegionSeg (pcfgs (F := F)) adm (pdats m ρ) () defs₀ 𝒱₀ L lv 5 :=
  regOf m ρ 5 launch5 (W19 m ρ) (W20 m ρ) (fun c => (body_obligation5 (V19 m ρ) c).loose) (A_eq5 (V19 m ρ)) (W20_arr m ρ) (W20_of_ne m ρ)

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .region (reg0 m ρ),
    .host (hseg hostOps1 hostOps1_sub (W5 m ρ)),
    .host (hseg hostOps1_1 hostOps1_1_sub (W6 m ρ)),
    .region (reg1 m ρ),
    .host (hseg hostOps2 hostOps2_sub (W8 m ρ)),
    .host (hseg hostOps2_1 hostOps2_1_sub (W9 m ρ)),
    .region (reg2 m ρ),
    .host (hseg hostOps3 hostOps3_sub (W11 m ρ)),
    .host (hseg hostOps3_1 hostOps3_1_sub (W12 m ρ)),
    .region (reg3 m ρ),
    .host (hseg hostOps4 hostOps4_sub (W14 m ρ)),
    .host (hseg hostOps4_1 hostOps4_1_sub (W15 m ρ)),
    .region (reg4 m ρ),
    .host (hseg hostOps5 hostOps5_sub (W17 m ρ)),
    .host (hseg hostOps5_1 hostOps5_1_sub (W18 m ρ)),
    .region (reg5 m ρ),
    .host (hseg hostOps6 hostOps6_sub (W20 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- For walking a buffer's contents back across a region: only an output window's array can change there. -/
theorem W5_kept (c : Dev nD) (b : Ref sig .tc) (h : ∀ w, Pipeline.arrRef spec0 w = b → (cfg0.win w).isOut = false) :
    W5 m ρ c (Proc.devRef .tc b) = W4 m ρ c (Proc.devRef .tc b) := by
  by_cases hb : ∃ w, Pipeline.arrRef spec0 w = b
  · obtain ⟨w, rfl⟩ := hb
    exact (W5_arr m ρ c w).trans (((dat0 (V4 m ρ) c).arrAt_in w (h w rfl) _).trans (A_eq0 (V4 m ρ) c w))
  · exact W5_of_ne m ρ c b fun w e => hb ⟨w, e⟩
theorem W8_kept (c : Dev nD) (b : Ref sig .tc) (h : ∀ w, Pipeline.arrRef spec1 w = b → (cfg1.win w).isOut = false) :
    W8 m ρ c (Proc.devRef .tc b) = W7 m ρ c (Proc.devRef .tc b) := by
  by_cases hb : ∃ w, Pipeline.arrRef spec1 w = b
  · obtain ⟨w, rfl⟩ := hb
    exact (W8_arr m ρ c w).trans (((dat1 (V7 m ρ) c).arrAt_in w (h w rfl) _).trans (A_eq1 (V7 m ρ) c w))
  · exact W8_of_ne m ρ c b fun w e => hb ⟨w, e⟩
theorem W11_kept (c : Dev nD) (b : Ref sig .tc) (h : ∀ w, Pipeline.arrRef spec2 w = b → (cfg2.win w).isOut = false) :
    W11 m ρ c (Proc.devRef .tc b) = W10 m ρ c (Proc.devRef .tc b) := by
  by_cases hb : ∃ w, Pipeline.arrRef spec2 w = b
  · obtain ⟨w, rfl⟩ := hb
    exact (W11_arr m ρ c w).trans (((dat2 (V10 m ρ) c).arrAt_in w (h w rfl) _).trans (A_eq2 (V10 m ρ) c w))
  · exact W11_of_ne m ρ c b fun w e => hb ⟨w, e⟩
theorem W14_kept (c : Dev nD) (b : Ref sig .tc) (h : ∀ w, Pipeline.arrRef spec3 w = b → (cfg3.win w).isOut = false) :
    W14 m ρ c (Proc.devRef .tc b) = W13 m ρ c (Proc.devRef .tc b) := by
  by_cases hb : ∃ w, Pipeline.arrRef spec3 w = b
  · obtain ⟨w, rfl⟩ := hb
    exact (W14_arr m ρ c w).trans (((dat3 (V13 m ρ) c).arrAt_in w (h w rfl) _).trans (A_eq3 (V13 m ρ) c w))
  · exact W14_of_ne m ρ c b fun w e => hb ⟨w, e⟩
theorem W17_kept (c : Dev nD) (b : Ref sig .tc) (h : ∀ w, Pipeline.arrRef spec4 w = b → (cfg4.win w).isOut = false) :
    W17 m ρ c (Proc.devRef .tc b) = W16 m ρ c (Proc.devRef .tc b) := by
  by_cases hb : ∃ w, Pipeline.arrRef spec4 w = b
  · obtain ⟨w, rfl⟩ := hb
    exact (W17_arr m ρ c w).trans (((dat4 (V16 m ρ) c).arrAt_in w (h w rfl) _).trans (A_eq4 (V16 m ρ) c w))
  · exact W17_of_ne m ρ c b fun w e => hb ⟨w, e⟩
theorem W20_kept (c : Dev nD) (b : Ref sig .tc) (h : ∀ w, Pipeline.arrRef spec5 w = b → (cfg5.win w).isOut = false) :
    W20 m ρ c (Proc.devRef .tc b) = W19 m ρ c (Proc.devRef .tc b) := by
  by_cases hb : ∃ w, Pipeline.arrRef spec5 w = b
  · obtain ⟨w, rfl⟩ := hb
    exact (W20_arr m ρ c w).trans (((dat5 (V19 m ρ) c).arrAt_in w (h w rfl) _).trans (A_eq5 (V19 m ρ) c w))
  · exact W20_of_ne m ρ c b fun w e => hb ⟨w, e⟩

/-- The condition under which a buffer ends as launched. -/
abbrev Unwritten (b : Ref sig .tc) : Prop :=
  (b ∉ hostOps0_W ∧ b ∉ hostOps0_1_W ∧ b ∉ hostOps0_2_W ∧ b ∉ hostOps0_3_W ∧ b ∉ hostOps1_W ∧ b ∉ hostOps1_1_W ∧ b ∉ hostOps2_W ∧ b ∉ hostOps2_1_W ∧ b ∉ hostOps3_W ∧ b ∉ hostOps3_1_W ∧ b ∉ hostOps4_W ∧ b ∉ hostOps4_1_W ∧ b ∉ hostOps5_W ∧ b ∉ hostOps5_1_W ∧ b ∉ hostOps6_W)
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ (∀ w, Pipeline.arrRef spec3 w = b → (cfg3.win w).isOut = false)
    ∧ (∀ w, Pipeline.arrRef spec4 w = b → (cfg4.win w).isOut = false)
    ∧ (∀ w, Pipeline.arrRef spec5 w = b → (cfg5.win w).isOut = false)

/-- The fold at an unwritten buffer walks back, item by item, to the launch memory. -/
theorem W21_unwritten (c : Dev nD) (b : Ref sig .tc) (h : Unwritten b) :
    W21 m ρ c (Proc.devRef .tc b) = m ((c : Thread nD τ).loc b) := by
  obtain ⟨⟨h1, h2, h3, h4, h6, h7, h9, h10, h12, h13, h15, h16, h18, h19, h21⟩, h5, h8, h11, h14, h17, h20⟩ := h
  exact (W21_keep m ρ c b h21).trans <| (W20_kept m ρ c b h20).trans <| (W19_keep m ρ c b h19).trans <| (W18_keep m ρ c b h18).trans <| (W17_kept m ρ c b h17).trans <| (W16_keep m ρ c b h16).trans <| (W15_keep m ρ c b h15).trans <| (W14_kept m ρ c b h14).trans <| (W13_keep m ρ c b h13).trans <| (W12_keep m ρ c b h12).trans <| (W11_kept m ρ c b h11).trans <| (W10_keep m ρ c b h10).trans <| (W9_keep m ρ c b h9).trans <| (W8_kept m ρ c b h8).trans <| (W7_keep m ρ c b h7).trans <| (W6_keep m ρ c b h6).trans <| (W5_kept m ρ c b h5).trans <| (W4_keep m ρ c b h4).trans <| (W3_keep m ρ c b h3).trans <| (W2_keep m ρ c b h2).trans <| W1_keep m ρ c b h1
theorem run_kept : θ_run defs (onTc (τ := τ) (main (F := F))) ⟨m, fun _ => 0, ρ⟩ (fun r => ∀ (c : Dev nD) (b : Ref sig .tc),
      ¬ (Proc.devRef .tc b : DevRef τ sig).isScoped → Unwritten b →
      r.2.mem ((c.tc : Thread nD τ).loc b) = m ((c.tc : Thread nD τ).loc b)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W21 m ρ c b)
    (fun r h c b hs hb => (h c _ (mem_uc b hs)).trans (W21_unwritten m ρ c b hb)) (run_all m ρ)

end Cert.KernelIdeal.Gen

end
-- ==== Proof.RefOps0.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 60 operations of @main's statements 1 … 60, in order (a called function's operations stand in its call's place). -/
abbrev ops_part0 : List (HloOp τ sig (Elt F)) :=
  [ unary main_arg2 main_v0 ((extractStridedSlice S1x2000000 ![0, 0] · slices_S2x2000000_S1x2000000_0_0) : (⟨S2x2000000, .i32⟩ : BufTy).Contents (Elt F) → (⟨S1x2000000, .i32⟩ : BufTy).Contents (Elt F)),
    reshape main_v0 main_v1 rfl shapeCasts_S1x2000000_S2000000,
    unary main_arg2 main_v2 ((extractStridedSlice S1x2000000 ![1, 0] · slices_S2x2000000_S1x2000000_1_0) : (⟨S2x2000000, .i32⟩ : BufTy).Contents (Elt F) → (⟨S1x2000000, .i32⟩ : BufTy).Contents (Elt F)),
    reshape main_v2 main_v3 rfl shapeCasts_S1x2000000_S2000000,
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_arg1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 15#32),
    unary main_c_0 main_v6 (broadcastInDim S1000000 ![] bcast_S_S1000000 : (⟨S_, .i32⟩ : BufTy).Contents (Elt F) → (⟨S1000000, .i32⟩ : BufTy).Contents (Elt F)),
    binary main_arg1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_arg1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg4 main_v9 main_v10 ((fun x i => Host.gather gather_S15x4_S1000000x1_S1000000x4_1_0_n_n_0_1_14 x i) : (⟨S15x4, .f32⟩ : BufTy).Contents (Elt F) → (⟨S1000000x1, .i32⟩ : BufTy).Contents (Elt F) → (⟨S1000000x4, .f32⟩ : BufTy).Contents (Elt F)),
    nullary main_c_1 (constantI S_ 32 0#32),
    unary main_c_1 main_v11 (broadcastInDim S1000000 ![] bcast_S_S1000000 : (⟨S_, .i32⟩ : BufTy).Contents (Elt F) → (⟨S1000000, .i32⟩ : BufTy).Contents (Elt F)),
    binary main_arg0 main_v11 main_v12 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 202#32),
    unary main_c_2 main_v13 (broadcastInDim S1000000 ![] bcast_S_S1000000 : (⟨S_, .i32⟩ : BufTy).Contents (Elt F) → (⟨S1000000, .i32⟩ : BufTy).Contents (Elt F)),
    binary main_arg0 main_v13 main_v14 (addi : (⟨S1000000, .i32⟩ : BufTy).Contents (Elt F) → (⟨S1000000, .i32⟩ : BufTy).Contents (Elt F) → (⟨S1000000, .i32⟩ : BufTy).Contents (Elt F)),
    ternary main_v12 main_v14 main_arg0 main_v15 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v15 main_v16 (broadcastInDim S1000000x1 ![0] bcast_S1000000_S1000000x1_0 : (⟨S1000000, .i32⟩ : BufTy).Contents (Elt F) → (⟨S1000000x1, .i32⟩ : BufTy).Contents (Elt F)),
    binary main_arg5 main_v16 main_v17 ((fun x i => Host.gather gather_S202x32_S1000000x1_S1000000x32_1_0_n_n_0_1_132 x i) : (⟨S202x32, .f32⟩ : BufTy).Contents (Elt F) → (⟨S1000000x1, .i32⟩ : BufTy).Contents (Elt F) → (⟨S1000000x32, .f32⟩ : BufTy).Contents (Elt F)),
    binary main_v10 main_v17 main_v18 ((fun a b => concatenate S1000000x36 1 [⟨S1000000x4, a⟩, ⟨S1000000x32, b⟩] concatenates_S1000000x4_S1000000x32_S1000000x36_d1) : (⟨S1000000x4, .f32⟩ : BufTy).Contents (Elt F) → (⟨S1000000x32, .f32⟩ : BufTy).Contents (Elt F) → (⟨S1000000x36, .f32⟩ : BufTy).Contents (Elt F)),
    binary main_v18 main_arg7 main_v19 ((fun l r => Host.dotGeneral dot_S1000000x36_S36x24_S1000000x24_1_0_0_1_n_n none l r) : (⟨S1000000x36, .f32⟩ : BufTy).Contents (Elt F) → (⟨S36x24, .f32⟩ : BufTy).Contents (Elt F) → (⟨S1000000x24, .f32⟩ : BufTy).Contents (Elt F)),
    unary main_arg8 main_v20 (broadcastInDim S1x24 ![1] bcast_S24_S1x24_1 : (⟨S24, .f32⟩ : BufTy).Contents (Elt F) → (⟨S1x24, .f32⟩ : BufTy).Contents (Elt F)),
    unary main_v20 main_v21 (broadcastInDim S1000000x24 ![0, 1] bcast_S1x24_S1000000x24_0_1 : (⟨S1x24, .f32⟩ : BufTy).Contents (Elt F) → (⟨S1000000x24, .f32⟩ : BufTy).Contents (Elt F)),
    binary main_v19 main_v21 main_v22 (addf : (⟨S1000000x24, .f32⟩ : BufTy).Contents (Elt F) → (⟨S1000000x24, .f32⟩ : BufTy).Contents (Elt F) → (⟨S1000000x24, .f32⟩ : BufTy).Contents (Elt F)),
    nullary main_c_3 (constantI S_ 32 0#32),
    unary main_c_3 main_v23 (broadcastInDim S2000000 ![] bcast_S_S2000000 : (⟨S_, .i32⟩ : BufTy).Contents (Elt F) → (⟨S2000000, .i32⟩ : BufTy).Contents (Elt F)),
    binary main_arg3 main_v23 main_v24 (cmpi .eq : (⟨S2000000, .i32⟩ : BufTy).Contents (Elt F) → (⟨S2000000, .i32⟩ : BufTy).Contents (Elt F) → (⟨S2000000, .i1⟩ : BufTy).Contents (Elt F)),
    unary main_v24 main_v25 (uitofp .f32 : (⟨S2000000, .i1⟩ : BufTy).Contents (Elt F) → (⟨S2000000, .f32⟩ : BufTy).Contents (Elt F)),
    unary main_arg6 main_v26 ((extractStridedSlice S1x36x24 ![0, 0, 0] · slices_S3x36x24_S1x36x24_0_0_0) : (⟨S3x36x24, .f32⟩ : BufTy).Contents (Elt F) → (⟨S1x36x24, .f32⟩ : BufTy).Contents (Elt F)),
    reshape main_v26 main_v27 rfl shapeCasts_S1x36x24_S36x24,
    binary main_v18 main_v27 main_v28 ((fun l r => Host.dotGeneral dot_S1000000x36_S36x24_S1000000x24_1_0_0_1_n_n none l r) : (⟨S1000000x36, .f32⟩ : BufTy).Contents (Elt F) → (⟨S36x24, .f32⟩ : BufTy).Contents (Elt F) → (⟨S1000000x24, .f32⟩ : BufTy).Contents (Elt F)),
    nullary main_c_4 (constantI S_ 32 0#32),
    unary main_c_4 main_v29 (broadcastInDim S2000000 ![] bcast_S_S2000000 : (⟨S_, .i32⟩ : BufTy).Contents (Elt F) → (⟨S2000000, .i32⟩ : BufTy).Contents (Elt F)),
    binary main_v1 main_v29 main_v30 (cmpi .slt : (⟨S2000000, .i32⟩ : BufTy).Contents (Elt F) → (⟨S2000000, .i32⟩ : BufTy).Contents (Elt F) → (⟨S2000000, .i1⟩ : BufTy).Contents (Elt F)),
    nullary main_c_5 (constantI S_ 32 1000000#32),
    unary main_c_5 main_v31 (broadcastInDim S2000000 ![] bcast_S_S2000000 : (⟨S_, .i32⟩ : BufTy).Contents (Elt F) → (⟨S2000000, .i32⟩ : BufTy).Contents (Elt F)),
    binary main_v1 main_v31 main_v32 (addi : (⟨S2000000, .i32⟩ : BufTy).Contents (Elt F) → (⟨S2000000, .i32⟩ : BufTy).Contents (Elt F) → (⟨S2000000, .i32⟩ : BufTy).Contents (Elt F)),
    ternary main_v30 main_v32 main_v1 main_v33 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v33 main_v34 (broadcastInDim S2000000x1 ![0] bcast_S2000000_S2000000x1_0 : (⟨S2000000, .i32⟩ : BufTy).Contents (Elt F) → (⟨S2000000x1, .i32⟩ : BufTy).Contents (Elt F)),
    binary main_v28 main_v34 main_v35 ((fun x i => Host.gather gather_S1000000x24_S2000000x1_S2000000x24_1_0_n_n_0_1_124 x i) : (⟨S1000000x24, .f32⟩ : BufTy).Contents (Elt F) → (⟨S2000000x1, .i32⟩ : BufTy).Contents (Elt F) → (⟨S2000000x24, .f32⟩ : BufTy).Contents (Elt F)),
    unary main_v25 main_v36 (broadcastInDim S2000000x1 ![0] bcast_S2000000_S2000000x1_0 : (⟨S2000000, .f32⟩ : BufTy).Contents (Elt F) → (⟨S2000000x1, .f32⟩ : BufTy).Contents (Elt F)),
    unary main_v36 main_v37 (broadcastInDim S2000000x24 ![0, 1] bcast_S2000000x1_S2000000x24_0_1 : (⟨S2000000x1, .f32⟩ : BufTy).Contents (Elt F) → (⟨S2000000x24, .f32⟩ : BufTy).Contents (Elt F)),
    binary main_v35 main_v37 main_v38 (mulf : (⟨S2000000x24, .f32⟩ : BufTy).Contents (Elt F) → (⟨S2000000x24, .f32⟩ : BufTy).Contents (Elt F) → (⟨S2000000x24, .f32⟩ : BufTy).Contents (Elt F)),
    nullary main_cst (constant S_ .f32 0x00000000#32),
    unary main_cst main_v39 (broadcastInDim S1000000x24 ![] bcast_S_S1000000x24 : (⟨S_, .f32⟩ : BufTy).Contents (Elt F) → (⟨S1000000x24, .f32⟩ : BufTy).Contents (Elt F)),
    unary main_v3 main_v40 (broadcastInDim S2000000x1 ![0] bcast_S2000000_S2000000x1_0 : (⟨S2000000, .i32⟩ : BufTy).Contents (Elt F) → (⟨S2000000x1, .i32⟩ : BufTy).Contents (Elt F)),
    ternary main_v39 main_v40 main_v38 main_v41 ((fun x i u => Host.scatterAdd scatter_S1000000x24_S2000000x1_S2000000x24_1_0_0_1 x i u) : (⟨S1000000x24, .f32⟩ : BufTy).Contents (Elt F) → (⟨S2000000x1, .i32⟩ : BufTy).Contents (Elt F) → (⟨S2000000x24, .f32⟩ : BufTy).Contents (Elt F) → (⟨S1000000x24, .f32⟩ : BufTy).Contents (Elt F)),
    nullary main_cst_6 (constant S_ .f32 0x00000000#32),
    unary main_cst_6 main_v42 (broadcastInDim S1000000 ![] bcast_S_S1000000 : (⟨S_, .f32⟩ : BufTy).Contents (Elt F) → (⟨S1000000, .f32⟩ : BufTy).Contents (Elt F)),
    unary main_v3 main_v43 (broadcastInDim S2000000x1 ![0] bcast_S2000000_S2000000x1_0 : (⟨S2000000, .i32⟩ : BufTy).Contents (Elt F) → (⟨S2000000x1, .i32⟩ : BufTy).Contents (Elt F)),
    ternary main_v42 main_v43 main_v25 main_v44 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_7 (constant S_ .f32 0x3F800000#32),
    unary main_cst_7 main_v45 (broadcastInDim S1000000 ![] bcast_S_S1000000 : (⟨S_, .f32⟩ : BufTy).Contents (Elt F) → (⟨S1000000, .f32⟩ : BufTy).Contents (Elt F)),
    binary main_v44 main_v45 main_v46 (maximumf : (⟨S1000000, .f32⟩ : BufTy).Contents (Elt F) → (⟨S1000000, .f32⟩ : BufTy).Contents (Elt F) → (⟨S1000000, .f32⟩ : BufTy).Contents (Elt F)),
    unary main_v46 main_v47 (broadcastInDim S1000000x1 ![0] bcast_S1000000_S1000000x1_0 : (⟨S1000000, .f32⟩ : BufTy).Contents (Elt F) → (⟨S1000000x1, .f32⟩ : BufTy).Contents (Elt F)),
    unary main_v47 main_v48 (broadcastInDim S1000000x24 ![0, 1] bcast_S1000000x1_S1000000x24_0_1 : (⟨S1000000x1, .f32⟩ : BufTy).Contents (Elt F) → (⟨S1000000x24, .f32⟩ : BufTy).Contents (Elt F)),
    binary main_v41 main_v48 main_v49 (Host.divf : (⟨S1000000x24, .f32⟩ : BufTy).Contents (Elt F) → (⟨S1000000x24, .f32⟩ : BufTy).Contents (Elt F) → (⟨S1000000x24, .f32⟩ : BufTy).Contents (Elt F)) ]

/-- Every operation of the window touches TensorCore references only. -/
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
set_option maxHeartbeats 4000000 in
/-- The window IS the line of its operations: the two sides unfold to the same steps. -/
theorem main_part0_eq (c : Dev nD) : main_part0 (F := F) c = seq ops_part0 := rfl

end Cert.ReferenceIdeal.Hand

end
-- ==== Proof.RefOps1.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 60 operations of @main's statements 61 … 120, in order (a called function's operations stand in its call's place). -/
abbrev ops_part1 : List (HloOp τ sig (Elt F)) :=
  [ binary main_v22 main_v49 main_v50 (addf : (⟨S1000000x24, .f32⟩ : BufTy).Contents (Elt F) → (⟨S1000000x24, .f32⟩ : BufTy).Contents (Elt F) → (⟨S1000000x24, .f32⟩ : BufTy).Contents (Elt F)),
    nullary main_c_8 (constantI S_ 32 1#32),
    unary main_c_8 main_v51 (broadcastInDim S2000000 ![] bcast_S_S2000000 : (⟨S_, .i32⟩ : BufTy).Contents (Elt F) → (⟨S2000000, .i32⟩ : BufTy).Contents (Elt F)),
    binary main_arg3 main_v51 main_v52 (cmpi .eq : (⟨S2000000, .i32⟩ : BufTy).Contents (Elt F) → (⟨S2000000, .i32⟩ : BufTy).Contents (Elt F) → (⟨S2000000, .i1⟩ : BufTy).Contents (Elt F)),
    unary main_v52 main_v53 (uitofp .f32 : (⟨S2000000, .i1⟩ : BufTy).Contents (Elt F) → (⟨S2000000, .f32⟩ : BufTy).Contents (Elt F)),
    unary main_arg6 main_v54 ((extractStridedSlice S1x36x24 ![1, 0, 0] · slices_S3x36x24_S1x36x24_1_0_0) : (⟨S3x36x24, .f32⟩ : BufTy).Contents (Elt F) → (⟨S1x36x24, .f32⟩ : BufTy).Contents (Elt F)),
    reshape main_v54 main_v55 rfl shapeCasts_S1x36x24_S36x24,
    binary main_v18 main_v55 main_v56 ((fun l r => Host.dotGeneral dot_S1000000x36_S36x24_S1000000x24_1_0_0_1_n_n none l r) : (⟨S1000000x36, .f32⟩ : BufTy).Contents (Elt F) → (⟨S36x24, .f32⟩ : BufTy).Contents (Elt F) → (⟨S1000000x24, .f32⟩ : BufTy).Contents (Elt F)),
    nullary main_c_9 (constantI S_ 32 0#32),
    unary main_c_9 main_v57 (broadcastInDim S2000000 ![] bcast_S_S2000000 : (⟨S_, .i32⟩ : BufTy).Contents (Elt F) → (⟨S2000000, .i32⟩ : BufTy).Contents (Elt F)),
    binary main_v1 main_v57 main_v58 (cmpi .slt : (⟨S2000000, .i32⟩ : BufTy).Contents (Elt F) → (⟨S2000000, .i32⟩ : BufTy).Contents (Elt F) → (⟨S2000000, .i1⟩ : BufTy).Contents (Elt F)),
    nullary main_c_10 (constantI S_ 32 1000000#32),
    unary main_c_10 main_v59 (broadcastInDim S2000000 ![] bcast_S_S2000000 : (⟨S_, .i32⟩ : BufTy).Contents (Elt F) → (⟨S2000000, .i32⟩ : BufTy).Contents (Elt F)),
    binary main_v1 main_v59 main_v60 (addi : (⟨S2000000, .i32⟩ : BufTy).Contents (Elt F) → (⟨S2000000, .i32⟩ : BufTy).Contents (Elt F) → (⟨S2000000, .i32⟩ : BufTy).Contents (Elt F)),
    ternary main_v58 main_v60 main_v1 main_v61 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v61 main_v62 (broadcastInDim S2000000x1 ![0] bcast_S2000000_S2000000x1_0 : (⟨S2000000, .i32⟩ : BufTy).Contents (Elt F) → (⟨S2000000x1, .i32⟩ : BufTy).Contents (Elt F)),
    binary main_v56 main_v62 main_v63 ((fun x i => Host.gather gather_S1000000x24_S2000000x1_S2000000x24_1_0_n_n_0_1_124 x i) : (⟨S1000000x24, .f32⟩ : BufTy).Contents (Elt F) → (⟨S2000000x1, .i32⟩ : BufTy).Contents (Elt F) → (⟨S2000000x24, .f32⟩ : BufTy).Contents (Elt F)),
    unary main_v53 main_v64 (broadcastInDim S2000000x1 ![0] bcast_S2000000_S2000000x1_0 : (⟨S2000000, .f32⟩ : BufTy).Contents (Elt F) → (⟨S2000000x1, .f32⟩ : BufTy).Contents (Elt F)),
    unary main_v64 main_v65 (broadcastInDim S2000000x24 ![0, 1] bcast_S2000000x1_S2000000x24_0_1 : (⟨S2000000x1, .f32⟩ : BufTy).Contents (Elt F) → (⟨S2000000x24, .f32⟩ : BufTy).Contents (Elt F)),
    binary main_v63 main_v65 main_v66 (mulf : (⟨S2000000x24, .f32⟩ : BufTy).Contents (Elt F) → (⟨S2000000x24, .f32⟩ : BufTy).Contents (Elt F) → (⟨S2000000x24, .f32⟩ : BufTy).Contents (Elt F)),
    nullary main_cst_11 (constant S_ .f32 0x00000000#32),
    unary main_cst_11 main_v67 (broadcastInDim S1000000x24 ![] bcast_S_S1000000x24 : (⟨S_, .f32⟩ : BufTy).Contents (Elt F) → (⟨S1000000x24, .f32⟩ : BufTy).Contents (Elt F)),
    unary main_v3 main_v68 (broadcastInDim S2000000x1 ![0] bcast_S2000000_S2000000x1_0 : (⟨S2000000, .i32⟩ : BufTy).Contents (Elt F) → (⟨S2000000x1, .i32⟩ : BufTy).Contents (Elt F)),
    ternary main_v67 main_v68 main_v66 main_v69 ((fun x i u => Host.scatterAdd scatter_S1000000x24_S2000000x1_S2000000x24_1_0_0_1 x i u) : (⟨S1000000x24, .f32⟩ : BufTy).Contents (Elt F) → (⟨S2000000x1, .i32⟩ : BufTy).Contents (Elt F) → (⟨S2000000x24, .f32⟩ : BufTy).Contents (Elt F) → (⟨S1000000x24, .f32⟩ : BufTy).Contents (Elt F)),
    nullary main_cst_12 (constant S_ .f32 0x00000000#32),
    unary main_cst_12 main_v70 (broadcastInDim S1000000 ![] bcast_S_S1000000 : (⟨S_, .f32⟩ : BufTy).Contents (Elt F) → (⟨S1000000, .f32⟩ : BufTy).Contents (Elt F)),
    unary main_v3 main_v71 (broadcastInDim S2000000x1 ![0] bcast_S2000000_S2000000x1_0 : (⟨S2000000, .i32⟩ : BufTy).Contents (Elt F) → (⟨S2000000x1, .i32⟩ : BufTy).Contents (Elt F)),
    ternary main_v70 main_v71 main_v53 main_v72 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_13 (constant S_ .f32 0x3F800000#32),
    unary main_cst_13 main_v73 (broadcastInDim S1000000 ![] bcast_S_S1000000 : (⟨S_, .f32⟩ : BufTy).Contents (Elt F) → (⟨S1000000, .f32⟩ : BufTy).Contents (Elt F)),
    binary main_v72 main_v73 main_v74 (maximumf : (⟨S1000000, .f32⟩ : BufTy).Contents (Elt F) → (⟨S1000000, .f32⟩ : BufTy).Contents (Elt F) → (⟨S1000000, .f32⟩ : BufTy).Contents (Elt F)),
    unary main_v74 main_v75 (broadcastInDim S1000000x1 ![0] bcast_S1000000_S1000000x1_0 : (⟨S1000000, .f32⟩ : BufTy).Contents (Elt F) → (⟨S1000000x1, .f32⟩ : BufTy).Contents (Elt F)),
    unary main_v75 main_v76 (broadcastInDim S1000000x24 ![0, 1] bcast_S1000000x1_S1000000x24_0_1 : (⟨S1000000x1, .f32⟩ : BufTy).Contents (Elt F) → (⟨S1000000x24, .f32⟩ : BufTy).Contents (Elt F)),
    binary main_v69 main_v76 main_v77 (Host.divf : (⟨S1000000x24, .f32⟩ : BufTy).Contents (Elt F) → (⟨S1000000x24, .f32⟩ : BufTy).Contents (Elt F) → (⟨S1000000x24, .f32⟩ : BufTy).Contents (Elt F)),
    binary main_v50 main_v77 main_v78 (addf : (⟨S1000000x24, .f32⟩ : BufTy).Contents (Elt F) → (⟨S1000000x24, .f32⟩ : BufTy).Contents (Elt F) → (⟨S1000000x24, .f32⟩ : BufTy).Contents (Elt F)),
    nullary main_c_14 (constantI S_ 32 2#32),
    unary main_c_14 main_v79 (broadcastInDim S2000000 ![] bcast_S_S2000000 : (⟨S_, .i32⟩ : BufTy).Contents (Elt F) → (⟨S2000000, .i32⟩ : BufTy).Contents (Elt F)),
    binary main_arg3 main_v79 main_v80 (cmpi .eq : (⟨S2000000, .i32⟩ : BufTy).Contents (Elt F) → (⟨S2000000, .i32⟩ : BufTy).Contents (Elt F) → (⟨S2000000, .i1⟩ : BufTy).Contents (Elt F)),
    unary main_v80 main_v81 (uitofp .f32 : (⟨S2000000, .i1⟩ : BufTy).Contents (Elt F) → (⟨S2000000, .f32⟩ : BufTy).Contents (Elt F)),
    unary main_arg6 main_v82 ((extractStridedSlice S1x36x24 ![2, 0, 0] · slices_S3x36x24_S1x36x24_2_0_0) : (⟨S3x36x24, .f32⟩ : BufTy).Contents (Elt F) → (⟨S1x36x24, .f32⟩ : BufTy).Contents (Elt F)),
    reshape main_v82 main_v83 rfl shapeCasts_S1x36x24_S36x24,
    binary main_v18 main_v83 main_v84 ((fun l r => Host.dotGeneral dot_S1000000x36_S36x24_S1000000x24_1_0_0_1_n_n none l r) : (⟨S1000000x36, .f32⟩ : BufTy).Contents (Elt F) → (⟨S36x24, .f32⟩ : BufTy).Contents (Elt F) → (⟨S1000000x24, .f32⟩ : BufTy).Contents (Elt F)),
    nullary main_c_15 (constantI S_ 32 0#32),
    unary main_c_15 main_v85 (broadcastInDim S2000000 ![] bcast_S_S2000000 : (⟨S_, .i32⟩ : BufTy).Contents (Elt F) → (⟨S2000000, .i32⟩ : BufTy).Contents (Elt F)),
    binary main_v1 main_v85 main_v86 (cmpi .slt : (⟨S2000000, .i32⟩ : BufTy).Contents (Elt F) → (⟨S2000000, .i32⟩ : BufTy).Contents (Elt F) → (⟨S2000000, .i1⟩ : BufTy).Contents (Elt F)),
    nullary main_c_16 (constantI S_ 32 1000000#32),
    unary main_c_16 main_v87 (broadcastInDim S2000000 ![] bcast_S_S2000000 : (⟨S_, .i32⟩ : BufTy).Contents (Elt F) → (⟨S2000000, .i32⟩ : BufTy).Contents (Elt F)),
    binary main_v1 main_v87 main_v88 (addi : (⟨S2000000, .i32⟩ : BufTy).Contents (Elt F) → (⟨S2000000, .i32⟩ : BufTy).Contents (Elt F) → (⟨S2000000, .i32⟩ : BufTy).Contents (Elt F)),
    ternary main_v86 main_v88 main_v1 main_v89 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v89 main_v90 (broadcastInDim S2000000x1 ![0] bcast_S2000000_S2000000x1_0 : (⟨S2000000, .i32⟩ : BufTy).Contents (Elt F) → (⟨S2000000x1, .i32⟩ : BufTy).Contents (Elt F)),
    binary main_v84 main_v90 main_v91 ((fun x i => Host.gather gather_S1000000x24_S2000000x1_S2000000x24_1_0_n_n_0_1_124 x i) : (⟨S1000000x24, .f32⟩ : BufTy).Contents (Elt F) → (⟨S2000000x1, .i32⟩ : BufTy).Contents (Elt F) → (⟨S2000000x24, .f32⟩ : BufTy).Contents (Elt F)),
    unary main_v81 main_v92 (broadcastInDim S2000000x1 ![0] bcast_S2000000_S2000000x1_0 : (⟨S2000000, .f32⟩ : BufTy).Contents (Elt F) → (⟨S2000000x1, .f32⟩ : BufTy).Contents (Elt F)),
    unary main_v92 main_v93 (broadcastInDim S2000000x24 ![0, 1] bcast_S2000000x1_S2000000x24_0_1 : (⟨S2000000x1, .f32⟩ : BufTy).Contents (Elt F) → (⟨S2000000x24, .f32⟩ : BufTy).Contents (Elt F)),
    binary main_v91 main_v93 main_v94 (mulf : (⟨S2000000x24, .f32⟩ : BufTy).Contents (Elt F) → (⟨S2000000x24, .f32⟩ : BufTy).Contents (Elt F) → (⟨S2000000x24, .f32⟩ : BufTy).Contents (Elt F)),
    nullary main_cst_17 (constant S_ .f32 0x00000000#32),
    unary main_cst_17 main_v95 (broadcastInDim S1000000x24 ![] bcast_S_S1000000x24 : (⟨S_, .f32⟩ : BufTy).Contents (Elt F) → (⟨S1000000x24, .f32⟩ : BufTy).Contents (Elt F)),
    unary main_v3 main_v96 (broadcastInDim S2000000x1 ![0] bcast_S2000000_S2000000x1_0 : (⟨S2000000, .i32⟩ : BufTy).Contents (Elt F) → (⟨S2000000x1, .i32⟩ : BufTy).Contents (Elt F)),
    ternary main_v95 main_v96 main_v94 main_v97 ((fun x i u => Host.scatterAdd scatter_S1000000x24_S2000000x1_S2000000x24_1_0_0_1 x i u) : (⟨S1000000x24, .f32⟩ : BufTy).Contents (Elt F) → (⟨S2000000x1, .i32⟩ : BufTy).Contents (Elt F) → (⟨S2000000x24, .f32⟩ : BufTy).Contents (Elt F) → (⟨S1000000x24, .f32⟩ : BufTy).Contents (Elt F)),
    nullary main_cst_18 (constant S_ .f32 0x00000000#32),
    unary main_cst_18 main_v98 (broadcastInDim S1000000 ![] bcast_S_S1000000 : (⟨S_, .f32⟩ : BufTy).Contents (Elt F) → (⟨S1000000, .f32⟩ : BufTy).Contents (Elt F)) ]

/-- Every operation of the window touches TensorCore references only. -/
theorem ops_part1_sub : (ops_part1 : List (HloOp τ sig (Elt F))).Forall fun op => op.bufs ⊆ tcRefs τ sig :=
  ⟨binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub ..⟩

set_option maxRecDepth 8192 in
set_option maxHeartbeats 4000000 in
/-- The window IS the line of its operations: the two sides unfold to the same steps. -/
theorem main_part1_eq (c : Dev nD) : main_part1 (F := F) c = seq ops_part1 := rfl

end Cert.ReferenceIdeal.Hand

end
-- ==== Proof.RefOps2.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 62 operations of @main's statements 121 … 180, in order (a called function's operations stand in its call's place). -/
abbrev ops_part2 : List (HloOp τ sig (Elt F)) :=
  [ unary main_v3 main_v99 (broadcastInDim S2000000x1 ![0] bcast_S2000000_S2000000x1_0 : (⟨S2000000, .i32⟩ : BufTy).Contents (Elt F) → (⟨S2000000x1, .i32⟩ : BufTy).Contents (Elt F)),
    ternary main_v98 main_v99 main_v81 main_v100 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_19 (constant S_ .f32 0x3F800000#32),
    unary main_cst_19 main_v101 (broadcastInDim S1000000 ![] bcast_S_S1000000 : (⟨S_, .f32⟩ : BufTy).Contents (Elt F) → (⟨S1000000, .f32⟩ : BufTy).Contents (Elt F)),
    binary main_v100 main_v101 main_v102 (maximumf : (⟨S1000000, .f32⟩ : BufTy).Contents (Elt F) → (⟨S1000000, .f32⟩ : BufTy).Contents (Elt F) → (⟨S1000000, .f32⟩ : BufTy).Contents (Elt F)),
    unary main_v102 main_v103 (broadcastInDim S1000000x1 ![0] bcast_S1000000_S1000000x1_0 : (⟨S1000000, .f32⟩ : BufTy).Contents (Elt F) → (⟨S1000000x1, .f32⟩ : BufTy).Contents (Elt F)),
    unary main_v103 main_v104 (broadcastInDim S1000000x24 ![0, 1] bcast_S1000000x1_S1000000x24_0_1 : (⟨S1000000x1, .f32⟩ : BufTy).Contents (Elt F) → (⟨S1000000x24, .f32⟩ : BufTy).Contents (Elt F)),
    binary main_v97 main_v104 main_v105 (Host.divf : (⟨S1000000x24, .f32⟩ : BufTy).Contents (Elt F) → (⟨S1000000x24, .f32⟩ : BufTy).Contents (Elt F) → (⟨S1000000x24, .f32⟩ : BufTy).Contents (Elt F)),
    binary main_v78 main_v105 main_v106 (addf : (⟨S1000000x24, .f32⟩ : BufTy).Contents (Elt F) → (⟨S1000000x24, .f32⟩ : BufTy).Contents (Elt F) → (⟨S1000000x24, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1000000x24, .f32⟩) main_call0_v0) (broadcastInDim S1000000x24 ![] bcast_S_S1000000x24),
    TRef.binary (TRef.of (T := ⟨S1000000x24, .f32⟩) main_v106) (TRef.of (T := ⟨S1000000x24, .f32⟩) main_call0_v0) (TRef.of (T := ⟨S1000000x24, .f32⟩) main_v107) maximumf,
    binary main_v107 main_arg10 main_v108 ((fun l r => Host.dotGeneral dot_S1000000x24_S24x16_S1000000x16_1_0_0_1_n_n none l r) : (⟨S1000000x24, .f32⟩ : BufTy).Contents (Elt F) → (⟨S24x16, .f32⟩ : BufTy).Contents (Elt F) → (⟨S1000000x16, .f32⟩ : BufTy).Contents (Elt F)),
    unary main_arg11 main_v109 (broadcastInDim S1x16 ![1] bcast_S16_S1x16_1 : (⟨S16, .f32⟩ : BufTy).Contents (Elt F) → (⟨S1x16, .f32⟩ : BufTy).Contents (Elt F)),
    unary main_v109 main_v110 (broadcastInDim S1000000x16 ![0, 1] bcast_S1x16_S1000000x16_0_1 : (⟨S1x16, .f32⟩ : BufTy).Contents (Elt F) → (⟨S1000000x16, .f32⟩ : BufTy).Contents (Elt F)),
    binary main_v108 main_v110 main_v111 (addf : (⟨S1000000x16, .f32⟩ : BufTy).Contents (Elt F) → (⟨S1000000x16, .f32⟩ : BufTy).Contents (Elt F) → (⟨S1000000x16, .f32⟩ : BufTy).Contents (Elt F)),
    nullary main_c_20 (constantI S_ 32 0#32),
    unary main_c_20 main_v112 (broadcastInDim S2000000 ![] bcast_S_S2000000 : (⟨S_, .i32⟩ : BufTy).Contents (Elt F) → (⟨S2000000, .i32⟩ : BufTy).Contents (Elt F)),
    binary main_arg3 main_v112 main_v113 (cmpi .eq : (⟨S2000000, .i32⟩ : BufTy).Contents (Elt F) → (⟨S2000000, .i32⟩ : BufTy).Contents (Elt F) → (⟨S2000000, .i1⟩ : BufTy).Contents (Elt F)),
    unary main_v113 main_v114 (uitofp .f32 : (⟨S2000000, .i1⟩ : BufTy).Contents (Elt F) → (⟨S2000000, .f32⟩ : BufTy).Contents (Elt F)),
    unary main_arg9 main_v115 ((extractStridedSlice S1x24x16 ![0, 0, 0] · slices_S3x24x16_S1x24x16_0_0_0) : (⟨S3x24x16, .f32⟩ : BufTy).Contents (Elt F) → (⟨S1x24x16, .f32⟩ : BufTy).Contents (Elt F)),
    reshape main_v115 main_v116 rfl shapeCasts_S1x24x16_S24x16,
    binary main_v107 main_v116 main_v117 ((fun l r => Host.dotGeneral dot_S1000000x24_S24x16_S1000000x16_1_0_0_1_n_n none l r) : (⟨S1000000x24, .f32⟩ : BufTy).Contents (Elt F) → (⟨S24x16, .f32⟩ : BufTy).Contents (Elt F) → (⟨S1000000x16, .f32⟩ : BufTy).Contents (Elt F)),
    nullary main_c_21 (constantI S_ 32 0#32),
    unary main_c_21 main_v118 (broadcastInDim S2000000 ![] bcast_S_S2000000 : (⟨S_, .i32⟩ : BufTy).Contents (Elt F) → (⟨S2000000, .i32⟩ : BufTy).Contents (Elt F)),
    binary main_v1 main_v118 main_v119 (cmpi .slt : (⟨S2000000, .i32⟩ : BufTy).Contents (Elt F) → (⟨S2000000, .i32⟩ : BufTy).Contents (Elt F) → (⟨S2000000, .i1⟩ : BufTy).Contents (Elt F)),
    nullary main_c_22 (constantI S_ 32 1000000#32),
    unary main_c_22 main_v120 (broadcastInDim S2000000 ![] bcast_S_S2000000 : (⟨S_, .i32⟩ : BufTy).Contents (Elt F) → (⟨S2000000, .i32⟩ : BufTy).Contents (Elt F)),
    binary main_v1 main_v120 main_v121 (addi : (⟨S2000000, .i32⟩ : BufTy).Contents (Elt F) → (⟨S2000000, .i32⟩ : BufTy).Contents (Elt F) → (⟨S2000000, .i32⟩ : BufTy).Contents (Elt F)),
    ternary main_v119 main_v121 main_v1 main_v122 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v122 main_v123 (broadcastInDim S2000000x1 ![0] bcast_S2000000_S2000000x1_0 : (⟨S2000000, .i32⟩ : BufTy).Contents (Elt F) → (⟨S2000000x1, .i32⟩ : BufTy).Contents (Elt F)),
    binary main_v117 main_v123 main_v124 ((fun x i => Host.gather gather_S1000000x16_S2000000x1_S2000000x16_1_0_n_n_0_1_116 x i) : (⟨S1000000x16, .f32⟩ : BufTy).Contents (Elt F) → (⟨S2000000x1, .i32⟩ : BufTy).Contents (Elt F) → (⟨S2000000x16, .f32⟩ : BufTy).Contents (Elt F)),
    unary main_v114 main_v125 (broadcastInDim S2000000x1 ![0] bcast_S2000000_S2000000x1_0 : (⟨S2000000, .f32⟩ : BufTy).Contents (Elt F) → (⟨S2000000x1, .f32⟩ : BufTy).Contents (Elt F)),
    unary main_v125 main_v126 (broadcastInDim S2000000x16 ![0, 1] bcast_S2000000x1_S2000000x16_0_1 : (⟨S2000000x1, .f32⟩ : BufTy).Contents (Elt F) → (⟨S2000000x16, .f32⟩ : BufTy).Contents (Elt F)),
    binary main_v124 main_v126 main_v127 (mulf : (⟨S2000000x16, .f32⟩ : BufTy).Contents (Elt F) → (⟨S2000000x16, .f32⟩ : BufTy).Contents (Elt F) → (⟨S2000000x16, .f32⟩ : BufTy).Contents (Elt F)),
    nullary main_cst_23 (constant S_ .f32 0x00000000#32),
    unary main_cst_23 main_v128 (broadcastInDim S1000000x16 ![] bcast_S_S1000000x16 : (⟨S_, .f32⟩ : BufTy).Contents (Elt F) → (⟨S1000000x16, .f32⟩ : BufTy).Contents (Elt F)),
    unary main_v3 main_v129 (broadcastInDim S2000000x1 ![0] bcast_S2000000_S2000000x1_0 : (⟨S2000000, .i32⟩ : BufTy).Contents (Elt F) → (⟨S2000000x1, .i32⟩ : BufTy).Contents (Elt F)),
    ternary main_v128 main_v129 main_v127 main_v130 ((fun x i u => Host.scatterAdd scatter_S1000000x16_S2000000x1_S2000000x16_1_0_0_1 x i u) : (⟨S1000000x16, .f32⟩ : BufTy).Contents (Elt F) → (⟨S2000000x1, .i32⟩ : BufTy).Contents (Elt F) → (⟨S2000000x16, .f32⟩ : BufTy).Contents (Elt F) → (⟨S1000000x16, .f32⟩ : BufTy).Contents (Elt F)),
    nullary main_cst_24 (constant S_ .f32 0x00000000#32),
    unary main_cst_24 main_v131 (broadcastInDim S1000000 ![] bcast_S_S1000000 : (⟨S_, .f32⟩ : BufTy).Contents (Elt F) → (⟨S1000000, .f32⟩ : BufTy).Contents (Elt F)),
    unary main_v3 main_v132 (broadcastInDim S2000000x1 ![0] bcast_S2000000_S2000000x1_0 : (⟨S2000000, .i32⟩ : BufTy).Contents (Elt F) → (⟨S2000000x1, .i32⟩ : BufTy).Contents (Elt F)),
    ternary main_v131 main_v132 main_v114 main_v133 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_25 (constant S_ .f32 0x3F800000#32),
    unary main_cst_25 main_v134 (broadcastInDim S1000000 ![] bcast_S_S1000000 : (⟨S_, .f32⟩ : BufTy).Contents (Elt F) → (⟨S1000000, .f32⟩ : BufTy).Contents (Elt F)),
    binary main_v133 main_v134 main_v135 (maximumf : (⟨S1000000, .f32⟩ : BufTy).Contents (Elt F) → (⟨S1000000, .f32⟩ : BufTy).Contents (Elt F) → (⟨S1000000, .f32⟩ : BufTy).Contents (Elt F)),
    unary main_v135 main_v136 (broadcastInDim S1000000x1 ![0] bcast_S1000000_S1000000x1_0 : (⟨S1000000, .f32⟩ : BufTy).Contents (Elt F) → (⟨S1000000x1, .f32⟩ : BufTy).Contents (Elt F)),
    unary main_v136 main_v137 (broadcastInDim S1000000x16 ![0, 1] bcast_S1000000x1_S1000000x16_0_1 : (⟨S1000000x1, .f32⟩ : BufTy).Contents (Elt F) → (⟨S1000000x16, .f32⟩ : BufTy).Contents (Elt F)),
    binary main_v130 main_v137 main_v138 (Host.divf : (⟨S1000000x16, .f32⟩ : BufTy).Contents (Elt F) → (⟨S1000000x16, .f32⟩ : BufTy).Contents (Elt F) → (⟨S1000000x16, .f32⟩ : BufTy).Contents (Elt F)),
    binary main_v111 main_v138 main_v139 (addf : (⟨S1000000x16, .f32⟩ : BufTy).Contents (Elt F) → (⟨S1000000x16, .f32⟩ : BufTy).Contents (Elt F) → (⟨S1000000x16, .f32⟩ : BufTy).Contents (Elt F)),
    nullary main_c_26 (constantI S_ 32 1#32),
    unary main_c_26 main_v140 (broadcastInDim S2000000 ![] bcast_S_S2000000 : (⟨S_, .i32⟩ : BufTy).Contents (Elt F) → (⟨S2000000, .i32⟩ : BufTy).Contents (Elt F)),
    binary main_arg3 main_v140 main_v141 (cmpi .eq : (⟨S2000000, .i32⟩ : BufTy).Contents (Elt F) → (⟨S2000000, .i32⟩ : BufTy).Contents (Elt F) → (⟨S2000000, .i1⟩ : BufTy).Contents (Elt F)),
    unary main_v141 main_v142 (uitofp .f32 : (⟨S2000000, .i1⟩ : BufTy).Contents (Elt F) → (⟨S2000000, .f32⟩ : BufTy).Contents (Elt F)),
    unary main_arg9 main_v143 ((extractStridedSlice S1x24x16 ![1, 0, 0] · slices_S3x24x16_S1x24x16_1_0_0) : (⟨S3x24x16, .f32⟩ : BufTy).Contents (Elt F) → (⟨S1x24x16, .f32⟩ : BufTy).Contents (Elt F)),
    reshape main_v143 main_v144 rfl shapeCasts_S1x24x16_S24x16,
    binary main_v107 main_v144 main_v145 ((fun l r => Host.dotGeneral dot_S1000000x24_S24x16_S1000000x16_1_0_0_1_n_n none l r) : (⟨S1000000x24, .f32⟩ : BufTy).Contents (Elt F) → (⟨S24x16, .f32⟩ : BufTy).Contents (Elt F) → (⟨S1000000x16, .f32⟩ : BufTy).Contents (Elt F)),
    nullary main_c_27 (constantI S_ 32 0#32),
    unary main_c_27 main_v146 (broadcastInDim S2000000 ![] bcast_S_S2000000 : (⟨S_, .i32⟩ : BufTy).Contents (Elt F) → (⟨S2000000, .i32⟩ : BufTy).Contents (Elt F)),
    binary main_v1 main_v146 main_v147 (cmpi .slt : (⟨S2000000, .i32⟩ : BufTy).Contents (Elt F) → (⟨S2000000, .i32⟩ : BufTy).Contents (Elt F) → (⟨S2000000, .i1⟩ : BufTy).Contents (Elt F)),
    nullary main_c_28 (constantI S_ 32 1000000#32),
    unary main_c_28 main_v148 (broadcastInDim S2000000 ![] bcast_S_S2000000 : (⟨S_, .i32⟩ : BufTy).Contents (Elt F) → (⟨S2000000, .i32⟩ : BufTy).Contents (Elt F)) ]

/-- Every operation of the window touches TensorCore references only. -/
theorem ops_part2_sub : (ops_part2 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub ..⟩

set_option maxRecDepth 8192 in
set_option maxHeartbeats 4000000 in
/-- The window IS the line of its operations: the two sides unfold to the same steps. -/
theorem main_part2_eq (c : Dev nD) : main_part2 (F := F) c = seq ops_part2 := rfl

end Cert.ReferenceIdeal.Hand

end
-- ==== Proof.RefOps3.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 62 operations of @main's statements 181 … 240, in order (a called function's operations stand in its call's place). -/
abbrev ops_part3 : List (HloOp τ sig (Elt F)) :=
  [ binary main_v1 main_v148 main_v149 (addi : (⟨S2000000, .i32⟩ : BufTy).Contents (Elt F) → (⟨S2000000, .i32⟩ : BufTy).Contents (Elt F) → (⟨S2000000, .i32⟩ : BufTy).Contents (Elt F)),
    ternary main_v147 main_v149 main_v1 main_v150 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v150 main_v151 (broadcastInDim S2000000x1 ![0] bcast_S2000000_S2000000x1_0 : (⟨S2000000, .i32⟩ : BufTy).Contents (Elt F) → (⟨S2000000x1, .i32⟩ : BufTy).Contents (Elt F)),
    binary main_v145 main_v151 main_v152 ((fun x i => Host.gather gather_S1000000x16_S2000000x1_S2000000x16_1_0_n_n_0_1_116 x i) : (⟨S1000000x16, .f32⟩ : BufTy).Contents (Elt F) → (⟨S2000000x1, .i32⟩ : BufTy).Contents (Elt F) → (⟨S2000000x16, .f32⟩ : BufTy).Contents (Elt F)),
    unary main_v142 main_v153 (broadcastInDim S2000000x1 ![0] bcast_S2000000_S2000000x1_0 : (⟨S2000000, .f32⟩ : BufTy).Contents (Elt F) → (⟨S2000000x1, .f32⟩ : BufTy).Contents (Elt F)),
    unary main_v153 main_v154 (broadcastInDim S2000000x16 ![0, 1] bcast_S2000000x1_S2000000x16_0_1 : (⟨S2000000x1, .f32⟩ : BufTy).Contents (Elt F) → (⟨S2000000x16, .f32⟩ : BufTy).Contents (Elt F)),
    binary main_v152 main_v154 main_v155 (mulf : (⟨S2000000x16, .f32⟩ : BufTy).Contents (Elt F) → (⟨S2000000x16, .f32⟩ : BufTy).Contents (Elt F) → (⟨S2000000x16, .f32⟩ : BufTy).Contents (Elt F)),
    nullary main_cst_29 (constant S_ .f32 0x00000000#32),
    unary main_cst_29 main_v156 (broadcastInDim S1000000x16 ![] bcast_S_S1000000x16 : (⟨S_, .f32⟩ : BufTy).Contents (Elt F) → (⟨S1000000x16, .f32⟩ : BufTy).Contents (Elt F)),
    unary main_v3 main_v157 (broadcastInDim S2000000x1 ![0] bcast_S2000000_S2000000x1_0 : (⟨S2000000, .i32⟩ : BufTy).Contents (Elt F) → (⟨S2000000x1, .i32⟩ : BufTy).Contents (Elt F)),
    ternary main_v156 main_v157 main_v155 main_v158 ((fun x i u => Host.scatterAdd scatter_S1000000x16_S2000000x1_S2000000x16_1_0_0_1 x i u) : (⟨S1000000x16, .f32⟩ : BufTy).Contents (Elt F) → (⟨S2000000x1, .i32⟩ : BufTy).Contents (Elt F) → (⟨S2000000x16, .f32⟩ : BufTy).Contents (Elt F) → (⟨S1000000x16, .f32⟩ : BufTy).Contents (Elt F)),
    nullary main_cst_30 (constant S_ .f32 0x00000000#32),
    unary main_cst_30 main_v159 (broadcastInDim S1000000 ![] bcast_S_S1000000 : (⟨S_, .f32⟩ : BufTy).Contents (Elt F) → (⟨S1000000, .f32⟩ : BufTy).Contents (Elt F)),
    unary main_v3 main_v160 (broadcastInDim S2000000x1 ![0] bcast_S2000000_S2000000x1_0 : (⟨S2000000, .i32⟩ : BufTy).Contents (Elt F) → (⟨S2000000x1, .i32⟩ : BufTy).Contents (Elt F)),
    ternary main_v159 main_v160 main_v142 main_v161 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_31 (constant S_ .f32 0x3F800000#32),
    unary main_cst_31 main_v162 (broadcastInDim S1000000 ![] bcast_S_S1000000 : (⟨S_, .f32⟩ : BufTy).Contents (Elt F) → (⟨S1000000, .f32⟩ : BufTy).Contents (Elt F)),
    binary main_v161 main_v162 main_v163 (maximumf : (⟨S1000000, .f32⟩ : BufTy).Contents (Elt F) → (⟨S1000000, .f32⟩ : BufTy).Contents (Elt F) → (⟨S1000000, .f32⟩ : BufTy).Contents (Elt F)),
    unary main_v163 main_v164 (broadcastInDim S1000000x1 ![0] bcast_S1000000_S1000000x1_0 : (⟨S1000000, .f32⟩ : BufTy).Contents (Elt F) → (⟨S1000000x1, .f32⟩ : BufTy).Contents (Elt F)),
    unary main_v164 main_v165 (broadcastInDim S1000000x16 ![0, 1] bcast_S1000000x1_S1000000x16_0_1 : (⟨S1000000x1, .f32⟩ : BufTy).Contents (Elt F) → (⟨S1000000x16, .f32⟩ : BufTy).Contents (Elt F)),
    binary main_v158 main_v165 main_v166 (Host.divf : (⟨S1000000x16, .f32⟩ : BufTy).Contents (Elt F) → (⟨S1000000x16, .f32⟩ : BufTy).Contents (Elt F) → (⟨S1000000x16, .f32⟩ : BufTy).Contents (Elt F)),
    binary main_v139 main_v166 main_v167 (addf : (⟨S1000000x16, .f32⟩ : BufTy).Contents (Elt F) → (⟨S1000000x16, .f32⟩ : BufTy).Contents (Elt F) → (⟨S1000000x16, .f32⟩ : BufTy).Contents (Elt F)),
    nullary main_c_32 (constantI S_ 32 2#32),
    unary main_c_32 main_v168 (broadcastInDim S2000000 ![] bcast_S_S2000000 : (⟨S_, .i32⟩ : BufTy).Contents (Elt F) → (⟨S2000000, .i32⟩ : BufTy).Contents (Elt F)),
    binary main_arg3 main_v168 main_v169 (cmpi .eq : (⟨S2000000, .i32⟩ : BufTy).Contents (Elt F) → (⟨S2000000, .i32⟩ : BufTy).Contents (Elt F) → (⟨S2000000, .i1⟩ : BufTy).Contents (Elt F)),
    unary main_v169 main_v170 (uitofp .f32 : (⟨S2000000, .i1⟩ : BufTy).Contents (Elt F) → (⟨S2000000, .f32⟩ : BufTy).Contents (Elt F)),
    unary main_arg9 main_v171 ((extractStridedSlice S1x24x16 ![2, 0, 0] · slices_S3x24x16_S1x24x16_2_0_0) : (⟨S3x24x16, .f32⟩ : BufTy).Contents (Elt F) → (⟨S1x24x16, .f32⟩ : BufTy).Contents (Elt F)),
    reshape main_v171 main_v172 rfl shapeCasts_S1x24x16_S24x16,
    binary main_v107 main_v172 main_v173 ((fun l r => Host.dotGeneral dot_S1000000x24_S24x16_S1000000x16_1_0_0_1_n_n none l r) : (⟨S1000000x24, .f32⟩ : BufTy).Contents (Elt F) → (⟨S24x16, .f32⟩ : BufTy).Contents (Elt F) → (⟨S1000000x16, .f32⟩ : BufTy).Contents (Elt F)),
    nullary main_c_33 (constantI S_ 32 0#32),
    unary main_c_33 main_v174 (broadcastInDim S2000000 ![] bcast_S_S2000000 : (⟨S_, .i32⟩ : BufTy).Contents (Elt F) → (⟨S2000000, .i32⟩ : BufTy).Contents (Elt F)),
    binary main_v1 main_v174 main_v175 (cmpi .slt : (⟨S2000000, .i32⟩ : BufTy).Contents (Elt F) → (⟨S2000000, .i32⟩ : BufTy).Contents (Elt F) → (⟨S2000000, .i1⟩ : BufTy).Contents (Elt F)),
    nullary main_c_34 (constantI S_ 32 1000000#32),
    unary main_c_34 main_v176 (broadcastInDim S2000000 ![] bcast_S_S2000000 : (⟨S_, .i32⟩ : BufTy).Contents (Elt F) → (⟨S2000000, .i32⟩ : BufTy).Contents (Elt F)),
    binary main_v1 main_v176 main_v177 (addi : (⟨S2000000, .i32⟩ : BufTy).Contents (Elt F) → (⟨S2000000, .i32⟩ : BufTy).Contents (Elt F) → (⟨S2000000, .i32⟩ : BufTy).Contents (Elt F)),
    ternary main_v175 main_v177 main_v1 main_v178 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v178 main_v179 (broadcastInDim S2000000x1 ![0] bcast_S2000000_S2000000x1_0 : (⟨S2000000, .i32⟩ : BufTy).Contents (Elt F) → (⟨S2000000x1, .i32⟩ : BufTy).Contents (Elt F)),
    binary main_v173 main_v179 main_v180 ((fun x i => Host.gather gather_S1000000x16_S2000000x1_S2000000x16_1_0_n_n_0_1_116 x i) : (⟨S1000000x16, .f32⟩ : BufTy).Contents (Elt F) → (⟨S2000000x1, .i32⟩ : BufTy).Contents (Elt F) → (⟨S2000000x16, .f32⟩ : BufTy).Contents (Elt F)),
    unary main_v170 main_v181 (broadcastInDim S2000000x1 ![0] bcast_S2000000_S2000000x1_0 : (⟨S2000000, .f32⟩ : BufTy).Contents (Elt F) → (⟨S2000000x1, .f32⟩ : BufTy).Contents (Elt F)),
    unary main_v181 main_v182 (broadcastInDim S2000000x16 ![0, 1] bcast_S2000000x1_S2000000x16_0_1 : (⟨S2000000x1, .f32⟩ : BufTy).Contents (Elt F) → (⟨S2000000x16, .f32⟩ : BufTy).Contents (Elt F)),
    binary main_v180 main_v182 main_v183 (mulf : (⟨S2000000x16, .f32⟩ : BufTy).Contents (Elt F) → (⟨S2000000x16, .f32⟩ : BufTy).Contents (Elt F) → (⟨S2000000x16, .f32⟩ : BufTy).Contents (Elt F)),
    nullary main_cst_35 (constant S_ .f32 0x00000000#32),
    unary main_cst_35 main_v184 (broadcastInDim S1000000x16 ![] bcast_S_S1000000x16 : (⟨S_, .f32⟩ : BufTy).Contents (Elt F) → (⟨S1000000x16, .f32⟩ : BufTy).Contents (Elt F)),
    unary main_v3 main_v185 (broadcastInDim S2000000x1 ![0] bcast_S2000000_S2000000x1_0 : (⟨S2000000, .i32⟩ : BufTy).Contents (Elt F) → (⟨S2000000x1, .i32⟩ : BufTy).Contents (Elt F)),
    ternary main_v184 main_v185 main_v183 main_v186 ((fun x i u => Host.scatterAdd scatter_S1000000x16_S2000000x1_S2000000x16_1_0_0_1 x i u) : (⟨S1000000x16, .f32⟩ : BufTy).Contents (Elt F) → (⟨S2000000x1, .i32⟩ : BufTy).Contents (Elt F) → (⟨S2000000x16, .f32⟩ : BufTy).Contents (Elt F) → (⟨S1000000x16, .f32⟩ : BufTy).Contents (Elt F)),
    nullary main_cst_36 (constant S_ .f32 0x00000000#32),
    unary main_cst_36 main_v187 (broadcastInDim S1000000 ![] bcast_S_S1000000 : (⟨S_, .f32⟩ : BufTy).Contents (Elt F) → (⟨S1000000, .f32⟩ : BufTy).Contents (Elt F)),
    unary main_v3 main_v188 (broadcastInDim S2000000x1 ![0] bcast_S2000000_S2000000x1_0 : (⟨S2000000, .i32⟩ : BufTy).Contents (Elt F) → (⟨S2000000x1, .i32⟩ : BufTy).Contents (Elt F)),
    ternary main_v187 main_v188 main_v170 main_v189 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_37 (constant S_ .f32 0x3F800000#32),
    unary main_cst_37 main_v190 (broadcastInDim S1000000 ![] bcast_S_S1000000 : (⟨S_, .f32⟩ : BufTy).Contents (Elt F) → (⟨S1000000, .f32⟩ : BufTy).Contents (Elt F)),
    binary main_v189 main_v190 main_v191 (maximumf : (⟨S1000000, .f32⟩ : BufTy).Contents (Elt F) → (⟨S1000000, .f32⟩ : BufTy).Contents (Elt F) → (⟨S1000000, .f32⟩ : BufTy).Contents (Elt F)),
    unary main_v191 main_v192 (broadcastInDim S1000000x1 ![0] bcast_S1000000_S1000000x1_0 : (⟨S1000000, .f32⟩ : BufTy).Contents (Elt F) → (⟨S1000000x1, .f32⟩ : BufTy).Contents (Elt F)),
    unary main_v192 main_v193 (broadcastInDim S1000000x16 ![0, 1] bcast_S1000000x1_S1000000x16_0_1 : (⟨S1000000x1, .f32⟩ : BufTy).Contents (Elt F) → (⟨S1000000x16, .f32⟩ : BufTy).Contents (Elt F)),
    binary main_v186 main_v193 main_v194 (Host.divf : (⟨S1000000x16, .f32⟩ : BufTy).Contents (Elt F) → (⟨S1000000x16, .f32⟩ : BufTy).Contents (Elt F) → (⟨S1000000x16, .f32⟩ : BufTy).Contents (Elt F)),
    binary main_v167 main_v194 main_v195 (addf : (⟨S1000000x16, .f32⟩ : BufTy).Contents (Elt F) → (⟨S1000000x16, .f32⟩ : BufTy).Contents (Elt F) → (⟨S1000000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1000000x16, .f32⟩) main_call1_v0) (broadcastInDim S1000000x16 ![] bcast_S_S1000000x16),
    TRef.binary (TRef.of (T := ⟨S1000000x16, .f32⟩) main_v195) (TRef.of (T := ⟨S1000000x16, .f32⟩) main_call1_v0) (TRef.of (T := ⟨S1000000x16, .f32⟩) main_v196) maximumf,
    binary main_v196 main_arg13 main_v197 ((fun l r => Host.dotGeneral dot_S1000000x16_S16x8_S1000000x8_1_0_0_1_n_n none l r) : (⟨S1000000x16, .f32⟩ : BufTy).Contents (Elt F) → (⟨S16x8, .f32⟩ : BufTy).Contents (Elt F) → (⟨S1000000x8, .f32⟩ : BufTy).Contents (Elt F)),
    unary main_arg14 main_v198 (broadcastInDim S1x8 ![1] bcast_S8_S1x8_1 : (⟨S8, .f32⟩ : BufTy).Contents (Elt F) → (⟨S1x8, .f32⟩ : BufTy).Contents (Elt F)),
    unary main_v198 main_v199 (broadcastInDim S1000000x8 ![0, 1] bcast_S1x8_S1000000x8_0_1 : (⟨S1x8, .f32⟩ : BufTy).Contents (Elt F) → (⟨S1000000x8, .f32⟩ : BufTy).Contents (Elt F)) ]

/-- Every operation of the window touches TensorCore references only. -/
theorem ops_part3_sub : (ops_part3 : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub ..⟩

set_option maxRecDepth 8192 in
set_option maxHeartbeats 4000000 in
/-- The window IS the line of its operations: the two sides unfold to the same steps. -/
theorem main_part3_eq (c : Dev nD) : main_part3 (F := F) c = seq ops_part3 := rfl

end Cert.ReferenceIdeal.Hand

end
-- ==== Proof.RefOps4.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 60 operations of @main's statements 241 … 300, in order (a called function's operations stand in its call's place). -/
abbrev ops_part4 : List (HloOp τ sig (Elt F)) :=
  [ binary main_v197 main_v199 main_v200 (addf : (⟨S1000000x8, .f32⟩ : BufTy).Contents (Elt F) → (⟨S1000000x8, .f32⟩ : BufTy).Contents (Elt F) → (⟨S1000000x8, .f32⟩ : BufTy).Contents (Elt F)),
    nullary main_c_38 (constantI S_ 32 0#32),
    unary main_c_38 main_v201 (broadcastInDim S2000000 ![] bcast_S_S2000000 : (⟨S_, .i32⟩ : BufTy).Contents (Elt F) → (⟨S2000000, .i32⟩ : BufTy).Contents (Elt F)),
    binary main_arg3 main_v201 main_v202 (cmpi .eq : (⟨S2000000, .i32⟩ : BufTy).Contents (Elt F) → (⟨S2000000, .i32⟩ : BufTy).Contents (Elt F) → (⟨S2000000, .i1⟩ : BufTy).Contents (Elt F)),
    unary main_v202 main_v203 (uitofp .f32 : (⟨S2000000, .i1⟩ : BufTy).Contents (Elt F) → (⟨S2000000, .f32⟩ : BufTy).Contents (Elt F)),
    unary main_arg12 main_v204 ((extractStridedSlice S1x16x8 ![0, 0, 0] · slices_S3x16x8_S1x16x8_0_0_0) : (⟨S3x16x8, .f32⟩ : BufTy).Contents (Elt F) → (⟨S1x16x8, .f32⟩ : BufTy).Contents (Elt F)),
    reshape main_v204 main_v205 rfl shapeCasts_S1x16x8_S16x8,
    binary main_v196 main_v205 main_v206 ((fun l r => Host.dotGeneral dot_S1000000x16_S16x8_S1000000x8_1_0_0_1_n_n none l r) : (⟨S1000000x16, .f32⟩ : BufTy).Contents (Elt F) → (⟨S16x8, .f32⟩ : BufTy).Contents (Elt F) → (⟨S1000000x8, .f32⟩ : BufTy).Contents (Elt F)),
    nullary main_c_39 (constantI S_ 32 0#32),
    unary main_c_39 main_v207 (broadcastInDim S2000000 ![] bcast_S_S2000000 : (⟨S_, .i32⟩ : BufTy).Contents (Elt F) → (⟨S2000000, .i32⟩ : BufTy).Contents (Elt F)),
    binary main_v1 main_v207 main_v208 (cmpi .slt : (⟨S2000000, .i32⟩ : BufTy).Contents (Elt F) → (⟨S2000000, .i32⟩ : BufTy).Contents (Elt F) → (⟨S2000000, .i1⟩ : BufTy).Contents (Elt F)),
    nullary main_c_40 (constantI S_ 32 1000000#32),
    unary main_c_40 main_v209 (broadcastInDim S2000000 ![] bcast_S_S2000000 : (⟨S_, .i32⟩ : BufTy).Contents (Elt F) → (⟨S2000000, .i32⟩ : BufTy).Contents (Elt F)),
    binary main_v1 main_v209 main_v210 (addi : (⟨S2000000, .i32⟩ : BufTy).Contents (Elt F) → (⟨S2000000, .i32⟩ : BufTy).Contents (Elt F) → (⟨S2000000, .i32⟩ : BufTy).Contents (Elt F)),
    ternary main_v208 main_v210 main_v1 main_v211 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v211 main_v212 (broadcastInDim S2000000x1 ![0] bcast_S2000000_S2000000x1_0 : (⟨S2000000, .i32⟩ : BufTy).Contents (Elt F) → (⟨S2000000x1, .i32⟩ : BufTy).Contents (Elt F)),
    binary main_v206 main_v212 main_v213 ((fun x i => Host.gather gather_S1000000x8_S2000000x1_S2000000x8_1_0_n_n_0_1_18 x i) : (⟨S1000000x8, .f32⟩ : BufTy).Contents (Elt F) → (⟨S2000000x1, .i32⟩ : BufTy).Contents (Elt F) → (⟨S2000000x8, .f32⟩ : BufTy).Contents (Elt F)),
    unary main_v203 main_v214 (broadcastInDim S2000000x1 ![0] bcast_S2000000_S2000000x1_0 : (⟨S2000000, .f32⟩ : BufTy).Contents (Elt F) → (⟨S2000000x1, .f32⟩ : BufTy).Contents (Elt F)),
    unary main_v214 main_v215 (broadcastInDim S2000000x8 ![0, 1] bcast_S2000000x1_S2000000x8_0_1 : (⟨S2000000x1, .f32⟩ : BufTy).Contents (Elt F) → (⟨S2000000x8, .f32⟩ : BufTy).Contents (Elt F)),
    binary main_v213 main_v215 main_v216 (mulf : (⟨S2000000x8, .f32⟩ : BufTy).Contents (Elt F) → (⟨S2000000x8, .f32⟩ : BufTy).Contents (Elt F) → (⟨S2000000x8, .f32⟩ : BufTy).Contents (Elt F)),
    nullary main_cst_41 (constant S_ .f32 0x00000000#32),
    unary main_cst_41 main_v217 (broadcastInDim S1000000x8 ![] bcast_S_S1000000x8 : (⟨S_, .f32⟩ : BufTy).Contents (Elt F) → (⟨S1000000x8, .f32⟩ : BufTy).Contents (Elt F)),
    unary main_v3 main_v218 (broadcastInDim S2000000x1 ![0] bcast_S2000000_S2000000x1_0 : (⟨S2000000, .i32⟩ : BufTy).Contents (Elt F) → (⟨S2000000x1, .i32⟩ : BufTy).Contents (Elt F)),
    ternary main_v217 main_v218 main_v216 main_v219 ((fun x i u => Host.scatterAdd scatter_S1000000x8_S2000000x1_S2000000x8_1_0_0_1 x i u) : (⟨S1000000x8, .f32⟩ : BufTy).Contents (Elt F) → (⟨S2000000x1, .i32⟩ : BufTy).Contents (Elt F) → (⟨S2000000x8, .f32⟩ : BufTy).Contents (Elt F) → (⟨S1000000x8, .f32⟩ : BufTy).Contents (Elt F)),
    nullary main_cst_42 (constant S_ .f32 0x00000000#32),
    unary main_cst_42 main_v220 (broadcastInDim S1000000 ![] bcast_S_S1000000 : (⟨S_, .f32⟩ : BufTy).Contents (Elt F) → (⟨S1000000, .f32⟩ : BufTy).Contents (Elt F)),
    unary main_v3 main_v221 (broadcastInDim S2000000x1 ![0] bcast_S2000000_S2000000x1_0 : (⟨S2000000, .i32⟩ : BufTy).Contents (Elt F) → (⟨S2000000x1, .i32⟩ : BufTy).Contents (Elt F)),
    ternary main_v220 main_v221 main_v203 main_v222 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_43 (constant S_ .f32 0x3F800000#32),
    unary main_cst_43 main_v223 (broadcastInDim S1000000 ![] bcast_S_S1000000 : (⟨S_, .f32⟩ : BufTy).Contents (Elt F) → (⟨S1000000, .f32⟩ : BufTy).Contents (Elt F)),
    binary main_v222 main_v223 main_v224 (maximumf : (⟨S1000000, .f32⟩ : BufTy).Contents (Elt F) → (⟨S1000000, .f32⟩ : BufTy).Contents (Elt F) → (⟨S1000000, .f32⟩ : BufTy).Contents (Elt F)),
    unary main_v224 main_v225 (broadcastInDim S1000000x1 ![0] bcast_S1000000_S1000000x1_0 : (⟨S1000000, .f32⟩ : BufTy).Contents (Elt F) → (⟨S1000000x1, .f32⟩ : BufTy).Contents (Elt F)),
    unary main_v225 main_v226 (broadcastInDim S1000000x8 ![0, 1] bcast_S1000000x1_S1000000x8_0_1 : (⟨S1000000x1, .f32⟩ : BufTy).Contents (Elt F) → (⟨S1000000x8, .f32⟩ : BufTy).Contents (Elt F)),
    binary main_v219 main_v226 main_v227 (Host.divf : (⟨S1000000x8, .f32⟩ : BufTy).Contents (Elt F) → (⟨S1000000x8, .f32⟩ : BufTy).Contents (Elt F) → (⟨S1000000x8, .f32⟩ : BufTy).Contents (Elt F)),
    binary main_v200 main_v227 main_v228 (addf : (⟨S1000000x8, .f32⟩ : BufTy).Contents (Elt F) → (⟨S1000000x8, .f32⟩ : BufTy).Contents (Elt F) → (⟨S1000000x8, .f32⟩ : BufTy).Contents (Elt F)),
    nullary main_c_44 (constantI S_ 32 1#32),
    unary main_c_44 main_v229 (broadcastInDim S2000000 ![] bcast_S_S2000000 : (⟨S_, .i32⟩ : BufTy).Contents (Elt F) → (⟨S2000000, .i32⟩ : BufTy).Contents (Elt F)),
    binary main_arg3 main_v229 main_v230 (cmpi .eq : (⟨S2000000, .i32⟩ : BufTy).Contents (Elt F) → (⟨S2000000, .i32⟩ : BufTy).Contents (Elt F) → (⟨S2000000, .i1⟩ : BufTy).Contents (Elt F)),
    unary main_v230 main_v231 (uitofp .f32 : (⟨S2000000, .i1⟩ : BufTy).Contents (Elt F) → (⟨S2000000, .f32⟩ : BufTy).Contents (Elt F)),
    unary main_arg12 main_v232 ((extractStridedSlice S1x16x8 ![1, 0, 0] · slices_S3x16x8_S1x16x8_1_0_0) : (⟨S3x16x8, .f32⟩ : BufTy).Contents (Elt F) → (⟨S1x16x8, .f32⟩ : BufTy).Contents (Elt F)),
    reshape main_v232 main_v233 rfl shapeCasts_S1x16x8_S16x8,
    binary main_v196 main_v233 main_v234 ((fun l r => Host.dotGeneral dot_S1000000x16_S16x8_S1000000x8_1_0_0_1_n_n none l r) : (⟨S1000000x16, .f32⟩ : BufTy).Contents (Elt F) → (⟨S16x8, .f32⟩ : BufTy).Contents (Elt F) → (⟨S1000000x8, .f32⟩ : BufTy).Contents (Elt F)),
    nullary main_c_45 (constantI S_ 32 0#32),
    unary main_c_45 main_v235 (broadcastInDim S2000000 ![] bcast_S_S2000000 : (⟨S_, .i32⟩ : BufTy).Contents (Elt F) → (⟨S2000000, .i32⟩ : BufTy).Contents (Elt F)),
    binary main_v1 main_v235 main_v236 (cmpi .slt : (⟨S2000000, .i32⟩ : BufTy).Contents (Elt F) → (⟨S2000000, .i32⟩ : BufTy).Contents (Elt F) → (⟨S2000000, .i1⟩ : BufTy).Contents (Elt F)),
    nullary main_c_46 (constantI S_ 32 1000000#32),
    unary main_c_46 main_v237 (broadcastInDim S2000000 ![] bcast_S_S2000000 : (⟨S_, .i32⟩ : BufTy).Contents (Elt F) → (⟨S2000000, .i32⟩ : BufTy).Contents (Elt F)),
    binary main_v1 main_v237 main_v238 (addi : (⟨S2000000, .i32⟩ : BufTy).Contents (Elt F) → (⟨S2000000, .i32⟩ : BufTy).Contents (Elt F) → (⟨S2000000, .i32⟩ : BufTy).Contents (Elt F)),
    ternary main_v236 main_v238 main_v1 main_v239 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v239 main_v240 (broadcastInDim S2000000x1 ![0] bcast_S2000000_S2000000x1_0 : (⟨S2000000, .i32⟩ : BufTy).Contents (Elt F) → (⟨S2000000x1, .i32⟩ : BufTy).Contents (Elt F)),
    binary main_v234 main_v240 main_v241 ((fun x i => Host.gather gather_S1000000x8_S2000000x1_S2000000x8_1_0_n_n_0_1_18 x i) : (⟨S1000000x8, .f32⟩ : BufTy).Contents (Elt F) → (⟨S2000000x1, .i32⟩ : BufTy).Contents (Elt F) → (⟨S2000000x8, .f32⟩ : BufTy).Contents (Elt F)),
    unary main_v231 main_v242 (broadcastInDim S2000000x1 ![0] bcast_S2000000_S2000000x1_0 : (⟨S2000000, .f32⟩ : BufTy).Contents (Elt F) → (⟨S2000000x1, .f32⟩ : BufTy).Contents (Elt F)),
    unary main_v242 main_v243 (broadcastInDim S2000000x8 ![0, 1] bcast_S2000000x1_S2000000x8_0_1 : (⟨S2000000x1, .f32⟩ : BufTy).Contents (Elt F) → (⟨S2000000x8, .f32⟩ : BufTy).Contents (Elt F)),
    binary main_v241 main_v243 main_v244 (mulf : (⟨S2000000x8, .f32⟩ : BufTy).Contents (Elt F) → (⟨S2000000x8, .f32⟩ : BufTy).Contents (Elt F) → (⟨S2000000x8, .f32⟩ : BufTy).Contents (Elt F)),
    nullary main_cst_47 (constant S_ .f32 0x00000000#32),
    unary main_cst_47 main_v245 (broadcastInDim S1000000x8 ![] bcast_S_S1000000x8 : (⟨S_, .f32⟩ : BufTy).Contents (Elt F) → (⟨S1000000x8, .f32⟩ : BufTy).Contents (Elt F)),
    unary main_v3 main_v246 (broadcastInDim S2000000x1 ![0] bcast_S2000000_S2000000x1_0 : (⟨S2000000, .i32⟩ : BufTy).Contents (Elt F) → (⟨S2000000x1, .i32⟩ : BufTy).Contents (Elt F)),
    ternary main_v245 main_v246 main_v244 main_v247 ((fun x i u => Host.scatterAdd scatter_S1000000x8_S2000000x1_S2000000x8_1_0_0_1 x i u) : (⟨S1000000x8, .f32⟩ : BufTy).Contents (Elt F) → (⟨S2000000x1, .i32⟩ : BufTy).Contents (Elt F) → (⟨S2000000x8, .f32⟩ : BufTy).Contents (Elt F) → (⟨S1000000x8, .f32⟩ : BufTy).Contents (Elt F)),
    nullary main_cst_48 (constant S_ .f32 0x00000000#32),
    unary main_cst_48 main_v248 (broadcastInDim S1000000 ![] bcast_S_S1000000 : (⟨S_, .f32⟩ : BufTy).Contents (Elt F) → (⟨S1000000, .f32⟩ : BufTy).Contents (Elt F)) ]

/-- Every operation of the window touches TensorCore references only. -/
theorem ops_part4_sub : (ops_part4 : List (HloOp τ sig (Elt F))).Forall fun op => op.bufs ⊆ tcRefs τ sig :=
  ⟨binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub ..⟩

set_option maxRecDepth 8192 in
set_option maxHeartbeats 4000000 in
/-- The window IS the line of its operations: the two sides unfold to the same steps. -/
theorem main_part4_eq (c : Dev nD) : main_part4 (F := F) c = seq ops_part4 := rfl

end Cert.ReferenceIdeal.Hand

end
-- ==== Proof.RefOps5.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 62 operations of @main's statements 301 … 360, in order (a called function's operations stand in its call's place). -/
abbrev ops_part5 : List (HloOp τ sig (Elt F)) :=
  [ unary main_v3 main_v249 (broadcastInDim S2000000x1 ![0] bcast_S2000000_S2000000x1_0 : (⟨S2000000, .i32⟩ : BufTy).Contents (Elt F) → (⟨S2000000x1, .i32⟩ : BufTy).Contents (Elt F)),
    ternary main_v248 main_v249 main_v231 main_v250 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_49 (constant S_ .f32 0x3F800000#32),
    unary main_cst_49 main_v251 (broadcastInDim S1000000 ![] bcast_S_S1000000 : (⟨S_, .f32⟩ : BufTy).Contents (Elt F) → (⟨S1000000, .f32⟩ : BufTy).Contents (Elt F)),
    binary main_v250 main_v251 main_v252 (maximumf : (⟨S1000000, .f32⟩ : BufTy).Contents (Elt F) → (⟨S1000000, .f32⟩ : BufTy).Contents (Elt F) → (⟨S1000000, .f32⟩ : BufTy).Contents (Elt F)),
    unary main_v252 main_v253 (broadcastInDim S1000000x1 ![0] bcast_S1000000_S1000000x1_0 : (⟨S1000000, .f32⟩ : BufTy).Contents (Elt F) → (⟨S1000000x1, .f32⟩ : BufTy).Contents (Elt F)),
    unary main_v253 main_v254 (broadcastInDim S1000000x8 ![0, 1] bcast_S1000000x1_S1000000x8_0_1 : (⟨S1000000x1, .f32⟩ : BufTy).Contents (Elt F) → (⟨S1000000x8, .f32⟩ : BufTy).Contents (Elt F)),
    binary main_v247 main_v254 main_v255 (Host.divf : (⟨S1000000x8, .f32⟩ : BufTy).Contents (Elt F) → (⟨S1000000x8, .f32⟩ : BufTy).Contents (Elt F) → (⟨S1000000x8, .f32⟩ : BufTy).Contents (Elt F)),
    binary main_v228 main_v255 main_v256 (addf : (⟨S1000000x8, .f32⟩ : BufTy).Contents (Elt F) → (⟨S1000000x8, .f32⟩ : BufTy).Contents (Elt F) → (⟨S1000000x8, .f32⟩ : BufTy).Contents (Elt F)),
    nullary main_c_50 (constantI S_ 32 2#32),
    unary main_c_50 main_v257 (broadcastInDim S2000000 ![] bcast_S_S2000000 : (⟨S_, .i32⟩ : BufTy).Contents (Elt F) → (⟨S2000000, .i32⟩ : BufTy).Contents (Elt F)),
    binary main_arg3 main_v257 main_v258 (cmpi .eq : (⟨S2000000, .i32⟩ : BufTy).Contents (Elt F) → (⟨S2000000, .i32⟩ : BufTy).Contents (Elt F) → (⟨S2000000, .i1⟩ : BufTy).Contents (Elt F)),
    unary main_v258 main_v259 (uitofp .f32 : (⟨S2000000, .i1⟩ : BufTy).Contents (Elt F) → (⟨S2000000, .f32⟩ : BufTy).Contents (Elt F)),
    unary main_arg12 main_v260 ((extractStridedSlice S1x16x8 ![2, 0, 0] · slices_S3x16x8_S1x16x8_2_0_0) : (⟨S3x16x8, .f32⟩ : BufTy).Contents (Elt F) → (⟨S1x16x8, .f32⟩ : BufTy).Contents (Elt F)),
    reshape main_v260 main_v261 rfl shapeCasts_S1x16x8_S16x8,
    binary main_v196 main_v261 main_v262 ((fun l r => Host.dotGeneral dot_S1000000x16_S16x8_S1000000x8_1_0_0_1_n_n none l r) : (⟨S1000000x16, .f32⟩ : BufTy).Contents (Elt F) → (⟨S16x8, .f32⟩ : BufTy).Contents (Elt F) → (⟨S1000000x8, .f32⟩ : BufTy).Contents (Elt F)),
    nullary main_c_51 (constantI S_ 32 0#32),
    unary main_c_51 main_v263 (broadcastInDim S2000000 ![] bcast_S_S2000000 : (⟨S_, .i32⟩ : BufTy).Contents (Elt F) → (⟨S2000000, .i32⟩ : BufTy).Contents (Elt F)),
    binary main_v1 main_v263 main_v264 (cmpi .slt : (⟨S2000000, .i32⟩ : BufTy).Contents (Elt F) → (⟨S2000000, .i32⟩ : BufTy).Contents (Elt F) → (⟨S2000000, .i1⟩ : BufTy).Contents (Elt F)),
    nullary main_c_52 (constantI S_ 32 1000000#32),
    unary main_c_52 main_v265 (broadcastInDim S2000000 ![] bcast_S_S2000000 : (⟨S_, .i32⟩ : BufTy).Contents (Elt F) → (⟨S2000000, .i32⟩ : BufTy).Contents (Elt F)),
    binary main_v1 main_v265 main_v266 (addi : (⟨S2000000, .i32⟩ : BufTy).Contents (Elt F) → (⟨S2000000, .i32⟩ : BufTy).Contents (Elt F) → (⟨S2000000, .i32⟩ : BufTy).Contents (Elt F)),
    ternary main_v264 main_v266 main_v1 main_v267 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v267 main_v268 (broadcastInDim S2000000x1 ![0] bcast_S2000000_S2000000x1_0 : (⟨S2000000, .i32⟩ : BufTy).Contents (Elt F) → (⟨S2000000x1, .i32⟩ : BufTy).Contents (Elt F)),
    binary main_v262 main_v268 main_v269 ((fun x i => Host.gather gather_S1000000x8_S2000000x1_S2000000x8_1_0_n_n_0_1_18 x i) : (⟨S1000000x8, .f32⟩ : BufTy).Contents (Elt F) → (⟨S2000000x1, .i32⟩ : BufTy).Contents (Elt F) → (⟨S2000000x8, .f32⟩ : BufTy).Contents (Elt F)),
    unary main_v259 main_v270 (broadcastInDim S2000000x1 ![0] bcast_S2000000_S2000000x1_0 : (⟨S2000000, .f32⟩ : BufTy).Contents (Elt F) → (⟨S2000000x1, .f32⟩ : BufTy).Contents (Elt F)),
    unary main_v270 main_v271 (broadcastInDim S2000000x8 ![0, 1] bcast_S2000000x1_S2000000x8_0_1 : (⟨S2000000x1, .f32⟩ : BufTy).Contents (Elt F) → (⟨S2000000x8, .f32⟩ : BufTy).Contents (Elt F)),
    binary main_v269 main_v271 main_v272 (mulf : (⟨S2000000x8, .f32⟩ : BufTy).Contents (Elt F) → (⟨S2000000x8, .f32⟩ : BufTy).Contents (Elt F) → (⟨S2000000x8, .f32⟩ : BufTy).Contents (Elt F)),
    nullary main_cst_53 (constant S_ .f32 0x00000000#32),
    unary main_cst_53 main_v273 (broadcastInDim S1000000x8 ![] bcast_S_S1000000x8 : (⟨S_, .f32⟩ : BufTy).Contents (Elt F) → (⟨S1000000x8, .f32⟩ : BufTy).Contents (Elt F)),
    unary main_v3 main_v274 (broadcastInDim S2000000x1 ![0] bcast_S2000000_S2000000x1_0 : (⟨S2000000, .i32⟩ : BufTy).Contents (Elt F) → (⟨S2000000x1, .i32⟩ : BufTy).Contents (Elt F)),
    ternary main_v273 main_v274 main_v272 main_v275 ((fun x i u => Host.scatterAdd scatter_S1000000x8_S2000000x1_S2000000x8_1_0_0_1 x i u) : (⟨S1000000x8, .f32⟩ : BufTy).Contents (Elt F) → (⟨S2000000x1, .i32⟩ : BufTy).Contents (Elt F) → (⟨S2000000x8, .f32⟩ : BufTy).Contents (Elt F) → (⟨S1000000x8, .f32⟩ : BufTy).Contents (Elt F)),
    nullary main_cst_54 (constant S_ .f32 0x00000000#32),
    unary main_cst_54 main_v276 (broadcastInDim S1000000 ![] bcast_S_S1000000 : (⟨S_, .f32⟩ : BufTy).Contents (Elt F) → (⟨S1000000, .f32⟩ : BufTy).Contents (Elt F)),
    unary main_v3 main_v277 (broadcastInDim S2000000x1 ![0] bcast_S2000000_S2000000x1_0 : (⟨S2000000, .i32⟩ : BufTy).Contents (Elt F) → (⟨S2000000x1, .i32⟩ : BufTy).Contents (Elt F)),
    ternary main_v276 main_v277 main_v259 main_v278 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_55 (constant S_ .f32 0x3F800000#32),
    unary main_cst_55 main_v279 (broadcastInDim S1000000 ![] bcast_S_S1000000 : (⟨S_, .f32⟩ : BufTy).Contents (Elt F) → (⟨S1000000, .f32⟩ : BufTy).Contents (Elt F)),
    binary main_v278 main_v279 main_v280 (maximumf : (⟨S1000000, .f32⟩ : BufTy).Contents (Elt F) → (⟨S1000000, .f32⟩ : BufTy).Contents (Elt F) → (⟨S1000000, .f32⟩ : BufTy).Contents (Elt F)),
    unary main_v280 main_v281 (broadcastInDim S1000000x1 ![0] bcast_S1000000_S1000000x1_0 : (⟨S1000000, .f32⟩ : BufTy).Contents (Elt F) → (⟨S1000000x1, .f32⟩ : BufTy).Contents (Elt F)),
    unary main_v281 main_v282 (broadcastInDim S1000000x8 ![0, 1] bcast_S1000000x1_S1000000x8_0_1 : (⟨S1000000x1, .f32⟩ : BufTy).Contents (Elt F) → (⟨S1000000x8, .f32⟩ : BufTy).Contents (Elt F)),
    binary main_v275 main_v282 main_v283 (Host.divf : (⟨S1000000x8, .f32⟩ : BufTy).Contents (Elt F) → (⟨S1000000x8, .f32⟩ : BufTy).Contents (Elt F) → (⟨S1000000x8, .f32⟩ : BufTy).Contents (Elt F)),
    binary main_v256 main_v283 main_v284 (addf : (⟨S1000000x8, .f32⟩ : BufTy).Contents (Elt F) → (⟨S1000000x8, .f32⟩ : BufTy).Contents (Elt F) → (⟨S1000000x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1000000x8, .f32⟩) main_call2_v0) (broadcastInDim S1000000x8 ![] bcast_S_S1000000x8),
    TRef.binary (TRef.of (T := ⟨S1000000x8, .f32⟩) main_v284) (TRef.of (T := ⟨S1000000x8, .f32⟩) main_call2_v0) (TRef.of (T := ⟨S1000000x8, .f32⟩) main_v285) maximumf,
    binary main_v285 main_arg16 main_v286 ((fun l r => Host.dotGeneral dot_S1000000x8_S8x4_S1000000x4_1_0_0_1_n_n none l r) : (⟨S1000000x8, .f32⟩ : BufTy).Contents (Elt F) → (⟨S8x4, .f32⟩ : BufTy).Contents (Elt F) → (⟨S1000000x4, .f32⟩ : BufTy).Contents (Elt F)),
    unary main_arg17 main_v287 (broadcastInDim S1x4 ![1] bcast_S4_S1x4_1 : (⟨S4, .f32⟩ : BufTy).Contents (Elt F) → (⟨S1x4, .f32⟩ : BufTy).Contents (Elt F)),
    unary main_v287 main_v288 (broadcastInDim S1000000x4 ![0, 1] bcast_S1x4_S1000000x4_0_1 : (⟨S1x4, .f32⟩ : BufTy).Contents (Elt F) → (⟨S1000000x4, .f32⟩ : BufTy).Contents (Elt F)),
    binary main_v286 main_v288 main_v289 (addf : (⟨S1000000x4, .f32⟩ : BufTy).Contents (Elt F) → (⟨S1000000x4, .f32⟩ : BufTy).Contents (Elt F) → (⟨S1000000x4, .f32⟩ : BufTy).Contents (Elt F)),
    nullary main_c_56 (constantI S_ 32 0#32),
    unary main_c_56 main_v290 (broadcastInDim S2000000 ![] bcast_S_S2000000 : (⟨S_, .i32⟩ : BufTy).Contents (Elt F) → (⟨S2000000, .i32⟩ : BufTy).Contents (Elt F)),
    binary main_arg3 main_v290 main_v291 (cmpi .eq : (⟨S2000000, .i32⟩ : BufTy).Contents (Elt F) → (⟨S2000000, .i32⟩ : BufTy).Contents (Elt F) → (⟨S2000000, .i1⟩ : BufTy).Contents (Elt F)),
    unary main_v291 main_v292 (uitofp .f32 : (⟨S2000000, .i1⟩ : BufTy).Contents (Elt F) → (⟨S2000000, .f32⟩ : BufTy).Contents (Elt F)),
    unary main_arg15 main_v293 ((extractStridedSlice S1x8x4 ![0, 0, 0] · slices_S3x8x4_S1x8x4_0_0_0) : (⟨S3x8x4, .f32⟩ : BufTy).Contents (Elt F) → (⟨S1x8x4, .f32⟩ : BufTy).Contents (Elt F)),
    reshape main_v293 main_v294 rfl shapeCasts_S1x8x4_S8x4,
    binary main_v285 main_v294 main_v295 ((fun l r => Host.dotGeneral dot_S1000000x8_S8x4_S1000000x4_1_0_0_1_n_n none l r) : (⟨S1000000x8, .f32⟩ : BufTy).Contents (Elt F) → (⟨S8x4, .f32⟩ : BufTy).Contents (Elt F) → (⟨S1000000x4, .f32⟩ : BufTy).Contents (Elt F)),
    nullary main_c_57 (constantI S_ 32 0#32),
    unary main_c_57 main_v296 (broadcastInDim S2000000 ![] bcast_S_S2000000 : (⟨S_, .i32⟩ : BufTy).Contents (Elt F) → (⟨S2000000, .i32⟩ : BufTy).Contents (Elt F)),
    binary main_v1 main_v296 main_v297 (cmpi .slt : (⟨S2000000, .i32⟩ : BufTy).Contents (Elt F) → (⟨S2000000, .i32⟩ : BufTy).Contents (Elt F) → (⟨S2000000, .i1⟩ : BufTy).Contents (Elt F)),
    nullary main_c_58 (constantI S_ 32 1000000#32),
    unary main_c_58 main_v298 (broadcastInDim S2000000 ![] bcast_S_S2000000 : (⟨S_, .i32⟩ : BufTy).Contents (Elt F) → (⟨S2000000, .i32⟩ : BufTy).Contents (Elt F)) ]

/-- Every operation of the window touches TensorCore references only. -/
theorem ops_part5_sub : (ops_part5 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub ..⟩

set_option maxRecDepth 8192 in
set_option maxHeartbeats 4000000 in
/-- The window IS the line of its operations: the two sides unfold to the same steps. -/
theorem main_part5_eq (c : Dev nD) : main_part5 (F := F) c = seq ops_part5 := rfl

end Cert.ReferenceIdeal.Hand

end
-- ==== Proof.RefOps6.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 60 operations of @main's statements 361 … 420, in order (a called function's operations stand in its call's place). -/
abbrev ops_part6 : List (HloOp τ sig (Elt F)) :=
  [ binary main_v1 main_v298 main_v299 (addi : (⟨S2000000, .i32⟩ : BufTy).Contents (Elt F) → (⟨S2000000, .i32⟩ : BufTy).Contents (Elt F) → (⟨S2000000, .i32⟩ : BufTy).Contents (Elt F)),
    ternary main_v297 main_v299 main_v1 main_v300 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v300 main_v301 (broadcastInDim S2000000x1 ![0] bcast_S2000000_S2000000x1_0 : (⟨S2000000, .i32⟩ : BufTy).Contents (Elt F) → (⟨S2000000x1, .i32⟩ : BufTy).Contents (Elt F)),
    binary main_v295 main_v301 main_v302 ((fun x i => Host.gather gather_S1000000x4_S2000000x1_S2000000x4_1_0_n_n_0_1_14 x i) : (⟨S1000000x4, .f32⟩ : BufTy).Contents (Elt F) → (⟨S2000000x1, .i32⟩ : BufTy).Contents (Elt F) → (⟨S2000000x4, .f32⟩ : BufTy).Contents (Elt F)),
    unary main_v292 main_v303 (broadcastInDim S2000000x1 ![0] bcast_S2000000_S2000000x1_0 : (⟨S2000000, .f32⟩ : BufTy).Contents (Elt F) → (⟨S2000000x1, .f32⟩ : BufTy).Contents (Elt F)),
    unary main_v303 main_v304 (broadcastInDim S2000000x4 ![0, 1] bcast_S2000000x1_S2000000x4_0_1 : (⟨S2000000x1, .f32⟩ : BufTy).Contents (Elt F) → (⟨S2000000x4, .f32⟩ : BufTy).Contents (Elt F)),
    binary main_v302 main_v304 main_v305 (mulf : (⟨S2000000x4, .f32⟩ : BufTy).Contents (Elt F) → (⟨S2000000x4, .f32⟩ : BufTy).Contents (Elt F) → (⟨S2000000x4, .f32⟩ : BufTy).Contents (Elt F)),
    nullary main_cst_59 (constant S_ .f32 0x00000000#32),
    unary main_cst_59 main_v306 (broadcastInDim S1000000x4 ![] bcast_S_S1000000x4 : (⟨S_, .f32⟩ : BufTy).Contents (Elt F) → (⟨S1000000x4, .f32⟩ : BufTy).Contents (Elt F)),
    unary main_v3 main_v307 (broadcastInDim S2000000x1 ![0] bcast_S2000000_S2000000x1_0 : (⟨S2000000, .i32⟩ : BufTy).Contents (Elt F) → (⟨S2000000x1, .i32⟩ : BufTy).Contents (Elt F)),
    ternary main_v306 main_v307 main_v305 main_v308 ((fun x i u => Host.scatterAdd scatter_S1000000x4_S2000000x1_S2000000x4_1_0_0_1 x i u) : (⟨S1000000x4, .f32⟩ : BufTy).Contents (Elt F) → (⟨S2000000x1, .i32⟩ : BufTy).Contents (Elt F) → (⟨S2000000x4, .f32⟩ : BufTy).Contents (Elt F) → (⟨S1000000x4, .f32⟩ : BufTy).Contents (Elt F)),
    nullary main_cst_60 (constant S_ .f32 0x00000000#32),
    unary main_cst_60 main_v309 (broadcastInDim S1000000 ![] bcast_S_S1000000 : (⟨S_, .f32⟩ : BufTy).Contents (Elt F) → (⟨S1000000, .f32⟩ : BufTy).Contents (Elt F)),
    unary main_v3 main_v310 (broadcastInDim S2000000x1 ![0] bcast_S2000000_S2000000x1_0 : (⟨S2000000, .i32⟩ : BufTy).Contents (Elt F) → (⟨S2000000x1, .i32⟩ : BufTy).Contents (Elt F)),
    ternary main_v309 main_v310 main_v292 main_v311 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_61 (constant S_ .f32 0x3F800000#32),
    unary main_cst_61 main_v312 (broadcastInDim S1000000 ![] bcast_S_S1000000 : (⟨S_, .f32⟩ : BufTy).Contents (Elt F) → (⟨S1000000, .f32⟩ : BufTy).Contents (Elt F)),
    binary main_v311 main_v312 main_v313 (maximumf : (⟨S1000000, .f32⟩ : BufTy).Contents (Elt F) → (⟨S1000000, .f32⟩ : BufTy).Contents (Elt F) → (⟨S1000000, .f32⟩ : BufTy).Contents (Elt F)),
    unary main_v313 main_v314 (broadcastInDim S1000000x1 ![0] bcast_S1000000_S1000000x1_0 : (⟨S1000000, .f32⟩ : BufTy).Contents (Elt F) → (⟨S1000000x1, .f32⟩ : BufTy).Contents (Elt F)),
    unary main_v314 main_v315 (broadcastInDim S1000000x4 ![0, 1] bcast_S1000000x1_S1000000x4_0_1 : (⟨S1000000x1, .f32⟩ : BufTy).Contents (Elt F) → (⟨S1000000x4, .f32⟩ : BufTy).Contents (Elt F)),
    binary main_v308 main_v315 main_v316 (Host.divf : (⟨S1000000x4, .f32⟩ : BufTy).Contents (Elt F) → (⟨S1000000x4, .f32⟩ : BufTy).Contents (Elt F) → (⟨S1000000x4, .f32⟩ : BufTy).Contents (Elt F)),
    binary main_v289 main_v316 main_v317 (addf : (⟨S1000000x4, .f32⟩ : BufTy).Contents (Elt F) → (⟨S1000000x4, .f32⟩ : BufTy).Contents (Elt F) → (⟨S1000000x4, .f32⟩ : BufTy).Contents (Elt F)),
    nullary main_c_62 (constantI S_ 32 1#32),
    unary main_c_62 main_v318 (broadcastInDim S2000000 ![] bcast_S_S2000000 : (⟨S_, .i32⟩ : BufTy).Contents (Elt F) → (⟨S2000000, .i32⟩ : BufTy).Contents (Elt F)),
    binary main_arg3 main_v318 main_v319 (cmpi .eq : (⟨S2000000, .i32⟩ : BufTy).Contents (Elt F) → (⟨S2000000, .i32⟩ : BufTy).Contents (Elt F) → (⟨S2000000, .i1⟩ : BufTy).Contents (Elt F)),
    unary main_v319 main_v320 (uitofp .f32 : (⟨S2000000, .i1⟩ : BufTy).Contents (Elt F) → (⟨S2000000, .f32⟩ : BufTy).Contents (Elt F)),
    unary main_arg15 main_v321 ((extractStridedSlice S1x8x4 ![1, 0, 0] · slices_S3x8x4_S1x8x4_1_0_0) : (⟨S3x8x4, .f32⟩ : BufTy).Contents (Elt F) → (⟨S1x8x4, .f32⟩ : BufTy).Contents (Elt F)),
    reshape main_v321 main_v322 rfl shapeCasts_S1x8x4_S8x4,
    binary main_v285 main_v322 main_v323 ((fun l r => Host.dotGeneral dot_S1000000x8_S8x4_S1000000x4_1_0_0_1_n_n none l r) : (⟨S1000000x8, .f32⟩ : BufTy).Contents (Elt F) → (⟨S8x4, .f32⟩ : BufTy).Contents (Elt F) → (⟨S1000000x4, .f32⟩ : BufTy).Contents (Elt F)),
    nullary main_c_63 (constantI S_ 32 0#32),
    unary main_c_63 main_v324 (broadcastInDim S2000000 ![] bcast_S_S2000000 : (⟨S_, .i32⟩ : BufTy).Contents (Elt F) → (⟨S2000000, .i32⟩ : BufTy).Contents (Elt F)),
    binary main_v1 main_v324 main_v325 (cmpi .slt : (⟨S2000000, .i32⟩ : BufTy).Contents (Elt F) → (⟨S2000000, .i32⟩ : BufTy).Contents (Elt F) → (⟨S2000000, .i1⟩ : BufTy).Contents (Elt F)),
    nullary main_c_64 (constantI S_ 32 1000000#32),
    unary main_c_64 main_v326 (broadcastInDim S2000000 ![] bcast_S_S2000000 : (⟨S_, .i32⟩ : BufTy).Contents (Elt F) → (⟨S2000000, .i32⟩ : BufTy).Contents (Elt F)),
    binary main_v1 main_v326 main_v327 (addi : (⟨S2000000, .i32⟩ : BufTy).Contents (Elt F) → (⟨S2000000, .i32⟩ : BufTy).Contents (Elt F) → (⟨S2000000, .i32⟩ : BufTy).Contents (Elt F)),
    ternary main_v325 main_v327 main_v1 main_v328 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v328 main_v329 (broadcastInDim S2000000x1 ![0] bcast_S2000000_S2000000x1_0 : (⟨S2000000, .i32⟩ : BufTy).Contents (Elt F) → (⟨S2000000x1, .i32⟩ : BufTy).Contents (Elt F)),
    binary main_v323 main_v329 main_v330 ((fun x i => Host.gather gather_S1000000x4_S2000000x1_S2000000x4_1_0_n_n_0_1_14 x i) : (⟨S1000000x4, .f32⟩ : BufTy).Contents (Elt F) → (⟨S2000000x1, .i32⟩ : BufTy).Contents (Elt F) → (⟨S2000000x4, .f32⟩ : BufTy).Contents (Elt F)),
    unary main_v320 main_v331 (broadcastInDim S2000000x1 ![0] bcast_S2000000_S2000000x1_0 : (⟨S2000000, .f32⟩ : BufTy).Contents (Elt F) → (⟨S2000000x1, .f32⟩ : BufTy).Contents (Elt F)),
    unary main_v331 main_v332 (broadcastInDim S2000000x4 ![0, 1] bcast_S2000000x1_S2000000x4_0_1 : (⟨S2000000x1, .f32⟩ : BufTy).Contents (Elt F) → (⟨S2000000x4, .f32⟩ : BufTy).Contents (Elt F)),
    binary main_v330 main_v332 main_v333 (mulf : (⟨S2000000x4, .f32⟩ : BufTy).Contents (Elt F) → (⟨S2000000x4, .f32⟩ : BufTy).Contents (Elt F) → (⟨S2000000x4, .f32⟩ : BufTy).Contents (Elt F)),
    nullary main_cst_65 (constant S_ .f32 0x00000000#32),
    unary main_cst_65 main_v334 (broadcastInDim S1000000x4 ![] bcast_S_S1000000x4 : (⟨S_, .f32⟩ : BufTy).Contents (Elt F) → (⟨S1000000x4, .f32⟩ : BufTy).Contents (Elt F)),
    unary main_v3 main_v335 (broadcastInDim S2000000x1 ![0] bcast_S2000000_S2000000x1_0 : (⟨S2000000, .i32⟩ : BufTy).Contents (Elt F) → (⟨S2000000x1, .i32⟩ : BufTy).Contents (Elt F)),
    ternary main_v334 main_v335 main_v333 main_v336 ((fun x i u => Host.scatterAdd scatter_S1000000x4_S2000000x1_S2000000x4_1_0_0_1 x i u) : (⟨S1000000x4, .f32⟩ : BufTy).Contents (Elt F) → (⟨S2000000x1, .i32⟩ : BufTy).Contents (Elt F) → (⟨S2000000x4, .f32⟩ : BufTy).Contents (Elt F) → (⟨S1000000x4, .f32⟩ : BufTy).Contents (Elt F)),
    nullary main_cst_66 (constant S_ .f32 0x00000000#32),
    unary main_cst_66 main_v337 (broadcastInDim S1000000 ![] bcast_S_S1000000 : (⟨S_, .f32⟩ : BufTy).Contents (Elt F) → (⟨S1000000, .f32⟩ : BufTy).Contents (Elt F)),
    unary main_v3 main_v338 (broadcastInDim S2000000x1 ![0] bcast_S2000000_S2000000x1_0 : (⟨S2000000, .i32⟩ : BufTy).Contents (Elt F) → (⟨S2000000x1, .i32⟩ : BufTy).Contents (Elt F)),
    ternary main_v337 main_v338 main_v320 main_v339 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_67 (constant S_ .f32 0x3F800000#32),
    unary main_cst_67 main_v340 (broadcastInDim S1000000 ![] bcast_S_S1000000 : (⟨S_, .f32⟩ : BufTy).Contents (Elt F) → (⟨S1000000, .f32⟩ : BufTy).Contents (Elt F)),
    binary main_v339 main_v340 main_v341 (maximumf : (⟨S1000000, .f32⟩ : BufTy).Contents (Elt F) → (⟨S1000000, .f32⟩ : BufTy).Contents (Elt F) → (⟨S1000000, .f32⟩ : BufTy).Contents (Elt F)),
    unary main_v341 main_v342 (broadcastInDim S1000000x1 ![0] bcast_S1000000_S1000000x1_0 : (⟨S1000000, .f32⟩ : BufTy).Contents (Elt F) → (⟨S1000000x1, .f32⟩ : BufTy).Contents (Elt F)),
    unary main_v342 main_v343 (broadcastInDim S1000000x4 ![0, 1] bcast_S1000000x1_S1000000x4_0_1 : (⟨S1000000x1, .f32⟩ : BufTy).Contents (Elt F) → (⟨S1000000x4, .f32⟩ : BufTy).Contents (Elt F)),
    binary main_v336 main_v343 main_v344 (Host.divf : (⟨S1000000x4, .f32⟩ : BufTy).Contents (Elt F) → (⟨S1000000x4, .f32⟩ : BufTy).Contents (Elt F) → (⟨S1000000x4, .f32⟩ : BufTy).Contents (Elt F)),
    binary main_v317 main_v344 main_v345 (addf : (⟨S1000000x4, .f32⟩ : BufTy).Contents (Elt F) → (⟨S1000000x4, .f32⟩ : BufTy).Contents (Elt F) → (⟨S1000000x4, .f32⟩ : BufTy).Contents (Elt F)),
    nullary main_c_68 (constantI S_ 32 2#32),
    unary main_c_68 main_v346 (broadcastInDim S2000000 ![] bcast_S_S2000000 : (⟨S_, .i32⟩ : BufTy).Contents (Elt F) → (⟨S2000000, .i32⟩ : BufTy).Contents (Elt F)),
    binary main_arg3 main_v346 main_v347 (cmpi .eq : (⟨S2000000, .i32⟩ : BufTy).Contents (Elt F) → (⟨S2000000, .i32⟩ : BufTy).Contents (Elt F) → (⟨S2000000, .i1⟩ : BufTy).Contents (Elt F)),
    unary main_v347 main_v348 (uitofp .f32 : (⟨S2000000, .i1⟩ : BufTy).Contents (Elt F) → (⟨S2000000, .f32⟩ : BufTy).Contents (Elt F)) ]

/-- Every operation of the window touches TensorCore references only. -/
theorem ops_part6_sub : (ops_part6 : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub ..⟩

set_option maxRecDepth 8192 in
set_option maxHeartbeats 4000000 in
/-- The window IS the line of its operations: the two sides unfold to the same steps. -/
theorem main_part6_eq (c : Dev nD) : main_part6 (F := F) c = seq ops_part6 := rfl

end Cert.ReferenceIdeal.Hand

end
-- ==== Proof.RefOps7.lean ====
import proofs.«415972_j72490458022035_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 37 operations of @main's statements 421 … 455, in order (a called function's operations stand in its call's place). -/
abbrev ops_part7 : List (HloOp τ sig (Elt F)) :=
  [ unary main_arg15 main_v349 ((extractStridedSlice S1x8x4 ![2, 0, 0] · slices_S3x8x4_S1x8x4_2_0_0) : (⟨S3x8x4, .f32⟩ : BufTy).Contents (Elt F) → (⟨S1x8x4, .f32⟩ : BufTy).Contents (Elt F)),
    reshape main_v349 main_v350 rfl shapeCasts_S1x8x4_S8x4,
    binary main_v285 main_v350 main_v351 ((fun l r => Host.dotGeneral dot_S1000000x8_S8x4_S1000000x4_1_0_0_1_n_n none l r) : (⟨S1000000x8, .f32⟩ : BufTy).Contents (Elt F) → (⟨S8x4, .f32⟩ : BufTy).Contents (Elt F) → (⟨S1000000x4, .f32⟩ : BufTy).Contents (Elt F)),
    nullary main_c_69 (constantI S_ 32 0#32),
    unary main_c_69 main_v352 (broadcastInDim S2000000 ![] bcast_S_S2000000 : (⟨S_, .i32⟩ : BufTy).Contents (Elt F) → (⟨S2000000, .i32⟩ : BufTy).Contents (Elt F)),
    binary main_v1 main_v352 main_v353 (cmpi .slt : (⟨S2000000, .i32⟩ : BufTy).Contents (Elt F) → (⟨S2000000, .i32⟩ : BufTy).Contents (Elt F) → (⟨S2000000, .i1⟩ : BufTy).Contents (Elt F)),
    nullary main_c_70 (constantI S_ 32 1000000#32),
    unary main_c_70 main_v354 (broadcastInDim S2000000 ![] bcast_S_S2000000 : (⟨S_, .i32⟩ : BufTy).Contents (Elt F) → (⟨S2000000, .i32⟩ : BufTy).Contents (Elt F)),
    binary main_v1 main_v354 main_v355 (addi : (⟨S2000000, .i32⟩ : BufTy).Contents (Elt F) → (⟨S2000000, .i32⟩ : BufTy).Contents (Elt F) → (⟨S2000000, .i32⟩ : BufTy).Contents (Elt F)),
    ternary main_v353 main_v355 main_v1 main_v356 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v356 main_v357 (broadcastInDim S2000000x1 ![0] bcast_S2000000_S2000000x1_0 : (⟨S2000000, .i32⟩ : BufTy).Contents (Elt F) → (⟨S2000000x1, .i32⟩ : BufTy).Contents (Elt F)),
    binary main_v351 main_v357 main_v358 ((fun x i => Host.gather gather_S1000000x4_S2000000x1_S2000000x4_1_0_n_n_0_1_14 x i) : (⟨S1000000x4, .f32⟩ : BufTy).Contents (Elt F) → (⟨S2000000x1, .i32⟩ : BufTy).Contents (Elt F) → (⟨S2000000x4, .f32⟩ : BufTy).Contents (Elt F)),
    unary main_v348 main_v359 (broadcastInDim S2000000x1 ![0] bcast_S2000000_S2000000x1_0 : (⟨S2000000, .f32⟩ : BufTy).Contents (Elt F) → (⟨S2000000x1, .f32⟩ : BufTy).Contents (Elt F)),
    unary main_v359 main_v360 (broadcastInDim S2000000x4 ![0, 1] bcast_S2000000x1_S2000000x4_0_1 : (⟨S2000000x1, .f32⟩ : BufTy).Contents (Elt F) → (⟨S2000000x4, .f32⟩ : BufTy).Contents (Elt F)),
    binary main_v358 main_v360 main_v361 (mulf : (⟨S2000000x4, .f32⟩ : BufTy).Contents (Elt F) → (⟨S2000000x4, .f32⟩ : BufTy).Contents (Elt F) → (⟨S2000000x4, .f32⟩ : BufTy).Contents (Elt F)),
    nullary main_cst_71 (constant S_ .f32 0x00000000#32),
    unary main_cst_71 main_v362 (broadcastInDim S1000000x4 ![] bcast_S_S1000000x4 : (⟨S_, .f32⟩ : BufTy).Contents (Elt F) → (⟨S1000000x4, .f32⟩ : BufTy).Contents (Elt F)),
    unary main_v3 main_v363 (broadcastInDim S2000000x1 ![0] bcast_S2000000_S2000000x1_0 : (⟨S2000000, .i32⟩ : BufTy).Contents (Elt F) → (⟨S2000000x1, .i32⟩ : BufTy).Contents (Elt F)),
    ternary main_v362 main_v363 main_v361 main_v364 ((fun x i u => Host.scatterAdd scatter_S1000000x4_S2000000x1_S2000000x4_1_0_0_1 x i u) : (⟨S1000000x4, .f32⟩ : BufTy).Contents (Elt F) → (⟨S2000000x1, .i32⟩ : BufTy).Contents (Elt F) → (⟨S2000000x4, .f32⟩ : BufTy).Contents (Elt F) → (⟨S1000000x4, .f32⟩ : BufTy).Contents (Elt F)),
    nullary main_cst_72 (constant S_ .f32 0x00000000#32),
    unary main_cst_72 main_v365 (broadcastInDim S1000000 ![] bcast_S_S1000000 : (⟨S_, .f32⟩ : BufTy).Contents (Elt F) → (⟨S1000000, .f32⟩ : BufTy).Contents (Elt F)),
    unary main_v3 main_v366 (broadcastInDim S2000000x1 ![0] bcast_S2000000_S2000000x1_0 : (⟨S2000000, .i32⟩ : BufTy).Contents (Elt F) → (⟨S2000000x1, .i32⟩ : BufTy).Contents (Elt F)),
    ternary main_v365 main_v366 main_v348 main_v367 ((fun x i u => Host.scatterAdd scatter_S1000000_S2000000x1_S2000000_n_0_0_1 x i u) : (⟨S1000000, .f32⟩ : BufTy).Contents (Elt F) → (⟨S2000000x1, .i32⟩ : BufTy).Contents (Elt F) → (⟨S2000000, .f32⟩ : BufTy).Contents (Elt F) → (⟨S1000000, .f32⟩ : BufTy).Contents (Elt F)),
    nullary main_cst_73 (constant S_ .f32 0x3F800000#32),
    unary main_cst_73 main_v368 (broadcastInDim S1000000 ![] bcast_S_S1000000 : (⟨S_, .f32⟩ : BufTy).Contents (Elt F) → (⟨S1000000, .f32⟩ : BufTy).Contents (Elt F)),
    binary main_v367 main_v368 main_v369 (maximumf : (⟨S1000000, .f32⟩ : BufTy).Contents (Elt F) → (⟨S1000000, .f32⟩ : BufTy).Contents (Elt F) → (⟨S1000000, .f32⟩ : BufTy).Contents (Elt F)),
    unary main_v369 main_v370 (broadcastInDim S1000000x1 ![0] bcast_S1000000_S1000000x1_0 : (⟨S1000000, .f32⟩ : BufTy).Contents (Elt F) → (⟨S1000000x1, .f32⟩ : BufTy).Contents (Elt F)),
    unary main_v370 main_v371 (broadcastInDim S1000000x4 ![0, 1] bcast_S1000000x1_S1000000x4_0_1 : (⟨S1000000x1, .f32⟩ : BufTy).Contents (Elt F) → (⟨S1000000x4, .f32⟩ : BufTy).Contents (Elt F)),
    binary main_v364 main_v371 main_v372 (Host.divf : (⟨S1000000x4, .f32⟩ : BufTy).Contents (Elt F) → (⟨S1000000x4, .f32⟩ : BufTy).Contents (Elt F) → (⟨S1000000x4, .f32⟩ : BufTy).Contents (Elt F)),
    binary main_v345 main_v372 main_v373 (addf : (⟨S1000000x4, .f32⟩ : BufTy).Contents (Elt F) → (⟨S1000000x4, .f32⟩ : BufTy).Contents (Elt F) → (⟨S1000000x4, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1000000x4, .f32⟩) main_call3_v0) (broadcastInDim S1000000x4 ![] bcast_S_S1000000x4),
    TRef.binary (TRef.of (T := ⟨S1000000x4, .f32⟩) main_v373) (TRef.of (T := ⟨S1000000x4, .f32⟩) main_call3_v0) (TRef.of (T := ⟨S1000000x4, .f32⟩) main_v374) maximumf,
    binary main_v374 main_arg18 main_v375 ((fun l r => Host.dotGeneral dot_S1000000x4_S4x2_S1000000x2_1_0_0_1_n_n none l r) : (⟨S1000000x4, .f32⟩ : BufTy).Contents (Elt F) → (⟨S4x2, .f32⟩ : BufTy).Contents (Elt F) → (⟨S1000000x2, .f32⟩ : BufTy).Contents (Elt F)),
    unary main_arg19 main_v376 (broadcastInDim S1x2 ![1] bcast_S2_S1x2_1 : (⟨S2, .f32⟩ : BufTy).Contents (Elt F) → (⟨S1x2, .f32⟩ : BufTy).Contents (Elt F)),
    unary main_v376 main_v377 (broadcastInDim S1000000x2 ![0, 1] bcast_S1x2_S1000000x2_0_1 : (⟨S1x2, .f32⟩ : BufTy).Contents (Elt F) → (⟨S1000000x2, .f32⟩ : BufTy).Contents (Elt F)),
    binary main_v375 main_v377 main_v378 (addf : (⟨S1000000x2, .f32⟩ : BufTy).Contents (Elt F) → (⟨S1000000x2, .f32⟩ : BufTy).Contents (Elt F) → (⟨S1000000x2, .f32⟩ : BufTy).Contents (Elt F)) ]

/-- Every operation of the window touches TensorCore references only. -/
theorem ops_part7_sub : (ops_part7 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
/-- The window IS the line of its operations: the two sides unfold to the same steps. -/
theorem main_part7_eq (c : Dev nD) : main_part7 (F := F) c = seq ops_part7 := rfl

end Cert.ReferenceIdeal.Hand

end
-- ==== Proof.RefRun.lean ====
import proofs.«415972_j72490458022035_1_alg».proof.Proof.RefOps0
import proofs.«415972_j72490458022035_1_alg».proof.Proof.RefOps1
import proofs.«415972_j72490458022035_1_alg».proof.Proof.RefOps2
import proofs.«415972_j72490458022035_1_alg».proof.Proof.RefOps3
import proofs.«415972_j72490458022035_1_alg».proof.Proof.RefOps4
import proofs.«415972_j72490458022035_1_alg».proof.Proof.RefOps5
import proofs.«415972_j72490458022035_1_alg».proof.Proof.RefOps6
import proofs.«415972_j72490458022035_1_alg».proof.Proof.RefOps7
import Mathlib.Data.List.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ ops_part1 ++ ops_part2 ++ ops_part3 ++ ops_part4 ++ ops_part5 ++ ops_part6 ++ ops_part7

theorem main_eq (c : Dev nD) : main (F := F) c = seq ops := by
  unfold main
  rw [main_part0_eq, main_part1_eq, main_part2_eq, main_part3_eq, main_part4_eq, main_part5_eq, main_part6_eq,
    main_part7_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem forall_ops {p : HloOp τ sig (Elt F) → Prop}
    (h0 : (ops_part0 : List (HloOp τ sig (Elt F))).Forall p) (h1 : (ops_part1 : List (HloOp τ sig (Elt F))).Forall p)
    (h2 : (ops_part2 : List (HloOp τ sig (Elt F))).Forall p) (h3 : (ops_part3 : List (HloOp τ sig (Elt F))).Forall p)
    (h4 : (ops_part4 : List (HloOp τ sig (Elt F))).Forall p) (h5 : (ops_part5 : List (HloOp τ sig (Elt F))).Forall p)
    (h6 : (ops_part6 : List (HloOp τ sig (Elt F))).Forall p) (h7 : (ops_part7 : List (HloOp τ sig (Elt F))).Forall p) :
    (ops : List (HloOp τ sig (Elt F))).Forall p :=
  List.forall_append.2 ⟨List.forall_append.2 ⟨List.forall_append.2 ⟨List.forall_append.2 ⟨List.forall_append.2
    ⟨List.forall_append.2 ⟨List.forall_append.2 ⟨h0, h1⟩, h2⟩, h3⟩, h4⟩, h5⟩, h6⟩, h7⟩

theorem ops_sub : (ops : List (HloOp τ sig (Elt F))).Forall fun op => op.bufs ⊆ tcRefs τ sig :=
  forall_ops ops_part0_sub ops_part1_sub ops_part2_sub ops_part3_sub ops_part4_sub ops_part5_sub ops_part6_sub
    ops_part7_sub

def WritesPastArgs (op : HloOp τ sig (Elt F)) : Prop :=
  ∃ y : Ref sig .tc, op.fresh = ∅ ∧ op.writes = {Proc.devRef .tc y} ∧ 20 ≤ y.idx.val

theorem not_mem_writes {op : HloOp τ sig (Elt F)} (h : WritesPastArgs op) {r : Ref sig .tc} (hr : r.idx.val < 20) :
    Proc.devRef (τ := τ) .tc r ∉ op.writes := by
  obtain ⟨y, _, hw, hy⟩ := h
  rw [hw, Finset.mem_singleton]
  exact devRef_ne_of_ne fun e => by subst e; omega

set_option maxRecDepth 8192 in
set_option maxHeartbeats 4000000 in
theorem ops_part0_writes : (ops_part0 : List (HloOp τ sig (Elt F))).Forall WritesPastArgs := by
  simp only [List.Forall]
  and_intros <;> exact ⟨_, rfl, rfl, by decide⟩

set_option maxRecDepth 8192 in
set_option maxHeartbeats 4000000 in
theorem ops_part1_writes : (ops_part1 : List (HloOp τ sig (Elt F))).Forall WritesPastArgs := by
  simp only [List.Forall]
  and_intros <;> exact ⟨_, rfl, rfl, by decide⟩

set_option maxRecDepth 8192 in
set_option maxHeartbeats 4000000 in
theorem ops_part2_writes : (ops_part2 : List (HloOp τ sig (Elt F))).Forall WritesPastArgs := by
  simp only [List.Forall]
  and_intros <;> exact ⟨_, rfl, rfl, by decide⟩

set_option maxRecDepth 8192 in
set_option maxHeartbeats 4000000 in
theorem ops_part3_writes : (ops_part3 : List (HloOp τ sig (Elt F))).Forall WritesPastArgs := by
  simp only [List.Forall]
  and_intros <;> exact ⟨_, rfl, rfl, by decide⟩

set_option maxRecDepth 8192 in
set_option maxHeartbeats 4000000 in
theorem ops_part4_writes : (ops_part4 : List (HloOp τ sig (Elt F))).Forall WritesPastArgs := by
  simp only [List.Forall]
  and_intros <;> exact ⟨_, rfl, rfl, by decide⟩

set_option maxRecDepth 8192 in
set_option maxHeartbeats 4000000 in
theorem ops_part5_writes : (ops_part5 : List (HloOp τ sig (Elt F))).Forall WritesPastArgs := by
  simp only [List.Forall]
  and_intros <;> exact ⟨_, rfl, rfl, by decide⟩

set_option maxRecDepth 8192 in
set_option maxHeartbeats 4000000 in
theorem ops_part6_writes : (ops_part6 : List (HloOp τ sig (Elt F))).Forall WritesPastArgs := by
  simp only [List.Forall]
  and_intros <;> exact ⟨_, rfl, rfl, by decide⟩

set_option maxRecDepth 8192 in
set_option maxHeartbeats 4000000 in
theorem ops_part7_writes : (ops_part7 : List (HloOp τ sig (Elt F))).Forall WritesPastArgs := by
  simp only [List.Forall]
  and_intros <;> exact ⟨_, rfl, rfl, by decide⟩

theorem ops_writes : (ops : List (HloOp τ sig (Elt F))).Forall WritesPastArgs :=
  forall_ops ops_part0_writes ops_part1_writes ops_part2_writes ops_part3_writes ops_part4_writes ops_part5_writes
    ops_part6_writes ops_part7_writes

theorem ops_fresh : ∀ op ∈ (ops : List (HloOp τ sig (Elt F))), op.fresh = ∅ := fun op h =>
  let ⟨_, hf, _⟩ := List.forall_iff_forall_mem.1 ops_writes op h
  hf

theorem after_ops_arg (m : (ℓ : Loc nD τ sig) → Buf (Elt F) ℓ) (c : Dev nD) (r : Ref sig .tc) (hr : r.idx.val < 20) :
    after ops (launchContents m c) (Proc.devRef .tc r) = m ((c.tc : Thread nD τ).loc r) :=
  after_of_forall_not_mem ops _ fun op hop => not_mem_writes (List.forall_iff_forall_mem.1 ops_writes op hop) hr

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.Tail24.lean ====
import proofs.«415972_j72490458022035_1_alg».proof.ReferenceIdeal

noncomputable section

namespace Cert.Tail

open Idealize.ShloMosaic Cert.ReferenceIdeal

variable {F : FTy → Type} [FloatOps F]

variable [Facts₀]
open Facts₀

def srcOf (ei : IVec S2x2000000 32) : IVec S2000000 32 :=
  shapeCast S2000000 (extractStridedSlice S1x2000000 ![0, 0] ei slices_S2x2000000_S1x2000000_0_0) shapeCasts_S1x2000000_S2000000

def dstOf (ei : IVec S2x2000000 32) : IVec S2000000 32 :=
  shapeCast S2000000 (extractStridedSlice S1x2000000 ![1, 0] ei slices_S2x2000000_S1x2000000_1_0) shapeCasts_S1x2000000_S2000000

def maskOf (r : BitVec 32) (et : IVec S2000000 32) : FVec F S2000000 .f32 :=
  uitofp .f32 (cmpi .eq et (broadcastInDim S2000000 ![] bcast_S_S2000000 (constantI S_ 32 r)))

def startOf (src : IVec S2000000 32) : IVec S2000000x1 32 :=
  broadcastInDim S2000000x1 ![0] bcast_S2000000_S2000000x1_0
    (select (cmpi .slt src (broadcastInDim S2000000 ![] bcast_S_S2000000 (constantI S_ 32 0#32)))
      (addi src (broadcastInDim S2000000 ![] bcast_S_S2000000 (constantI S_ 32 1000000#32))) src)

def countOf (dst : IVec S2000000 32) (mk : FVec F S2000000 .f32) : FVec F S1000000 .f32 :=
  maximumf
    (Host.scatterAdd scatter_S1000000_S2000000x1_S2000000_n_0_0_1
      (broadcastInDim S1000000 ![] bcast_S_S1000000 (constant S_ .f32 0x00000000#32))
      (broadcastInDim S2000000x1 ![0] bcast_S2000000_S2000000x1_0 dst) mk)
    (broadcastInDim S1000000 ![] bcast_S_S1000000 (constant S_ .f32 0x3F800000#32))

def rel24 (msg : FVec F S1000000x24 .f32) (src dst : IVec S2000000 32) (mk : FVec F S2000000 .f32) : FVec F S1000000x24 .f32 :=
  Host.divf
    (Host.scatterAdd scatter_S1000000x24_S2000000x1_S2000000x24_1_0_0_1
      (broadcastInDim S1000000x24 ![] bcast_S_S1000000x24 (constant S_ .f32 0x00000000#32))
      (broadcastInDim S2000000x1 ![0] bcast_S2000000_S2000000x1_0 dst)
      (mulf (Host.gather gather_S1000000x24_S2000000x1_S2000000x24_1_0_n_n_0_1_124 msg (startOf src))
        (broadcastInDim S2000000x24 ![0, 1] bcast_S2000000x1_S2000000x24_0_1
          (broadcastInDim S2000000x1 ![0] bcast_S2000000_S2000000x1_0 mk))))
    (broadcastInDim S1000000x24 ![0, 1] bcast_S1000000x1_S1000000x24_0_1
      (broadcastInDim S1000000x1 ![0] bcast_S1000000_S1000000x1_0 (countOf dst mk)))

def layer24 (own m0 m1 m2 : FVec F S1000000x24 .f32) (ei : IVec S2x2000000 32) (et : IVec S2000000 32) : FVec F S1000000x24 .f32 :=
  addf (addf (addf own (rel24 m0 (srcOf ei) (dstOf ei) (maskOf 0#32 et)))
    (rel24 m1 (srcOf ei) (dstOf ei) (maskOf 1#32 et)))
    (rel24 m2 (srcOf ei) (dstOf ei) (maskOf 2#32 et))

end Cert.Tail

end
-- ==== Proof.Tail16.lean ====
import proofs.«415972_j72490458022035_1_alg».proof.Proof.Tail24

noncomputable section

namespace Cert.Tail

open Idealize.ShloMosaic Cert.ReferenceIdeal

variable {F : FTy → Type} [FloatOps F]
variable [Facts₀]
open Facts₀

/-- One relation's aggregate at width 16: masked source rows summed into their targets, over the count. -/
def rel16 (msg : FVec F S1000000x16 .f32) (src dst : IVec S2000000 32) (mk : FVec F S2000000 .f32) : FVec F S1000000x16 .f32 :=
  Host.divf
    (Host.scatterAdd scatter_S1000000x16_S2000000x1_S2000000x16_1_0_0_1
      (broadcastInDim S1000000x16 ![] bcast_S_S1000000x16 (constant S_ .f32 0x00000000#32))
      (broadcastInDim S2000000x1 ![0] bcast_S2000000_S2000000x1_0 dst)
      (mulf (Host.gather gather_S1000000x16_S2000000x1_S2000000x16_1_0_n_n_0_1_116 msg (startOf src))
        (broadcastInDim S2000000x16 ![0, 1] bcast_S2000000x1_S2000000x16_0_1
          (broadcastInDim S2000000x1 ![0] bcast_S2000000_S2000000x1_0 mk))))
    (broadcastInDim S1000000x16 ![0, 1] bcast_S1000000x1_S1000000x16_0_1
      (broadcastInDim S1000000x1 ![0] bcast_S1000000_S1000000x1_0 (countOf dst mk)))

/-- The layer's output at width 16: the nodes' own transform plus the three relations' aggregates. -/
def layer16 (own m0 m1 m2 : FVec F S1000000x16 .f32) (ei : IVec S2x2000000 32) (et : IVec S2000000 32) : FVec F S1000000x16 .f32 :=
  addf (addf (addf own (rel16 m0 (srcOf ei) (dstOf ei) (maskOf 0#32 et)))
    (rel16 m1 (srcOf ei) (dstOf ei) (maskOf 1#32 et)))
    (rel16 m2 (srcOf ei) (dstOf ei) (maskOf 2#32 et))

end Cert.Tail

end
-- ==== Proof.Tail8.lean ====
import proofs.«415972_j72490458022035_1_alg».proof.Proof.Tail24

noncomputable section

namespace Cert.Tail

open Idealize.ShloMosaic Cert.ReferenceIdeal

variable {F : FTy → Type} [FloatOps F]
variable [Facts₀]
open Facts₀

/-- One relation's aggregate at width 8: masked source rows summed into their targets, over the count. -/
def rel8 (msg : FVec F S1000000x8 .f32) (src dst : IVec S2000000 32) (mk : FVec F S2000000 .f32) : FVec F S1000000x8 .f32 :=
  Host.divf
    (Host.scatterAdd scatter_S1000000x8_S2000000x1_S2000000x8_1_0_0_1
      (broadcastInDim S1000000x8 ![] bcast_S_S1000000x8 (constant S_ .f32 0x00000000#32))
      (broadcastInDim S2000000x1 ![0] bcast_S2000000_S2000000x1_0 dst)
      (mulf (Host.gather gather_S1000000x8_S2000000x1_S2000000x8_1_0_n_n_0_1_18 msg (startOf src))
        (broadcastInDim S2000000x8 ![0, 1] bcast_S2000000x1_S2000000x8_0_1
          (broadcastInDim S2000000x1 ![0] bcast_S2000000_S2000000x1_0 mk))))
    (broadcastInDim S1000000x8 ![0, 1] bcast_S1000000x1_S1000000x8_0_1
      (broadcastInDim S1000000x1 ![0] bcast_S1000000_S1000000x1_0 (countOf dst mk)))

/-- The layer's output at width 8: the nodes' own transform plus the three relations' aggregates. -/
def layer8 (own m0 m1 m2 : FVec F S1000000x8 .f32) (ei : IVec S2x2000000 32) (et : IVec S2000000 32) : FVec F S1000000x8 .f32 :=
  addf (addf (addf own (rel8 m0 (srcOf ei) (dstOf ei) (maskOf 0#32 et)))
    (rel8 m1 (srcOf ei) (dstOf ei) (maskOf 1#32 et)))
    (rel8 m2 (srcOf ei) (dstOf ei) (maskOf 2#32 et))

end Cert.Tail

end
-- ==== Proof.Tail4.lean ====
import proofs.«415972_j72490458022035_1_alg».proof.Proof.Tail24

noncomputable section

namespace Cert.Tail

open Idealize.ShloMosaic Cert.ReferenceIdeal

variable {F : FTy → Type} [FloatOps F]
variable [Facts₀]
open Facts₀

/-- One relation's aggregate at width 4: masked source rows summed into their targets, over the count. -/
def rel4 (msg : FVec F S1000000x4 .f32) (src dst : IVec S2000000 32) (mk : FVec F S2000000 .f32) : FVec F S1000000x4 .f32 :=
  Host.divf
    (Host.scatterAdd scatter_S1000000x4_S2000000x1_S2000000x4_1_0_0_1
      (broadcastInDim S1000000x4 ![] bcast_S_S1000000x4 (constant S_ .f32 0x00000000#32))
      (broadcastInDim S2000000x1 ![0] bcast_S2000000_S2000000x1_0 dst)
      (mulf (Host.gather gather_S1000000x4_S2000000x1_S2000000x4_1_0_n_n_0_1_14 msg (startOf src))
        (broadcastInDim S2000000x4 ![0, 1] bcast_S2000000x1_S2000000x4_0_1
          (broadcastInDim S2000000x1 ![0] bcast_S2000000_S2000000x1_0 mk))))
    (broadcastInDim S1000000x4 ![0, 1] bcast_S1000000x1_S1000000x4_0_1
      (broadcastInDim S1000000x1 ![0] bcast_S1000000_S1000000x1_0 (countOf dst mk)))

/-- The layer's output at width 4: the nodes' own transform plus the three relations' aggregates. -/
def layer4 (own m0 m1 m2 : FVec F S1000000x4 .f32) (ei : IVec S2x2000000 32) (et : IVec S2000000 32) : FVec F S1000000x4 .f32 :=
  addf (addf (addf own (rel4 m0 (srcOf ei) (dstOf ei) (maskOf 0#32 et)))
    (rel4 m1 (srcOf ei) (dstOf ei) (maskOf 1#32 et)))
    (rel4 m2 (srcOf ei) (dstOf ei) (maskOf 2#32 et))

end Cert.Tail

end
-- ==== Proof.RefSpec.lean ====
import proofs.«415972_j72490458022035_1_alg».proof.ReferenceIdeal
import proofs.«415972_j72490458022035_1_alg».proof.Proof.Tail24
import proofs.«415972_j72490458022035_1_alg».proof.Proof.Tail16
import proofs.«415972_j72490458022035_1_alg».proof.Proof.Tail8
import proofs.«415972_j72490458022035_1_alg».proof.Proof.Tail4

noncomputable section

namespace Cert.RefSpec

open Idealize.ShloMosaic Cert.ReferenceIdeal

variable {F : FTy → Type} [FloatOps F]

variable [Facts₀]
open Facts₀

def x0 (xc xs : IVec S1000000 32) (se : FVec F S15x4 .f32) (ce : FVec F S202x32 .f32) : FVec F S1000000x36 .f32 :=
  concatenate S1000000x36 1
    [⟨S1000000x4, Host.gather gather_S15x4_S1000000x1_S1000000x4_1_0_n_n_0_1_14 se
        (broadcastInDim S1000000x1 ![0] bcast_S1000000_S1000000x1_0
          (select (cmpi .slt xs (broadcastInDim S1000000 ![] bcast_S_S1000000 (constantI S_ 32 0#32)))
            (addi xs (broadcastInDim S1000000 ![] bcast_S_S1000000 (constantI S_ 32 15#32))) xs))⟩,
     ⟨S1000000x32, Host.gather gather_S202x32_S1000000x1_S1000000x32_1_0_n_n_0_1_132 ce
        (broadcastInDim S1000000x1 ![0] bcast_S1000000_S1000000x1_0
          (select (cmpi .slt xc (broadcastInDim S1000000 ![] bcast_S_S1000000 (constantI S_ 32 0#32)))
            (addi xc (broadcastInDim S1000000 ![] bcast_S_S1000000 (constantI S_ 32 202#32))) xc))⟩]
    concatenates_S1000000x4_S1000000x32_S1000000x36_d1

def own0 (X : FVec F S1000000x36 .f32) (root : FVec F S36x24 .f32) (b : FVec F S24 .f32) : FVec F S1000000x24 .f32 :=
  addf (Host.dotGeneral dot_S1000000x36_S36x24_S1000000x24_1_0_0_1_n_n none X root)
    (broadcastInDim S1000000x24 ![0, 1] bcast_S1x24_S1000000x24_0_1 (broadcastInDim S1x24 ![1] bcast_S24_S1x24_1 b))

def msg0_0 (X : FVec F S1000000x36 .f32) (w : FVec F S3x36x24 .f32) : FVec F S1000000x24 .f32 :=
  Host.dotGeneral dot_S1000000x36_S36x24_S1000000x24_1_0_0_1_n_n none X
    (shapeCast S36x24 (extractStridedSlice S1x36x24 ![0, 0, 0] w slices_S3x36x24_S1x36x24_0_0_0) shapeCasts_S1x36x24_S36x24)

def msg0_1 (X : FVec F S1000000x36 .f32) (w : FVec F S3x36x24 .f32) : FVec F S1000000x24 .f32 :=
  Host.dotGeneral dot_S1000000x36_S36x24_S1000000x24_1_0_0_1_n_n none X
    (shapeCast S36x24 (extractStridedSlice S1x36x24 ![1, 0, 0] w slices_S3x36x24_S1x36x24_1_0_0) shapeCasts_S1x36x24_S36x24)

def msg0_2 (X : FVec F S1000000x36 .f32) (w : FVec F S3x36x24 .f32) : FVec F S1000000x24 .f32 :=
  Host.dotGeneral dot_S1000000x36_S36x24_S1000000x24_1_0_0_1_n_n none X
    (shapeCast S36x24 (extractStridedSlice S1x36x24 ![2, 0, 0] w slices_S3x36x24_S1x36x24_2_0_0) shapeCasts_S1x36x24_S36x24)

def out0 (X : FVec F S1000000x36 .f32) (root : FVec F S36x24 .f32) (b : FVec F S24 .f32) (w : FVec F S3x36x24 .f32)
    (ei : IVec S2x2000000 32) (et : IVec S2000000 32) : FVec F S1000000x24 .f32 :=
  Cert.Tail.layer24 (own0 X root b) (msg0_0 X w) (msg0_1 X w) (msg0_2 X w) ei et

def relu24 (C : FVec F S1000000x24 .f32) : FVec F S1000000x24 .f32 :=
  maximumf C (broadcastInDim S1000000x24 ![] bcast_S_S1000000x24 (constant S_ .f32 0x00000000#32))

def own1 (X : FVec F S1000000x24 .f32) (root : FVec F S24x16 .f32) (b : FVec F S16 .f32) : FVec F S1000000x16 .f32 :=
  addf (Host.dotGeneral dot_S1000000x24_S24x16_S1000000x16_1_0_0_1_n_n none X root)
    (broadcastInDim S1000000x16 ![0, 1] bcast_S1x16_S1000000x16_0_1 (broadcastInDim S1x16 ![1] bcast_S16_S1x16_1 b))

def msg1_0 (X : FVec F S1000000x24 .f32) (w : FVec F S3x24x16 .f32) : FVec F S1000000x16 .f32 :=
  Host.dotGeneral dot_S1000000x24_S24x16_S1000000x16_1_0_0_1_n_n none X
    (shapeCast S24x16 (extractStridedSlice S1x24x16 ![0, 0, 0] w slices_S3x24x16_S1x24x16_0_0_0) shapeCasts_S1x24x16_S24x16)

def msg1_1 (X : FVec F S1000000x24 .f32) (w : FVec F S3x24x16 .f32) : FVec F S1000000x16 .f32 :=
  Host.dotGeneral dot_S1000000x24_S24x16_S1000000x16_1_0_0_1_n_n none X
    (shapeCast S24x16 (extractStridedSlice S1x24x16 ![1, 0, 0] w slices_S3x24x16_S1x24x16_1_0_0) shapeCasts_S1x24x16_S24x16)

def msg1_2 (X : FVec F S1000000x24 .f32) (w : FVec F S3x24x16 .f32) : FVec F S1000000x16 .f32 :=
  Host.dotGeneral dot_S1000000x24_S24x16_S1000000x16_1_0_0_1_n_n none X
    (shapeCast S24x16 (extractStridedSlice S1x24x16 ![2, 0, 0] w slices_S3x24x16_S1x24x16_2_0_0) shapeCasts_S1x24x16_S24x16)

def out1 (X : FVec F S1000000x24 .f32) (root : FVec F S24x16 .f32) (b : FVec F S16 .f32) (w : FVec F S3x24x16 .f32)
    (ei : IVec S2x2000000 32) (et : IVec S2000000 32) : FVec F S1000000x16 .f32 :=
  Cert.Tail.layer16 (own1 X root b) (msg1_0 X w) (msg1_1 X w) (msg1_2 X w) ei et

def relu16 (C : FVec F S1000000x16 .f32) : FVec F S1000000x16 .f32 :=
  maximumf C (broadcastInDim S1000000x16 ![] bcast_S_S1000000x16 (constant S_ .f32 0x00000000#32))

def own2 (X : FVec F S1000000x16 .f32) (root : FVec F S16x8 .f32) (b : FVec F S8 .f32) : FVec F S1000000x8 .f32 :=
  addf (Host.dotGeneral dot_S1000000x16_S16x8_S1000000x8_1_0_0_1_n_n none X root)
    (broadcastInDim S1000000x8 ![0, 1] bcast_S1x8_S1000000x8_0_1 (broadcastInDim S1x8 ![1] bcast_S8_S1x8_1 b))

def msg2_0 (X : FVec F S1000000x16 .f32) (w : FVec F S3x16x8 .f32) : FVec F S1000000x8 .f32 :=
  Host.dotGeneral dot_S1000000x16_S16x8_S1000000x8_1_0_0_1_n_n none X
    (shapeCast S16x8 (extractStridedSlice S1x16x8 ![0, 0, 0] w slices_S3x16x8_S1x16x8_0_0_0) shapeCasts_S1x16x8_S16x8)

def msg2_1 (X : FVec F S1000000x16 .f32) (w : FVec F S3x16x8 .f32) : FVec F S1000000x8 .f32 :=
  Host.dotGeneral dot_S1000000x16_S16x8_S1000000x8_1_0_0_1_n_n none X
    (shapeCast S16x8 (extractStridedSlice S1x16x8 ![1, 0, 0] w slices_S3x16x8_S1x16x8_1_0_0) shapeCasts_S1x16x8_S16x8)

def msg2_2 (X : FVec F S1000000x16 .f32) (w : FVec F S3x16x8 .f32) : FVec F S1000000x8 .f32 :=
  Host.dotGeneral dot_S1000000x16_S16x8_S1000000x8_1_0_0_1_n_n none X
    (shapeCast S16x8 (extractStridedSlice S1x16x8 ![2, 0, 0] w slices_S3x16x8_S1x16x8_2_0_0) shapeCasts_S1x16x8_S16x8)

def out2 (X : FVec F S1000000x16 .f32) (root : FVec F S16x8 .f32) (b : FVec F S8 .f32) (w : FVec F S3x16x8 .f32)
    (ei : IVec S2x2000000 32) (et : IVec S2000000 32) : FVec F S1000000x8 .f32 :=
  Cert.Tail.layer8 (own2 X root b) (msg2_0 X w) (msg2_1 X w) (msg2_2 X w) ei et

def relu8 (C : FVec F S1000000x8 .f32) : FVec F S1000000x8 .f32 :=
  maximumf C (broadcastInDim S1000000x8 ![] bcast_S_S1000000x8 (constant S_ .f32 0x00000000#32))

def own3 (X : FVec F S1000000x8 .f32) (root : FVec F S8x4 .f32) (b : FVec F S4 .f32) : FVec F S1000000x4 .f32 :=
  addf (Host.dotGeneral dot_S1000000x8_S8x4_S1000000x4_1_0_0_1_n_n none X root)
    (broadcastInDim S1000000x4 ![0, 1] bcast_S1x4_S1000000x4_0_1 (broadcastInDim S1x4 ![1] bcast_S4_S1x4_1 b))

def msg3_0 (X : FVec F S1000000x8 .f32) (w : FVec F S3x8x4 .f32) : FVec F S1000000x4 .f32 :=
  Host.dotGeneral dot_S1000000x8_S8x4_S1000000x4_1_0_0_1_n_n none X
    (shapeCast S8x4 (extractStridedSlice S1x8x4 ![0, 0, 0] w slices_S3x8x4_S1x8x4_0_0_0) shapeCasts_S1x8x4_S8x4)

def msg3_1 (X : FVec F S1000000x8 .f32) (w : FVec F S3x8x4 .f32) : FVec F S1000000x4 .f32 :=
  Host.dotGeneral dot_S1000000x8_S8x4_S1000000x4_1_0_0_1_n_n none X
    (shapeCast S8x4 (extractStridedSlice S1x8x4 ![1, 0, 0] w slices_S3x8x4_S1x8x4_1_0_0) shapeCasts_S1x8x4_S8x4)

def msg3_2 (X : FVec F S1000000x8 .f32) (w : FVec F S3x8x4 .f32) : FVec F S1000000x4 .f32 :=
  Host.dotGeneral dot_S1000000x8_S8x4_S1000000x4_1_0_0_1_n_n none X
    (shapeCast S8x4 (extractStridedSlice S1x8x4 ![2, 0, 0] w slices_S3x8x4_S1x8x4_2_0_0) shapeCasts_S1x8x4_S8x4)

def out3 (X : FVec F S1000000x8 .f32) (root : FVec F S8x4 .f32) (b : FVec F S4 .f32) (w : FVec F S3x8x4 .f32)
    (ei : IVec S2x2000000 32) (et : IVec S2000000 32) : FVec F S1000000x4 .f32 :=
  Cert.Tail.layer4 (own3 X root b) (msg3_0 X w) (msg3_1 X w) (msg3_2 X w) ei et

def relu4 (C : FVec F S1000000x4 .f32) : FVec F S1000000x4 .f32 :=
  maximumf C (broadcastInDim S1000000x4 ![] bcast_S_S1000000x4 (constant S_ .f32 0x00000000#32))

def lin (X : FVec F S1000000x4 .f32) (lw : FVec F S4x2 .f32) (lb : FVec F S2 .f32) : FVec F S1000000x2 .f32 :=
  addf (Host.dotGeneral dot_S1000000x4_S4x2_S1000000x2_1_0_0_1_n_n none X lw)
    (broadcastInDim S1000000x2 ![0, 1] bcast_S1x2_S1000000x2_0_1 (broadcastInDim S1x2 ![1] bcast_S2_S1x2_1 lb))

def x1 (xc xs : IVec S1000000 32) (ei : IVec S2x2000000 32) (et : IVec S2000000 32)
    (se : FVec F S15x4 .f32) (ce : FVec F S202x32 .f32)
    (w0 : FVec F S3x36x24 .f32) (root0 : FVec F S36x24 .f32) (b0 : FVec F S24 .f32) : FVec F S1000000x24 .f32 :=
  relu24 (out0 (x0 xc xs se ce) root0 b0 w0 ei et)

def x2 (xc xs : IVec S1000000 32) (ei : IVec S2x2000000 32) (et : IVec S2000000 32)
    (se : FVec F S15x4 .f32) (ce : FVec F S202x32 .f32)
    (w0 : FVec F S3x36x24 .f32) (root0 : FVec F S36x24 .f32) (b0 : FVec F S24 .f32)
    (w1 : FVec F S3x24x16 .f32) (root1 : FVec F S24x16 .f32) (b1 : FVec F S16 .f32) : FVec F S1000000x16 .f32 :=
  relu16 (out1 (x1 xc xs ei et se ce w0 root0 b0) root1 b1 w1 ei et)

def x3 (xc xs : IVec S1000000 32) (ei : IVec S2x2000000 32) (et : IVec S2000000 32)
    (se : FVec F S15x4 .f32) (ce : FVec F S202x32 .f32)
    (w0 : FVec F S3x36x24 .f32) (root0 : FVec F S36x24 .f32) (b0 : FVec F S24 .f32)
    (w1 : FVec F S3x24x16 .f32) (root1 : FVec F S24x16 .f32) (b1 : FVec F S16 .f32)
    (w2 : FVec F S3x16x8 .f32) (root2 : FVec F S16x8 .f32) (b2 : FVec F S8 .f32) : FVec F S1000000x8 .f32 :=
  relu8 (out2 (x2 xc xs ei et se ce w0 root0 b0 w1 root1 b1) root2 b2 w2 ei et)

def x4 (xc xs : IVec S1000000 32) (ei : IVec S2x2000000 32) (et : IVec S2000000 32)
    (se : FVec F S15x4 .f32) (ce : FVec F S202x32 .f32)
    (w0 : FVec F S3x36x24 .f32) (root0 : FVec F S36x24 .f32) (b0 : FVec F S24 .f32)
    (w1 : FVec F S3x24x16 .f32) (root1 : FVec F S24x16 .f32) (b1 : FVec F S16 .f32)
    (w2 : FVec F S3x16x8 .f32) (root2 : FVec F S16x8 .f32) (b2 : FVec F S8 .f32)
    (w3 : FVec F S3x8x4 .f32) (root3 : FVec F S8x4 .f32) (b3 : FVec F S4 .f32) : FVec F S1000000x4 .f32 :=
  relu4 (out3 (x3 xc xs ei et se ce w0 root0 b0 w1 root1 b1 w2 root2 b2) root3 b3 w3 ei et)

def res (xc xs : IVec S1000000 32) (ei : IVec S2x2000000 32) (et : IVec S2000000 32)
    (se : FVec F S15x4 .f32) (ce : FVec F S202x32 .f32)
    (w0 : FVec F S3x36x24 .f32) (root0 : FVec F S36x24 .f32) (b0 : FVec F S24 .f32)
    (w1 : FVec F S3x24x16 .f32) (root1 : FVec F S24x16 .f32) (b1 : FVec F S16 .f32)
    (w2 : FVec F S3x16x8 .f32) (root2 : FVec F S16x8 .f32) (b2 : FVec F S8 .f32)
    (w3 : FVec F S3x8x4 .f32) (root3 : FVec F S8x4 .f32) (b3 : FVec F S4 .f32)
    (lw : FVec F S4x2 .f32) (lb : FVec F S2 .f32) : FVec F S1000000x2 .f32 :=
  lin (x4 xc xs ei et se ce w0 root0 b0 w1 root1 b1 w2 root2 b2 w3 root3 b3) lw lb

end Cert.RefSpec

end
-- ==== Proof.RefStages.lean ====
import proofs.«415972_j72490458022035_1_alg».proof.Proof.RefSpec
import proofs.«415972_j72490458022035_1_alg».proof.Proof.RefOps0
import proofs.«415972_j72490458022035_1_alg».proof.Proof.RefOps1
import proofs.«415972_j72490458022035_1_alg».proof.Proof.RefOps2
import proofs.«415972_j72490458022035_1_alg».proof.Proof.RefOps3
import proofs.«415972_j72490458022035_1_alg».proof.Proof.RefOps4
import proofs.«415972_j72490458022035_1_alg».proof.Proof.RefOps5
import proofs.«415972_j72490458022035_1_alg».proof.Proof.RefOps6
import proofs.«415972_j72490458022035_1_alg».proof.Proof.RefOps7
import Idealize.ShloMosaic.Lib.Pipeline.Frame

noncomputable section

namespace Cert.RefStages

open Cert.ReferenceIdeal Cert.ReferenceIdeal.Gen Cert.ReferenceIdeal.Hand Idealize.ShloMosaic Idealize.ShloMosaic.TcCoe Idealize.SL.Sem Idealize.ShloMosaic.StableHlo
open Cert.Tail Cert.RefSpec

variable {F : FTy → Type} [FloatOps F]

abbrev keptA : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

theorem ne_kept {kept : List (Ref sig .tc)} {y : Ref sig .tc} (h : ∀ r ∈ kept, y ≠ r) :
    ∀ b ∈ ({Proc.devRef .tc y} : Finset (DevRef τ sig)), ∀ r ∈ kept, b ≠ Proc.devRef .tc r := by
  intro b hb r hr hbr
  rw [Finset.mem_singleton] at hb
  exact h r hr (Proc.devRef_injective _ (hb.symm.trans hbr))

theorem keep_of {ops : List (HloOp τ sig (Elt F))} {kept : List (Ref sig .tc)}
    (hW : ops.Forall fun op => ∀ b ∈ op.writes, ∀ r ∈ kept, b ≠ Proc.devRef .tc r)
    (V : Valuation τ sig (Elt F)) {r : Ref sig .tc} (hr : r ∈ kept) :
    after ops V (Proc.devRef .tc r) = V (Proc.devRef .tc r) :=
  after_of_forall_not_mem ops V fun op hop hb => (List.forall_iff_forall_mem.mp hW) op hop _ hb r hr rfl

set_option maxHeartbeats 4000000 in
theorem p0_writes : (ops_part0 (F := F)).Forall fun op => ∀ b ∈ op.writes, ∀ r ∈ keptA, b ≠ Proc.devRef .tc r := by
  simp only [ops_part0, List.Forall, nullary_writes, unary_writes, binary_writes, ternary_writes, reshape_writes]
  first | (and_intros <;> exact ne_kept (by decide)) | fail "p0_writes"

theorem p0_keep (V : Valuation τ sig (Elt F)) {r : Ref sig .tc} (hr : r ∈ keptA) :
    after ops_part0 V (Proc.devRef .tc r) = V (Proc.devRef .tc r) := keep_of p0_writes V hr

set_option maxHeartbeats 4000000 in
theorem p0_v1 (V : Valuation τ sig (Elt F)) :
    after ops_part0 V (Proc.devRef .tc main_v1) = srcOf (V (Proc.devRef .tc main_arg2)) := by
  after_results_simp
  first | rfl | fail "p0_v1"

set_option maxHeartbeats 4000000 in
theorem p0_v3 (V : Valuation τ sig (Elt F)) :
    after ops_part0 V (Proc.devRef .tc main_v3) = dstOf (V (Proc.devRef .tc main_arg2)) := by
  after_results_simp
  first | rfl | fail "p0_v3"

set_option maxHeartbeats 4000000 in
theorem p0_v18 (V : Valuation τ sig (Elt F)) :
    after ops_part0 V (Proc.devRef .tc main_v18)
      = x0 (V (Proc.devRef .tc main_arg0)) (V (Proc.devRef .tc main_arg1)) (V (Proc.devRef .tc main_arg4)) (V (Proc.devRef .tc main_arg5)) := by
  after_results_simp
  first | rfl | fail "p0_v18"

set_option maxHeartbeats 4000000 in
theorem p0_v22 (V : Valuation τ sig (Elt F)) :
    after ops_part0 V (Proc.devRef .tc main_v22)
      = own0 (x0 (V (Proc.devRef .tc main_arg0)) (V (Proc.devRef .tc main_arg1)) (V (Proc.devRef .tc main_arg4)) (V (Proc.devRef .tc main_arg5)))
          (V (Proc.devRef .tc main_arg7)) (V (Proc.devRef .tc main_arg8)) := by
  after_results_simp
  first | rfl | fail "p0_v22"

set_option maxHeartbeats 4000000 in
theorem p0_v49 (V : Valuation τ sig (Elt F)) :
    after ops_part0 V (Proc.devRef .tc main_v49)
      = rel24 (msg0_0 (x0 (V (Proc.devRef .tc main_arg0)) (V (Proc.devRef .tc main_arg1)) (V (Proc.devRef .tc main_arg4)) (V (Proc.devRef .tc main_arg5)))
            (V (Proc.devRef .tc main_arg6)))
          (srcOf (V (Proc.devRef .tc main_arg2))) (dstOf (V (Proc.devRef .tc main_arg2))) (maskOf 0#32 (V (Proc.devRef .tc main_arg3))) := by
  after_results_simp
  first | rfl | fail "p0_v49"

abbrev keptE : List (Ref sig .tc) := keptA ++ [main_v1, main_v3]

set_option maxHeartbeats 4000000 in
theorem p1_writes : (ops_part1 (F := F)).Forall fun op => ∀ b ∈ op.writes, ∀ r ∈ keptE, b ≠ Proc.devRef .tc r := by
  simp only [ops_part1, List.Forall, nullary_writes, unary_writes, binary_writes, ternary_writes, reshape_writes]
  first | (and_intros <;> exact ne_kept (by decide)) | fail "p1_writes"

theorem p1_keep (V : Valuation τ sig (Elt F)) {r : Ref sig .tc} (hr : r ∈ keptE) :
    after ops_part1 V (Proc.devRef .tc r) = V (Proc.devRef .tc r) := keep_of p1_writes V hr

set_option maxHeartbeats 4000000 in
theorem p1_v78 (V : Valuation τ sig (Elt F)) :
    after ops_part1 V (Proc.devRef .tc main_v78)
      = addf (addf (V (Proc.devRef .tc main_v22) : FVec F S1000000x24 .f32) (V (Proc.devRef .tc main_v49)))
          (rel24 (msg0_1 (V (Proc.devRef .tc main_v18)) (V (Proc.devRef .tc main_arg6)))
            (V (Proc.devRef .tc main_v1)) (V (Proc.devRef .tc main_v3)) (maskOf 1#32 (V (Proc.devRef .tc main_arg3)))) := by
  after_results_simp
  first | rfl | fail "p1_v78"

set_option maxHeartbeats 4000000 in
theorem p1_v81 (V : Valuation τ sig (Elt F)) :
    after ops_part1 V (Proc.devRef .tc main_v81) = maskOf (F := F) 2#32 (V (Proc.devRef .tc main_arg3)) := by
  after_results_simp
  first | rfl | fail "p1_v81"

set_option maxHeartbeats 4000000 in
theorem p1_v97 (V : Valuation τ sig (Elt F)) :
    after ops_part1 V (Proc.devRef .tc main_v97)
      = Host.scatterAdd scatter_S1000000x24_S2000000x1_S2000000x24_1_0_0_1
          (broadcastInDim S1000000x24 ![] bcast_S_S1000000x24 (constant S_ .f32 0x00000000#32))
          (broadcastInDim S2000000x1 ![0] bcast_S2000000_S2000000x1_0 (V (Proc.devRef .tc main_v3) : IVec S2000000 32))
          (mulf (Host.gather gather_S1000000x24_S2000000x1_S2000000x24_1_0_n_n_0_1_124
              (msg0_2 (V (Proc.devRef .tc main_v18)) (V (Proc.devRef .tc main_arg6))) (startOf (V (Proc.devRef .tc main_v1))))
            (broadcastInDim S2000000x24 ![0, 1] bcast_S2000000x1_S2000000x24_0_1
              (broadcastInDim S2000000x1 ![0] bcast_S2000000_S2000000x1_0 (maskOf (F := F) 2#32 (V (Proc.devRef .tc main_arg3)))))) := by
  after_results_simp
  first | rfl | fail "p1_v97"

set_option maxHeartbeats 4000000 in
theorem p1_v98 (V : Valuation τ sig (Elt F)) :
    after ops_part1 V (Proc.devRef .tc main_v98)
      = broadcastInDim S1000000 ![] bcast_S_S1000000 (constant (F := F) S_ .f32 0x00000000#32) := by
  after_results_simp

def w2x (V : Valuation τ sig (Elt F)) : FVec F S1000000x24 .f32 :=
  relu24
    (addf (V (Proc.devRef .tc main_v78) : FVec F S1000000x24 .f32)
      (Host.divf (V (Proc.devRef .tc main_v97) : FVec F S1000000x24 .f32)
        (broadcastInDim S1000000x24 ![0, 1] bcast_S1000000x1_S1000000x24_0_1
          (broadcastInDim S1000000x1 ![0] bcast_S1000000_S1000000x1_0
            (maximumf
              (Host.scatterAdd scatter_S1000000_S2000000x1_S2000000_n_0_0_1 (V (Proc.devRef .tc main_v98) : FVec F S1000000 .f32)
                (broadcastInDim S2000000x1 ![0] bcast_S2000000_S2000000x1_0 (V (Proc.devRef .tc main_v3) : IVec S2000000 32))
                (V (Proc.devRef .tc main_v81) : FVec F S2000000 .f32))
              (broadcastInDim S1000000 ![] bcast_S_S1000000 (constant S_ .f32 0x3F800000#32)))))))

set_option maxHeartbeats 4000000 in
theorem p2_writes : (ops_part2 (F := F)).Forall fun op => ∀ b ∈ op.writes, ∀ r ∈ keptE, b ≠ Proc.devRef .tc r := by
  simp only [ops_part2, List.Forall, nullary_writes, unary_writes, binary_writes, ternary_writes, reshape_writes]
  first | (and_intros <;> exact ne_kept (by decide)) | fail "p2_writes"

theorem p2_keep (V : Valuation τ sig (Elt F)) {r : Ref sig .tc} (hr : r ∈ keptE) :
    after ops_part2 V (Proc.devRef .tc r) = V (Proc.devRef .tc r) := keep_of p2_writes V hr

set_option maxHeartbeats 4000000 in
theorem p2_v107 (V : Valuation τ sig (Elt F)) :
    after ops_part2 V (Proc.devRef .tc main_v107) = w2x V := by
  after_results_simp
  first | rfl | fail "p2_v107"

set_option maxHeartbeats 4000000 in
theorem p2_v139 (V : Valuation τ sig (Elt F)) :
    after ops_part2 V (Proc.devRef .tc main_v139)
      = addf (own1 (w2x V) (V (Proc.devRef .tc main_arg10)) (V (Proc.devRef .tc main_arg11)))
          (rel16 (msg1_0 (w2x V) (V (Proc.devRef .tc main_arg9)))
            (V (Proc.devRef .tc main_v1)) (V (Proc.devRef .tc main_v3)) (maskOf 0#32 (V (Proc.devRef .tc main_arg3)))) := by
  after_results_simp
  first | rfl | fail "p2_v139"

set_option maxHeartbeats 4000000 in
theorem p2_v142 (V : Valuation τ sig (Elt F)) :
    after ops_part2 V (Proc.devRef .tc main_v142) = maskOf (F := F) 1#32 (V (Proc.devRef .tc main_arg3)) := by
  after_results_simp
  first | rfl | fail "p2_v142"

set_option maxHeartbeats 4000000 in
theorem p2_v145 (V : Valuation τ sig (Elt F)) :
    after ops_part2 V (Proc.devRef .tc main_v145) = msg1_1 (w2x V) (V (Proc.devRef .tc main_arg9)) := by
  after_results_simp
  first | rfl | fail "p2_v145"

set_option maxHeartbeats 4000000 in
theorem p2_v147 (V : Valuation τ sig (Elt F)) :
    after ops_part2 V (Proc.devRef .tc main_v147)
      = cmpi .slt (V (Proc.devRef .tc main_v1) : IVec S2000000 32) (broadcastInDim S2000000 ![] bcast_S_S2000000 (constantI S_ 32 0#32)) := by
  after_results_simp

set_option maxHeartbeats 4000000 in
theorem p2_v148 (V : Valuation τ sig (Elt F)) :
    after ops_part2 V (Proc.devRef .tc main_v148)
      = (broadcastInDim S2000000 ![] bcast_S_S2000000 (constantI S_ 32 1000000#32) : IVec S2000000 32) := by
  after_results_simp

def w3x (V : Valuation τ sig (Elt F)) : FVec F S1000000x16 .f32 :=
  relu16
    (addf
      (addf (V (Proc.devRef .tc main_v139) : FVec F S1000000x16 .f32)
        (Host.divf
          (Host.scatterAdd scatter_S1000000x16_S2000000x1_S2000000x16_1_0_0_1
            (broadcastInDim S1000000x16 ![] bcast_S_S1000000x16 (constant S_ .f32 0x00000000#32))
            (broadcastInDim S2000000x1 ![0] bcast_S2000000_S2000000x1_0 (V (Proc.devRef .tc main_v3) : IVec S2000000 32))
            (mulf
              (Host.gather gather_S1000000x16_S2000000x1_S2000000x16_1_0_n_n_0_1_116 (V (Proc.devRef .tc main_v145) : FVec F S1000000x16 .f32)
                (broadcastInDim S2000000x1 ![0] bcast_S2000000_S2000000x1_0
                  (select (V (Proc.devRef .tc main_v147) : IVec S2000000 1)
                    (addi (V (Proc.devRef .tc main_v1) : IVec S2000000 32) (V (Proc.devRef .tc main_v148)))
                    (V (Proc.devRef .tc main_v1)))))
              (broadcastInDim S2000000x16 ![0, 1] bcast_S2000000x1_S2000000x16_0_1
                (broadcastInDim S2000000x1 ![0] bcast_S2000000_S2000000x1_0 (V (Proc.devRef .tc main_v142) : FVec F S2000000 .f32)))))
          (broadcastInDim S1000000x16 ![0, 1] bcast_S1000000x1_S1000000x16_0_1
            (broadcastInDim S1000000x1 ![0] bcast_S1000000_S1000000x1_0
              (countOf (V (Proc.devRef .tc main_v3)) (V (Proc.devRef .tc main_v142) : FVec F S2000000 .f32))))))
      (rel16 (msg1_2 (V (Proc.devRef .tc main_v107)) (V (Proc.devRef .tc main_arg9)))
        (V (Proc.devRef .tc main_v1)) (V (Proc.devRef .tc main_v3)) (maskOf 2#32 (V (Proc.devRef .tc main_arg3)))))

set_option maxHeartbeats 4000000 in
theorem p3_writes : (ops_part3 (F := F)).Forall fun op => ∀ b ∈ op.writes, ∀ r ∈ keptE, b ≠ Proc.devRef .tc r := by
  simp only [ops_part3, List.Forall, nullary_writes, unary_writes, binary_writes, ternary_writes, reshape_writes]
  first | (and_intros <;> exact ne_kept (by decide)) | fail "p3_writes"

theorem p3_keep (V : Valuation τ sig (Elt F)) {r : Ref sig .tc} (hr : r ∈ keptE) :
    after ops_part3 V (Proc.devRef .tc r) = V (Proc.devRef .tc r) := keep_of p3_writes V hr

set_option maxHeartbeats 4000000 in
theorem p3_v196 (V : Valuation τ sig (Elt F)) :
    after ops_part3 V (Proc.devRef .tc main_v196) = w3x V := by
  after_results_simp
  first | rfl | fail "p3_v196"

set_option maxHeartbeats 4000000 in
theorem p3_v197 (V : Valuation τ sig (Elt F)) :
    after ops_part3 V (Proc.devRef .tc main_v197)
      = Host.dotGeneral dot_S1000000x16_S16x8_S1000000x8_1_0_0_1_n_n none (w3x V) (V (Proc.devRef .tc main_arg13) : FVec F S16x8 .f32) := by
  after_results_simp
  first | rfl | fail "p3_v197"

set_option maxHeartbeats 4000000 in
theorem p3_v199 (V : Valuation τ sig (Elt F)) :
    after ops_part3 V (Proc.devRef .tc main_v199)
      = broadcastInDim S1000000x8 ![0, 1] bcast_S1x8_S1000000x8_0_1
          (broadcastInDim S1x8 ![1] bcast_S8_S1x8_1 (V (Proc.devRef .tc main_arg14) : FVec F S8 .f32)) := by
  after_results_simp

abbrev kept4 : List (Ref sig .tc) := keptE ++ [main_v196]

set_option maxHeartbeats 4000000 in
theorem p4_writes : (ops_part4 (F := F)).Forall fun op => ∀ b ∈ op.writes, ∀ r ∈ kept4, b ≠ Proc.devRef .tc r := by
  simp only [ops_part4, List.Forall, nullary_writes, unary_writes, binary_writes, ternary_writes, reshape_writes]
  first | (and_intros <;> exact ne_kept (by decide)) | fail "p4_writes"

theorem p4_keep (V : Valuation τ sig (Elt F)) {r : Ref sig .tc} (hr : r ∈ kept4) :
    after ops_part4 V (Proc.devRef .tc r) = V (Proc.devRef .tc r) := keep_of p4_writes V hr

set_option maxHeartbeats 4000000 in
theorem p4_v228 (V : Valuation τ sig (Elt F)) :
    after ops_part4 V (Proc.devRef .tc main_v228)
      = addf (addf (V (Proc.devRef .tc main_v197) : FVec F S1000000x8 .f32) (V (Proc.devRef .tc main_v199)))
          (rel8 (msg2_0 (V (Proc.devRef .tc main_v196)) (V (Proc.devRef .tc main_arg12)))
            (V (Proc.devRef .tc main_v1)) (V (Proc.devRef .tc main_v3)) (maskOf 0#32 (V (Proc.devRef .tc main_arg3)))) := by
  after_results_simp
  first | rfl | fail "p4_v228"

set_option maxHeartbeats 4000000 in
theorem p4_v231 (V : Valuation τ sig (Elt F)) :
    after ops_part4 V (Proc.devRef .tc main_v231) = maskOf (F := F) 1#32 (V (Proc.devRef .tc main_arg3)) := by
  after_results_simp
  first | rfl | fail "p4_v231"

set_option maxHeartbeats 4000000 in
theorem p4_v247 (V : Valuation τ sig (Elt F)) :
    after ops_part4 V (Proc.devRef .tc main_v247)
      = Host.scatterAdd scatter_S1000000x8_S2000000x1_S2000000x8_1_0_0_1
          (broadcastInDim S1000000x8 ![] bcast_S_S1000000x8 (constant S_ .f32 0x00000000#32))
          (broadcastInDim S2000000x1 ![0] bcast_S2000000_S2000000x1_0 (V (Proc.devRef .tc main_v3) : IVec S2000000 32))
          (mulf (Host.gather gather_S1000000x8_S2000000x1_S2000000x8_1_0_n_n_0_1_18
              (msg2_1 (V (Proc.devRef .tc main_v196)) (V (Proc.devRef .tc main_arg12))) (startOf (V (Proc.devRef .tc main_v1))))
            (broadcastInDim S2000000x8 ![0, 1] bcast_S2000000x1_S2000000x8_0_1
              (broadcastInDim S2000000x1 ![0] bcast_S2000000_S2000000x1_0 (maskOf (F := F) 1#32 (V (Proc.devRef .tc main_arg3)))))) := by
  after_results_simp
  first | rfl | fail "p4_v247"

set_option maxHeartbeats 4000000 in
theorem p4_v248 (V : Valuation τ sig (Elt F)) :
    after ops_part4 V (Proc.devRef .tc main_v248)
      = broadcastInDim S1000000 ![] bcast_S_S1000000 (constant (F := F) S_ .f32 0x00000000#32) := by
  after_results_simp

def w5x (V : Valuation τ sig (Elt F)) : FVec F S1000000x8 .f32 :=
  relu8
    (addf
      (addf (V (Proc.devRef .tc main_v228) : FVec F S1000000x8 .f32)
        (Host.divf (V (Proc.devRef .tc main_v247) : FVec F S1000000x8 .f32)
          (broadcastInDim S1000000x8 ![0, 1] bcast_S1000000x1_S1000000x8_0_1
            (broadcastInDim S1000000x1 ![0] bcast_S1000000_S1000000x1_0
              (maximumf
                (Host.scatterAdd scatter_S1000000_S2000000x1_S2000000_n_0_0_1 (V (Proc.devRef .tc main_v248) : FVec F S1000000 .f32)
                  (broadcastInDim S2000000x1 ![0] bcast_S2000000_S2000000x1_0 (V (Proc.devRef .tc main_v3) : IVec S2000000 32))
                  (V (Proc.devRef .tc main_v231) : FVec F S2000000 .f32))
                (broadcastInDim S1000000 ![] bcast_S_S1000000 (constant S_ .f32 0x3F800000#32)))))))
      (rel8 (msg2_2 (V (Proc.devRef .tc main_v196)) (V (Proc.devRef .tc main_arg12)))
        (V (Proc.devRef .tc main_v1)) (V (Proc.devRef .tc main_v3)) (maskOf 2#32 (V (Proc.devRef .tc main_arg3)))))

set_option maxHeartbeats 4000000 in
theorem p5_writes : (ops_part5 (F := F)).Forall fun op => ∀ b ∈ op.writes, ∀ r ∈ keptE, b ≠ Proc.devRef .tc r := by
  simp only [ops_part5, List.Forall, nullary_writes, unary_writes, binary_writes, ternary_writes, reshape_writes]
  first | (and_intros <;> exact ne_kept (by decide)) | fail "p5_writes"

theorem p5_keep (V : Valuation τ sig (Elt F)) {r : Ref sig .tc} (hr : r ∈ keptE) :
    after ops_part5 V (Proc.devRef .tc r) = V (Proc.devRef .tc r) := keep_of p5_writes V hr

set_option maxHeartbeats 4000000 in
theorem p5_v285 (V : Valuation τ sig (Elt F)) :
    after ops_part5 V (Proc.devRef .tc main_v285) = w5x V := by
  after_results_simp
  first | rfl | fail "p5_v285"

set_option maxHeartbeats 4000000 in
theorem p5_v289 (V : Valuation τ sig (Elt F)) :
    after ops_part5 V (Proc.devRef .tc main_v289)
      = own3 (w5x V) (V (Proc.devRef .tc main_arg16)) (V (Proc.devRef .tc main_arg17)) := by
  after_results_simp
  first | rfl | fail "p5_v289"

set_option maxHeartbeats 4000000 in
theorem p5_v292 (V : Valuation τ sig (Elt F)) :
    after ops_part5 V (Proc.devRef .tc main_v292) = maskOf (F := F) 0#32 (V (Proc.devRef .tc main_arg3)) := by
  after_results_simp
  first | rfl | fail "p5_v292"

set_option maxHeartbeats 4000000 in
theorem p5_v295 (V : Valuation τ sig (Elt F)) :
    after ops_part5 V (Proc.devRef .tc main_v295) = msg3_0 (w5x V) (V (Proc.devRef .tc main_arg15)) := by
  after_results_simp
  first | rfl | fail "p5_v295"

set_option maxHeartbeats 4000000 in
theorem p5_v297 (V : Valuation τ sig (Elt F)) :
    after ops_part5 V (Proc.devRef .tc main_v297)
      = cmpi .slt (V (Proc.devRef .tc main_v1) : IVec S2000000 32) (broadcastInDim S2000000 ![] bcast_S_S2000000 (constantI S_ 32 0#32)) := by
  after_results_simp

set_option maxHeartbeats 4000000 in
theorem p5_v298 (V : Valuation τ sig (Elt F)) :
    after ops_part5 V (Proc.devRef .tc main_v298)
      = (broadcastInDim S2000000 ![] bcast_S_S2000000 (constantI S_ 32 1000000#32) : IVec S2000000 32) := by
  after_results_simp

abbrev kept6 : List (Ref sig .tc) := keptE ++ [main_v285]

set_option maxHeartbeats 4000000 in
theorem p6_writes : (ops_part6 (F := F)).Forall fun op => ∀ b ∈ op.writes, ∀ r ∈ kept6, b ≠ Proc.devRef .tc r := by
  simp only [ops_part6, List.Forall, nullary_writes, unary_writes, binary_writes, ternary_writes, reshape_writes]
  first | (and_intros <;> exact ne_kept (by decide)) | fail "p6_writes"

theorem p6_keep (V : Valuation τ sig (Elt F)) {r : Ref sig .tc} (hr : r ∈ kept6) :
    after ops_part6 V (Proc.devRef .tc r) = V (Proc.devRef .tc r) := keep_of p6_writes V hr

set_option maxHeartbeats 4000000 in
theorem p6_v345 (V : Valuation τ sig (Elt F)) :
    after ops_part6 V (Proc.devRef .tc main_v345)
      = addf
          (addf (V (Proc.devRef .tc main_v289) : FVec F S1000000x4 .f32)
            (Host.divf
              (Host.scatterAdd scatter_S1000000x4_S2000000x1_S2000000x4_1_0_0_1
                (broadcastInDim S1000000x4 ![] bcast_S_S1000000x4 (constant S_ .f32 0x00000000#32))
                (broadcastInDim S2000000x1 ![0] bcast_S2000000_S2000000x1_0 (V (Proc.devRef .tc main_v3) : IVec S2000000 32))
                (mulf
                  (Host.gather gather_S1000000x4_S2000000x1_S2000000x4_1_0_n_n_0_1_14 (V (Proc.devRef .tc main_v295) : FVec F S1000000x4 .f32)
                    (broadcastInDim S2000000x1 ![0] bcast_S2000000_S2000000x1_0
                      (select (V (Proc.devRef .tc main_v297) : IVec S2000000 1)
                        (addi (V (Proc.devRef .tc main_v1) : IVec S2000000 32) (V (Proc.devRef .tc main_v298)))
                        (V (Proc.devRef .tc main_v1)))))
                  (broadcastInDim S2000000x4 ![0, 1] bcast_S2000000x1_S2000000x4_0_1
                    (broadcastInDim S2000000x1 ![0] bcast_S2000000_S2000000x1_0 (V (Proc.devRef .tc main_v292) : FVec F S2000000 .f32)))))
              (broadcastInDim S1000000x4 ![0, 1] bcast_S1000000x1_S1000000x4_0_1
                (broadcastInDim S1000000x1 ![0] bcast_S1000000_S1000000x1_0
                  (countOf (V (Proc.devRef .tc main_v3)) (V (Proc.devRef .tc main_v292) : FVec F S2000000 .f32))))))
          (rel4 (msg3_1 (V (Proc.devRef .tc main_v285)) (V (Proc.devRef .tc main_arg15)))
            (V (Proc.devRef .tc main_v1)) (V (Proc.devRef .tc main_v3)) (maskOf 1#32 (V (Proc.devRef .tc main_arg3)))) := by
  after_results_simp
  first | rfl | fail "p6_v345"

set_option maxHeartbeats 4000000 in
theorem p6_v348 (V : Valuation τ sig (Elt F)) :
    after ops_part6 V (Proc.devRef .tc main_v348) = maskOf (F := F) 2#32 (V (Proc.devRef .tc main_arg3)) := by
  after_results_simp
  first | rfl | fail "p6_v348"

set_option maxHeartbeats 4000000 in
theorem p7_v378 (V : Valuation τ sig (Elt F)) :
    after ops_part7 V (Proc.devRef .tc main_v378)
      = lin
          (relu4
            (addf (V (Proc.devRef .tc main_v345) : FVec F S1000000x4 .f32)
              (rel4 (msg3_2 (V (Proc.devRef .tc main_v285)) (V (Proc.devRef .tc main_arg15)))
                (V (Proc.devRef .tc main_v1)) (V (Proc.devRef .tc main_v3)) (V (Proc.devRef .tc main_v348)))))
          (V (Proc.devRef .tc main_arg18)) (V (Proc.devRef .tc main_arg19)) := by
  after_results_simp
  first | rfl | fail "p7_v378"

local notation:max "⟪" r "⟫" => Proc.devRef (τ := τ) Proc.tc r

def V1 (W : Valuation τ sig (Elt F)) : Valuation τ sig (Elt F) := after ops_part0 W
def V2 (W : Valuation τ sig (Elt F)) : Valuation τ sig (Elt F) := after ops_part1 (V1 W)
def V3 (W : Valuation τ sig (Elt F)) : Valuation τ sig (Elt F) := after ops_part2 (V2 W)
def V4 (W : Valuation τ sig (Elt F)) : Valuation τ sig (Elt F) := after ops_part3 (V3 W)
def V5 (W : Valuation τ sig (Elt F)) : Valuation τ sig (Elt F) := after ops_part4 (V4 W)
def V6 (W : Valuation τ sig (Elt F)) : Valuation τ sig (Elt F) := after ops_part5 (V5 W)
def V7 (W : Valuation τ sig (Elt F)) : Valuation τ sig (Elt F) := after ops_part6 (V6 W)
def V8 (W : Valuation τ sig (Elt F)) : Valuation τ sig (Elt F) := after ops_part7 (V7 W)

abbrev X0 (W : Valuation τ sig (Elt F)) : FVec F S1000000x36 .f32 :=
  x0 (W ⟪main_arg0⟫) (W ⟪main_arg1⟫) (W ⟪main_arg4⟫) (W ⟪main_arg5⟫)

abbrev X1 (W : Valuation τ sig (Elt F)) : FVec F S1000000x24 .f32 :=
  x1 (W ⟪main_arg0⟫) (W ⟪main_arg1⟫) (W ⟪main_arg2⟫) (W ⟪main_arg3⟫) (W ⟪main_arg4⟫) (W ⟪main_arg5⟫)
    (W ⟪main_arg6⟫) (W ⟪main_arg7⟫) (W ⟪main_arg8⟫)

abbrev X2 (W : Valuation τ sig (Elt F)) : FVec F S1000000x16 .f32 :=
  x2 (W ⟪main_arg0⟫) (W ⟪main_arg1⟫) (W ⟪main_arg2⟫) (W ⟪main_arg3⟫) (W ⟪main_arg4⟫) (W ⟪main_arg5⟫)
    (W ⟪main_arg6⟫) (W ⟪main_arg7⟫) (W ⟪main_arg8⟫) (W ⟪main_arg9⟫) (W ⟪main_arg10⟫) (W ⟪main_arg11⟫)

abbrev X3 (W : Valuation τ sig (Elt F)) : FVec F S1000000x8 .f32 :=
  x3 (W ⟪main_arg0⟫) (W ⟪main_arg1⟫) (W ⟪main_arg2⟫) (W ⟪main_arg3⟫) (W ⟪main_arg4⟫) (W ⟪main_arg5⟫)
    (W ⟪main_arg6⟫) (W ⟪main_arg7⟫) (W ⟪main_arg8⟫) (W ⟪main_arg9⟫) (W ⟪main_arg10⟫) (W ⟪main_arg11⟫)
    (W ⟪main_arg12⟫) (W ⟪main_arg13⟫) (W ⟪main_arg14⟫)

abbrev src (W : Valuation τ sig (Elt F)) : IVec S2000000 32 := srcOf (W ⟪main_arg2⟫)
abbrev dst (W : Valuation τ sig (Elt F)) : IVec S2000000 32 := dstOf (W ⟪main_arg2⟫)
abbrev ety (W : Valuation τ sig (Elt F)) : IVec S2000000 32 := W ⟪main_arg3⟫

theorem keptA_sub_keptE {r : Ref sig .tc} (hr : r ∈ keptA) : r ∈ keptE := List.mem_append_left _ hr
theorem keptE_sub_kept4 {r : Ref sig .tc} (hr : r ∈ keptE) : r ∈ kept4 := List.mem_append_left _ hr
theorem keptE_sub_kept6 {r : Ref sig .tc} (hr : r ∈ keptE) : r ∈ kept6 := List.mem_append_left _ hr

theorem c1_keep (W : Valuation τ sig (Elt F)) {r : Ref sig .tc} (hr : r ∈ keptA) : V1 W ⟪r⟫ = W ⟪r⟫ := p0_keep W hr
theorem c1_v1 (W : Valuation τ sig (Elt F)) : V1 W ⟪main_v1⟫ = src W := p0_v1 W
theorem c1_v3 (W : Valuation τ sig (Elt F)) : V1 W ⟪main_v3⟫ = dst W := p0_v3 W
theorem c1_v18 (W : Valuation τ sig (Elt F)) : V1 W ⟪main_v18⟫ = X0 W := p0_v18 W
theorem c1_v22 (W : Valuation τ sig (Elt F)) : V1 W ⟪main_v22⟫ = own0 (X0 W) (W ⟪main_arg7⟫) (W ⟪main_arg8⟫) := p0_v22 W
theorem c1_v49 (W : Valuation τ sig (Elt F)) :
    V1 W ⟪main_v49⟫ = rel24 (msg0_0 (X0 W) (W ⟪main_arg6⟫)) (src W) (dst W) (maskOf 0#32 (ety W)) := p0_v49 W

theorem c2_keep (W : Valuation τ sig (Elt F)) {r : Ref sig .tc} (hr : r ∈ keptA) : V2 W ⟪r⟫ = W ⟪r⟫ := by
  rw [V2, p1_keep _ (keptA_sub_keptE hr), c1_keep W hr]
theorem c2_v1 (W : Valuation τ sig (Elt F)) : V2 W ⟪main_v1⟫ = src W := by
  rw [V2, p1_keep _ (by decide), c1_v1]
theorem c2_v3 (W : Valuation τ sig (Elt F)) : V2 W ⟪main_v3⟫ = dst W := by
  rw [V2, p1_keep _ (by decide), c1_v3]
theorem c2_v78 (W : Valuation τ sig (Elt F)) :
    V2 W ⟪main_v78⟫
      = addf (addf (own0 (X0 W) (W ⟪main_arg7⟫) (W ⟪main_arg8⟫))
            (rel24 (msg0_0 (X0 W) (W ⟪main_arg6⟫)) (src W) (dst W) (maskOf 0#32 (ety W))))
          (rel24 (msg0_1 (X0 W) (W ⟪main_arg6⟫)) (src W) (dst W) (maskOf 1#32 (ety W))) := by
  rw [V2, p1_v78, c1_v22, c1_v49, c1_v18, c1_v1, c1_v3, c1_keep W (r := main_arg6) (by decide),
    c1_keep W (r := main_arg3) (by decide)]
theorem c2_v81 (W : Valuation τ sig (Elt F)) : V2 W ⟪main_v81⟫ = maskOf (F := F) 2#32 (ety W) := by
  rw [V2, p1_v81, c1_keep W (r := main_arg3) (by decide)]
theorem c2_v97 (W : Valuation τ sig (Elt F)) :
    V2 W ⟪main_v97⟫
      = Host.scatterAdd scatter_S1000000x24_S2000000x1_S2000000x24_1_0_0_1
          (broadcastInDim S1000000x24 ![] bcast_S_S1000000x24 (constant S_ .f32 0x00000000#32))
          (broadcastInDim S2000000x1 ![0] bcast_S2000000_S2000000x1_0 (dst W))
          (mulf (Host.gather gather_S1000000x24_S2000000x1_S2000000x24_1_0_n_n_0_1_124
              (msg0_2 (X0 W) (W ⟪main_arg6⟫)) (startOf (src W)))
            (broadcastInDim S2000000x24 ![0, 1] bcast_S2000000x1_S2000000x24_0_1
              (broadcastInDim S2000000x1 ![0] bcast_S2000000_S2000000x1_0 (maskOf (F := F) 2#32 (ety W))))) := by
  rw [V2, p1_v97, c1_v18, c1_v1, c1_v3, c1_keep W (r := main_arg6) (by decide), c1_keep W (r := main_arg3) (by decide)]
theorem c2_v98 (W : Valuation τ sig (Elt F)) :
    V2 W ⟪main_v98⟫ = broadcastInDim S1000000 ![] bcast_S_S1000000 (constant (F := F) S_ .f32 0x00000000#32) := by
  rw [V2, p1_v98]

theorem c3_keep (W : Valuation τ sig (Elt F)) {r : Ref sig .tc} (hr : r ∈ keptA) : V3 W ⟪r⟫ = W ⟪r⟫ := by
  rw [V3, p2_keep _ (keptA_sub_keptE hr), c2_keep W hr]
theorem c3_v1 (W : Valuation τ sig (Elt F)) : V3 W ⟪main_v1⟫ = src W := by
  rw [V3, p2_keep _ (by decide), c2_v1]
theorem c3_v3 (W : Valuation τ sig (Elt F)) : V3 W ⟪main_v3⟫ = dst W := by
  rw [V3, p2_keep _ (by decide), c2_v3]

theorem c3_x (W : Valuation τ sig (Elt F)) : w2x (V2 W) = X1 W := by
  rw [w2x, c2_v78, c2_v97, c2_v98, c2_v81, c2_v3]
  first | rfl | fail "c3_x"
theorem c3_v107 (W : Valuation τ sig (Elt F)) : V3 W ⟪main_v107⟫ = X1 W := by
  rw [V3, p2_v107, c3_x]
theorem c3_v139 (W : Valuation τ sig (Elt F)) :
    V3 W ⟪main_v139⟫
      = addf (own1 (X1 W) (W ⟪main_arg10⟫) (W ⟪main_arg11⟫))
          (rel16 (msg1_0 (X1 W) (W ⟪main_arg9⟫)) (src W) (dst W) (maskOf 0#32 (ety W))) := by
  rw [V3, p2_v139, c3_x, c2_v1, c2_v3, c2_keep W (r := main_arg10) (by decide), c2_keep W (r := main_arg11) (by decide),
    c2_keep W (r := main_arg9) (by decide), c2_keep W (r := main_arg3) (by decide)]
theorem c3_v142 (W : Valuation τ sig (Elt F)) : V3 W ⟪main_v142⟫ = maskOf (F := F) 1#32 (ety W) := by
  rw [V3, p2_v142, c2_keep W (r := main_arg3) (by decide)]
theorem c3_v145 (W : Valuation τ sig (Elt F)) : V3 W ⟪main_v145⟫ = msg1_1 (X1 W) (W ⟪main_arg9⟫) := by
  rw [V3, p2_v145, c3_x, c2_keep W (r := main_arg9) (by decide)]
theorem c3_v147 (W : Valuation τ sig (Elt F)) :
    V3 W ⟪main_v147⟫ = cmpi .slt (src W) (broadcastInDim S2000000 ![] bcast_S_S2000000 (constantI S_ 32 0#32)) := by
  rw [V3, p2_v147, c2_v1]
theorem c3_v148 (W : Valuation τ sig (Elt F)) :
    V3 W ⟪main_v148⟫ = (broadcastInDim S2000000 ![] bcast_S_S2000000 (constantI S_ 32 1000000#32) : IVec S2000000 32) := by
  rw [V3, p2_v148]

theorem c4_keep (W : Valuation τ sig (Elt F)) {r : Ref sig .tc} (hr : r ∈ keptA) : V4 W ⟪r⟫ = W ⟪r⟫ := by
  rw [V4, p3_keep _ (keptA_sub_keptE hr), c3_keep W hr]
theorem c4_v1 (W : Valuation τ sig (Elt F)) : V4 W ⟪main_v1⟫ = src W := by
  rw [V4, p3_keep _ (by decide), c3_v1]
theorem c4_v3 (W : Valuation τ sig (Elt F)) : V4 W ⟪main_v3⟫ = dst W := by
  rw [V4, p3_keep _ (by decide), c3_v3]

theorem c4_x (W : Valuation τ sig (Elt F)) : w3x (V3 W) = X2 W := by
  rw [w3x, c3_v139, c3_v3, c3_v145, c3_v147, c3_v1, c3_v148, c3_v142, c3_v107,
    c3_keep W (r := main_arg9) (by decide), c3_keep W (r := main_arg3) (by decide)]
  first | rfl | fail "c4_x"
theorem c4_v196 (W : Valuation τ sig (Elt F)) : V4 W ⟪main_v196⟫ = X2 W := by
  rw [V4, p3_v196, c4_x]
theorem c4_v197 (W : Valuation τ sig (Elt F)) :
    V4 W ⟪main_v197⟫ = Host.dotGeneral dot_S1000000x16_S16x8_S1000000x8_1_0_0_1_n_n none (X2 W) (W ⟪main_arg13⟫ : FVec F S16x8 .f32) := by
  rw [V4, p3_v197, c4_x, c3_keep W (r := main_arg13) (by decide)]
theorem c4_v199 (W : Valuation τ sig (Elt F)) :
    V4 W ⟪main_v199⟫
      = broadcastInDim S1000000x8 ![0, 1] bcast_S1x8_S1000000x8_0_1
          (broadcastInDim S1x8 ![1] bcast_S8_S1x8_1 (W ⟪main_arg14⟫ : FVec F S8 .f32)) := by
  rw [V4, p3_v199, c3_keep W (r := main_arg14) (by decide)]

theorem c5_keep (W : Valuation τ sig (Elt F)) {r : Ref sig .tc} (hr : r ∈ keptA) : V5 W ⟪r⟫ = W ⟪r⟫ := by
  rw [V5, p4_keep _ (keptE_sub_kept4 (keptA_sub_keptE hr)), c4_keep W hr]
theorem c5_v1 (W : Valuation τ sig (Elt F)) : V5 W ⟪main_v1⟫ = src W := by
  rw [V5, p4_keep _ (by decide), c4_v1]
theorem c5_v3 (W : Valuation τ sig (Elt F)) : V5 W ⟪main_v3⟫ = dst W := by
  rw [V5, p4_keep _ (by decide), c4_v3]
theorem c5_v196 (W : Valuation τ sig (Elt F)) : V5 W ⟪main_v196⟫ = X2 W := by
  rw [V5, p4_keep _ (by decide), c4_v196]
theorem c5_v228 (W : Valuation τ sig (Elt F)) :
    V5 W ⟪main_v228⟫
      = addf (own2 (X2 W) (W ⟪main_arg13⟫) (W ⟪main_arg14⟫))
          (rel8 (msg2_0 (X2 W) (W ⟪main_arg12⟫)) (src W) (dst W) (maskOf 0#32 (ety W))) := by
  rw [V5, p4_v228, c4_v197, c4_v199, c4_v196, c4_v1, c4_v3, c4_keep W (r := main_arg12) (by decide),
    c4_keep W (r := main_arg3) (by decide)]
  first | rfl | fail "c5_v228"
theorem c5_v231 (W : Valuation τ sig (Elt F)) : V5 W ⟪main_v231⟫ = maskOf (F := F) 1#32 (ety W) := by
  rw [V5, p4_v231, c4_keep W (r := main_arg3) (by decide)]
theorem c5_v247 (W : Valuation τ sig (Elt F)) :
    V5 W ⟪main_v247⟫
      = Host.scatterAdd scatter_S1000000x8_S2000000x1_S2000000x8_1_0_0_1
          (broadcastInDim S1000000x8 ![] bcast_S_S1000000x8 (constant S_ .f32 0x00000000#32))
          (broadcastInDim S2000000x1 ![0] bcast_S2000000_S2000000x1_0 (dst W))
          (mulf (Host.gather gather_S1000000x8_S2000000x1_S2000000x8_1_0_n_n_0_1_18
              (msg2_1 (X2 W) (W ⟪main_arg12⟫)) (startOf (src W)))
            (broadcastInDim S2000000x8 ![0, 1] bcast_S2000000x1_S2000000x8_0_1
              (broadcastInDim S2000000x1 ![0] bcast_S2000000_S2000000x1_0 (maskOf (F := F) 1#32 (ety W))))) := by
  rw [V5, p4_v247, c4_v196, c4_v1, c4_v3, c4_keep W (r := main_arg12) (by decide), c4_keep W (r := main_arg3) (by decide)]
theorem c5_v248 (W : Valuation τ sig (Elt F)) :
    V5 W ⟪main_v248⟫ = broadcastInDim S1000000 ![] bcast_S_S1000000 (constant (F := F) S_ .f32 0x00000000#32) := by
  rw [V5, p4_v248]

theorem c6_keep (W : Valuation τ sig (Elt F)) {r : Ref sig .tc} (hr : r ∈ keptA) : V6 W ⟪r⟫ = W ⟪r⟫ := by
  rw [V6, p5_keep _ (keptA_sub_keptE hr), c5_keep W hr]
theorem c6_v1 (W : Valuation τ sig (Elt F)) : V6 W ⟪main_v1⟫ = src W := by
  rw [V6, p5_keep _ (by decide), c5_v1]
theorem c6_v3 (W : Valuation τ sig (Elt F)) : V6 W ⟪main_v3⟫ = dst W := by
  rw [V6, p5_keep _ (by decide), c5_v3]

theorem c6_x (W : Valuation τ sig (Elt F)) : w5x (V5 W) = X3 W := by
  rw [w5x, c5_v228, c5_v247, c5_v248, c5_v3, c5_v231, c5_v196, c5_v1,
    c5_keep W (r := main_arg12) (by decide), c5_keep W (r := main_arg3) (by decide)]
  first | rfl | fail "c6_x"
theorem c6_v285 (W : Valuation τ sig (Elt F)) : V6 W ⟪main_v285⟫ = X3 W := by
  rw [V6, p5_v285, c6_x]
theorem c6_v289 (W : Valuation τ sig (Elt F)) :
    V6 W ⟪main_v289⟫ = own3 (X3 W) (W ⟪main_arg16⟫) (W ⟪main_arg17⟫) := by
  rw [V6, p5_v289, c6_x, c5_keep W (r := main_arg16) (by decide), c5_keep W (r := main_arg17) (by decide)]
theorem c6_v292 (W : Valuation τ sig (Elt F)) : V6 W ⟪main_v292⟫ = maskOf (F := F) 0#32 (ety W) := by
  rw [V6, p5_v292, c5_keep W (r := main_arg3) (by decide)]
theorem c6_v295 (W : Valuation τ sig (Elt F)) : V6 W ⟪main_v295⟫ = msg3_0 (X3 W) (W ⟪main_arg15⟫) := by
  rw [V6, p5_v295, c6_x, c5_keep W (r := main_arg15) (by decide)]
theorem c6_v297 (W : Valuation τ sig (Elt F)) :
    V6 W ⟪main_v297⟫ = cmpi .slt (src W) (broadcastInDim S2000000 ![] bcast_S_S2000000 (constantI S_ 32 0#32)) := by
  rw [V6, p5_v297, c5_v1]
theorem c6_v298 (W : Valuation τ sig (Elt F)) :
    V6 W ⟪main_v298⟫ = (broadcastInDim S2000000 ![] bcast_S_S2000000 (constantI S_ 32 1000000#32) : IVec S2000000 32) := by
  rw [V6, p5_v298]

theorem c7_keep (W : Valuation τ sig (Elt F)) {r : Ref sig .tc} (hr : r ∈ keptA) : V7 W ⟪r⟫ = W ⟪r⟫ := by
  rw [V7, p6_keep _ (keptE_sub_kept6 (keptA_sub_keptE hr)), c6_keep W hr]
theorem c7_v1 (W : Valuation τ sig (Elt F)) : V7 W ⟪main_v1⟫ = src W := by
  rw [V7, p6_keep _ (by decide), c6_v1]
theorem c7_v3 (W : Valuation τ sig (Elt F)) : V7 W ⟪main_v3⟫ = dst W := by
  rw [V7, p6_keep _ (by decide), c6_v3]
theorem c7_v285 (W : Valuation τ sig (Elt F)) : V7 W ⟪main_v285⟫ = X3 W := by
  rw [V7, p6_keep _ (by decide), c6_v285]
theorem c7_v345 (W : Valuation τ sig (Elt F)) :
    V7 W ⟪main_v345⟫
      = addf (addf (own3 (X3 W) (W ⟪main_arg16⟫) (W ⟪main_arg17⟫))
            (rel4 (msg3_0 (X3 W) (W ⟪main_arg15⟫)) (src W) (dst W) (maskOf 0#32 (ety W))))
          (rel4 (msg3_1 (X3 W) (W ⟪main_arg15⟫)) (src W) (dst W) (maskOf 1#32 (ety W))) := by
  rw [V7, p6_v345, c6_v289, c6_v3, c6_v295, c6_v297, c6_v1, c6_v298, c6_v292, c6_v285,
    c6_keep W (r := main_arg15) (by decide), c6_keep W (r := main_arg3) (by decide)]
  first | rfl | fail "c7_v345"
theorem c7_v348 (W : Valuation τ sig (Elt F)) : V7 W ⟪main_v348⟫ = maskOf (F := F) 2#32 (ety W) := by
  rw [V7, p6_v348, c6_keep W (r := main_arg3) (by decide)]

theorem c8_v378 (W : Valuation τ sig (Elt F)) :
    V8 W ⟪main_v378⟫
      = res (W ⟪main_arg0⟫) (W ⟪main_arg1⟫) (W ⟪main_arg2⟫) (W ⟪main_arg3⟫) (W ⟪main_arg4⟫) (W ⟪main_arg5⟫)
          (W ⟪main_arg6⟫) (W ⟪main_arg7⟫) (W ⟪main_arg8⟫) (W ⟪main_arg9⟫) (W ⟪main_arg10⟫) (W ⟪main_arg11⟫)
          (W ⟪main_arg12⟫) (W ⟪main_arg13⟫) (W ⟪main_arg14⟫) (W ⟪main_arg15⟫) (W ⟪main_arg16⟫) (W ⟪main_arg17⟫)
          (W ⟪main_arg18⟫) (W ⟪main_arg19⟫) := by
  rw [V8, p7_v378, c7_v345, c7_v285, c7_v1, c7_v3, c7_v348, c7_keep W (r := main_arg15) (by decide),
    c7_keep W (r := main_arg18) (by decide), c7_keep W (r := main_arg19) (by decide)]
  first | rfl | fail "c8_v378"

theorem after_windows (a b c d e f g h : List (HloOp τ sig (Elt F))) (W : Valuation τ sig (Elt F)) :
    after (a ++ b ++ c ++ d ++ e ++ f ++ g ++ h) W
      = after h (after g (after f (after e (after d (after c (after b (after a W))))))) := by
  simp only [StableHlo.after_append]

theorem res_after (W : Valuation τ sig (Elt F)) :
    after (ops_part0 ++ ops_part1 ++ ops_part2 ++ ops_part3 ++ ops_part4 ++ ops_part5 ++ ops_part6 ++ ops_part7) W
        (Proc.devRef .tc main_v378)
      = Cert.RefSpec.res (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8))
          (W (Proc.devRef .tc main_arg9)) (W (Proc.devRef .tc main_arg10)) (W (Proc.devRef .tc main_arg11))
          (W (Proc.devRef .tc main_arg12)) (W (Proc.devRef .tc main_arg13)) (W (Proc.devRef .tc main_arg14))
          (W (Proc.devRef .tc main_arg15)) (W (Proc.devRef .tc main_arg16)) (W (Proc.devRef .tc main_arg17))
          (W (Proc.devRef .tc main_arg18)) (W (Proc.devRef .tc main_arg19)) := by
  rw [after_windows]
  exact c8_v378 W

end Cert.RefStages

end
-- ==== Proof.PreRanges.lean ====
import proofs.«415972_j72490458022035_1_alg».proof.Defs
import Idealize.ShloMosaic.Lib.ReduceAll

noncomputable section

namespace Cert.PreRanges

open Idealize.ShloMosaic Idealize.SL.Sem
open Cert.Pre_finite_inputs

instance : Subsingleton S_.Idx := ⟨fun a b => funext fun d => d.elim0⟩

def j0 : S_.Idx := fun d => d.elim0

theorem word_range {x n : BitVec 32} (N : Int) (hN : n.toInt = N)
    (h0 : IntOp.cmpi .sge x 0#32 = 1#1) (h1 : IntOp.cmpi .slt x n = 1#1) :
    0 ≤ x.toInt ∧ x.toInt < N := by
  have a := IntOp.cmpi_sge.1 h0
  have b := IntOp.cmpi_slt.1 h1
  rw [show (0#32 : BitVec 32).toInt = 0 from by decide] at a
  rw [hN] at b
  exact ⟨a, b⟩

theorem all_range (x : IVec S1000000 32) (n : BitVec 32) (N : Int) (hN : n.toInt = N) (init : IVec S_ 1)
    (hb : S_.BroadcastsInDim S1000000 (![] : Fin 0 → Fin S1000000.rank)) (hr : S1000000.ReducesTo [0] S_)
    (hu : 0 < S_.numel) (j : S_.Idx)
    (e : Host.reduce IntOp.andi
          (andi (cmpi .sge x (broadcastInDim S1000000 ![] hb (constantI S_ 32 0#32)))
                (cmpi .slt x (broadcastInDim S1000000 ![] hb (constantI S_ 32 n)))) init hr hu j = 1#1)
    (i : S1000000.Idx) : 0 ≤ (x i).toInt ∧ (x i).toInt < N := by
  have h := Host.reduce_andi_all _ init hr hu j e i
  have h' : IntOp.andi (IntOp.cmpi .sge (x i) 0#32) (IntOp.cmpi .slt (x i) n) = 1#1 := h
  obtain ⟨h0, h1⟩ := IntOp.andi_eq_one.1 h'
  exact word_range N hN h0 h1

variable [Cert.Pre_finite_inputs.Facts]

def R (a0 a1 : IVec S1000000 32) : Prop :=
  (∀ i : S1000000.Idx, 0 ≤ (a1 i).toInt ∧ (a1 i).toInt < 15) ∧ (∀ i : S1000000.Idx, 0 ≤ (a0 i).toInt ∧ (a0 i).toInt < 202)

theorem part5 {F : FTy → Type} [FloatOps F] (a0 : IVec S1000000 32) (v78 v84 : IVec S_ 1) (j : S_.Idx)
    (h : fn_part5 (F := F) a0 v78 v84 j = 1#1) :
    v84 j = 1#1 ∧ ∀ i : S1000000.Idx, 0 ≤ (a0 i).toInt ∧ (a0 i).toInt < 202 := by
  unfold fn_part5 at h
  dsimp only at h
  obtain ⟨h1, h2⟩ := IntOp.andi_eq_one.1 h
  obtain ⟨-, h3⟩ := IntOp.andi_eq_one.1 h1
  exact ⟨h3, fun i => all_range a0 202#32 202 (by decide) _ _ _ _ j h2 i⟩

theorem part4 {F : FTy → Type} [FloatOps F] (a0 a1 : IVec S1000000 32) (a18 : FVec F S4x2 .f32) (a19 : FVec F S2 .f32)
    (v63 v67 : IVec S_ 1) (j : S_.Idx)
    (h : fn_part4 (F := F) a0 a1 a18 a19 v63 v67 j = 1#1) : R a0 a1 := by
  unfold fn_part4 at h
  dsimp only at h
  obtain ⟨h84, hA0⟩ := part5 (F := F) a0 _ _ j h
  exact ⟨fun i => all_range a1 15#32 15 (by decide) _ _ _ _ j h84 i, hA0⟩

theorem part3 {F : FTy → Type} [FloatOps F] (a0 a1 : IVec S1000000 32) (a15 : FVec F S3x8x4 .f32) (a16 : FVec F S8x4 .f32)
    (a17 : FVec F S4 .f32) (a18 : FVec F S4x2 .f32) (a19 : FVec F S2 .f32) (v48 : IVec S_ 1) (v49 v50 : FVec F S8 .f32) (j : S_.Idx)
    (h : fn_part3 (F := F) a0 a1 a15 a16 a17 a18 a19 v48 v49 v50 j = 1#1) : R a0 a1 := by
  unfold fn_part3 at h
  exact part4 (F := F) a0 a1 a18 a19 _ _ j h

theorem part2 {F : FTy → Type} [FloatOps F] (a0 a1 : IVec S1000000 32) (a11 : FVec F S16 .f32) (a12 : FVec F S3x16x8 .f32)
    (a13 : FVec F S16x8 .f32) (a14 : FVec F S8 .f32) (a15 : FVec F S3x8x4 .f32) (a16 : FVec F S8x4 .f32)
    (a17 : FVec F S4 .f32) (a18 : FVec F S4x2 .f32) (a19 : FVec F S2 .f32) (v33 : IVec S_ 1) (j : S_.Idx)
    (h : fn_part2 (F := F) a0 a1 a11 a12 a13 a14 a15 a16 a17 a18 a19 v33 j = 1#1) : R a0 a1 := by
  unfold fn_part2 at h
  exact part3 (F := F) a0 a1 a15 a16 a17 a18 a19 _ _ _ j h

theorem part1 {F : FTy → Type} [FloatOps F] (a0 a1 : IVec S1000000 32) (a8 : FVec F S24 .f32) (a9 : FVec F S3x24x16 .f32)
    (a10 : FVec F S24x16 .f32) (a11 : FVec F S16 .f32) (a12 : FVec F S3x16x8 .f32)
    (a13 : FVec F S16x8 .f32) (a14 : FVec F S8 .f32) (a15 : FVec F S3x8x4 .f32) (a16 : FVec F S8x4 .f32)
    (a17 : FVec F S4 .f32) (a18 : FVec F S4x2 .f32) (a19 : FVec F S2 .f32) (v13 : IVec S_ 1) (v16 : IVec S36x24 1) (j : S_.Idx)
    (h : fn_part1 (F := F) a0 a1 a8 a9 a10 a11 a12 a13 a14 a15 a16 a17 a18 a19 v13 v16 j = 1#1) : R a0 a1 := by
  unfold fn_part1 at h
  exact part2 (F := F) a0 a1 a11 a12 a13 a14 a15 a16 a17 a18 a19 _ j h

theorem ranges {F : FTy → Type} [FloatOps F] (a0 a1 : IVec S1000000 32) (a2 : IVec S2x2000000 32) (a3 : IVec S2000000 32)
    (a4 : FVec F S15x4 .f32) (a5 : FVec F S202x32 .f32) (a6 : FVec F S3x36x24 .f32) (a7 : FVec F S36x24 .f32)
    (a8 : FVec F S24 .f32) (a9 : FVec F S3x24x16 .f32) (a10 : FVec F S24x16 .f32) (a11 : FVec F S16 .f32)
    (a12 : FVec F S3x16x8 .f32) (a13 : FVec F S16x8 .f32) (a14 : FVec F S8 .f32) (a15 : FVec F S3x8x4 .f32)
    (a16 : FVec F S8x4 .f32) (a17 : FVec F S4 .f32) (a18 : FVec F S4x2 .f32) (a19 : FVec F S2 .f32)
    (h : Cert.Pre_finite_inputs.fn (F := F) a0 a1 a2 a3 a4 a5 a6 a7 a8 a9 a10 a11 a12 a13 a14 a15 a16 a17 a18 a19 = fun _ => 1#1) :
    (∀ i : S1000000.Idx, 0 ≤ (a1 i).toInt ∧ (a1 i).toInt < 15) ∧ (∀ i : S1000000.Idx, 0 ≤ (a0 i).toInt ∧ (a0 i).toInt < 202) := by
  have e := congrFun h j0
  unfold Cert.Pre_finite_inputs.fn at e
  exact part1 (F := F) a0 a1 a8 a9 a10 a11 a12 a13 a14 a15 a16 a17 a18 a19 _ _ j0 e

theorem ranges_KernelIdeal (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S1000000.Idx, 0 ≤ ((m ((c.tc : Thread Cert.KernelIdeal.nD Cert.KernelIdeal.τ).loc Cert.KernelIdeal.main_arg1) : IVec S1000000 32) i).toInt
        ∧ ((m ((c.tc : Thread Cert.KernelIdeal.nD Cert.KernelIdeal.τ).loc Cert.KernelIdeal.main_arg1) : IVec S1000000 32) i).toInt < 15)
    ∧ (∀ i : S1000000.Idx, 0 ≤ ((m ((c.tc : Thread Cert.KernelIdeal.nD Cert.KernelIdeal.τ).loc Cert.KernelIdeal.main_arg0) : IVec S1000000 32) i).toInt
        ∧ ((m ((c.tc : Thread Cert.KernelIdeal.nD Cert.KernelIdeal.τ).loc Cert.KernelIdeal.main_arg0) : IVec S1000000 32) i).toInt < 202) :=
  ranges (F := Ideal) _ _ _ _ _ _ _ _ _ _ _ _ _ _ _ _ _ _ _ _ (hpre c)

end Cert.PreRanges

end
-- ==== Proof.Claims.lean ====
import proofs.«415972_j72490458022035_1_alg».proof.Defs
import proofs.«415972_j72490458022035_1_alg».proof.Proof.Gen.Kernel
import proofs.«415972_j72490458022035_1_alg».proof.Proof.Gen.KernelIdeal
import proofs.«415972_j72490458022035_1_alg».proof.Proof.Gen.ReferenceIdeal
import proofs.«415972_j72490458022035_1_alg».proof.Proof.Gen.Pre_finite_inputs
import proofs.«415972_j72490458022035_1_alg».proof.Proof.KRun
import proofs.«415972_j72490458022035_1_alg».proof.Proof.KIRun
import proofs.«415972_j72490458022035_1_alg».proof.Proof.RefRun
import proofs.«415972_j72490458022035_1_alg».proof.Proof.RefStages
import proofs.«415972_j72490458022035_1_alg».proof.Proof.PreRanges

set_option maxRecDepth 16384

noncomputable section

namespace Cert.Proof.Claims

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m g _ => by
    refine (θ_run (Cert.Kernel.defs (F := Bits)) _ _).mono (fun r h c => ?_) (Cert.Kernel.Gen.run_kept m g)
    refine ⟨?_, ?_, ?_, ?_, ?_, ?_, ?_, ?_, ?_, ?_, ?_, ?_, ?_, ?_, ?_, ?_, ?_, ?_, ?_, ?_⟩ <;> exact h c _ (by decide) (by decide)

theorem frame_ki : Cert.frame_KernelIdeal (hKernelIdeal := Cert.KernelIdeal.Gen.facts) (hPre_finite_inputs := Cert.Pre_finite_inputs.Gen.facts) :=
  fun m g _ => by
    refine (θ_run (Cert.KernelIdeal.defs (F := Ideal)) _ _).mono (fun r h c => ?_) (Cert.KernelIdeal.Gen.run_kept m g)
    refine ⟨?_, ?_, ?_, ?_, ?_, ?_, ?_, ?_, ?_, ?_, ?_, ?_, ?_, ?_, ?_, ?_, ?_, ?_, ?_, ?_⟩ <;> exact h c _ (by decide) (by decide)

theorem frame_ri : Cert.frame_ReferenceIdeal (hReferenceIdeal := Cert.ReferenceIdeal.Gen.facts) (hPre_finite_inputs := Cert.Pre_finite_inputs.Gen.facts) :=
  fun m g _ => by
    refine (θ_run (Cert.ReferenceIdeal.defs (F := Ideal)) _ _).mono (fun r h c => ?_) (Cert.ReferenceIdeal.Hand.run_after (F := Ideal) m g)
    refine ⟨?_, ?_, ?_, ?_, ?_, ?_, ?_, ?_, ?_, ?_, ?_, ?_, ?_, ?_, ?_, ?_, ?_, ?_, ?_, ?_⟩ <;> exact (h c _).trans (Cert.ReferenceIdeal.Hand.after_ops_arg m c _ (by decide))

section Value

abbrev resOf (m : (ℓ : Loc Cert.KernelIdeal.nD Cert.KernelIdeal.τ Cert.KernelIdeal.sig) → Buf (Elt Ideal) ℓ) (c : Dev Cert.KernelIdeal.nD) :=
  letI := Cert.ReferenceIdeal.Gen.facts
  Cert.RefSpec.res (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))

theorem algebraic
    (hval : ∀ (m : (ℓ : Loc Cert.KernelIdeal.nD Cert.KernelIdeal.τ Cert.KernelIdeal.sig) → Buf (Elt Ideal) ℓ) (g : Dev Cert.KernelIdeal.nD → PrngReg),
      Cert.Pre_KernelIdeal (hPre_finite_inputs := Cert.Pre_finite_inputs.Gen.facts) m → ∀ c : Dev Cert.KernelIdeal.nD,
        Cert.KernelIdeal.Gen.W21 m g c (Proc.devRef .tc Cert.KernelIdeal.main_v376) = resOf m c) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' hpre hagree
  refine ⟨fun c => resOf m c, ?_, ?_⟩
  · refine (θ_run (Cert.KernelIdeal.defs (F := Ideal)) _ _).mono (fun r h c => ?_) (Cert.KernelIdeal.Gen.run_all m g)
    have k : ∀ b : Ref Cert.KernelIdeal.sig .tc, ¬ (Proc.devRef .tc b : DevRef Cert.KernelIdeal.τ Cert.KernelIdeal.sig).isScoped →
        Cert.KernelIdeal.Gen.Unwritten b → r.2.mem ((c.tc : Thread Cert.KernelIdeal.nD Cert.KernelIdeal.τ).loc b) = m ((c.tc : Thread Cert.KernelIdeal.nD Cert.KernelIdeal.τ).loc b) :=
      fun b hs hb => (h c _ (Cert.KernelIdeal.Gen.mem_uc b hs)).trans (Cert.KernelIdeal.Gen.W21_unwritten m g c b hb)
    refine ⟨(h c _ (Cert.KernelIdeal.Gen.mem_uc Cert.KernelIdeal.main_v376 (by decide))).trans (hval m g hpre c), ?_, ?_, ?_, ?_, ?_, ?_, ?_, ?_, ?_, ?_, ?_, ?_, ?_, ?_, ?_, ?_, ?_, ?_, ?_, ?_⟩ <;>
      exact k _ (by decide) (by decide)
  · refine (θ_run (Cert.ReferenceIdeal.defs (F := Ideal)) _ _).mono (fun r h c => ?_) (Cert.ReferenceIdeal.Hand.run_after (F := Ideal) m' g')
    obtain ⟨e0, e1, e2, e3, e4, e5, e6, e7, e8, e9, e10, e11, e12, e13, e14, e15, e16, e17, e18, e19⟩ := hagree c
    refine ⟨(h c Cert.ReferenceIdeal.main_v378).trans ((Cert.RefStages.res_after (F := Ideal) (StableHlo.launchContents m' c)).trans ?_), ?_⟩
    · show Cert.RefSpec.res (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = resOf m c
      rw [e0, e1, e2, e3, e4, e5, e6, e7, e8, e9, e10, e11, e12, e13, e14, e15, e16, e17, e18, e19]
    · refine ⟨?_, ?_, ?_, ?_, ?_, ?_, ?_, ?_, ?_, ?_, ?_, ?_, ?_, ?_, ?_, ?_, ?_, ?_, ?_, ?_⟩ <;> exact (h c _).trans (Cert.ReferenceIdeal.Hand.after_ops_arg m' c _ (by decide))

end Value

end Cert.Proof.Claims

end
-- ==== Proof.KIKeep.lean ====
import proofs.«415972_j72490458022035_1_alg».proof.Proof.KIFold

set_option maxRecDepth 16384

noncomputable section

namespace Cert.KernelIdeal.Gen

open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Steps for walking a buffer's contents back to the boundary where it was produced. -/
theorem kept0_2 (c : Dev nD) (b : Ref sig .tc) (h : b ∉ hostOps0_W ∧ b ∉ hostOps0_1_W) :
    W2 m ρ c (Proc.devRef .tc b) = W0 m ρ c (Proc.devRef .tc b) :=
  (W2_keep m ρ c b h.2).trans <| W1_keep m ρ c b h.1
theorem kept2_4 (c : Dev nD) (b : Ref sig .tc) (h : b ∉ hostOps0_2_W ∧ b ∉ hostOps0_3_W) :
    W4 m ρ c (Proc.devRef .tc b) = W2 m ρ c (Proc.devRef .tc b) :=
  (W4_keep m ρ c b h.2).trans <| W3_keep m ρ c b h.1
theorem kept1_4 (c : Dev nD) (b : Ref sig .tc) (h : b ∉ hostOps0_1_W ∧ b ∉ hostOps0_2_W ∧ b ∉ hostOps0_3_W) :
    W4 m ρ c (Proc.devRef .tc b) = W1 m ρ c (Proc.devRef .tc b) :=
  (W4_keep m ρ c b h.2.2).trans <| (W3_keep m ρ c b h.2.1).trans <| W2_keep m ρ c b h.1
theorem kept4_5 (c : Dev nD) (b : Ref sig .tc) (h : (∀ w, Pipeline.arrRef spec0 w ≠ b)) :
    W5 m ρ c (Proc.devRef .tc b) = W4 m ρ c (Proc.devRef .tc b) :=
  W5_of_ne m ρ c b h
theorem kept5_8 (c : Dev nD) (b : Ref sig .tc) (h : b ∉ hostOps1_W ∧ b ∉ hostOps1_1_W ∧ (∀ w, Pipeline.arrRef spec1 w ≠ b)) :
    W8 m ρ c (Proc.devRef .tc b) = W5 m ρ c (Proc.devRef .tc b) :=
  (W8_of_ne m ρ c b h.2.2).trans <| (W7_keep m ρ c b h.2.1).trans <| W6_keep m ρ c b h.1
theorem kept8_11 (c : Dev nD) (b : Ref sig .tc) (h : b ∉ hostOps2_W ∧ b ∉ hostOps2_1_W ∧ (∀ w, Pipeline.arrRef spec2 w ≠ b)) :
    W11 m ρ c (Proc.devRef .tc b) = W8 m ρ c (Proc.devRef .tc b) :=
  (W11_of_ne m ρ c b h.2.2).trans <| (W10_keep m ρ c b h.2.1).trans <| W9_keep m ρ c b h.1
theorem kept11_14 (c : Dev nD) (b : Ref sig .tc) (h : b ∉ hostOps3_W ∧ b ∉ hostOps3_1_W ∧ (∀ w, Pipeline.arrRef spec3 w ≠ b)) :
    W14 m ρ c (Proc.devRef .tc b) = W11 m ρ c (Proc.devRef .tc b) :=
  (W14_of_ne m ρ c b h.2.2).trans <| (W13_keep m ρ c b h.2.1).trans <| W12_keep m ρ c b h.1
theorem kept14_17 (c : Dev nD) (b : Ref sig .tc) (h : b ∉ hostOps4_W ∧ b ∉ hostOps4_1_W ∧ (∀ w, Pipeline.arrRef spec4 w ≠ b)) :
    W17 m ρ c (Proc.devRef .tc b) = W14 m ρ c (Proc.devRef .tc b) :=
  (W17_of_ne m ρ c b h.2.2).trans <| (W16_keep m ρ c b h.2.1).trans <| W15_keep m ρ c b h.1
theorem arg2_0 (c : Dev nD) : W2 m ρ c (Proc.devRef .tc main_arg0) = m ((c : Thread nD τ).loc main_arg0) :=
  kept0_2 m ρ c main_arg0 (by decide)
theorem arg4_4 (c : Dev nD) : W4 m ρ c (Proc.devRef .tc main_arg4) = m ((c : Thread nD τ).loc main_arg4) :=
  (kept2_4 m ρ c main_arg4 (by decide)).trans <| kept0_2 m ρ c main_arg4 (by decide)
theorem arg4_5 (c : Dev nD) : W4 m ρ c (Proc.devRef .tc main_arg5) = m ((c : Thread nD τ).loc main_arg5) :=
  (kept2_4 m ρ c main_arg5 (by decide)).trans <| kept0_2 m ρ c main_arg5 (by decide)
theorem arg5_6 (c : Dev nD) : W5 m ρ c (Proc.devRef .tc main_arg6) = m ((c : Thread nD τ).loc main_arg6) :=
  (kept4_5 m ρ c main_arg6 (by decide)).trans <| (kept2_4 m ρ c main_arg6 (by decide)).trans <| kept0_2 m ρ c main_arg6 (by decide)
theorem arg5_7 (c : Dev nD) : W5 m ρ c (Proc.devRef .tc main_arg7) = m ((c : Thread nD τ).loc main_arg7) :=
  (kept4_5 m ρ c main_arg7 (by decide)).trans <| (kept2_4 m ρ c main_arg7 (by decide)).trans <| kept0_2 m ρ c main_arg7 (by decide)
theorem arg5_8 (c : Dev nD) : W5 m ρ c (Proc.devRef .tc main_arg8) = m ((c : Thread nD τ).loc main_arg8) :=
  (kept4_5 m ρ c main_arg8 (by decide)).trans <| (kept2_4 m ρ c main_arg8 (by decide)).trans <| kept0_2 m ρ c main_arg8 (by decide)
theorem arg8_3 (c : Dev nD) : W8 m ρ c (Proc.devRef .tc main_arg3) = m ((c : Thread nD τ).loc main_arg3) :=
  (kept5_8 m ρ c main_arg3 (by decide)).trans <| (kept4_5 m ρ c main_arg3 (by decide)).trans <| (kept2_4 m ρ c main_arg3 (by decide)).trans <| kept0_2 m ρ c main_arg3 (by decide)
theorem arg8_9 (c : Dev nD) : W8 m ρ c (Proc.devRef .tc main_arg9) = m ((c : Thread nD τ).loc main_arg9) :=
  (kept5_8 m ρ c main_arg9 (by decide)).trans <| (kept4_5 m ρ c main_arg9 (by decide)).trans <| (kept2_4 m ρ c main_arg9 (by decide)).trans <| kept0_2 m ρ c main_arg9 (by decide)
theorem arg8_10 (c : Dev nD) : W8 m ρ c (Proc.devRef .tc main_arg10) = m ((c : Thread nD τ).loc main_arg10) :=
  (kept5_8 m ρ c main_arg10 (by decide)).trans <| (kept4_5 m ρ c main_arg10 (by decide)).trans <| (kept2_4 m ρ c main_arg10 (by decide)).trans <| kept0_2 m ρ c main_arg10 (by decide)
theorem arg8_11 (c : Dev nD) : W8 m ρ c (Proc.devRef .tc main_arg11) = m ((c : Thread nD τ).loc main_arg11) :=
  (kept5_8 m ρ c main_arg11 (by decide)).trans <| (kept4_5 m ρ c main_arg11 (by decide)).trans <| (kept2_4 m ρ c main_arg11 (by decide)).trans <| kept0_2 m ρ c main_arg11 (by decide)
theorem arg11_3 (c : Dev nD) : W11 m ρ c (Proc.devRef .tc main_arg3) = m ((c : Thread nD τ).loc main_arg3) :=
  (kept8_11 m ρ c main_arg3 (by decide)).trans <| (kept5_8 m ρ c main_arg3 (by decide)).trans <| (kept4_5 m ρ c main_arg3 (by decide)).trans <| (kept2_4 m ρ c main_arg3 (by decide)).trans <| kept0_2 m ρ c main_arg3 (by decide)
theorem arg11_12 (c : Dev nD) : W11 m ρ c (Proc.devRef .tc main_arg12) = m ((c : Thread nD τ).loc main_arg12) :=
  (kept8_11 m ρ c main_arg12 (by decide)).trans <| (kept5_8 m ρ c main_arg12 (by decide)).trans <| (kept4_5 m ρ c main_arg12 (by decide)).trans <| (kept2_4 m ρ c main_arg12 (by decide)).trans <| kept0_2 m ρ c main_arg12 (by decide)
theorem arg11_13 (c : Dev nD) : W11 m ρ c (Proc.devRef .tc main_arg13) = m ((c : Thread nD τ).loc main_arg13) :=
  (kept8_11 m ρ c main_arg13 (by decide)).trans <| (kept5_8 m ρ c main_arg13 (by decide)).trans <| (kept4_5 m ρ c main_arg13 (by decide)).trans <| (kept2_4 m ρ c main_arg13 (by decide)).trans <| kept0_2 m ρ c main_arg13 (by decide)
theorem arg11_14 (c : Dev nD) : W11 m ρ c (Proc.devRef .tc main_arg14) = m ((c : Thread nD τ).loc main_arg14) :=
  (kept8_11 m ρ c main_arg14 (by decide)).trans <| (kept5_8 m ρ c main_arg14 (by decide)).trans <| (kept4_5 m ρ c main_arg14 (by decide)).trans <| (kept2_4 m ρ c main_arg14 (by decide)).trans <| kept0_2 m ρ c main_arg14 (by decide)
theorem arg14_3 (c : Dev nD) : W14 m ρ c (Proc.devRef .tc main_arg3) = m ((c : Thread nD τ).loc main_arg3) :=
  (kept11_14 m ρ c main_arg3 (by decide)).trans <| (kept8_11 m ρ c main_arg3 (by decide)).trans <| (kept5_8 m ρ c main_arg3 (by decide)).trans <| (kept4_5 m ρ c main_arg3 (by decide)).trans <| (kept2_4 m ρ c main_arg3 (by decide)).trans <| kept0_2 m ρ c main_arg3 (by decide)
theorem arg14_15 (c : Dev nD) : W14 m ρ c (Proc.devRef .tc main_arg15) = m ((c : Thread nD τ).loc main_arg15) :=
  (kept11_14 m ρ c main_arg15 (by decide)).trans <| (kept8_11 m ρ c main_arg15 (by decide)).trans <| (kept5_8 m ρ c main_arg15 (by decide)).trans <| (kept4_5 m ρ c main_arg15 (by decide)).trans <| (kept2_4 m ρ c main_arg15 (by decide)).trans <| kept0_2 m ρ c main_arg15 (by decide)
theorem arg14_16 (c : Dev nD) : W14 m ρ c (Proc.devRef .tc main_arg16) = m ((c : Thread nD τ).loc main_arg16) :=
  (kept11_14 m ρ c main_arg16 (by decide)).trans <| (kept8_11 m ρ c main_arg16 (by decide)).trans <| (kept5_8 m ρ c main_arg16 (by decide)).trans <| (kept4_5 m ρ c main_arg16 (by decide)).trans <| (kept2_4 m ρ c main_arg16 (by decide)).trans <| kept0_2 m ρ c main_arg16 (by decide)
theorem arg14_17 (c : Dev nD) : W14 m ρ c (Proc.devRef .tc main_arg17) = m ((c : Thread nD τ).loc main_arg17) :=
  (kept11_14 m ρ c main_arg17 (by decide)).trans <| (kept8_11 m ρ c main_arg17 (by decide)).trans <| (kept5_8 m ρ c main_arg17 (by decide)).trans <| (kept4_5 m ρ c main_arg17 (by decide)).trans <| (kept2_4 m ρ c main_arg17 (by decide)).trans <| kept0_2 m ρ c main_arg17 (by decide)
theorem arg17_3 (c : Dev nD) : W17 m ρ c (Proc.devRef .tc main_arg3) = m ((c : Thread nD τ).loc main_arg3) :=
  (kept14_17 m ρ c main_arg3 (by decide)).trans <| (kept11_14 m ρ c main_arg3 (by decide)).trans <| (kept8_11 m ρ c main_arg3 (by decide)).trans <| (kept5_8 m ρ c main_arg3 (by decide)).trans <| (kept4_5 m ρ c main_arg3 (by decide)).trans <| (kept2_4 m ρ c main_arg3 (by decide)).trans <| kept0_2 m ρ c main_arg3 (by decide)
theorem keep4_main_v5 (c : Dev nD) : W4 m ρ c (Proc.devRef .tc main_v5) = W2 m ρ c (Proc.devRef .tc main_v5) :=
  (W4_keep m ρ c main_v5 (by decide)).trans <| W3_keep m ρ c main_v5 (by decide)
theorem keep7_main_v16 (c : Dev nD) : W7 m ρ c (Proc.devRef .tc main_v16) = W6 m ρ c (Proc.devRef .tc main_v16) :=
  W7_keep m ρ c main_v16 (by decide)
theorem keep7_main_v18 (c : Dev nD) : W7 m ρ c (Proc.devRef .tc main_v18) = W6 m ρ c (Proc.devRef .tc main_v18) :=
  W7_keep m ρ c main_v18 (by decide)
theorem keep8_main_v1 (c : Dev nD) : W8 m ρ c (Proc.devRef .tc main_v1) = W1 m ρ c (Proc.devRef .tc main_v1) :=
  (kept5_8 m ρ c main_v1 (by decide)).trans <| (kept4_5 m ρ c main_v1 (by decide)).trans <| kept1_4 m ρ c main_v1 (by decide)
theorem keep8_main_v3 (c : Dev nD) : W8 m ρ c (Proc.devRef .tc main_v3) = W1 m ρ c (Proc.devRef .tc main_v3) :=
  (kept5_8 m ρ c main_v3 (by decide)).trans <| (kept4_5 m ρ c main_v3 (by decide)).trans <| kept1_4 m ρ c main_v3 (by decide)
theorem keep10_main_v107 (c : Dev nD) : W10 m ρ c (Proc.devRef .tc main_v107) = W9 m ρ c (Proc.devRef .tc main_v107) :=
  W10_keep m ρ c main_v107 (by decide)
theorem keep10_main_v109 (c : Dev nD) : W10 m ρ c (Proc.devRef .tc main_v109) = W9 m ρ c (Proc.devRef .tc main_v109) :=
  W10_keep m ρ c main_v109 (by decide)
theorem keep11_main_v1 (c : Dev nD) : W11 m ρ c (Proc.devRef .tc main_v1) = W1 m ρ c (Proc.devRef .tc main_v1) :=
  (kept8_11 m ρ c main_v1 (by decide)).trans <| (kept5_8 m ρ c main_v1 (by decide)).trans <| (kept4_5 m ρ c main_v1 (by decide)).trans <| kept1_4 m ρ c main_v1 (by decide)
theorem keep11_main_v3 (c : Dev nD) : W11 m ρ c (Proc.devRef .tc main_v3) = W1 m ρ c (Proc.devRef .tc main_v3) :=
  (kept8_11 m ρ c main_v3 (by decide)).trans <| (kept5_8 m ρ c main_v3 (by decide)).trans <| (kept4_5 m ρ c main_v3 (by decide)).trans <| kept1_4 m ρ c main_v3 (by decide)
theorem keep13_main_v198 (c : Dev nD) : W13 m ρ c (Proc.devRef .tc main_v198) = W12 m ρ c (Proc.devRef .tc main_v198) :=
  W13_keep m ρ c main_v198 (by decide)
theorem keep13_main_v200 (c : Dev nD) : W13 m ρ c (Proc.devRef .tc main_v200) = W12 m ρ c (Proc.devRef .tc main_v200) :=
  W13_keep m ρ c main_v200 (by decide)
theorem keep14_main_v1 (c : Dev nD) : W14 m ρ c (Proc.devRef .tc main_v1) = W1 m ρ c (Proc.devRef .tc main_v1) :=
  (kept11_14 m ρ c main_v1 (by decide)).trans <| (kept8_11 m ρ c main_v1 (by decide)).trans <| (kept5_8 m ρ c main_v1 (by decide)).trans <| (kept4_5 m ρ c main_v1 (by decide)).trans <| kept1_4 m ρ c main_v1 (by decide)
theorem keep14_main_v3 (c : Dev nD) : W14 m ρ c (Proc.devRef .tc main_v3) = W1 m ρ c (Proc.devRef .tc main_v3) :=
  (kept11_14 m ρ c main_v3 (by decide)).trans <| (kept8_11 m ρ c main_v3 (by decide)).trans <| (kept5_8 m ρ c main_v3 (by decide)).trans <| (kept4_5 m ρ c main_v3 (by decide)).trans <| kept1_4 m ρ c main_v3 (by decide)
theorem keep16_main_v289 (c : Dev nD) : W16 m ρ c (Proc.devRef .tc main_v289) = W15 m ρ c (Proc.devRef .tc main_v289) :=
  W16_keep m ρ c main_v289 (by decide)
theorem keep16_main_v291 (c : Dev nD) : W16 m ρ c (Proc.devRef .tc main_v291) = W15 m ρ c (Proc.devRef .tc main_v291) :=
  W16_keep m ρ c main_v291 (by decide)
theorem keep17_main_v1 (c : Dev nD) : W17 m ρ c (Proc.devRef .tc main_v1) = W1 m ρ c (Proc.devRef .tc main_v1) :=
  (kept14_17 m ρ c main_v1 (by decide)).trans <| (kept11_14 m ρ c main_v1 (by decide)).trans <| (kept8_11 m ρ c main_v1 (by decide)).trans <| (kept5_8 m ρ c main_v1 (by decide)).trans <| (kept4_5 m ρ c main_v1 (by decide)).trans <| kept1_4 m ρ c main_v1 (by decide)
theorem keep17_main_v3 (c : Dev nD) : W17 m ρ c (Proc.devRef .tc main_v3) = W1 m ρ c (Proc.devRef .tc main_v3) :=
  (kept14_17 m ρ c main_v3 (by decide)).trans <| (kept11_14 m ρ c main_v3 (by decide)).trans <| (kept8_11 m ρ c main_v3 (by decide)).trans <| (kept5_8 m ρ c main_v3 (by decide)).trans <| (kept4_5 m ρ c main_v3 (by decide)).trans <| kept1_4 m ρ c main_v3 (by decide)

end Cert.KernelIdeal.Gen

end
-- ==== Proof.KIHost0.lean ====
import proofs.«415972_j72490458022035_1_alg».proof.Proof.Gen.KernelIdeal.Launch
import proofs.«415972_j72490458022035_1_alg».proof.Proof.Tail24

set_option maxRecDepth 16384

noncomputable section

namespace Cert.KernelIdeal.Host

open Idealize.ShloMosaic Idealize.ShloMosaic.TcCoe
open Cert.KernelIdeal Cert.KernelIdeal.Gen

variable {F : FTy → Type} [FloatOps F] [Cert.ReferenceIdeal.Facts₀]

theorem h0_main_v1 (W : Valuation τ sig (Elt F)) :
    StableHlo.after hostOps0 W (Proc.devRef .tc main_v1) = Cert.Tail.srcOf (W (Proc.devRef .tc main_arg2)) := by
  after_results; rfl

theorem h0_main_v3 (W : Valuation τ sig (Elt F)) :
    StableHlo.after hostOps0 W (Proc.devRef .tc main_v3) = Cert.Tail.dstOf (W (Proc.devRef .tc main_arg2)) := by
  after_results; rfl

theorem h0_main_v4 (W : Valuation τ sig (Elt F)) :
    StableHlo.after hostOps0 W (Proc.devRef .tc main_v4)
      = shapeCast S1000000x1 (W (Proc.devRef .tc main_arg1)) Gen.shapeCasts_S1000000_S1000000x1 := by
  after_results; rfl

theorem h0_main_c (W : Valuation τ sig (Elt F)) :
    StableHlo.after hostOps0 W (Proc.devRef .tc main_c) = constantI S_ 32 0#32 := by
  after_results

theorem h0_1_main_v5 (W : Valuation τ sig (Elt F)) :
    StableHlo.after hostOps0_1 W (Proc.devRef .tc main_v5)
      = pad S1003520x1 ![0, 0] ![3520, 0] ![0, 0] (W (Proc.devRef .tc main_v4)) (W (Proc.devRef .tc main_c))
          Gen.pads_S1000000x1_S1003520x1_035200_000 Gen.h_S_ := by
  after_results; rfl

theorem h0_2_main_v6 (W : Valuation τ sig (Elt F)) :
    StableHlo.after hostOps0_2 W (Proc.devRef .tc main_v6)
      = shapeCast S1000000x1 (W (Proc.devRef .tc main_arg0)) Gen.shapeCasts_S1000000_S1000000x1 := by
  after_results; rfl

theorem h0_2_main_c_0 (W : Valuation τ sig (Elt F)) :
    StableHlo.after hostOps0_2 W (Proc.devRef .tc main_c_0) = constantI S_ 32 0#32 := by
  after_results

theorem h0_3_main_v7 (W : Valuation τ sig (Elt F)) :
    StableHlo.after hostOps0_3 W (Proc.devRef .tc main_v7)
      = pad S1003520x1 ![0, 0] ![3520, 0] ![0, 0] (W (Proc.devRef .tc main_v6)) (W (Proc.devRef .tc main_c_0))
          Gen.pads_S1000000x1_S1003520x1_035200_000 Gen.h_S_ := by
  after_results; rfl

end Cert.KernelIdeal.Host

end
-- ==== Proof.KIHost1.lean ====
import proofs.«415972_j72490458022035_1_alg».proof.Proof.Gen.KernelIdeal.Launch
import proofs.«415972_j72490458022035_1_alg».proof.Proof.Tail24

set_option maxRecDepth 16384

noncomputable section

namespace Cert.KernelIdeal.Host

open Idealize.ShloMosaic Idealize.ShloMosaic.TcCoe
open Cert.KernelIdeal Cert.KernelIdeal.Gen

variable {F : FTy → Type} [FloatOps F] [Cert.ReferenceIdeal.Facts₀]

theorem h1_main_v9 (W : Valuation τ sig (Elt F)) :
    StableHlo.after hostOps1 W (Proc.devRef .tc main_v9)
      = extractStridedSlice S1000000x36 ![0, 0] (W (Proc.devRef .tc main_v8)) Gen.slices_S1003520x36_S1000000x36_0_0 := by
  after_results <;> rfl

theorem h1_main_v16 (W : Valuation τ sig (Elt F)) :
    StableHlo.after hostOps1 W (Proc.devRef .tc main_v16)
      = (concatenate S36x96 1
          [⟨S36x24, W (Proc.devRef .tc main_arg7)⟩,
           ⟨S36x24, shapeCast S36x24 (extractStridedSlice S1x36x24 ![0, 0, 0] (W (Proc.devRef .tc main_arg6)) Gen.slices_S3x36x24_S1x36x24_0_0_0) Gen.shapeCasts_S1x36x24_S36x24⟩,
           ⟨S36x24, shapeCast S36x24 (extractStridedSlice S1x36x24 ![1, 0, 0] (W (Proc.devRef .tc main_arg6)) Gen.slices_S3x36x24_S1x36x24_1_0_0) Gen.shapeCasts_S1x36x24_S36x24⟩,
           ⟨S36x24, shapeCast S36x24 (extractStridedSlice S1x36x24 ![2, 0, 0] (W (Proc.devRef .tc main_arg6)) Gen.slices_S3x36x24_S1x36x24_2_0_0) Gen.shapeCasts_S1x36x24_S36x24⟩]
          Gen.concatenates_S36x24_S36x24_S36x24_S36x24_S36x96_d1 : FVec F S36x96 .f32) := by
  after_results <;> rfl

theorem h1_main_v18 (W : Valuation τ sig (Elt F)) :
    StableHlo.after hostOps1 W (Proc.devRef .tc main_v18)
      = (concatenate S96 0
          [⟨S24, W (Proc.devRef .tc main_arg8)⟩,
           ⟨S72, broadcastInDim S72 ![] Gen.bcast_S_S72 (constant S_ .f32 0x00000000#32)⟩]
          Gen.concatenates_S24_S72_S96_d0 : FVec F S96 .f32) := by
  after_results <;> rfl

theorem h1_1_main_v19 (W : Valuation τ sig (Elt F)) :
    StableHlo.after hostOps1_1 W (Proc.devRef .tc main_v19)
      = pad S1007616x36 ![0, 0] ![7616, 0] ![0, 0] (W (Proc.devRef .tc main_v9)) (sitofp (F := F) .f32 (W (Proc.devRef .tc main_c_1)))
          Gen.pads_S1000000x36_S1007616x36_076160_000 Gen.h_S_ := by
  after_results <;> rfl

end Cert.KernelIdeal.Host

end
-- ==== Proof.EmbPay.lean ====
import proofs.«415972_j72490458022035_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

def hot (x : BitVec 32) (k : Nat) : EReal := if x = BitVec.ofNat 32 k then 1 else 0

theorem sitofp_extui_cmpi_eq {φ : FTy} (x y : BitVec 32) :
    (FloatOps.sitofp (F := Ideal) φ ((IntOp.cmpi .eq x y).setWidth 32) : Ideal φ) = if x = y then 1 else 0 := by
  show ((((IntOp.cmpi .eq x y).setWidth 32).toInt : ℝ) : EReal) = _
  by_cases h : x = y
  · rw [if_pos h]; subst h
    simp [IntOp.cmpi]
  · rw [if_neg h]
    have : (x == y) = false := by simpa using h
    simp [IntOp.cmpi, this]

theorem bcast_col_apply {α : Type} {a b : Nat} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) :=
  broadcastTo_apply v h (ix2 p k) (ix2 p 0) (fun c => by
    match c with
    | ⟨0, _⟩ =>
      by_cases ha : a = 1
      · subst ha; show p.val = if (1 : Nat) = 1 then 0 else p.val; rw [if_pos rfl]; omega
      · show p.val = if a = 1 then 0 else p.val; rw [if_neg ha]
    | ⟨1, _⟩ => rfl)

theorem lhs_se_0 (i : S4096x4.Idx) (q : dot_S4096x15_S15x4_S4096x4_1_0_0_1_n_n.contr.Idx) :
    (dot_S4096x15_S15x4_S4096x4_1_0_0_1_n_n.lhsIdx i q 0).val = (i 0).val := by
  unfold DotDims.lhsIdx
  rw [dif_neg (show ¬(0 : Fin S4096x15.rank) ∈ dot_S4096x15_S15x4_S4096x4_1_0_0_1_n_n.lhsBatch by decide),
    dif_pos (show (0 : Fin S4096x15.rank) ∈ dot_S4096x15_S15x4_S4096x4_1_0_0_1_n_n.lhsNonContracting by decide)]
  rfl
theorem lhs_se_1 (i : S4096x4.Idx) (q : dot_S4096x15_S15x4_S4096x4_1_0_0_1_n_n.contr.Idx) :
    (dot_S4096x15_S15x4_S4096x4_1_0_0_1_n_n.lhsIdx i q 1).val = (q ⟨0, by decide⟩).val :=
  dot_S4096x15_S15x4_S4096x4_1_0_0_1_n_n.lhsIdx_val_of_single rfl i q
theorem rhs_se_0 (i : S4096x4.Idx) (q : dot_S4096x15_S15x4_S4096x4_1_0_0_1_n_n.contr.Idx) :
    (dot_S4096x15_S15x4_S4096x4_1_0_0_1_n_n.rhsIdx i q 0).val = (q ⟨0, by decide⟩).val :=
  dot_S4096x15_S15x4_S4096x4_1_0_0_1_n_n.rhsIdx_val_of_single rfl i q
theorem rhs_se_1 (i : S4096x4.Idx) (q : dot_S4096x15_S15x4_S4096x4_1_0_0_1_n_n.contr.Idx) :
    (dot_S4096x15_S15x4_S4096x4_1_0_0_1_n_n.rhsIdx i q 1).val = (i 1).val := by
  unfold DotDims.rhsIdx
  rw [dif_neg (show ¬(1 : Fin S15x4.rank) ∈ dot_S4096x15_S15x4_S4096x4_1_0_0_1_n_n.rhsBatch by decide),
    dif_pos (show (1 : Fin S15x4.rank) ∈ dot_S4096x15_S15x4_S4096x4_1_0_0_1_n_n.rhsNonContracting by decide)]
  rfl

theorem matmul_se_apply (L : FVec Ideal S4096x15 .bf16) (R : FVec Ideal S15x4 .bf16) (p : Fin 4096) (q : Fin 4) :
    matmul dot_S4096x15_S15x4_S4096x4_1_0_0_1_n_n none L R (constant (F := Ideal) S4096x4 .f32 0x00000000#32) (ix2 p q)
      = ∑ k : Fin 15, L (ix2 p k) * R (ix2 k q) := by
  simp only [matmul]
  rw [Ideal.matmul_constant_zero_apply,
    ← Equiv.sum_comp (contrEquiv1 dot_S4096x15_S15x4_S4096x4_1_0_0_1_n_n 15 rfl rfl).symm]
  refine Finset.sum_congr rfl fun k _ => ?_
  have hk := contrEquiv1_symm_val dot_S4096x15_S15x4_S4096x4_1_0_0_1_n_n 15 rfl rfl k
  have el : dot_S4096x15_S15x4_S4096x4_1_0_0_1_n_n.lhsIdx (ix2 p q)
      ((contrEquiv1 dot_S4096x15_S15x4_S4096x4_1_0_0_1_n_n 15 rfl rfl).symm k) = ix2 p k := funext fun a => Fin.ext (by
    match a with
    | ⟨0, _⟩ => exact lhs_se_0 _ _
    | ⟨1, _⟩ => exact (lhs_se_1 _ _).trans hk)
  have er : dot_S4096x15_S15x4_S4096x4_1_0_0_1_n_n.rhsIdx (ix2 p q)
      ((contrEquiv1 dot_S4096x15_S15x4_S4096x4_1_0_0_1_n_n 15 rfl rfl).symm k) = ix2 k q := funext fun a => Fin.ext (by
    match a with
    | ⟨0, _⟩ => exact (rhs_se_0 _ _).trans hk
    | ⟨1, _⟩ => exact rhs_se_1 _ _)
  rw [el, er]

theorem lhs_ce_0 (i : S4096x32.Idx) (q : dot_S4096x202_S202x32_S4096x32_1_0_0_1_n_n.contr.Idx) :
    (dot_S4096x202_S202x32_S4096x32_1_0_0_1_n_n.lhsIdx i q 0).val = (i 0).val := by
  unfold DotDims.lhsIdx
  rw [dif_neg (show ¬(0 : Fin S4096x202.rank) ∈ dot_S4096x202_S202x32_S4096x32_1_0_0_1_n_n.lhsBatch by decide),
    dif_pos (show (0 : Fin S4096x202.rank) ∈ dot_S4096x202_S202x32_S4096x32_1_0_0_1_n_n.lhsNonContracting by decide)]
  rfl
theorem lhs_ce_1 (i : S4096x32.Idx) (q : dot_S4096x202_S202x32_S4096x32_1_0_0_1_n_n.contr.Idx) :
    (dot_S4096x202_S202x32_S4096x32_1_0_0_1_n_n.lhsIdx i q 1).val = (q ⟨0, by decide⟩).val :=
  dot_S4096x202_S202x32_S4096x32_1_0_0_1_n_n.lhsIdx_val_of_single rfl i q
theorem rhs_ce_0 (i : S4096x32.Idx) (q : dot_S4096x202_S202x32_S4096x32_1_0_0_1_n_n.contr.Idx) :
    (dot_S4096x202_S202x32_S4096x32_1_0_0_1_n_n.rhsIdx i q 0).val = (q ⟨0, by decide⟩).val :=
  dot_S4096x202_S202x32_S4096x32_1_0_0_1_n_n.rhsIdx_val_of_single rfl i q
theorem rhs_ce_1 (i : S4096x32.Idx) (q : dot_S4096x202_S202x32_S4096x32_1_0_0_1_n_n.contr.Idx) :
    (dot_S4096x202_S202x32_S4096x32_1_0_0_1_n_n.rhsIdx i q 1).val = (i 1).val := by
  unfold DotDims.rhsIdx
  rw [dif_neg (show ¬(1 : Fin S202x32.rank) ∈ dot_S4096x202_S202x32_S4096x32_1_0_0_1_n_n.rhsBatch by decide),
    dif_pos (show (1 : Fin S202x32.rank) ∈ dot_S4096x202_S202x32_S4096x32_1_0_0_1_n_n.rhsNonContracting by decide)]
  rfl

theorem matmul_ce_apply (L : FVec Ideal S4096x202 .bf16) (R : FVec Ideal S202x32 .bf16) (p : Fin 4096) (q : Fin 32) :
    matmul dot_S4096x202_S202x32_S4096x32_1_0_0_1_n_n none L R (constant (F := Ideal) S4096x32 .f32 0x00000000#32) (ix2 p q)
      = ∑ k : Fin 202, L (ix2 p k) * R (ix2 k q) := by
  simp only [matmul]
  rw [Ideal.matmul_constant_zero_apply,
    ← Equiv.sum_comp (contrEquiv1 dot_S4096x202_S202x32_S4096x32_1_0_0_1_n_n 202 rfl rfl).symm]
  refine Finset.sum_congr rfl fun k _ => ?_
  have hk := contrEquiv1_symm_val dot_S4096x202_S202x32_S4096x32_1_0_0_1_n_n 202 rfl rfl k
  have el : dot_S4096x202_S202x32_S4096x32_1_0_0_1_n_n.lhsIdx (ix2 p q)
      ((contrEquiv1 dot_S4096x202_S202x32_S4096x32_1_0_0_1_n_n 202 rfl rfl).symm k) = ix2 p k := funext fun a => Fin.ext (by
    match a with
    | ⟨0, _⟩ => exact lhs_ce_0 _ _
    | ⟨1, _⟩ => exact (lhs_ce_1 _ _).trans hk)
  have er : dot_S4096x202_S202x32_S4096x32_1_0_0_1_n_n.rhsIdx (ix2 p q)
      ((contrEquiv1 dot_S4096x202_S202x32_S4096x32_1_0_0_1_n_n 202 rfl rfl).symm k) = ix2 k q := funext fun a => Fin.ext (by
    match a with
    | ⟨0, _⟩ => exact (rhs_ce_0 _ _).trans hk
    | ⟨1, _⟩ => exact rhs_ce_1 _ _)
  rw [el, er]

theorem onehot_se_apply (v0 : IVec S4096x1 32) (p : Fin 4096) (k : Fin 15) :
    (truncf .bf16 (sitofp (F := Ideal) .f32 (extui 32 (cmpi .eq
        (broadcastTo S4096x15 (shapeCast S4096x1 v0 shapeCasts_S4096x1_S4096x1) broadcasts_S4096x1_S4096x15)
        (iota .tc S4096x15 32 [1] iota_S4096x15_d1_w32)) natLt_1_32)) bitsLt_bf16_f32 : FVec Ideal S4096x15 .bf16) (ix2 p k)
      = hot (v0 (ix2 p 0)) k.val := by
  rw [truncf_apply, sitofp_apply, extui_apply]
  show FloatOps.sitofp (F := Ideal) .f32 ((IntOp.cmpi .eq
      (broadcastTo S4096x15 (shapeCast S4096x1 v0 shapeCasts_S4096x1_S4096x1) broadcasts_S4096x1_S4096x15 (ix2 p k))
      (iota .tc S4096x15 32 [1] iota_S4096x15_d1_w32 (ix2 p k))).setWidth 32) = _
  rw [bcast_col_apply, shapeCast_self, iota_single_apply, sitofp_extui_cmpi_eq]
  rfl

theorem onehot_ce_apply (v2 : IVec S4096x1 32) (p : Fin 4096) (k : Fin 202) :
    (truncf .bf16 (sitofp (F := Ideal) .f32 (extui 32 (cmpi .eq
        (broadcastTo S4096x202 (shapeCast S4096x1 v2 shapeCasts_S4096x1_S4096x1) broadcasts_S4096x1_S4096x202)
        (iota .tc S4096x202 32 [1] iota_S4096x202_d1_w32)) natLt_1_32)) bitsLt_bf16_f32 : FVec Ideal S4096x202 .bf16) (ix2 p k)
      = hot (v2 (ix2 p 0)) k.val := by
  rw [truncf_apply, sitofp_apply, extui_apply]
  show FloatOps.sitofp (F := Ideal) .f32 ((IntOp.cmpi .eq
      (broadcastTo S4096x202 (shapeCast S4096x1 v2 shapeCasts_S4096x1_S4096x1) broadcasts_S4096x1_S4096x202 (ix2 p k))
      (iota .tc S4096x202 32 [1] iota_S4096x202_d1_w32 (ix2 p k))).setWidth 32) = _
  rw [bcast_col_apply, shapeCast_self, iota_single_apply, sitofp_extui_cmpi_eq]
  rfl

theorem k0_pay1_apply_se (v0 v2 : Vec Ideal S4096x1 .i32) (v10 : Vec Ideal S15x4 .f32) (v19 : Vec Ideal S202x32 .f32)
    (p : Fin 4096) (q : Fin 4) (q' : Fin 36) (hq : q'.val = q.val) :
    k0_pay1 (F := Ideal) v0 v2 v10 v19 (ix2 p q')
      = ∑ k : Fin 15, hot (v0 (ix2 p 0)) k.val * v10 (ix2 k q) := by
  dsimp only [k0_pay1]
  rw [concatenate_pair_apply_left (t := S4096x36) (s₁ := S4096x4) (s₂ := S4096x32) (1 : Fin 2) _ _
    concatenates_S4096x4_S4096x32_S4096x36_d1 (ix2 p q') rfl (ix2 p q) (fun b => by
      match b with
      | ⟨0, _⟩ => rfl
      | ⟨1, _⟩ => exact hq.symm)]
  rw [matmul_se_apply]
  refine Finset.sum_congr rfl fun k _ => ?_
  rw [onehot_se_apply, truncf_apply]

theorem k0_pay1_apply_ce (v0 v2 : Vec Ideal S4096x1 .i32) (v10 : Vec Ideal S15x4 .f32) (v19 : Vec Ideal S202x32 .f32)
    (p : Fin 4096) (q : Fin 32) (q' : Fin 36) (hq : q'.val = 4 + q.val) :
    k0_pay1 (F := Ideal) v0 v2 v10 v19 (ix2 p q')
      = ∑ k : Fin 202, hot (v2 (ix2 p 0)) k.val * v19 (ix2 k q) := by
  dsimp only [k0_pay1]
  rw [concatenate_pair_apply_right (t := S4096x36) (s₁ := S4096x4) (s₂ := S4096x32) (1 : Fin 2) _ _
    concatenates_S4096x4_S4096x32_S4096x36_d1 (ix2 p q') rfl rfl (ix2 p q) (fun b hb => by
      match b with
      | ⟨0, _⟩ => rfl
      | ⟨1, _⟩ => exact absurd rfl hb)
    (by show q.val + 4 = q'.val; omega)]
  rw [matmul_ce_apply]
  refine Finset.sum_congr rfl fun k _ => ?_
  rw [onehot_ce_apply, truncf_apply]

def embAt (xs xc : BitVec 32) (SE : FVec Ideal S15x4 .f32) (CE : FVec Ideal S202x32 .f32) (q : Fin 36) : EReal :=
  if h : q.val < 4 then ∑ k : Fin 15, hot xs k.val * SE (ix2 k (⟨q.val, h⟩ : Fin 4))
  else ∑ k : Fin 202, hot xc k.val * CE (ix2 k (⟨q.val - 4, by omega⟩ : Fin 32))

theorem k0_pay1_apply (v0 v2 : Vec Ideal S4096x1 .i32) (v10 : Vec Ideal S15x4 .f32) (v19 : Vec Ideal S202x32 .f32)
    (p : Fin 4096) (q : Fin 36) :
    k0_pay1 (F := Ideal) v0 v2 v10 v19 (ix2 p q) = embAt (v0 (ix2 p 0)) (v2 (ix2 p 0)) v10 v19 q := by
  unfold embAt
  by_cases h : q.val < 4
  · rw [dif_pos h]; exact k0_pay1_apply_se v0 v2 v10 v19 p ⟨q.val, h⟩ q rfl
  · rw [dif_neg h]
    exact k0_pay1_apply_ce v0 v2 v10 v19 p ⟨q.val - 4, by omega⟩ q (by show q.val = 4 + (q.val - 4); omega)

def embRows {n : Nat} (XS XC : (⟨2, ![n, 1]⟩ : Shape).Idx → BitVec 32) (SE : FVec Ideal S15x4 .f32)
    (CE : FVec Ideal S202x32 .f32) : (⟨2, ![n, 36]⟩ : Shape).Idx → EReal := fun i =>
  embAt (XS (ix2 (⟨(i 0).val, idx2_lt0 i⟩ : Fin n) (0 : Fin 1))) (XC (ix2 (⟨(i 0).val, idx2_lt0 i⟩ : Fin n) (0 : Fin 1)))
    SE CE ⟨(i 1).val, idx2_lt1 i⟩

def Emb (XS XC : IVec S1003520x1 32) (SE : FVec Ideal S15x4 .f32) (CE : FVec Ideal S202x32 .f32) :
    FVec Ideal S1003520x36 .f32 := embRows (n := 1003520) XS XC SE CE

theorem Emb_apply (XS XC : IVec S1003520x1 32) (SE : FVec Ideal S15x4 .f32) (CE : FVec Ideal S202x32 .f32)
    (r : Fin 1003520) (q : Fin 36) :
    Emb XS XC SE CE (ix2 r q) = embAt (XS (ix2 r 0)) (XC (ix2 r 0)) SE CE q := rfl

end Cert.KernelIdeal.Val

end
-- ==== Proof.EmbArr.lean ====
import proofs.«415972_j72490458022035_1_alg».proof.Proof.KIBody0
import proofs.«415972_j72490458022035_1_alg».proof.Proof.EmbPay
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem flushed0_eq (c : Dev nD) (t : Fin cfg0.N) :
    (dat0 V c).flushed 4 t
      = ((cfg0.win 4).blk t).view.read (Elt Ideal) (Emb (V c main_v5) (V c main_v7) (V c main_arg4) (V c main_arg5)) := by
  show (cfg0.win 4).cut (grid0.coords t) ((dat0 V c).after 4 t) = _
  rw [after0_4]
  unfold out0_4
  rw [View.canon_unit_zero hz0]
  simp only [View.ld_unit_zero (S := S4096x1) hz0, View.ld_unit_zero (S := S15x4) hz0, View.ld_unit_zero (S := S202x32) hz0]
  obtain ⟨e00, e01, e10, e11, e20, e21, e30, e31, e40, e41⟩ := idx_facts0 t
  have hN : cfg0.N = 245 := N_0
  have ht := t.isLt
  refine funext fun (j : S4096x36.Idx) => ?_
  obtain ⟨p, q, rfl⟩ : ∃ (p : Fin 4096) (q : Fin 36), j = ix2 p q := ⟨j 0, j 1, eq_ix2 j⟩
  have hr : 4096 * t.val + p.val < 1003520 := by omega
  show k0_pay1 (F := Ideal) (iblk0 V c 0 t) (iblk0 V c 1 t) (iblk0 V c 2 t) (iblk0 V c 3 t) (ix2 p q)
    = Emb (V c main_v5) (V c main_v7) (V c main_arg4) (V c main_arg5) (((cfg0.win 4).blk t).view.emb (ix2 p q))
  have hi : ((cfg0.win 4).blk t).view.emb (ix2 p q) = ix2 (⟨4096 * t.val + p.val, hr⟩ : Fin 1003520) q := by
    funext a; apply Fin.ext
    match a with
    | ⟨0, _⟩ => show win0_4.index t (0 : Fin 2) * 4096 + 1 * p.val = 4096 * t.val + p.val; omega
    | ⟨1, _⟩ => show win0_4.index t (1 : Fin 2) * 36 + 1 * q.val = q.val; omega
  rw [hi, Emb_apply]
  refine (k0_pay1_apply _ _ _ _ p q).trans ?_
  have h0 : (iblk0 V c 0 t : Vec Ideal S4096x1 .i32) (ix2 p 0)
      = (V c main_v5 : IVec S1003520x1 32) (ix2 (⟨4096 * t.val + p.val, hr⟩ : Fin 1003520) 0) := by
    show V c main_v5 (((cfg0.win 0).blk t).view.emb (ix2 p (0 : Fin 1))) = _
    refine congrArg (V c main_v5) (funext fun a => Fin.ext ?_)
    match a with
    | ⟨0, _⟩ => show win0_0.index t (0 : Fin 2) * 4096 + 1 * p.val = 4096 * t.val + p.val; omega
    | ⟨1, _⟩ => show win0_0.index t (1 : Fin 2) * 1 + 1 * 0 = 0; omega
  have h1 : (iblk0 V c 1 t : Vec Ideal S4096x1 .i32) (ix2 p 0)
      = (V c main_v7 : IVec S1003520x1 32) (ix2 (⟨4096 * t.val + p.val, hr⟩ : Fin 1003520) 0) := by
    show V c main_v7 (((cfg0.win 1).blk t).view.emb (ix2 p (0 : Fin 1))) = _
    refine congrArg (V c main_v7) (funext fun a => Fin.ext ?_)
    match a with
    | ⟨0, _⟩ => show win0_1.index t (0 : Fin 2) * 4096 + 1 * p.val = 4096 * t.val + p.val; omega
    | ⟨1, _⟩ => show win0_1.index t (1 : Fin 2) * 1 + 1 * 0 = 0; omega
  have h2 : (iblk0 V c 2 t : Vec Ideal S15x4 .f32) = V c main_arg4 := by
    funext y
    show V c main_arg4 (((cfg0.win 2).blk t).view.emb y) = V c main_arg4 y
    refine congrArg (V c main_arg4) (funext fun a => Fin.ext ?_)
    match a with
    | ⟨0, _⟩ => show win0_2.index t (0 : Fin 2) * 15 + 1 * (y 0).val = (y 0).val; omega
    | ⟨1, _⟩ => show win0_2.index t (1 : Fin 2) * 4 + 1 * (y 1).val = (y 1).val; omega
  have h3 : (iblk0 V c 3 t : Vec Ideal S202x32 .f32) = V c main_arg5 := by
    funext y
    show V c main_arg5 (((cfg0.win 3).blk t).view.emb y) = V c main_arg5 y
    refine congrArg (V c main_arg5) (funext fun a => Fin.ext ?_)
    match a with
    | ⟨0, _⟩ => show win0_3.index t (0 : Fin 2) * 202 + 1 * (y 0).val = (y 0).val; omega
    | ⟨1, _⟩ => show win0_3.index t (1 : Fin 2) * 32 + 1 * (y 1).val = (y 1).val; omega
  rw [h0, h1, h2, h3]

theorem mem_blk0 (t : Fin cfg0.N) (i : S1003520x36.Idx) :
    i ∈ ((cfg0.win 4).blk t).view.set
      ↔ ∀ a : Fin 2, win0_4.index t a * S4096x36.size a ≤ (i a).val ∧ (i a).val < win0_4.index t a * S4096x36.size a + S4096x36.size a := by
  show i ∈ ((View.whole main_v8).slice (win0_4.rect t)).set ↔ _
  rw [View.set_slice_whole, Rect.mem_set_unit]
  exact Iff.rfl

theorem cover0 (i : S1003520x36.Idx) :
    ∃ t : Fin cfg0.N, (cfg0.win 4).flush t = true ∧ i ∈ ((cfg0.win 4).blk t).view.set := by
  have hi0 : (i 0).val < 1003520 := (i 0).isLt
  have hi1 : (i 1).val < 36 := (i 1).isLt
  have hN : cfg0.N = 245 := N_0
  have hlt : (i 0).val / 4096 < cfg0.N := by rw [hN]; omega
  obtain ⟨-, -, -, -, -, -, -, -, e40, e41⟩ := idx_facts0 ⟨(i 0).val / 4096, hlt⟩
  refine ⟨⟨(i 0).val / 4096, hlt⟩, flush0_4 _, ?_⟩
  rw [mem_blk0]
  intro a
  match a with
  | ⟨0, _⟩ =>
    show win0_4.index ⟨(i 0).val / 4096, hlt⟩ (0 : Fin 2) * 4096 ≤ (i 0).val
      ∧ (i 0).val < win0_4.index ⟨(i 0).val / 4096, hlt⟩ (0 : Fin 2) * 4096 + 4096
    rw [e40]
    show (i 0).val / 4096 * 4096 ≤ (i 0).val ∧ (i 0).val < (i 0).val / 4096 * 4096 + 4096
    omega
  | ⟨1, _⟩ =>
    show win0_4.index ⟨(i 0).val / 4096, hlt⟩ (1 : Fin 2) * 36 ≤ (i 1).val
      ∧ (i 1).val < win0_4.index ⟨(i 0).val / 4096, hlt⟩ (1 : Fin 2) * 36 + 36
    rw [e41]
    omega

theorem emb_arr (c : Dev nD) :
    (dat0 V c).arrAt 4 cfg0.N = Emb (V c main_v5) (V c main_v7) (V c main_arg4) (V c main_arg5) :=
  (dat0 V c).arrAt_eq_of_cover 4 _ (fun t _ => flushed0_eq V c t) cover0

end Cert.KernelIdeal.Val

end
-- ==== Proof.LibRows.lean ====
import Idealize.ShloMosaic.Lib.ValueLayout
import Idealize.ShloMosaic.Lib.KernelVsHost

namespace Cert.KernelIdeal.Val

open Idealize.ShloMosaic Idealize.ShloMosaic.ValueIdx

variable {α : Type}

theorem pad_rows_apply {n0 n1 m hi : Nat} (x : (⟨2, ![n0, n1]⟩ : Shape).Idx → α) {u : Shape} (v : u.Idx → α)
    (hp : (⟨2, ![n0, n1]⟩ : Shape).Pads (![0, 0] : Fin 2 → Nat) ![hi, 0] ![0, 0] ⟨2, ![m, n1]⟩) (hu : 0 < u.numel)
    (j : Fin m) (e : Fin n1) (k : Fin n0) (hk : k.val = j.val) :
    pad ⟨2, ![m, n1]⟩ ![0, 0] ![hi, 0] ![0, 0] x v hp hu (ix2 j e) = x (ix2 k e) :=
  pad_apply_of_inside _ _ _ x v hp hu (ix2 j e) (ix2 k e) (fun a => by
    match a with
    | ⟨0, _⟩ => show j.val = 0 + k.val * (0 + 1); omega
    | ⟨1, _⟩ => show e.val = 0 + e.val * (0 + 1); omega)

theorem pad_rows_eq {n0 n1 m hi : Nat} (x : (⟨2, ![n0, n1]⟩ : Shape).Idx → α) {u : Shape} (v : u.Idx → α)
    (hp : (⟨2, ![n0, n1]⟩ : Shape).Pads (![0, 0] : Fin 2 → Nat) ![hi, 0] ![0, 0] ⟨2, ![m, n1]⟩) (hu : 0 < u.numel)
    (j : Fin m) (e : Fin n1) (hj : j.val < n0) :
    pad ⟨2, ![m, n1]⟩ ![0, 0] ![hi, 0] ![0, 0] x v hp hu (ix2 j e) = x (ix2 ⟨j.val, hj⟩ e) :=
  pad_rows_apply x v hp hu j e ⟨j.val, hj⟩ rfl

theorem slice_rows_apply {n0 n1 m : Nat} (X : (⟨2, ![n0, n1]⟩ : Shape).Idx → α)
    (h : (⟨2, ![n0, n1]⟩ : Shape).Slices ![0, 0] ⟨2, ![m, n1]⟩) (j : Fin m) (e : Fin n1) (k : Fin n0) (hk : k.val = j.val) :
    extractStridedSlice ⟨2, ![m, n1]⟩ ![0, 0] X h (ix2 j e) = X (ix2 k e) :=
  slice2_axis0_apply 0 X h j e k (by rw [hk, Nat.zero_add])

theorem slice_rows_eq {n0 n1 m : Nat} (X : (⟨2, ![n0, n1]⟩ : Shape).Idx → α)
    (h : (⟨2, ![n0, n1]⟩ : Shape).Slices ![0, 0] ⟨2, ![m, n1]⟩) (j : Fin m) (e : Fin n1) :
    extractStridedSlice ⟨2, ![m, n1]⟩ ![0, 0] X h (ix2 j e)
      = X (ix2 ⟨j.val, Nat.lt_of_lt_of_le j.isLt (Nat.le_trans (Nat.le_add_left _ _) (h.2 0))⟩ e) :=
  slice_rows_apply X h j e _ rfl

theorem slice_cols_eq {n0 n1 m : Nat} (o : Nat) (X : (⟨2, ![n0, n1]⟩ : Shape).Idx → α)
    (h : (⟨2, ![n0, n1]⟩ : Shape).Slices ![0, o] ⟨2, ![n0, m]⟩) (a : Fin n0) (q : Fin m) :
    extractStridedSlice ⟨2, ![n0, m]⟩ ![0, o] X h (ix2 a q)
      = X (ix2 a ⟨o + q.val, Nat.lt_of_lt_of_le (Nat.add_lt_add_left q.isLt o) (h.2 1)⟩) :=
  slice2_axis1_eq o X h a q

end Cert.KernelIdeal.Val
-- ==== Proof.LibScatterGather.lean ====
import Idealize.ShloMosaic.PureOps.Ideal
import Idealize.ShloMosaic.PureOps.Contract
import Idealize.ShloMosaic.Lib.ValueIdx

noncomputable section

namespace Cert.Gcn.Lib

open Idealize.ShloMosaic Idealize.ShloMosaic.ValueIdx

section GatherRows
variable {N C n w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

private theorem gather_batchDims (X : Fin 2) (hX : X ∈ d.batchDims) : X = 0 := by
  have h1 : X ∉ d.offsetDims := by
    have := hX
    simp only [GatherDims.batchDims, Shape.kept, List.mem_filter, List.mem_finRange, true_and, decide_eq_true_eq] at this
    exact this
  rw [hoff, List.mem_singleton] at h1
  match X, h1 with
  | ⟨0, _⟩, _ => rfl
  | ⟨1, _⟩, h => exact absurd rfl h

private theorem gather_coord0 (idx : IVec ⟨2, ![n, 1]⟩ w) (j : (⟨2, ![n, C]⟩ : Shape).Idx) :
    d.start j idx (0 : Fin 2) + d.batchCoord j (0 : Fin 2) + d.offCoord j (0 : Fin 2)
      = min (idx (ix2 (j 0) (0 : Fin 1))).toInt.toNat (N - 1) := by
  have hb : (0 : Fin 2) ∉ d.operandBatchingDims := by rw [hob]; exact List.not_mem_nil
  have hc : (0 : Fin 2) ∈ d.collapsedSliceDims := by rw [hcoll]; exact List.mem_singleton.mpr rfl
  have hk : (0 : Fin 2) ∉ d.sKept := fun h => ((d.mem_sKept _).1 h).1 hc
  have hm : (0 : Fin 2) ∈ d.startIndexMap := by rw [hsim]; exact List.mem_singleton.mpr rfl
  have hsl : d.sliceSizes (0 : Fin 2) = 1 := d.slice_collapsed _ hc
  rw [d.batchCoord_eq_zero j _ hb, d.offCoord_eq_zero j _ hk]
  simp only [Nat.add_zero]
  unfold GatherDims.start
  rw [dif_pos hm, hsl]
  change min _ (N - 1) = _
  congr 4
  funext b
  match b with
  | ⟨0, _⟩ =>
    unfold GatherDims.siIdx
    rw [dif_neg (by rw [hivd]; exact Nat.zero_ne_one)]
    unfold GatherDims.siCoord
    apply Fin.ext
    simp only [Fin.val_cast]
    have e : ∀ X : Fin 2, X ∈ d.batchDims → (j X).val = (j 0).val := fun X hX => by
      rw [gather_batchDims d hoff hcoll hob hsim hivd X hX]
    exact e _ (List.getElem_mem _)
  | ⟨1, _⟩ =>
    unfold GatherDims.siIdx
    rw [dif_pos (by rw [hivd])]
    apply Fin.ext
    show List.idxOf (0 : Fin 2) d.startIndexMap = 0
    rw [hsim]; simp

private theorem gather_coord1 (idx : IVec ⟨2, ![n, 1]⟩ w) (j : (⟨2, ![n, C]⟩ : Shape).Idx) :
    d.start j idx (1 : Fin 2) + d.batchCoord j (1 : Fin 2) + d.offCoord j (1 : Fin 2) = (j 1).val := by
  have hb : (1 : Fin 2) ∉ d.operandBatchingDims := by rw [hob]; exact List.not_mem_nil
  have hc : (1 : Fin 2) ∉ d.collapsedSliceDims := by
    rw [hcoll, List.mem_singleton]
    intro h
    exact Nat.one_ne_zero (congrArg Fin.val h)
  have hk : (1 : Fin 2) ∈ d.sKept := (d.mem_sKept _).2 ⟨hc, hb⟩
  have hm : (1 : Fin 2) ∉ d.startIndexMap := by
    rw [hsim, List.mem_singleton]
    intro h
    exact Nat.one_ne_zero (congrArg Fin.val h)
  rw [d.batchCoord_eq_zero j _ hb, Nat.add_zero]
  unfold GatherDims.start
  rw [dif_neg hm, Nat.zero_add]
  unfold GatherDims.offCoord
  rw [dif_pos hk]
  have e : ∀ X : Fin 2, X ∈ d.offsetDims → (j X).val = (j 1).val := fun X hX => by
    rw [hoff, List.mem_singleton] at hX
    rw [hX]
  exact e _ (List.getElem_mem _)

end GatherRows

theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  match a with
  | ⟨0, _⟩ =>
    apply Fin.ext
    exact gather_coord0 d hoff hcoll hob hsim hivd idx (ix2 p c)
  | ⟨1, _⟩ =>
    apply Fin.ext
    exact gather_coord1 d hoff hcoll hob hsim hivd idx (ix2 p c)

end Cert.Gcn.Lib

end
-- ==== Proof.EmbBridge.lean ====
import proofs.«415972_j72490458022035_1_alg».proof.Proof.EmbPay
import proofs.«415972_j72490458022035_1_alg».proof.Proof.LibRows
import proofs.«415972_j72490458022035_1_alg».proof.Proof.LibScatterGather
import proofs.«415972_j72490458022035_1_alg».proof.Proof.RefSpec
import Idealize.ShloMosaic.Lib.Pipeline.Value

noncomputable section

open scoped BigOperators

namespace Cert.KernelIdeal.Val

open Idealize.ShloMosaic Idealize.ShloMosaic.ValueIdx
open Cert.KernelIdeal Cert.KernelIdeal.Gen

theorem eq_ofNat_iff (x : BitVec 32) (hx0 : 0 ≤ x.toInt) (k : Nat) (hk : k < 2 ^ 32) :
    x = BitVec.ofNat 32 k ↔ x.toInt.toNat = k := by
  have e := BitVec.toInt_eq_toNat_cond x
  have hlt := x.isLt
  have hn : x.toInt.toNat = x.toNat := by omega
  rw [hn]
  constructor
  · rintro rfl
    rw [BitVec.toNat_ofNat]
    exact Nat.mod_eq_of_lt hk
  · intro h
    apply BitVec.eq_of_toNat_eq
    rw [BitVec.toNat_ofNat, h]
    exact (Nat.mod_eq_of_lt hk).symm

theorem sum_hot_mul {n : Nat} (hn : n < 2 ^ 32) (x : BitVec 32) (hx0 : 0 ≤ x.toInt) (hxn : x.toInt < n) (f : Fin n → EReal) :
    ∑ k : Fin n, hot x k.val * f k = f ⟨x.toInt.toNat, by omega⟩ := by
  rw [Finset.sum_eq_single (⟨x.toInt.toNat, by omega⟩ : Fin n)]
  · rw [hot, if_pos ((eq_ofNat_iff x hx0 _ (by omega)).mpr rfl), one_mul]
  · intro k _ hk
    have hkn := k.isLt
    rw [hot, if_neg (fun h => hk (Fin.ext ((eq_ofNat_iff x hx0 k.val (by omega)).mp h).symm)), zero_mul]
  · intro h; exact absurd (Finset.mem_univ _) h

theorem embAt_of_range (xs xc : BitVec 32) (SE : FVec Ideal S15x4 .f32) (CE : FVec Ideal S202x32 .f32) (q : Fin 36)
    (hs0 : 0 ≤ xs.toInt) (hs1 : xs.toInt < 15) (hc0 : 0 ≤ xc.toInt) (hc1 : xc.toInt < 202) :
    embAt xs xc SE CE q
      = if h : q.val < 4 then SE (ix2 (⟨xs.toInt.toNat, by omega⟩ : Fin 15) (⟨q.val, h⟩ : Fin 4))
        else CE (ix2 (⟨xc.toInt.toNat, by omega⟩ : Fin 202) (⟨q.val - 4, by omega⟩ : Fin 32)) := by
  unfold embAt
  by_cases h : q.val < 4
  · rw [dif_pos h, dif_pos h]
    exact sum_hot_mul (n := 15) (by decide) xs hs0 (by omega) (fun k => SE (ix2 k (⟨q.val, h⟩ : Fin 4)))
  · rw [dif_neg h, dif_neg h]
    exact sum_hot_mul (n := 202) (by decide) xc hc0 (by omega) (fun k => CE (ix2 k (⟨q.val - 4, by omega⟩ : Fin 32)))

theorem padded_col_apply (x : IVec S1000000 32) (i : Fin 1000000) (hi : i.val < 1003520) :
    pad S1003520x1 ![0, 0] ![3520, 0] ![0, 0] (shapeCast S1000000x1 x shapeCasts_S1000000_S1000000x1)
        (constantI S_ 32 0#32) pads_S1000000x1_S1003520x1_035200_000 h_S_ (ix2 (⟨i.val, hi⟩ : Fin 1003520) (0 : Fin 1))
      = x (ix1 i) := by
  rw [pad_rows_eq (n0 := 1000000) (n1 := 1) (m := 1003520) (hi := 3520) _ _
    pads_S1000000x1_S1003520x1_035200_000 h_S_ (⟨i.val, hi⟩ : Fin 1003520) (0 : Fin 1) i.isLt]
  exact shapeCast_apply x shapeCasts_S1000000_S1000000x1 (ix2 (⟨i.val, i.isLt⟩ : Fin 1000000) (0 : Fin 1)) (ix1 i) (by
    rw [Shape.rowMajor_val_one, Shape.rowMajor_val_two]
    show i.val = i.val * 1 + 0
    omega)

theorem wrapped_col_apply (x : IVec S1000000 32) (n : BitVec 32)
    (hb : Cert.ReferenceIdeal.S1000000.BroadcastsInDim Cert.ReferenceIdeal.S1000000x1 (![0] : Fin 1 → Fin Cert.ReferenceIdeal.S1000000x1.rank))
    (hb0 : Cert.ReferenceIdeal.S_.BroadcastsInDim Cert.ReferenceIdeal.S1000000 (![] : Fin 0 → Fin Cert.ReferenceIdeal.S1000000.rank))
    (i : Fin 1000000) (h0 : 0 ≤ (x (ix1 i)).toInt) :
    broadcastInDim Cert.ReferenceIdeal.S1000000x1 ![0] hb
        (select (cmpi .slt x (broadcastInDim Cert.ReferenceIdeal.S1000000 ![] hb0 (constantI Cert.ReferenceIdeal.S_ 32 0#32)))
          (addi x (broadcastInDim Cert.ReferenceIdeal.S1000000 ![] hb0 (constantI Cert.ReferenceIdeal.S_ 32 n))) x)
        (ix2 i (0 : Fin 1))
      = x (ix1 i) := by
  rw [broadcastInDim_apply _ hb _ (ix2 i (0 : Fin 1)) (ix1 i) (fun a => by
    match a with
    | ⟨0, _⟩ => rfl)]
  rw [select_apply]
  have hc : cmpi .slt x (broadcastInDim Cert.ReferenceIdeal.S1000000 ![] hb0 (constantI Cert.ReferenceIdeal.S_ 32 0#32)) (ix1 i) = 0#1 := by
    show IntOp.cmpi .slt (x (ix1 i)) 0#32 = 0#1
    have : (x (ix1 i)).slt 0#32 = false := by
      rw [BitVec.slt_eq_decide]
      simpa using h0
    simp [IntOp.cmpi, this]
  rw [hc, select_zero]

theorem gather_se_apply [Cert.ReferenceIdeal.Facts₀] (se : FVec Ideal S15x4 .f32) (idx : IVec Cert.ReferenceIdeal.S1000000x1 32)
    (i : Fin 1000000) (c : Fin 4) :
    Host.gather Cert.ReferenceIdeal.gather_S15x4_S1000000x1_S1000000x4_1_0_n_n_0_1_14 se idx (ix2 i c)
      = se (ix2 (⟨min (idx (ix2 i (0 : Fin 1))).toInt.toNat (15 - 1), by omega⟩ : Fin 15) c) :=
  Cert.Gcn.Lib.gather_rows_apply (N := 15) (C := 4) (n := 1000000)
    Cert.ReferenceIdeal.gather_S15x4_S1000000x1_S1000000x4_1_0_n_n_0_1_14 rfl rfl rfl rfl rfl se idx i c (by decide)

theorem gather_ce_apply [Cert.ReferenceIdeal.Facts₀] (ce : FVec Ideal S202x32 .f32) (idx : IVec Cert.ReferenceIdeal.S1000000x1 32)
    (i : Fin 1000000) (c : Fin 32) :
    Host.gather Cert.ReferenceIdeal.gather_S202x32_S1000000x1_S1000000x32_1_0_n_n_0_1_132 ce idx (ix2 i c)
      = ce (ix2 (⟨min (idx (ix2 i (0 : Fin 1))).toInt.toNat (202 - 1), by omega⟩ : Fin 202) c) :=
  Cert.Gcn.Lib.gather_rows_apply (N := 202) (C := 32) (n := 1000000)
    Cert.ReferenceIdeal.gather_S202x32_S1000000x1_S1000000x32_1_0_n_n_0_1_132 rfl rfl rfl rfl rfl ce idx i c (by decide)

theorem emb_x0 [Cert.ReferenceIdeal.Facts₀] (xc xs : IVec S1000000 32) (se : FVec Ideal S15x4 .f32) (ce : FVec Ideal S202x32 .f32)
    (hs : ∀ i : S1000000.Idx, 0 ≤ (xs i).toInt ∧ (xs i).toInt < 15)
    (hc : ∀ i : S1000000.Idx, 0 ≤ (xc i).toInt ∧ (xc i).toInt < 202) :
    extractStridedSlice S1000000x36 ![0, 0]
        (Emb
          (pad S1003520x1 ![0, 0] ![3520, 0] ![0, 0] (shapeCast S1000000x1 xs shapeCasts_S1000000_S1000000x1)
            (constantI S_ 32 0#32) pads_S1000000x1_S1003520x1_035200_000 h_S_)
          (pad S1003520x1 ![0, 0] ![3520, 0] ![0, 0] (shapeCast S1000000x1 xc shapeCasts_S1000000_S1000000x1)
            (constantI S_ 32 0#32) pads_S1000000x1_S1003520x1_035200_000 h_S_)
          se ce)
        slices_S1003520x36_S1000000x36_0_0
      = Cert.RefSpec.x0 (F := Ideal) xc xs se ce := by
  funext j
  obtain ⟨i, q, rfl⟩ : ∃ (i : Fin 1000000) (q : Fin 36), j = ix2 i q := ⟨j 0, j 1, eq_ix2 j⟩
  have hi : i.val < 1003520 := by have := i.isLt; omega
  obtain ⟨hs0, hs1⟩ := hs (ix1 i)
  obtain ⟨hc0, hc1⟩ := hc (ix1 i)

  rw [slice_rows_eq (n0 := 1003520) (n1 := 36) (m := 1000000) _ slices_S1003520x36_S1000000x36_0_0 i q]
  rw [Emb_apply, padded_col_apply xs i hi, padded_col_apply xc i hi, embAt_of_range _ _ se ce q hs0 hs1 hc0 hc1]

  unfold Cert.RefSpec.x0
  by_cases h : q.val < 4
  · rw [dif_pos h]
    rw [concatenate_pair_apply_left (t := Cert.ReferenceIdeal.S1000000x36) (s₁ := Cert.ReferenceIdeal.S1000000x4)
      (s₂ := Cert.ReferenceIdeal.S1000000x32) (1 : Fin 2) _ _
      Cert.ReferenceIdeal.Facts₀.concatenates_S1000000x4_S1000000x32_S1000000x36_d1 (ix2 i q) rfl
      (ix2 i (⟨q.val, h⟩ : Fin 4)) (fun b => by
        match b with
        | ⟨0, _⟩ => rfl
        | ⟨1, _⟩ => rfl)]
    rw [gather_se_apply]
    refine congrArg (fun r : Fin 15 => se (ix2 r (⟨q.val, h⟩ : Fin 4))) (Fin.ext ?_)
    show (xs (ix1 i)).toInt.toNat = min (_ : BitVec 32).toInt.toNat (15 - 1)
    rw [wrapped_col_apply xs 15#32 _ _ i hs0]
    omega
  · rw [dif_neg h]
    rw [concatenate_pair_apply_right (t := Cert.ReferenceIdeal.S1000000x36) (s₁ := Cert.ReferenceIdeal.S1000000x4)
      (s₂ := Cert.ReferenceIdeal.S1000000x32) (1 : Fin 2) _ _
      Cert.ReferenceIdeal.Facts₀.concatenates_S1000000x4_S1000000x32_S1000000x36_d1 (ix2 i q) rfl rfl
      (ix2 i (⟨q.val - 4, by omega⟩ : Fin 32)) (fun b hb => by
        match b with
        | ⟨0, _⟩ => rfl
        | ⟨1, _⟩ => exact absurd rfl hb)
      (by show q.val - 4 + 4 = q.val; omega)]
    rw [gather_ce_apply]
    refine congrArg (fun r : Fin 202 => ce (ix2 r (⟨q.val - 4, by omega⟩ : Fin 32))) (Fin.ext ?_)
    show (xc (ix1 i)).toInt.toNat = min (_ : BitVec 32).toInt.toNat (202 - 1)
    rw [wrapped_col_apply xc 202#32 _ _ i hc0]
    omega

end Cert.KernelIdeal.Val

end
-- ==== Proof.ChainEmb.lean ====
import proofs.«415972_j72490458022035_1_alg».proof.Proof.KIFold
import proofs.«415972_j72490458022035_1_alg».proof.Proof.KIKeep
import proofs.«415972_j72490458022035_1_alg».proof.Proof.KIHost0
import proofs.«415972_j72490458022035_1_alg».proof.Proof.KIHost1
import proofs.«415972_j72490458022035_1_alg».proof.Proof.EmbArr
import proofs.«415972_j72490458022035_1_alg».proof.Proof.EmbBridge

set_option maxRecDepth 16384

noncomputable section

namespace Cert.KernelIdeal.Chain

open Idealize.ShloMosaic Idealize.ShloMosaic.TcCoe Idealize.SL.Sem
open Cert.KernelIdeal Cert.KernelIdeal.Gen Cert.KernelIdeal.Host Cert.KernelIdeal.Val

variable [Cert.ReferenceIdeal.Facts₀]
variable (m : (ℓ : Loc nD τ sig) → Buf (Elt Ideal) ℓ) (ρ : Dev nD → PrngReg) (c : Dev nD)

theorem emb_v4_at1 : W1 m ρ c (Proc.devRef .tc main_v4)
    = shapeCast S1000000x1 (m ((c : Thread nD τ).loc main_arg1)) Gen.shapeCasts_S1000000_S1000000x1 :=
  h0_main_v4 (W0 m ρ c)

theorem emb_c_at1 : W1 m ρ c (Proc.devRef .tc main_c) = constantI S_ 32 0#32 :=
  h0_main_c (W0 m ρ c)

theorem emb_v5_at2 : W2 m ρ c (Proc.devRef .tc main_v5)
    = pad S1003520x1 ![0, 0] ![3520, 0] ![0, 0]
        (shapeCast S1000000x1 (m ((c : Thread nD τ).loc main_arg1)) Gen.shapeCasts_S1000000_S1000000x1)
        (constantI S_ 32 0#32) Gen.pads_S1000000x1_S1003520x1_035200_000 Gen.h_S_ :=
  (h0_1_main_v5 (W1 m ρ c)).trans (by rw [emb_v4_at1, emb_c_at1])

theorem emb_v5_at4 : W4 m ρ c (Proc.devRef .tc main_v5)
    = pad S1003520x1 ![0, 0] ![3520, 0] ![0, 0]
        (shapeCast S1000000x1 (m ((c : Thread nD τ).loc main_arg1)) Gen.shapeCasts_S1000000_S1000000x1)
        (constantI S_ 32 0#32) Gen.pads_S1000000x1_S1003520x1_035200_000 Gen.h_S_ :=
  (keep4_main_v5 m ρ c).trans (emb_v5_at2 m ρ c)

theorem emb_arg0_at2 : W2 m ρ c (Proc.devRef .tc main_arg0) = m ((c : Thread nD τ).loc main_arg0) :=
  arg2_0 m ρ c

theorem emb_v6_at3 : W3 m ρ c (Proc.devRef .tc main_v6)
    = shapeCast S1000000x1 (m ((c : Thread nD τ).loc main_arg0)) Gen.shapeCasts_S1000000_S1000000x1 :=
  (h0_2_main_v6 (W2 m ρ c)).trans (by rw [emb_arg0_at2])

theorem emb_c0_at3 : W3 m ρ c (Proc.devRef .tc main_c_0) = constantI S_ 32 0#32 :=
  h0_2_main_c_0 (W2 m ρ c)

theorem emb_v7_at4 : W4 m ρ c (Proc.devRef .tc main_v7)
    = pad S1003520x1 ![0, 0] ![3520, 0] ![0, 0]
        (shapeCast S1000000x1 (m ((c : Thread nD τ).loc main_arg0)) Gen.shapeCasts_S1000000_S1000000x1)
        (constantI S_ 32 0#32) Gen.pads_S1000000x1_S1003520x1_035200_000 Gen.h_S_ :=
  (h0_3_main_v7 (W3 m ρ c)).trans (by rw [emb_v6_at3, emb_c0_at3])

theorem emb_arg4_at4 : W4 m ρ c (Proc.devRef .tc main_arg4) = m ((c : Thread nD τ).loc main_arg4) :=
  arg4_4 m ρ c

theorem emb_arg5_at4 : W4 m ρ c (Proc.devRef .tc main_arg5) = m ((c : Thread nD τ).loc main_arg5) :=
  arg4_5 m ρ c

theorem emb_v8_at5 : W5 m ρ c (Proc.devRef .tc main_v8)
    = Emb
        (pad S1003520x1 ![0, 0] ![3520, 0] ![0, 0]
          (shapeCast S1000000x1 (m ((c : Thread nD τ).loc main_arg1)) Gen.shapeCasts_S1000000_S1000000x1)
          (constantI S_ 32 0#32) Gen.pads_S1000000x1_S1003520x1_035200_000 Gen.h_S_)
        (pad S1003520x1 ![0, 0] ![3520, 0] ![0, 0]
          (shapeCast S1000000x1 (m ((c : Thread nD τ).loc main_arg0)) Gen.shapeCasts_S1000000_S1000000x1)
          (constantI S_ 32 0#32) Gen.pads_S1000000x1_S1003520x1_035200_000 Gen.h_S_)
        (m ((c : Thread nD τ).loc main_arg4)) (m ((c : Thread nD τ).loc main_arg5)) :=
  (W5_arr m ρ c 4).trans ((emb_arr (V4 m ρ) c).trans (by
    show Emb (W4 m ρ c (Proc.devRef .tc main_v5)) (W4 m ρ c (Proc.devRef .tc main_v7))
      (W4 m ρ c (Proc.devRef .tc main_arg4)) (W4 m ρ c (Proc.devRef .tc main_arg5)) = _
    rw [emb_v5_at4, emb_v7_at4, emb_arg4_at4, emb_arg5_at4]))

theorem x0_at6
    (hs : ∀ i : S1000000.Idx, 0 ≤ ((m ((c : Thread nD τ).loc main_arg1) : IVec S1000000 32) i).toInt
        ∧ ((m ((c : Thread nD τ).loc main_arg1) : IVec S1000000 32) i).toInt < 15)
    (hc : ∀ i : S1000000.Idx, 0 ≤ ((m ((c : Thread nD τ).loc main_arg0) : IVec S1000000 32) i).toInt
        ∧ ((m ((c : Thread nD τ).loc main_arg0) : IVec S1000000 32) i).toInt < 202) :
    W6 m ρ c (Proc.devRef .tc main_v9)
      = Cert.RefSpec.x0 (F := Ideal) (m ((c : Thread nD τ).loc main_arg0)) (m ((c : Thread nD τ).loc main_arg1))
          (m ((c : Thread nD τ).loc main_arg4)) (m ((c : Thread nD τ).loc main_arg5)) :=
  (h1_main_v9 (W5 m ρ c)).trans (by
    rw [emb_v8_at5]
    exact emb_x0 _ _ _ _ hs hc)

end Cert.KernelIdeal.Chain

end
-- ==== Proof.KIHost2.lean ====
import proofs.«415972_j72490458022035_1_alg».proof.Proof.Gen.KernelIdeal.Launch
import proofs.«415972_j72490458022035_1_alg».proof.Proof.Tail24

set_option maxRecDepth 16384

noncomputable section

namespace Cert.KernelIdeal.Host

open Idealize.ShloMosaic Idealize.ShloMosaic.TcCoe
open Cert.KernelIdeal Cert.KernelIdeal.Gen

variable {F : FTy → Type} [FloatOps F] [Cert.ReferenceIdeal.Facts₀]

set_option maxHeartbeats 4000000 in

theorem h2_main_v100 (W : Valuation τ sig (Elt F)) :
    StableHlo.after hostOps2 W (Proc.devRef .tc main_v100)
      = addf (addf (addf (extractStridedSlice S1000000x24 ![0, 0] (extractStridedSlice S1000000x96 ![0, 0] (W (Proc.devRef .tc main_v20)) Gen.slices_S1007616x96_S1000000x96_0_0) Gen.slices_S1000000x96_S1000000x24_0_0)
          (Cert.Tail.rel24 (extractStridedSlice S1000000x24 ![0, 24] (extractStridedSlice S1000000x96 ![0, 0] (W (Proc.devRef .tc main_v20)) Gen.slices_S1007616x96_S1000000x96_0_0) Gen.slices_S1000000x96_S1000000x24_0_24) (W (Proc.devRef .tc main_v1)) (W (Proc.devRef .tc main_v3)) (Cert.Tail.maskOf 0#32 (W (Proc.devRef .tc main_arg3)))))
          (Cert.Tail.rel24 (extractStridedSlice S1000000x24 ![0, 48] (extractStridedSlice S1000000x96 ![0, 0] (W (Proc.devRef .tc main_v20)) Gen.slices_S1007616x96_S1000000x96_0_0) Gen.slices_S1000000x96_S1000000x24_0_48) (W (Proc.devRef .tc main_v1)) (W (Proc.devRef .tc main_v3)) (Cert.Tail.maskOf 1#32 (W (Proc.devRef .tc main_arg3)))))
          (Cert.Tail.rel24 (extractStridedSlice S1000000x24 ![0, 72] (extractStridedSlice S1000000x96 ![0, 0] (W (Proc.devRef .tc main_v20)) Gen.slices_S1007616x96_S1000000x96_0_0) Gen.slices_S1000000x96_S1000000x24_0_72) (W (Proc.devRef .tc main_v1)) (W (Proc.devRef .tc main_v3)) (Cert.Tail.maskOf 2#32 (W (Proc.devRef .tc main_arg3)))) := by
  after_results_simp
  rfl

set_option maxHeartbeats 4000000 in

theorem h2_main_v107 (W : Valuation τ sig (Elt F)) :
    StableHlo.after hostOps2 W (Proc.devRef .tc main_v107)
      = (concatenate S24x64 1
          [⟨S24x16, W (Proc.devRef .tc main_arg10)⟩,
           ⟨S24x16, shapeCast S24x16 (extractStridedSlice S1x24x16 ![0, 0, 0] (W (Proc.devRef .tc main_arg9)) Gen.slices_S3x24x16_S1x24x16_0_0_0) Gen.shapeCasts_S1x24x16_S24x16⟩,
           ⟨S24x16, shapeCast S24x16 (extractStridedSlice S1x24x16 ![1, 0, 0] (W (Proc.devRef .tc main_arg9)) Gen.slices_S3x24x16_S1x24x16_1_0_0) Gen.shapeCasts_S1x24x16_S24x16⟩,
           ⟨S24x16, shapeCast S24x16 (extractStridedSlice S1x24x16 ![2, 0, 0] (W (Proc.devRef .tc main_arg9)) Gen.slices_S3x24x16_S1x24x16_2_0_0) Gen.shapeCasts_S1x24x16_S24x16⟩]
          Gen.concatenates_S24x16_S24x16_S24x16_S24x16_S24x64_d1 : FVec F S24x64 .f32) := by
  after_results <;> rfl

set_option maxHeartbeats 4000000 in

theorem h2_main_v109 (W : Valuation τ sig (Elt F)) :
    StableHlo.after hostOps2 W (Proc.devRef .tc main_v109)
      = (concatenate S64 0
          [⟨S16, W (Proc.devRef .tc main_arg11)⟩,
           ⟨S48, broadcastInDim S48 ![] Gen.bcast_S_S48 (constant S_ .f32 0x00000000#32)⟩]
          Gen.concatenates_S16_S48_S64_d0 : FVec F S64 .f32) := by
  after_results <;> rfl

theorem h2_1_main_v110 (W : Valuation τ sig (Elt F)) :
    StableHlo.after hostOps2_1 W (Proc.devRef .tc main_v110)
      = pad S1007616x24 ![0, 0] ![7616, 0] ![0, 0] (W (Proc.devRef .tc main_v100)) (sitofp (F := F) .f32 (W (Proc.devRef .tc main_c_21)))
          Gen.pads_S1000000x24_S1007616x24_076160_000 Gen.h_S_ := by
  after_results <;> rfl

end Cert.KernelIdeal.Host

end
-- ==== Proof.PlainDot.lean ====
import Idealize.ShloMosaic.PureOps.Ideal.Laws
import Idealize.ShloMosaic.Lib.ValueIdx

open Idealize.ShloMosaic Idealize.ShloMosaic.ValueIdx
open scoped BigOperators

namespace Cert.KernelIdeal.Val

variable {M K N : Nat}

abbrev plainDims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

theorem plain_lhs_0 (i : (⟨2, ![M, N]⟩ : Shape).Idx) (q : (plainDims wf).contr.Idx) :
    ((plainDims wf).lhsIdx i q 0).val = (i 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

theorem plain_lhs_1 (i : (⟨2, ![M, N]⟩ : Shape).Idx) (q : (plainDims wf).contr.Idx) :
    ((plainDims wf).lhsIdx i q 1).val = (q ⟨0, Nat.one_pos⟩).val :=
  (plainDims wf).lhsIdx_val_of_single rfl i q

theorem plain_rhs_0 (i : (⟨2, ![M, N]⟩ : Shape).Idx) (q : (plainDims wf).contr.Idx) :
    ((plainDims wf).rhsIdx i q 0).val = (q ⟨0, Nat.one_pos⟩).val :=
  (plainDims wf).rhsIdx_val_of_single rfl i q

theorem plain_rhs_1 (i : (⟨2, ![M, N]⟩ : Shape).Idx) (q : (plainDims wf).contr.Idx) :
    ((plainDims wf).rhsIdx i q 1).val = (i 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

theorem plain_sum {β : Type*} [AddCommMonoid β]
    (g : (⟨2, ![M, K]⟩ : Shape).Idx → (⟨2, ![K, N]⟩ : Shape).Idx → β) (p : Fin M) (q : Fin N) :
    ∑ k : (plainDims wf).contr.Idx, g ((plainDims wf).lhsIdx (ix2 p q) k) ((plainDims wf).rhsIdx (ix2 p q) k)
      = ∑ k : Fin K, g (ix2 p k) (ix2 k q) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ => exact plain_lhs_0 wf _ _
      | ⟨1, _⟩ => exact (plain_lhs_1 wf _ _).trans hk)
  have er : (plainDims wf).rhsIdx (ix2 p q) ((contrEquiv1 (plainDims wf) K rfl rfl).symm k) = ix2 k q :=
    funext fun a => Fin.ext (by
      match a with
      | ⟨0, _⟩ => exact (plain_rhs_0 wf _ _).trans hk
      | ⟨1, _⟩ => exact plain_rhs_1 wf _ _)
  rw [el, er]

theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) :=
  (Ideal.matmul_constant_zero_apply (plainDims wf) prec lhs rhs (ix2 p q)).trans
    (plain_sum wf (fun a b => lhs a * rhs b) p q)

theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (plainDims wf) prec sched lhs rhs (ix2 p q)
      = ∑ k : Fin K, lhs (ix2 p k) * rhs (ix2 k q) :=
  (Ideal.dotGeneral_apply (plainDims wf) prec sched lhs rhs (ix2 p q)).trans
    (plain_sum wf (fun a b => lhs a * rhs b) p q)

end Cert.KernelIdeal.Val
-- ==== Proof.LinPay1.lean ====
import proofs.«415972_j72490458022035_1_alg».proof.Proof.Gen.KernelIdeal.Skeleton
import proofs.«415972_j72490458022035_1_alg».proof.Proof.PlainDot
import Idealize.ShloMosaic.Lib.ValueLayout

open Idealize.ShloMosaic Idealize.ShloMosaic.ValueIdx
open scoped BigOperators

namespace Cert.KernelIdeal.Val

open Cert.KernelIdeal Cert.KernelIdeal.Gen Cert.KernelIdeal.Facts₀ Cert.KernelIdeal.Facts

theorem dot1_eq : dot_S8192x36_S36x96_S8192x96_1_0_0_1_n_n = plainDims Facts₀.dot_S8192x36_S36x96_S8192x96_1_0_0_1_n_n_wf := rfl

theorem k1_pay1_apply (x : FVec Ideal S8192x36 .f32) (w : FVec Ideal S36x96 .f32) (b : FVec Ideal S96 .f32)
    (p : Fin 8192) (q : Fin 96) :
    k1_pay1 (F := Ideal) x w b (ix2 p q) = (∑ k : Fin 36, x (ix2 p k) * w (ix2 k q)) + b (ix1 q) := by
  unfold k1_pay1
  rw [shapeCast_self, shapeCast_self, shapeCast_self]
  refine (addf_apply _ _ _).trans ?_
  refine congrArg₂ (· + ·) ?_ ?_
  · rw [dot1_eq]
    exact plain_matmul_zero_apply _ none x w p q
  · rw [broadcastTo_1b_ab_apply, shapeCast_a_1a_apply]

end Cert.KernelIdeal.Val
-- ==== Proof.LinArr1.lean ====
import proofs.«415972_j72490458022035_1_alg».proof.Proof.KIBody1
import proofs.«415972_j72490458022035_1_alg».proof.Proof.LinPay1
import Idealize.ShloMosaic.Lib.Pipeline.Value

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Facts₀ Cert.KernelIdeal.Facts

def Lin1 (X : FVec Ideal S1007616x36 .f32) (Wt : FVec Ideal S36x96 .f32) (B : FVec Ideal S96 .f32) :
    FVec Ideal S1007616x96 .f32 :=
  fun i => (∑ k : Fin 36, X (ix2 (n0 := 1007616) (i 0) k) * Wt (ix2 (n1 := 96) k (i 1))) + B (ix1 (n := 96) (i 1))

theorem Lin1_apply (X : FVec Ideal S1007616x36 .f32) (Wt : FVec Ideal S36x96 .f32) (B : FVec Ideal S96 .f32)
    (r : Fin 1007616) (q : Fin 96) :
    Lin1 X Wt B (ix2 r q) = (∑ k : Fin 36, X (ix2 r k) * Wt (ix2 k q)) + B (ix1 q) := rfl

variable (V : (c : Dev nD) → (b : Ref sig .tc) → Buf (Elt Ideal) ((c : Thread nD τ).loc b))

private theorem zeros2 : (![0, 0] : Fin 2 → Nat) = fun _ => 0 := funext fun a => by fin_cases a <;> rfl
private theorem zeros1 : (![0] : Fin 1 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem iblk1_0_apply (c : Dev nD) (t : Fin cfg1.N) (p : Fin 8192) (k : Fin 36) (r : Fin 1007616)
    (hr : r.val = 8192 * t.val + p.val) :
    (iblk1 V c 0 t : Vec Ideal S8192x36 .f32) (ix2 p k) = (V c main_v19 : S1007616x36.Idx → EReal) (ix2 r k) := by
  obtain ⟨e0, e1, -⟩ := idx_facts1 t
  unfold iblk1
  rw [View.read_apply]
  show V c main_v19 _ = V c main_v19 _
  refine congrArg (V c main_v19) ?_
  funext a; apply Fin.ext
  match a with
  | ⟨0, _⟩ => show win1_0.index t (0 : Fin 2) * 8192 + 1 * p.val = r.val; rw [e0, hr]; omega
  | ⟨1, _⟩ => show win1_0.index t (1 : Fin 2) * 36 + 1 * k.val = k.val; rw [e1]; omega

theorem iblk1_1_apply (c : Dev nD) (t : Fin cfg1.N) (k : Fin 36) (q : Fin 96) :
    (iblk1 V c 1 t : Vec Ideal S36x96 .f32) (ix2 k q) = (V c main_v16 : S36x96.Idx → EReal) (ix2 k q) := by
  obtain ⟨-, -, e2, e3, -⟩ := idx_facts1 t
  unfold iblk1
  rw [View.read_apply]
  show V c main_v16 _ = V c main_v16 _
  refine congrArg (V c main_v16) ?_
  funext a; apply Fin.ext
  match a with
  | ⟨0, _⟩ => show win1_1.index t (0 : Fin 2) * 36 + 1 * k.val = k.val; rw [e2]; omega
  | ⟨1, _⟩ => show win1_1.index t (1 : Fin 2) * 96 + 1 * q.val = q.val; rw [e3]; omega

theorem iblk1_2_apply (c : Dev nD) (t : Fin cfg1.N) (q : Fin 96) :
    (iblk1 V c 2 t : Vec Ideal S96 .f32) (ix1 q) = (V c main_v18 : S96.Idx → EReal) (ix1 q) := by
  obtain ⟨-, -, -, -, e4, -⟩ := idx_facts1 t
  unfold iblk1
  rw [View.read_apply]
  show V c main_v18 _ = V c main_v18 _
  refine congrArg (V c main_v18) ?_
  funext a; apply Fin.ext
  match a with
  | ⟨0, _⟩ => show win1_2.index t (0 : Fin 1) * 96 + 1 * q.val = q.val; rw [e4]; omega

theorem flushed1_eq (c : Dev nD) (t : Fin cfg1.N) :
    (dat1 V c).flushed 3 t
      = ((cfg1.win 3).blk t).view.read (Elt Ideal) (Lin1 (V c main_v19) (V c main_v16) (V c main_v18)) := by
  show (cfg1.win 3).cut (grid1.coords t) ((dat1 V c).after 3 t) = _
  rw [after1_3]
  unfold out1_3
  rw [View.canon_unit_zero zeros2]
  simp only [View.ld_unit_zero (S := S8192x36) zeros2, View.ld_unit_zero (S := S36x96) zeros2,
    View.ld_unit_zero (S := S96) zeros1]
  funext j
  obtain ⟨p, q, rfl⟩ : ∃ (p : Fin 8192) (q : Fin 96), j = ix2 p q := ⟨j 0, j 1, eq_ix2 j⟩
  have hN : cfg1.N = 123 := N_1
  have ht : t.val < 123 := hN ▸ t.isLt
  obtain ⟨-, -, -, -, -, e5, e6⟩ := idx_facts1 t
  have hemb : ((cfg1.win 3).blk t).view.emb (ix2 p q) = ix2 (⟨8192 * t.val + p.val, by omega⟩ : Fin 1007616) q := by
    funext a; apply Fin.ext
    match a with
    | ⟨0, _⟩ => show win1_3.index t (0 : Fin 2) * 8192 + 1 * p.val = 8192 * t.val + p.val; rw [e5]; omega
    | ⟨1, _⟩ => show win1_3.index t (1 : Fin 2) * 96 + 1 * q.val = q.val; rw [e6]; omega
  rw [View.read_apply, hemb, Lin1_apply]
  refine (k1_pay1_apply (iblk1 V c 0 t) (iblk1 V c 1 t) (iblk1 V c 2 t) p q).trans ?_
  refine congrArg₂ (· + ·) (Finset.sum_congr rfl fun k _ => ?_) (iblk1_2_apply V c t q)
  rw [iblk1_0_apply V c t p k ⟨8192 * t.val + p.val, by omega⟩ rfl, iblk1_1_apply V c t k q]

theorem mem_blk1 (t : Fin cfg1.N) (i : S1007616x96.Idx) :
    i ∈ ((cfg1.win 3).blk t).view.set ↔ ∀ a : Fin 2, win1_3.index t a * S8192x96.size a ≤ (i a).val
      ∧ (i a).val < win1_3.index t a * S8192x96.size a + S8192x96.size a := by
  show i ∈ ((View.whole main_v20).slice (win1_3.rect t)).set ↔ _
  rw [View.set_slice_whole, Rect.mem_set_unit]
  exact Iff.rfl

theorem lin1_arr (c : Dev nD) :
    (dat1 V c).arrAt 3 cfg1.N = Lin1 (V c main_v19) (V c main_v16) (V c main_v18) :=
  (dat1 V c).arrAt_eq_of_cover 3 _ (fun t _ => flushed1_eq V c t) (fun i => by
    have hi0 : (i 0).val < 1007616 := (i 0).isLt
    have hi1 : (i 1).val < 96 := (i 1).isLt
    have hN : cfg1.N = 123 := N_1
    have hlt : (i 0).val / 8192 < cfg1.N := by rw [hN]; omega
    obtain ⟨-, -, -, -, -, e5, e6⟩ := idx_facts1 ⟨(i 0).val / 8192, hlt⟩
    refine ⟨⟨(i 0).val / 8192, hlt⟩, flush1_3 _, ?_⟩
    rw [mem_blk1]
    intro a
    match a with
    | ⟨0, _⟩ =>
      show win1_3.index ⟨(i 0).val / 8192, hlt⟩ (0 : Fin 2) * 8192 ≤ (i 0).val
        ∧ (i 0).val < win1_3.index ⟨(i 0).val / 8192, hlt⟩ (0 : Fin 2) * 8192 + 8192
      rw [e5]; show (i 0).val / 8192 * 8192 ≤ (i 0).val ∧ (i 0).val < (i 0).val / 8192 * 8192 + 8192; omega
    | ⟨1, _⟩ =>
      show win1_3.index ⟨(i 0).val / 8192, hlt⟩ (1 : Fin 2) * 96 ≤ (i 1).val
        ∧ (i 1).val < win1_3.index ⟨(i 0).val / 8192, hlt⟩ (1 : Fin 2) * 96 + 96
      rw [e6]; omega)

end Cert.KernelIdeal.Val

end
-- ==== Proof.LinLib.lean ====
import Idealize.ShloMosaic.Lib.ValueLayout
import Idealize.ShloMosaic.PureOps.Ideal.Laws

namespace Cert.KernelIdeal.Val

open Idealize.ShloMosaic Idealize.ShloMosaic.ValueIdx

variable {α : Type}

section Cols
variable {K D N : Nat} (x0 x1 x2 x3 : (⟨2, ![K, D]⟩ : Shape).Idx → α)
  (h : Shape.Concatenates [(⟨2, ![K, D]⟩ : Shape), ⟨2, ![K, D]⟩, ⟨2, ![K, D]⟩, ⟨2, ![K, D]⟩] ⟨2, ![K, N]⟩ 1)

theorem concat4_cols_0 (k : Fin K) (c : Fin N) (q : Fin D) (hc : c.val = q.val) :
    concatenate ⟨2, ![K, N]⟩ 1 [⟨⟨2, ![K, D]⟩, x0⟩, ⟨⟨2, ![K, D]⟩, x1⟩, ⟨⟨2, ![K, D]⟩, x2⟩, ⟨⟨2, ![K, D]⟩, x3⟩] h (ix2 k c)
      = x0 (ix2 k q) :=
  concatenate_apply_piece (t := ⟨2, ![K, N]⟩) (1 : Fin 2) [⟨⟨2, ![K, D]⟩, x0⟩, ⟨⟨2, ![K, D]⟩, x1⟩, ⟨⟨2, ![K, D]⟩, x2⟩, ⟨⟨2, ![K, D]⟩, x3⟩] h (ix2 k c) 0 (by show (0 : Nat) < 4; decide) ⟨2, ![K, D]⟩ x0 rfl rfl 0 rfl (ix2 k q)
    (fun b hb => by match b with | ⟨0, _⟩ => rfl | ⟨1, _⟩ => exact absurd rfl hb)
    (by show 0 + q.val = c.val; omega)

theorem concat4_cols_1 (k : Fin K) (c : Fin N) (q : Fin D) (hc : c.val = D + q.val) :
    concatenate ⟨2, ![K, N]⟩ 1 [⟨⟨2, ![K, D]⟩, x0⟩, ⟨⟨2, ![K, D]⟩, x1⟩, ⟨⟨2, ![K, D]⟩, x2⟩, ⟨⟨2, ![K, D]⟩, x3⟩] h (ix2 k c)
      = x1 (ix2 k q) :=
  concatenate_apply_piece (t := ⟨2, ![K, N]⟩) (1 : Fin 2) [⟨⟨2, ![K, D]⟩, x0⟩, ⟨⟨2, ![K, D]⟩, x1⟩, ⟨⟨2, ![K, D]⟩, x2⟩, ⟨⟨2, ![K, D]⟩, x3⟩] h (ix2 k c) 1 (by show (1 : Nat) < 4; decide) ⟨2, ![K, D]⟩ x1 rfl rfl (D + 0) rfl (ix2 k q)
    (fun b hb => by match b with | ⟨0, _⟩ => rfl | ⟨1, _⟩ => exact absurd rfl hb)
    (by show D + 0 + q.val = c.val; omega)

theorem concat4_cols_2 (k : Fin K) (c : Fin N) (q : Fin D) (hc : c.val = D + D + q.val) :
    concatenate ⟨2, ![K, N]⟩ 1 [⟨⟨2, ![K, D]⟩, x0⟩, ⟨⟨2, ![K, D]⟩, x1⟩, ⟨⟨2, ![K, D]⟩, x2⟩, ⟨⟨2, ![K, D]⟩, x3⟩] h (ix2 k c)
      = x2 (ix2 k q) :=
  concatenate_apply_piece (t := ⟨2, ![K, N]⟩) (1 : Fin 2) [⟨⟨2, ![K, D]⟩, x0⟩, ⟨⟨2, ![K, D]⟩, x1⟩, ⟨⟨2, ![K, D]⟩, x2⟩, ⟨⟨2, ![K, D]⟩, x3⟩] h (ix2 k c) 2 (by show (2 : Nat) < 4; decide) ⟨2, ![K, D]⟩ x2 rfl rfl (D + (D + 0)) rfl (ix2 k q)
    (fun b hb => by match b with | ⟨0, _⟩ => rfl | ⟨1, _⟩ => exact absurd rfl hb)
    (by show D + (D + 0) + q.val = c.val; omega)

theorem concat4_cols_3 (k : Fin K) (c : Fin N) (q : Fin D) (hc : c.val = D + D + D + q.val) :
    concatenate ⟨2, ![K, N]⟩ 1 [⟨⟨2, ![K, D]⟩, x0⟩, ⟨⟨2, ![K, D]⟩, x1⟩, ⟨⟨2, ![K, D]⟩, x2⟩, ⟨⟨2, ![K, D]⟩, x3⟩] h (ix2 k c)
      = x3 (ix2 k q) :=
  concatenate_apply_piece (t := ⟨2, ![K, N]⟩) (1 : Fin 2) [⟨⟨2, ![K, D]⟩, x0⟩, ⟨⟨2, ![K, D]⟩, x1⟩, ⟨⟨2, ![K, D]⟩, x2⟩, ⟨⟨2, ![K, D]⟩, x3⟩] h (ix2 k c) 3 (by show (3 : Nat) < 4; decide) ⟨2, ![K, D]⟩ x3 rfl rfl (D + (D + (D + 0))) rfl (ix2 k q)
    (fun b hb => by match b with | ⟨0, _⟩ => rfl | ⟨1, _⟩ => exact absurd rfl hb)
    (by show D + (D + (D + 0)) + q.val = c.val; omega)

end Cols

section Vec
variable {D E N : Nat} (b : (⟨1, ![D]⟩ : Shape).Idx → α) (z : (⟨1, ![E]⟩ : Shape).Idx → α)
  (h : Shape.Concatenates [(⟨1, ![D]⟩ : Shape), ⟨1, ![E]⟩] ⟨1, ![N]⟩ 0)

theorem concat2_vec_left (c : Fin N) (q : Fin D) (hc : c.val = q.val) :
    concatenate ⟨1, ![N]⟩ 0 [⟨⟨1, ![D]⟩, b⟩, ⟨⟨1, ![E]⟩, z⟩] h (ix1 c) = b (ix1 q) :=
  concatenate_pair_apply_left (0 : Fin 1) b z h (ix1 c) rfl (ix1 q)
    (fun a => by match a with | ⟨0, _⟩ => exact hc.symm)

theorem concat2_vec_right (c : Fin N) (e : Fin E) (hc : c.val = D + e.val) :
    concatenate ⟨1, ![N]⟩ 0 [⟨⟨1, ![D]⟩, b⟩, ⟨⟨1, ![E]⟩, z⟩] h (ix1 c) = z (ix1 e) :=
  concatenate_pair_apply_right (0 : Fin 1) b z h (ix1 c) rfl rfl (ix1 e)
    (fun a ha => by match a with | ⟨0, _⟩ => exact absurd rfl ha)
    (by show e.val + D = c.val; omega)

end Vec

theorem zero_splat_apply {t : Shape} (h : (⟨0, ![]⟩ : Shape).BroadcastsInDim t (![] : Fin 0 → Fin t.rank)) (j : t.Idx) :
    broadcastInDim t ![] h (constant (F := Ideal) ⟨0, ![]⟩ .f32 0x00000000#32) j = (0 : EReal) :=
  (broadcastInDim_apply ![] h _ j ix0 (fun a => a.elim0)).trans Ideal.ofBits_zero_f32

theorem bias_rows_apply {R D : Nat} (b : (⟨1, ![D]⟩ : Shape).Idx → α)
    (h1 : (⟨1, ![D]⟩ : Shape).BroadcastsInDim ⟨2, ![1, D]⟩ ![1])
    (h2 : (⟨2, ![1, D]⟩ : Shape).BroadcastsInDim ⟨2, ![R, D]⟩ ![0, 1]) (r : Fin R) (q : Fin D) :
    broadcastInDim ⟨2, ![R, D]⟩ ![0, 1] h2 (broadcastInDim ⟨2, ![1, D]⟩ ![1] h1 b) (ix2 r q) = b (ix1 q) := by
  have hq := q.isLt
  refine (broadcastInDim_apply ![0, 1] h2 _ (ix2 r q) (ix2 (0 : Fin 1) q) (fun a => ?_)).trans
    (broadcastInDim_apply ![1] h1 b (ix2 (0 : Fin 1) q) (ix1 q) (fun a => ?_))
  · match a with
    | ⟨0, _⟩ => rfl
    | ⟨1, _⟩ =>
      show q.val = if D = 1 then 0 else q.val
      split
      · omega
      · rfl
  · match a with
    | ⟨0, _⟩ =>
      show q.val = if D = 1 then 0 else q.val
      split
      · omega
      · rfl

theorem relu_apply {t : Shape} (C : FVec Ideal t .f32)
    (h : (⟨0, ![]⟩ : Shape).BroadcastsInDim t (![] : Fin 0 → Fin t.rank)) (j : t.Idx) :
    maximumf C (broadcastInDim t ![] h (constant (F := Ideal) ⟨0, ![]⟩ .f32 0x00000000#32)) j = max (C j) 0 :=
  (maximumf_apply _ _ j).trans (congrArg (max (C j)) (zero_splat_apply h j))

end Cert.KernelIdeal.Val
-- ==== Proof.LinCols1.lean ====
import proofs.«415972_j72490458022035_1_alg».proof.Proof.LinArr1
import proofs.«415972_j72490458022035_1_alg».proof.Proof.LinLib
import proofs.«415972_j72490458022035_1_alg».proof.Proof.LibRows
import proofs.«415972_j72490458022035_1_alg».proof.Proof.RefSpec

noncomputable section

open Idealize.ShloMosaic Idealize.ShloMosaic.ValueIdx
open scoped BigOperators

namespace Cert.KernelIdeal.Val

open Cert.KernelIdeal

variable [Cert.ReferenceIdeal.Facts₀]

theorem refdot1_eq : Cert.ReferenceIdeal.dot_S1000000x36_S36x24_S1000000x24_1_0_0_1_n_n
    = plainDims Cert.ReferenceIdeal.Facts₀.dot_S1000000x36_S36x24_S1000000x24_1_0_0_1_n_n_wf := rfl

theorem lin1_rows_apply (X : FVec Ideal S1000000x36 .f32) (v : FVec Ideal S_ .f32) (Wc : FVec Ideal S36x96 .f32)
    (Bc : FVec Ideal S96 .f32)
    (hp : S1000000x36.Pads (![0, 0] : Fin 2 → Nat) ![7616, 0] ![0, 0] S1007616x36) (hu : 0 < S_.numel)
    (hrows : S1007616x96.Slices ![0, 0] S1000000x96) (r : Fin 1000000) (c : Fin 96) :
    extractStridedSlice S1000000x96 ![0, 0] (Lin1 (pad S1007616x36 ![0, 0] ![7616, 0] ![0, 0] X v hp hu) Wc Bc) hrows (ix2 r c)
      = (∑ k : Fin 36, X (ix2 r k) * Wc (ix2 k c)) + Bc (ix1 c) := by
  rw [slice_rows_eq, Lin1_apply]
  refine congrArg₂ (· + ·) (Finset.sum_congr rfl fun k _ => ?_) rfl
  rw [pad_rows_eq X v hp hu _ k r.isLt]

theorem lin1_own (X : FVec Ideal S1000000x36 .f32) (v : FVec Ideal S_ .f32) (root : FVec Ideal S36x24 .f32)
    (w : FVec Ideal S3x36x24 .f32) (b : FVec Ideal S24 .f32)
    (hp : S1000000x36.Pads (![0, 0] : Fin 2 → Nat) ![7616, 0] ![0, 0] S1007616x36) (hu : 0 < S_.numel)
    (hs0 : S3x36x24.Slices ![0, 0, 0] S1x36x24) (hs1 : S3x36x24.Slices ![1, 0, 0] S1x36x24)
    (hs2 : S3x36x24.Slices ![2, 0, 0] S1x36x24) (hc : S1x36x24.ShapeCasts S36x24)
    (hcatW : Shape.Concatenates [S36x24, S36x24, S36x24, S36x24] S36x96 1)
    (hbz : S_.BroadcastsInDim S72 (![] : Fin 0 → Fin S72.rank))
    (hcatB : Shape.Concatenates [S24, S72] S96 0)
    (hrows : S1007616x96.Slices ![0, 0] S1000000x96)
    (hcol : S1000000x96.Slices ![0, 0] S1000000x24) :
    extractStridedSlice S1000000x24 ![0, 0]
        (extractStridedSlice S1000000x96 ![0, 0]
          (Lin1 (pad S1007616x36 ![0, 0] ![7616, 0] ![0, 0] X v hp hu)
            (concatenate S36x96 1 [⟨S36x24, root⟩,
              ⟨S36x24, shapeCast S36x24 (extractStridedSlice S1x36x24 ![0, 0, 0] w hs0) hc⟩,
              ⟨S36x24, shapeCast S36x24 (extractStridedSlice S1x36x24 ![1, 0, 0] w hs1) hc⟩,
              ⟨S36x24, shapeCast S36x24 (extractStridedSlice S1x36x24 ![2, 0, 0] w hs2) hc⟩] hcatW)
            (concatenate S96 0 [⟨S24, b⟩, ⟨S72, broadcastInDim S72 ![] hbz (constant S_ .f32 0x00000000#32)⟩] hcatB))
          hrows) hcol
      = Cert.RefSpec.own0 X root b := by
  funext i
  obtain ⟨r, q, rfl⟩ : ∃ (r : Fin 1000000) (q : Fin 24), i = ix2 r q := ⟨i 0, i 1, eq_ix2 i⟩
  rw [slice_cols_eq 0, lin1_rows_apply]
  unfold Cert.RefSpec.own0
  rw [addf_apply]
  simp only [Host.dotGeneral]
  rw [refdot1_eq, plain_dotGeneral_apply, bias_rows_apply]
  refine congrArg₂ (· + ·) (Finset.sum_congr rfl fun k _ => ?_) ?_
  · rw [concat4_cols_0 _ _ _ _ hcatW k _ q (Nat.zero_add _)]
  · exact concat2_vec_left b _ hcatB _ q (Nat.zero_add _)

theorem lin1_msg0 (X : FVec Ideal S1000000x36 .f32) (v : FVec Ideal S_ .f32) (root : FVec Ideal S36x24 .f32)
    (w : FVec Ideal S3x36x24 .f32) (b : FVec Ideal S24 .f32)
    (hp : S1000000x36.Pads (![0, 0] : Fin 2 → Nat) ![7616, 0] ![0, 0] S1007616x36) (hu : 0 < S_.numel)
    (hs0 : S3x36x24.Slices ![0, 0, 0] S1x36x24) (hs1 : S3x36x24.Slices ![1, 0, 0] S1x36x24)
    (hs2 : S3x36x24.Slices ![2, 0, 0] S1x36x24) (hc : S1x36x24.ShapeCasts S36x24)
    (hcatW : Shape.Concatenates [S36x24, S36x24, S36x24, S36x24] S36x96 1)
    (hbz : S_.BroadcastsInDim S72 (![] : Fin 0 → Fin S72.rank))
    (hcatB : Shape.Concatenates [S24, S72] S96 0)
    (hrows : S1007616x96.Slices ![0, 0] S1000000x96)
    (hcol : S1000000x96.Slices ![0, 24] S1000000x24) :
    extractStridedSlice S1000000x24 ![0, 24]
        (extractStridedSlice S1000000x96 ![0, 0]
          (Lin1 (pad S1007616x36 ![0, 0] ![7616, 0] ![0, 0] X v hp hu)
            (concatenate S36x96 1 [⟨S36x24, root⟩,
              ⟨S36x24, shapeCast S36x24 (extractStridedSlice S1x36x24 ![0, 0, 0] w hs0) hc⟩,
              ⟨S36x24, shapeCast S36x24 (extractStridedSlice S1x36x24 ![1, 0, 0] w hs1) hc⟩,
              ⟨S36x24, shapeCast S36x24 (extractStridedSlice S1x36x24 ![2, 0, 0] w hs2) hc⟩] hcatW)
            (concatenate S96 0 [⟨S24, b⟩, ⟨S72, broadcastInDim S72 ![] hbz (constant S_ .f32 0x00000000#32)⟩] hcatB))
          hrows) hcol
      = Cert.RefSpec.msg0_0 X w := by
  funext i
  obtain ⟨r, q, rfl⟩ : ∃ (r : Fin 1000000) (q : Fin 24), i = ix2 r q := ⟨i 0, i 1, eq_ix2 i⟩
  have hq := q.isLt
  rw [slice_cols_eq 24, lin1_rows_apply]
  unfold Cert.RefSpec.msg0_0
  simp only [Host.dotGeneral]
  rw [refdot1_eq, plain_dotGeneral_apply]
  rw [concat2_vec_right b _ hcatB _ (⟨q.val, by omega⟩ : Fin 72) rfl, zero_splat_apply, add_zero]
  refine Finset.sum_congr rfl fun k _ => ?_
  rw [concat4_cols_1 _ _ _ _ hcatW k _ q rfl]

theorem lin1_msg1 (X : FVec Ideal S1000000x36 .f32) (v : FVec Ideal S_ .f32) (root : FVec Ideal S36x24 .f32)
    (w : FVec Ideal S3x36x24 .f32) (b : FVec Ideal S24 .f32)
    (hp : S1000000x36.Pads (![0, 0] : Fin 2 → Nat) ![7616, 0] ![0, 0] S1007616x36) (hu : 0 < S_.numel)
    (hs0 : S3x36x24.Slices ![0, 0, 0] S1x36x24) (hs1 : S3x36x24.Slices ![1, 0, 0] S1x36x24)
    (hs2 : S3x36x24.Slices ![2, 0, 0] S1x36x24) (hc : S1x36x24.ShapeCasts S36x24)
    (hcatW : Shape.Concatenates [S36x24, S36x24, S36x24, S36x24] S36x96 1)
    (hbz : S_.BroadcastsInDim S72 (![] : Fin 0 → Fin S72.rank))
    (hcatB : Shape.Concatenates [S24, S72] S96 0)
    (hrows : S1007616x96.Slices ![0, 0] S1000000x96)
    (hcol : S1000000x96.Slices ![0, 48] S1000000x24) :
    extractStridedSlice S1000000x24 ![0, 48]
        (extractStridedSlice S1000000x96 ![0, 0]
          (Lin1 (pad S1007616x36 ![0, 0] ![7616, 0] ![0, 0] X v hp hu)
            (concatenate S36x96 1 [⟨S36x24, root⟩,
              ⟨S36x24, shapeCast S36x24 (extractStridedSlice S1x36x24 ![0, 0, 0] w hs0) hc⟩,
              ⟨S36x24, shapeCast S36x24 (extractStridedSlice S1x36x24 ![1, 0, 0] w hs1) hc⟩,
              ⟨S36x24, shapeCast S36x24 (extractStridedSlice S1x36x24 ![2, 0, 0] w hs2) hc⟩] hcatW)
            (concatenate S96 0 [⟨S24, b⟩, ⟨S72, broadcastInDim S72 ![] hbz (constant S_ .f32 0x00000000#32)⟩] hcatB))
          hrows) hcol
      = Cert.RefSpec.msg0_1 X w := by
  funext i
  obtain ⟨r, q, rfl⟩ : ∃ (r : Fin 1000000) (q : Fin 24), i = ix2 r q := ⟨i 0, i 1, eq_ix2 i⟩
  have hq := q.isLt
  rw [slice_cols_eq 48, lin1_rows_apply]
  unfold Cert.RefSpec.msg0_1
  simp only [Host.dotGeneral]
  rw [refdot1_eq, plain_dotGeneral_apply]
  rw [concat2_vec_right b _ hcatB _ (⟨24 + q.val, by omega⟩ : Fin 72) (by show 48 + q.val = 24 + (24 + q.val); omega), zero_splat_apply, add_zero]
  refine Finset.sum_congr rfl fun k _ => ?_
  rw [concat4_cols_2 _ _ _ _ hcatW k _ q (by show 48 + q.val = 24 + 24 + q.val; omega)]

theorem lin1_msg2 (X : FVec Ideal S1000000x36 .f32) (v : FVec Ideal S_ .f32) (root : FVec Ideal S36x24 .f32)
    (w : FVec Ideal S3x36x24 .f32) (b : FVec Ideal S24 .f32)
    (hp : S1000000x36.Pads (![0, 0] : Fin 2 → Nat) ![7616, 0] ![0, 0] S1007616x36) (hu : 0 < S_.numel)
    (hs0 : S3x36x24.Slices ![0, 0, 0] S1x36x24) (hs1 : S3x36x24.Slices ![1, 0, 0] S1x36x24)
    (hs2 : S3x36x24.Slices ![2, 0, 0] S1x36x24) (hc : S1x36x24.ShapeCasts S36x24)
    (hcatW : Shape.Concatenates [S36x24, S36x24, S36x24, S36x24] S36x96 1)
    (hbz : S_.BroadcastsInDim S72 (![] : Fin 0 → Fin S72.rank))
    (hcatB : Shape.Concatenates [S24, S72] S96 0)
    (hrows : S1007616x96.Slices ![0, 0] S1000000x96)
    (hcol : S1000000x96.Slices ![0, 72] S1000000x24) :
    extractStridedSlice S1000000x24 ![0, 72]
        (extractStridedSlice S1000000x96 ![0, 0]
          (Lin1 (pad S1007616x36 ![0, 0] ![7616, 0] ![0, 0] X v hp hu)
            (concatenate S36x96 1 [⟨S36x24, root⟩,
              ⟨S36x24, shapeCast S36x24 (extractStridedSlice S1x36x24 ![0, 0, 0] w hs0) hc⟩,
              ⟨S36x24, shapeCast S36x24 (extractStridedSlice S1x36x24 ![1, 0, 0] w hs1) hc⟩,
              ⟨S36x24, shapeCast S36x24 (extractStridedSlice S1x36x24 ![2, 0, 0] w hs2) hc⟩] hcatW)
            (concatenate S96 0 [⟨S24, b⟩, ⟨S72, broadcastInDim S72 ![] hbz (constant S_ .f32 0x00000000#32)⟩] hcatB))
          hrows) hcol
      = Cert.RefSpec.msg0_2 X w := by
  funext i
  obtain ⟨r, q, rfl⟩ : ∃ (r : Fin 1000000) (q : Fin 24), i = ix2 r q := ⟨i 0, i 1, eq_ix2 i⟩
  have hq := q.isLt
  rw [slice_cols_eq 72, lin1_rows_apply]
  unfold Cert.RefSpec.msg0_2
  simp only [Host.dotGeneral]
  rw [refdot1_eq, plain_dotGeneral_apply]
  rw [concat2_vec_right b _ hcatB _ (⟨48 + q.val, by omega⟩ : Fin 72) (by show 72 + q.val = 24 + (48 + q.val); omega), zero_splat_apply, add_zero]
  refine Finset.sum_congr rfl fun k _ => ?_
  rw [concat4_cols_3 _ _ _ _ hcatW k _ q (by show 72 + q.val = 24 + 24 + 24 + q.val; omega)]

end Cert.KernelIdeal.Val

end
-- ==== Proof.ChainL0.lean ====
import proofs.«415972_j72490458022035_1_alg».proof.Proof.KIFold
import proofs.«415972_j72490458022035_1_alg».proof.Proof.KIKeep
import proofs.«415972_j72490458022035_1_alg».proof.Proof.KIHost0
import proofs.«415972_j72490458022035_1_alg».proof.Proof.KIHost1
import proofs.«415972_j72490458022035_1_alg».proof.Proof.KIHost2
import proofs.«415972_j72490458022035_1_alg».proof.Proof.LinArr1
import proofs.«415972_j72490458022035_1_alg».proof.Proof.LinCols1
import proofs.«415972_j72490458022035_1_alg».proof.Proof.RefSpec

set_option maxRecDepth 16384

noncomputable section

namespace Cert.KernelIdeal.Chain

open Idealize.ShloMosaic Idealize.ShloMosaic.TcCoe Idealize.SL.Sem
open Cert.KernelIdeal Cert.KernelIdeal.Gen Cert.KernelIdeal.Host Cert.KernelIdeal.Val

variable [Cert.KernelIdeal.Facts] [Cert.ReferenceIdeal.Facts₀]
variable (m : (ℓ : Loc nD τ sig) → Buf (Elt Ideal) ℓ) (ρ : Dev nD → PrngReg) (c : Dev nD)

theorem src_at8 : W8 m ρ c (Proc.devRef .tc main_v1) = Cert.Tail.srcOf (m ((c : Thread nD τ).loc main_arg2)) :=
  (keep8_main_v1 m ρ c).trans (h0_main_v1 (W0 m ρ c))

theorem dst_at8 : W8 m ρ c (Proc.devRef .tc main_v3) = Cert.Tail.dstOf (m ((c : Thread nD τ).loc main_arg2)) :=
  (keep8_main_v3 m ρ c).trans (h0_main_v3 (W0 m ρ c))

theorem y0_at8 : W8 m ρ c (Proc.devRef .tc main_v20)
    = Lin1 (W7 m ρ c (Proc.devRef .tc main_v19)) (W7 m ρ c (Proc.devRef .tc main_v16)) (W7 m ρ c (Proc.devRef .tc main_v18)) :=
  (W8_arr m ρ c 3).trans (lin1_arr (V7 m ρ) c)

theorem et_at8 : W8 m ρ c (Proc.devRef .tc main_arg3) = m ((c : Thread nD τ).loc main_arg3) := arg8_3 m ρ c

theorem xpad_at7 : W7 m ρ c (Proc.devRef .tc main_v19)
    = pad S1007616x36 ![0, 0] ![7616, 0] ![0, 0] (W6 m ρ c (Proc.devRef .tc main_v9))
        (sitofp (F := Ideal) .f32 (W6 m ρ c (Proc.devRef .tc main_c_1))) Gen.pads_S1000000x36_S1007616x36_076160_000 Gen.h_S_ :=
  h1_1_main_v19 (W6 m ρ c)

theorem cur1_cols : W9 m ρ c (Proc.devRef .tc main_v100)
    = (addf (addf (addf
        (extractStridedSlice S1000000x24 ![0, 0] (extractStridedSlice S1000000x96 ![0, 0] (W8 m ρ c (Proc.devRef .tc main_v20)) Gen.slices_S1007616x96_S1000000x96_0_0) Gen.slices_S1000000x96_S1000000x24_0_0)
        (Cert.Tail.rel24 (extractStridedSlice S1000000x24 ![0, 24] (extractStridedSlice S1000000x96 ![0, 0] (W8 m ρ c (Proc.devRef .tc main_v20)) Gen.slices_S1007616x96_S1000000x96_0_0) Gen.slices_S1000000x96_S1000000x24_0_24)
          (Cert.Tail.srcOf (m ((c : Thread nD τ).loc main_arg2))) (Cert.Tail.dstOf (m ((c : Thread nD τ).loc main_arg2))) (Cert.Tail.maskOf 0#32 (m ((c : Thread nD τ).loc main_arg3)))))
        (Cert.Tail.rel24 (extractStridedSlice S1000000x24 ![0, 48] (extractStridedSlice S1000000x96 ![0, 0] (W8 m ρ c (Proc.devRef .tc main_v20)) Gen.slices_S1007616x96_S1000000x96_0_0) Gen.slices_S1000000x96_S1000000x24_0_48)
          (Cert.Tail.srcOf (m ((c : Thread nD τ).loc main_arg2))) (Cert.Tail.dstOf (m ((c : Thread nD τ).loc main_arg2))) (Cert.Tail.maskOf 1#32 (m ((c : Thread nD τ).loc main_arg3)))))
        (Cert.Tail.rel24 (extractStridedSlice S1000000x24 ![0, 72] (extractStridedSlice S1000000x96 ![0, 0] (W8 m ρ c (Proc.devRef .tc main_v20)) Gen.slices_S1007616x96_S1000000x96_0_0) Gen.slices_S1000000x96_S1000000x24_0_72)
          (Cert.Tail.srcOf (m ((c : Thread nD τ).loc main_arg2))) (Cert.Tail.dstOf (m ((c : Thread nD τ).loc main_arg2))) (Cert.Tail.maskOf 2#32 (m ((c : Thread nD τ).loc main_arg3)))) : FVec Ideal S1000000x24 .f32) := by
  rw [← src_at8 m ρ c, ← dst_at8 m ρ c, ← et_at8 m ρ c]
  exact h2_main_v100 (W8 m ρ c)

theorem cur1_at9 : W9 m ρ c (Proc.devRef .tc main_v100)
    = Cert.RefSpec.out0 (F := Ideal) (W6 m ρ c (Proc.devRef .tc main_v9))
        (m ((c : Thread nD τ).loc main_arg7)) (m ((c : Thread nD τ).loc main_arg8)) (m ((c : Thread nD τ).loc main_arg6))
        (m ((c : Thread nD τ).loc main_arg2)) (m ((c : Thread nD τ).loc main_arg3)) := by
  rw [cur1_cols m ρ c, y0_at8 m ρ c, xpad_at7 m ρ c, keep7_main_v16 m ρ c, keep7_main_v18 m ρ c,
    show W6 m ρ c (Proc.devRef .tc main_v16) = _ from h1_main_v16 (W5 m ρ c),
    show W6 m ρ c (Proc.devRef .tc main_v18) = _ from h1_main_v18 (W5 m ρ c),
    arg5_7 m ρ c, arg5_6 m ρ c, arg5_8 m ρ c]
  rw [lin1_own, lin1_msg0, lin1_msg1, lin1_msg2]
  rfl

end Cert.KernelIdeal.Chain

end
-- ==== Proof.KIHost3.lean ====
import proofs.«415972_j72490458022035_1_alg».proof.Proof.Gen.KernelIdeal.Launch
import proofs.«415972_j72490458022035_1_alg».proof.Proof.Tail16
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F] [Cert.ReferenceIdeal.Facts₀]

set_option maxHeartbeats 4000000 in

theorem h3_main_v191 (W : Valuation τ sig (Elt F)) :
    after (hostOps3 (F := F)) W (Proc.devRef .tc main_v191)
      = addf (addf (addf
          (extractStridedSlice S1000000x16 ![0, 0] (extractStridedSlice S1000000x64 ![0, 0] (W (Proc.devRef .tc main_v111)) slices_S1007616x64_S1000000x64_0_0) slices_S1000000x64_S1000000x16_0_0)
          (Cert.Tail.rel16 (extractStridedSlice S1000000x16 ![0, 16] (extractStridedSlice S1000000x64 ![0, 0] (W (Proc.devRef .tc main_v111)) slices_S1007616x64_S1000000x64_0_0) slices_S1000000x64_S1000000x16_0_16)
            (W (Proc.devRef .tc main_v1)) (W (Proc.devRef .tc main_v3)) (Cert.Tail.maskOf 0#32 (W (Proc.devRef .tc main_arg3)))))
          (Cert.Tail.rel16 (extractStridedSlice S1000000x16 ![0, 32] (extractStridedSlice S1000000x64 ![0, 0] (W (Proc.devRef .tc main_v111)) slices_S1007616x64_S1000000x64_0_0) slices_S1000000x64_S1000000x16_0_32)
            (W (Proc.devRef .tc main_v1)) (W (Proc.devRef .tc main_v3)) (Cert.Tail.maskOf 1#32 (W (Proc.devRef .tc main_arg3)))))
          (Cert.Tail.rel16 (extractStridedSlice S1000000x16 ![0, 48] (extractStridedSlice S1000000x64 ![0, 0] (W (Proc.devRef .tc main_v111)) slices_S1007616x64_S1000000x64_0_0) slices_S1000000x64_S1000000x16_0_48)
            (W (Proc.devRef .tc main_v1)) (W (Proc.devRef .tc main_v3)) (Cert.Tail.maskOf 2#32 (W (Proc.devRef .tc main_arg3)))) := by
  after_results_simp
  rfl

set_option maxHeartbeats 4000000 in

theorem h3_main_v198 (W : Valuation τ sig (Elt F)) :
    after (hostOps3 (F := F)) W (Proc.devRef .tc main_v198)
      = concatenate S16x32 1
          [⟨S16x8, W (Proc.devRef .tc main_arg13)⟩,
           ⟨S16x8, shapeCast S16x8 (extractStridedSlice S1x16x8 ![0, 0, 0] (W (Proc.devRef .tc main_arg12)) slices_S3x16x8_S1x16x8_0_0_0) shapeCasts_S1x16x8_S16x8⟩,
           ⟨S16x8, shapeCast S16x8 (extractStridedSlice S1x16x8 ![1, 0, 0] (W (Proc.devRef .tc main_arg12)) slices_S3x16x8_S1x16x8_1_0_0) shapeCasts_S1x16x8_S16x8⟩,
           ⟨S16x8, shapeCast S16x8 (extractStridedSlice S1x16x8 ![2, 0, 0] (W (Proc.devRef .tc main_arg12)) slices_S3x16x8_S1x16x8_2_0_0) shapeCasts_S1x16x8_S16x8⟩]
          concatenates_S16x8_S16x8_S16x8_S16x8_S16x32_d1 := by
  after_results
  rfl

set_option maxHeartbeats 4000000 in

theorem h3_main_v200 (W : Valuation τ sig (Elt F)) :
    after (hostOps3 (F := F)) W (Proc.devRef .tc main_v200)
      = concatenate S32 0
          [⟨S8, W (Proc.devRef .tc main_arg14)⟩,
           ⟨S24, broadcastInDim S24 ![] bcast_S_S24 (constant S_ .f32 0x00000000#32)⟩]
          concatenates_S8_S24_S32_d0 := by
  after_results_simp
  rfl

set_option maxHeartbeats 4000000 in

theorem h3_1_main_v201 (W : Valuation τ sig (Elt F)) :
    after (hostOps3_1 (F := F)) W (Proc.devRef .tc main_v201)
      = pad S1007616x16 ![0, 0] ![7616, 0] ![0, 0] (W (Proc.devRef .tc main_v191))
          (sitofp (F := F) .f32 (W (Proc.devRef .tc main_c_41))) pads_S1000000x16_S1007616x16_076160_000 h_S_ := by
  after_results
  rfl

end Cert.KernelIdeal.Host

end
-- ==== Proof.LinPay2.lean ====
import proofs.«415972_j72490458022035_1_alg».proof.Proof.Gen.KernelIdeal.Skeleton
import proofs.«415972_j72490458022035_1_alg».proof.Proof.PlainDot
import Idealize.ShloMosaic.Lib.ValueLayout

open Idealize.ShloMosaic Idealize.ShloMosaic.ValueIdx
open scoped BigOperators

namespace Cert.KernelIdeal.Val

open Cert.KernelIdeal Cert.KernelIdeal.Gen Cert.KernelIdeal.Facts₀ Cert.KernelIdeal.Facts

theorem dot2_eq : dot_S8192x24_S24x64_S8192x64_1_0_0_1_n_n = plainDims Facts₀.dot_S8192x24_S24x64_S8192x64_1_0_0_1_n_n_wf := rfl

theorem k2_pay1_apply (x : FVec Ideal S8192x24 .f32) (w : FVec Ideal S24x64 .f32) (b : FVec Ideal S64 .f32)
    (p : Fin 8192) (q : Fin 64) :
    k2_pay1 (F := Ideal) x w b (ix2 p q) = (∑ k : Fin 24, max (x (ix2 p k)) 0 * w (ix2 k q)) + b (ix1 q) := by
  unfold k2_pay1
  rw [shapeCast_self, shapeCast_self, shapeCast_self]
  refine (addf_apply _ _ _).trans ?_
  refine congrArg₂ (· + ·) ?_ ?_
  · rw [dot2_eq]
    refine (plain_matmul_zero_apply _ none _ w p q).trans ?_
    refine Finset.sum_congr rfl fun k _ => ?_
    show max (x (ix2 p k)) (Ideal.ofBits .f32 0x00000000#32) * w (ix2 k q) = _
    rw [Ideal.ofBits_zero_f32]
  · rw [broadcastTo_1b_ab_apply, shapeCast_a_1a_apply]

end Cert.KernelIdeal.Val
-- ==== Proof.LinArr2.lean ====
/- The second linear layer's output array in closed form. The region runs 123 grid points; point t reads rows
   8192 t … 8192 t + 8191 of the padded input (all 24 columns), the whole weight matrix and the whole bias row, and writes
   back rows 8192 t … 8192 t + 8191 of the output (all 64 columns). Each written entry is the block's arithmetic at that
   entry, which depends on the input only through the entry's own row; the 123 row blocks cover the 1007616 rows, so the
   output array ends as ONE function of the three arrays:  Y (i, q) = (∑ k, max (X (i, k)) 0 * W (k, q)) + B q  (the input rectified first). -/
import proofs.«415972_j72490458022035_1_alg».proof.Proof.KIBody2
import proofs.«415972_j72490458022035_1_alg».proof.Proof.LinPay2
import Idealize.ShloMosaic.Lib.Pipeline.Value

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Facts₀ Cert.KernelIdeal.Facts

/-- The layer as one function of the padded input, the weight matrix and the bias row. -/
def Lin2 (X : FVec Ideal S1007616x24 .f32) (Wt : FVec Ideal S24x64 .f32) (B : FVec Ideal S64 .f32) :
    FVec Ideal S1007616x64 .f32 :=
  fun i => (∑ k : Fin 24, max (X (ix2 (n0 := 1007616) (i 0) k)) 0 * Wt (ix2 (n1 := 64) k (i 1))) + B (ix1 (n := 64) (i 1))

/-- … read at (r, q). -/
theorem Lin2_apply (X : FVec Ideal S1007616x24 .f32) (Wt : FVec Ideal S24x64 .f32) (B : FVec Ideal S64 .f32)
    (r : Fin 1007616) (q : Fin 64) :
    Lin2 X Wt B (ix2 r q) = (∑ k : Fin 24, max (X (ix2 r k)) 0 * Wt (ix2 k q)) + B (ix1 q) := rfl

-- the buffer contents of the core when the region is entered
variable (V : (c : Dev nD) → (b : Ref sig .tc) → Buf (Elt Ideal) ((c : Thread nD τ).loc b))

private theorem zeros2 : (![0, 0] : Fin 2 → Nat) = fun _ => 0 := funext fun a => by fin_cases a <;> rfl
private theorem zeros1 : (![0] : Fin 1 → Nat) = fun _ => 0 := funext fun a => by fin_cases a <;> rfl

/-- The windows' block indices at point t, decided over the grid: the row block t of the input and of the output,
    block 0 of everything else. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The input's block at point t, at (p, k), is the array at row 8192 t + p. -/
theorem iblk2_0_apply (c : Dev nD) (t : Fin cfg2.N) (p : Fin 8192) (k : Fin 24) (r : Fin 1007616)
    (hr : r.val = 8192 * t.val + p.val) :
    (iblk2 V c 0 t : Vec Ideal S8192x24 .f32) (ix2 p k) = (V c main_v110 : S1007616x24.Idx → EReal) (ix2 r k) := by
  obtain ⟨e0, e1, -⟩ := idx_facts2 t
  unfold iblk2
  rw [View.read_apply]
  show V c main_v110 _ = V c main_v110 _
  refine congrArg (V c main_v110) ?_
  funext a; apply Fin.ext
  match a with
  | ⟨0, _⟩ => show win2_0.index t (0 : Fin 2) * 8192 + 1 * p.val = r.val; rw [e0, hr]; omega
  | ⟨1, _⟩ => show win2_0.index t (1 : Fin 2) * 24 + 1 * k.val = k.val; rw [e1]; omega

/-- The weight window's one block is the weight array. -/
theorem iblk2_1_apply (c : Dev nD) (t : Fin cfg2.N) (k : Fin 24) (q : Fin 64) :
    (iblk2 V c 1 t : Vec Ideal S24x64 .f32) (ix2 k q) = (V c main_v107 : S24x64.Idx → EReal) (ix2 k q) := by
  obtain ⟨-, -, e2, e3, -⟩ := idx_facts2 t
  unfold iblk2
  rw [View.read_apply]
  show V c main_v107 _ = V c main_v107 _
  refine congrArg (V c main_v107) ?_
  funext a; apply Fin.ext
  match a with
  | ⟨0, _⟩ => show win2_1.index t (0 : Fin 2) * 24 + 1 * k.val = k.val; rw [e2]; omega
  | ⟨1, _⟩ => show win2_1.index t (1 : Fin 2) * 64 + 1 * q.val = q.val; rw [e3]; omega

/-- The bias window's one block is the bias array. -/
theorem iblk2_2_apply (c : Dev nD) (t : Fin cfg2.N) (q : Fin 64) :
    (iblk2 V c 2 t : Vec Ideal S64 .f32) (ix1 q) = (V c main_v109 : S64.Idx → EReal) (ix1 q) := by
  obtain ⟨-, -, -, -, e4, -⟩ := idx_facts2 t
  unfold iblk2
  rw [View.read_apply]
  show V c main_v109 _ = V c main_v109 _
  refine congrArg (V c main_v109) ?_
  funext a; apply Fin.ext
  match a with
  | ⟨0, _⟩ => show win2_2.index t (0 : Fin 1) * 64 + 1 * q.val = q.val; rw [e4]; omega

/-- What point t writes back is block t of the closed form of the arrays as the region finds them. -/
theorem flushed2_eq (c : Dev nD) (t : Fin cfg2.N) :
    (dat2 V c).flushed 3 t
      = ((cfg2.win 3).blk t).view.read (Elt Ideal) (Lin2 (V c main_v110) (V c main_v107) (V c main_v109)) := by
  show (cfg2.win 3).cut (grid2.coords t) ((dat2 V c).after 3 t) = _
  rw [after2_3]
  unfold out2_3
  rw [View.canon_unit_zero zeros2]
  simp only [View.ld_unit_zero (S := S8192x24) zeros2, View.ld_unit_zero (S := S24x64) zeros2,
    View.ld_unit_zero (S := S64) zeros1]
  funext j
  obtain ⟨p, q, rfl⟩ : ∃ (p : Fin 8192) (q : Fin 64), j = ix2 p q := ⟨j 0, j 1, eq_ix2 j⟩
  have hN : cfg2.N = 123 := N_2
  have ht : t.val < 123 := hN ▸ t.isLt
  obtain ⟨-, -, -, -, -, e5, e6⟩ := idx_facts2 t
  have hemb : ((cfg2.win 3).blk t).view.emb (ix2 p q) = ix2 (⟨8192 * t.val + p.val, by omega⟩ : Fin 1007616) q := by
    funext a; apply Fin.ext
    match a with
    | ⟨0, _⟩ => show win2_3.index t (0 : Fin 2) * 8192 + 1 * p.val = 8192 * t.val + p.val; rw [e5]; omega
    | ⟨1, _⟩ => show win2_3.index t (1 : Fin 2) * 64 + 1 * q.val = q.val; rw [e6]; omega
  rw [View.read_apply, hemb, Lin2_apply]
  refine (k2_pay1_apply (iblk2 V c 0 t) (iblk2 V c 1 t) (iblk2 V c 2 t) p q).trans ?_
  refine congrArg₂ (· + ·) (Finset.sum_congr rfl fun k _ => ?_) (iblk2_2_apply V c t q)
  rw [iblk2_0_apply V c t p k ⟨8192 * t.val + p.val, by omega⟩ rfl, iblk2_1_apply V c t k q]

/-- An index of the output array is in point t's block iff each coordinate is in the block's range on its axis. -/
theorem mem_blk2 (t : Fin cfg2.N) (i : S1007616x64.Idx) :
    i ∈ ((cfg2.win 3).blk t).view.set ↔ ∀ a : Fin 2, win2_3.index t a * S8192x64.size a ≤ (i a).val
      ∧ (i a).val < win2_3.index t a * S8192x64.size a + S8192x64.size a := by
  show i ∈ ((View.whole main_v111).slice (win2_3.rect t)).set ↔ _
  rw [View.set_slice_whole, Rect.mem_set_unit]
  exact Iff.rfl

/-- THE ARRAY after the region: the closed form of the three arrays as the region finds them. The point that covers
    row r is r / 8192. -/
theorem lin2_arr (c : Dev nD) :
    (dat2 V c).arrAt 3 cfg2.N = Lin2 (V c main_v110) (V c main_v107) (V c main_v109) :=
  (dat2 V c).arrAt_eq_of_cover 3 _ (fun t _ => flushed2_eq V c t) (fun i => by
    have hi0 : (i 0).val < 1007616 := (i 0).isLt
    have hi1 : (i 1).val < 64 := (i 1).isLt
    have hN : cfg2.N = 123 := N_2
    have hlt : (i 0).val / 8192 < cfg2.N := by rw [hN]; omega
    obtain ⟨-, -, -, -, -, e5, e6⟩ := idx_facts2 ⟨(i 0).val / 8192, hlt⟩
    refine ⟨⟨(i 0).val / 8192, hlt⟩, flush2_3 _, ?_⟩
    rw [mem_blk2]
    intro a
    match a with
    | ⟨0, _⟩ =>
      show win2_3.index ⟨(i 0).val / 8192, hlt⟩ (0 : Fin 2) * 8192 ≤ (i 0).val
        ∧ (i 0).val < win2_3.index ⟨(i 0).val / 8192, hlt⟩ (0 : Fin 2) * 8192 + 8192
      rw [e5]; show (i 0).val / 8192 * 8192 ≤ (i 0).val ∧ (i 0).val < (i 0).val / 8192 * 8192 + 8192; omega
    | ⟨1, _⟩ =>
      show win2_3.index ⟨(i 0).val / 8192, hlt⟩ (1 : Fin 2) * 64 ≤ (i 1).val
        ∧ (i 1).val < win2_3.index ⟨(i 0).val / 8192, hlt⟩ (1 : Fin 2) * 64 + 64
      rw [e6]; omega)

end Cert.KernelIdeal.Val

end
-- ==== Proof.LinCols2.lean ====
/- The second linear layer's four bands of columns against the reference's four products. The kernel's program pads
   the input's rows with 7616 further rows, runs the layer on the joined weights [root | W_0 | W_1 | W_2] (24 x 64) and the
   joined bias [b | 0 … 0] (64), cuts the padded rows off again and cuts the result into four bands of 16 columns. A kept
   row never reads a padded row, the joined weights' column 16 p + q is column q of the p-th matrix, and the joined bias is
   b on the first band and zero on the others; so, with R = max X 0
   the input rectified (the reference computes it first), the first band is R·root + b spread over the rows and the band of
   relation r is R·W_r, which is what the reference computes with four separate products. -/
import proofs.«415972_j72490458022035_1_alg».proof.Proof.LinArr2
import proofs.«415972_j72490458022035_1_alg».proof.Proof.LinLib
import proofs.«415972_j72490458022035_1_alg».proof.Proof.LibRows
import proofs.«415972_j72490458022035_1_alg».proof.Proof.RefSpec

noncomputable section

open Idealize.ShloMosaic Idealize.ShloMosaic.ValueIdx
open scoped BigOperators

namespace Cert.KernelIdeal.Val

open Cert.KernelIdeal

-- the reference program's stated side conditions (its shapes are the kernel program's, by name and by value)
variable [Cert.ReferenceIdeal.Facts₀]

/-- The reference's product of this layer is a plain matrix product. -/
theorem refdot2_eq : Cert.ReferenceIdeal.dot_S1000000x24_S24x16_S1000000x16_1_0_0_1_n_n
    = plainDims Cert.ReferenceIdeal.Facts₀.dot_S1000000x24_S24x16_S1000000x16_1_0_0_1_n_n_wf := rfl

/-- The reference rectifies the layer's input first: the maximum with zero, entry by entry. -/
theorem ref_relu2_apply (X : FVec Ideal S1000000x24 .f32) (i : S1000000x24.Idx) :
    Cert.RefSpec.relu24 X i = max (X i) 0 :=
  relu_apply X _ i

/-- The layer on the padded input, its padded rows cut off again, at a kept row r: the unpadded input's row r enters. -/
theorem lin2_rows_apply (X : FVec Ideal S1000000x24 .f32) (v : FVec Ideal S_ .f32) (Wc : FVec Ideal S24x64 .f32)
    (Bc : FVec Ideal S64 .f32)
    (hp : S1000000x24.Pads (![0, 0] : Fin 2 → Nat) ![7616, 0] ![0, 0] S1007616x24) (hu : 0 < S_.numel)
    (hrows : S1007616x64.Slices ![0, 0] S1000000x64) (r : Fin 1000000) (c : Fin 64) :
    extractStridedSlice S1000000x64 ![0, 0] (Lin2 (pad S1007616x24 ![0, 0] ![7616, 0] ![0, 0] X v hp hu) Wc Bc) hrows (ix2 r c)
      = (∑ k : Fin 24, max (X (ix2 r k)) 0 * Wc (ix2 k c)) + Bc (ix1 c) := by
  rw [slice_rows_eq, Lin2_apply]
  refine congrArg₂ (· + ·) (Finset.sum_congr rfl fun k _ => ?_) rfl
  rw [pad_rows_eq X v hp hu _ k r.isLt]

/-- The first band of 16 columns is the reference's own transform: the input times the root weights plus the bias spread
    over the rows. -/
theorem lin2_own (X : FVec Ideal S1000000x24 .f32) (v : FVec Ideal S_ .f32) (root : FVec Ideal S24x16 .f32)
    (w : FVec Ideal S3x24x16 .f32) (b : FVec Ideal S16 .f32)
    (hp : S1000000x24.Pads (![0, 0] : Fin 2 → Nat) ![7616, 0] ![0, 0] S1007616x24) (hu : 0 < S_.numel)
    (hs0 : S3x24x16.Slices ![0, 0, 0] S1x24x16) (hs1 : S3x24x16.Slices ![1, 0, 0] S1x24x16)
    (hs2 : S3x24x16.Slices ![2, 0, 0] S1x24x16) (hc : S1x24x16.ShapeCasts S24x16)
    (hcatW : Shape.Concatenates [S24x16, S24x16, S24x16, S24x16] S24x64 1)
    (hbz : S_.BroadcastsInDim S48 (![] : Fin 0 → Fin S48.rank))
    (hcatB : Shape.Concatenates [S16, S48] S64 0)
    (hrows : S1007616x64.Slices ![0, 0] S1000000x64)
    (hcol : S1000000x64.Slices ![0, 0] S1000000x16) :
    extractStridedSlice S1000000x16 ![0, 0]
        (extractStridedSlice S1000000x64 ![0, 0]
          (Lin2 (pad S1007616x24 ![0, 0] ![7616, 0] ![0, 0] X v hp hu)
            (concatenate S24x64 1 [⟨S24x16, root⟩,
              ⟨S24x16, shapeCast S24x16 (extractStridedSlice S1x24x16 ![0, 0, 0] w hs0) hc⟩,
              ⟨S24x16, shapeCast S24x16 (extractStridedSlice S1x24x16 ![1, 0, 0] w hs1) hc⟩,
              ⟨S24x16, shapeCast S24x16 (extractStridedSlice S1x24x16 ![2, 0, 0] w hs2) hc⟩] hcatW)
            (concatenate S64 0 [⟨S16, b⟩, ⟨S48, broadcastInDim S48 ![] hbz (constant S_ .f32 0x00000000#32)⟩] hcatB))
          hrows) hcol
      = Cert.RefSpec.own1 (Cert.RefSpec.relu24 X) root b := by
  funext i
  obtain ⟨r, q, rfl⟩ : ∃ (r : Fin 1000000) (q : Fin 16), i = ix2 r q := ⟨i 0, i 1, eq_ix2 i⟩
  rw [slice_cols_eq 0, lin2_rows_apply]
  unfold Cert.RefSpec.own1
  rw [addf_apply]
  simp only [Host.dotGeneral]
  rw [refdot2_eq, plain_dotGeneral_apply, bias_rows_apply]
  refine congrArg₂ (· + ·) (Finset.sum_congr rfl fun k _ => ?_) ?_
  · rw [concat4_cols_0 _ _ _ _ hcatW k _ q (Nat.zero_add _), ref_relu2_apply]
  · exact concat2_vec_left b _ hcatB _ q (Nat.zero_add _)

/-- The band of 16 columns from column 16 on is the reference's messages of relation 0: the input times that relation's
    weight matrix (the joined weights' columns 16 + q are that matrix's columns q, and the joined bias is zero there). -/
theorem lin2_msg0 (X : FVec Ideal S1000000x24 .f32) (v : FVec Ideal S_ .f32) (root : FVec Ideal S24x16 .f32)
    (w : FVec Ideal S3x24x16 .f32) (b : FVec Ideal S16 .f32)
    (hp : S1000000x24.Pads (![0, 0] : Fin 2 → Nat) ![7616, 0] ![0, 0] S1007616x24) (hu : 0 < S_.numel)
    (hs0 : S3x24x16.Slices ![0, 0, 0] S1x24x16) (hs1 : S3x24x16.Slices ![1, 0, 0] S1x24x16)
    (hs2 : S3x24x16.Slices ![2, 0, 0] S1x24x16) (hc : S1x24x16.ShapeCasts S24x16)
    (hcatW : Shape.Concatenates [S24x16, S24x16, S24x16, S24x16] S24x64 1)
    (hbz : S_.BroadcastsInDim S48 (![] : Fin 0 → Fin S48.rank))
    (hcatB : Shape.Concatenates [S16, S48] S64 0)
    (hrows : S1007616x64.Slices ![0, 0] S1000000x64)
    (hcol : S1000000x64.Slices ![0, 16] S1000000x16) :
    extractStridedSlice S1000000x16 ![0, 16]
        (extractStridedSlice S1000000x64 ![0, 0]
          (Lin2 (pad S1007616x24 ![0, 0] ![7616, 0] ![0, 0] X v hp hu)
            (concatenate S24x64 1 [⟨S24x16, root⟩,
              ⟨S24x16, shapeCast S24x16 (extractStridedSlice S1x24x16 ![0, 0, 0] w hs0) hc⟩,
              ⟨S24x16, shapeCast S24x16 (extractStridedSlice S1x24x16 ![1, 0, 0] w hs1) hc⟩,
              ⟨S24x16, shapeCast S24x16 (extractStridedSlice S1x24x16 ![2, 0, 0] w hs2) hc⟩] hcatW)
            (concatenate S64 0 [⟨S16, b⟩, ⟨S48, broadcastInDim S48 ![] hbz (constant S_ .f32 0x00000000#32)⟩] hcatB))
          hrows) hcol
      = Cert.RefSpec.msg1_0 (Cert.RefSpec.relu24 X) w := by
  funext i
  obtain ⟨r, q, rfl⟩ : ∃ (r : Fin 1000000) (q : Fin 16), i = ix2 r q := ⟨i 0, i 1, eq_ix2 i⟩
  have hq := q.isLt
  rw [slice_cols_eq 16, lin2_rows_apply]
  unfold Cert.RefSpec.msg1_0
  simp only [Host.dotGeneral]
  rw [refdot2_eq, plain_dotGeneral_apply]
  rw [concat2_vec_right b _ hcatB _ (⟨q.val, by omega⟩ : Fin 48) rfl, zero_splat_apply, add_zero]
  refine Finset.sum_congr rfl fun k _ => ?_
  rw [concat4_cols_1 _ _ _ _ hcatW k _ q rfl, ref_relu2_apply]

/-- The band of 16 columns from column 32 on is the reference's messages of relation 1: the input times that relation's
    weight matrix (the joined weights' columns 32 + q are that matrix's columns q, and the joined bias is zero there). -/
theorem lin2_msg1 (X : FVec Ideal S1000000x24 .f32) (v : FVec Ideal S_ .f32) (root : FVec Ideal S24x16 .f32)
    (w : FVec Ideal S3x24x16 .f32) (b : FVec Ideal S16 .f32)
    (hp : S1000000x24.Pads (![0, 0] : Fin 2 → Nat) ![7616, 0] ![0, 0] S1007616x24) (hu : 0 < S_.numel)
    (hs0 : S3x24x16.Slices ![0, 0, 0] S1x24x16) (hs1 : S3x24x16.Slices ![1, 0, 0] S1x24x16)
    (hs2 : S3x24x16.Slices ![2, 0, 0] S1x24x16) (hc : S1x24x16.ShapeCasts S24x16)
    (hcatW : Shape.Concatenates [S24x16, S24x16, S24x16, S24x16] S24x64 1)
    (hbz : S_.BroadcastsInDim S48 (![] : Fin 0 → Fin S48.rank))
    (hcatB : Shape.Concatenates [S16, S48] S64 0)
    (hrows : S1007616x64.Slices ![0, 0] S1000000x64)
    (hcol : S1000000x64.Slices ![0, 32] S1000000x16) :
    extractStridedSlice S1000000x16 ![0, 32]
        (extractStridedSlice S1000000x64 ![0, 0]
          (Lin2 (pad S1007616x24 ![0, 0] ![7616, 0] ![0, 0] X v hp hu)
            (concatenate S24x64 1 [⟨S24x16, root⟩,
              ⟨S24x16, shapeCast S24x16 (extractStridedSlice S1x24x16 ![0, 0, 0] w hs0) hc⟩,
              ⟨S24x16, shapeCast S24x16 (extractStridedSlice S1x24x16 ![1, 0, 0] w hs1) hc⟩,
              ⟨S24x16, shapeCast S24x16 (extractStridedSlice S1x24x16 ![2, 0, 0] w hs2) hc⟩] hcatW)
            (concatenate S64 0 [⟨S16, b⟩, ⟨S48, broadcastInDim S48 ![] hbz (constant S_ .f32 0x00000000#32)⟩] hcatB))
          hrows) hcol
      = Cert.RefSpec.msg1_1 (Cert.RefSpec.relu24 X) w := by
  funext i
  obtain ⟨r, q, rfl⟩ : ∃ (r : Fin 1000000) (q : Fin 16), i = ix2 r q := ⟨i 0, i 1, eq_ix2 i⟩
  have hq := q.isLt
  rw [slice_cols_eq 32, lin2_rows_apply]
  unfold Cert.RefSpec.msg1_1
  simp only [Host.dotGeneral]
  rw [refdot2_eq, plain_dotGeneral_apply]
  rw [concat2_vec_right b _ hcatB _ (⟨16 + q.val, by omega⟩ : Fin 48) (by show 32 + q.val = 16 + (16 + q.val); omega), zero_splat_apply, add_zero]
  refine Finset.sum_congr rfl fun k _ => ?_
  rw [concat4_cols_2 _ _ _ _ hcatW k _ q (by show 32 + q.val = 16 + 16 + q.val; omega), ref_relu2_apply]

/-- The band of 16 columns from column 48 on is the reference's messages of relation 2: the input times that relation's
    weight matrix (the joined weights' columns 48 + q are that matrix's columns q, and the joined bias is zero there). -/
theorem lin2_msg2 (X : FVec Ideal S1000000x24 .f32) (v : FVec Ideal S_ .f32) (root : FVec Ideal S24x16 .f32)
    (w : FVec Ideal S3x24x16 .f32) (b : FVec Ideal S16 .f32)
    (hp : S1000000x24.Pads (![0, 0] : Fin 2 → Nat) ![7616, 0] ![0, 0] S1007616x24) (hu : 0 < S_.numel)
    (hs0 : S3x24x16.Slices ![0, 0, 0] S1x24x16) (hs1 : S3x24x16.Slices ![1, 0, 0] S1x24x16)
    (hs2 : S3x24x16.Slices ![2, 0, 0] S1x24x16) (hc : S1x24x16.ShapeCasts S24x16)
    (hcatW : Shape.Concatenates [S24x16, S24x16, S24x16, S24x16] S24x64 1)
    (hbz : S_.BroadcastsInDim S48 (![] : Fin 0 → Fin S48.rank))
    (hcatB : Shape.Concatenates [S16, S48] S64 0)
    (hrows : S1007616x64.Slices ![0, 0] S1000000x64)
    (hcol : S1000000x64.Slices ![0, 48] S1000000x16) :
    extractStridedSlice S1000000x16 ![0, 48]
        (extractStridedSlice S1000000x64 ![0, 0]
          (Lin2 (pad S1007616x24 ![0, 0] ![7616, 0] ![0, 0] X v hp hu)
            (concatenate S24x64 1 [⟨S24x16, root⟩,
              ⟨S24x16, shapeCast S24x16 (extractStridedSlice S1x24x16 ![0, 0, 0] w hs0) hc⟩,
              ⟨S24x16, shapeCast S24x16 (extractStridedSlice S1x24x16 ![1, 0, 0] w hs1) hc⟩,
              ⟨S24x16, shapeCast S24x16 (extractStridedSlice S1x24x16 ![2, 0, 0] w hs2) hc⟩] hcatW)
            (concatenate S64 0 [⟨S16, b⟩, ⟨S48, broadcastInDim S48 ![] hbz (constant S_ .f32 0x00000000#32)⟩] hcatB))
          hrows) hcol
      = Cert.RefSpec.msg1_2 (Cert.RefSpec.relu24 X) w := by
  funext i
  obtain ⟨r, q, rfl⟩ : ∃ (r : Fin 1000000) (q : Fin 16), i = ix2 r q := ⟨i 0, i 1, eq_ix2 i⟩
  have hq := q.isLt
  rw [slice_cols_eq 48, lin2_rows_apply]
  unfold Cert.RefSpec.msg1_2
  simp only [Host.dotGeneral]
  rw [refdot2_eq, plain_dotGeneral_apply]
  rw [concat2_vec_right b _ hcatB _ (⟨32 + q.val, by omega⟩ : Fin 48) (by show 48 + q.val = 16 + (32 + q.val); omega), zero_splat_apply, add_zero]
  refine Finset.sum_congr rfl fun k _ => ?_
  rw [concat4_cols_3 _ _ _ _ hcatW k _ q (by show 48 + q.val = 16 + 16 + 16 + q.val; omega), ref_relu2_apply]

end Cert.KernelIdeal.Val

end
-- ==== Proof.ChainL1.lean ====
import proofs.«415972_j72490458022035_1_alg».proof.Proof.KIFold
import proofs.«415972_j72490458022035_1_alg».proof.Proof.KIKeep
import proofs.«415972_j72490458022035_1_alg».proof.Proof.KIHost0
import proofs.«415972_j72490458022035_1_alg».proof.Proof.KIHost2
import proofs.«415972_j72490458022035_1_alg».proof.Proof.KIHost3
import proofs.«415972_j72490458022035_1_alg».proof.Proof.LinArr2
import proofs.«415972_j72490458022035_1_alg».proof.Proof.LinCols2
import proofs.«415972_j72490458022035_1_alg».proof.Proof.RefSpec

set_option maxRecDepth 16384

noncomputable section

namespace Cert.KernelIdeal.Chain

open Idealize.ShloMosaic Idealize.ShloMosaic.TcCoe Idealize.SL.Sem
open Cert.KernelIdeal Cert.KernelIdeal.Gen

variable [Cert.ReferenceIdeal.Facts₀]
variable (m : (ℓ : Loc nD τ sig) → Buf (Elt Ideal) ℓ) (ρ : Dev nD → PrngReg) (c : Dev nD)

theorem src_at11 : W11 m ρ c (Proc.devRef .tc main_v1) = Cert.Tail.srcOf (m ((c : Thread nD τ).loc main_arg2)) :=
  (keep11_main_v1 m ρ c).trans (Host.h0_main_v1 (W0 m ρ c))

theorem dst_at11 : W11 m ρ c (Proc.devRef .tc main_v3) = Cert.Tail.dstOf (m ((c : Thread nD τ).loc main_arg2)) :=
  (keep11_main_v3 m ρ c).trans (Host.h0_main_v3 (W0 m ρ c))

theorem et_at11 : W11 m ρ c (Proc.devRef .tc main_arg3) = m ((c : Thread nD τ).loc main_arg3) := arg11_3 m ρ c

theorem y1_at11 : W11 m ρ c (Proc.devRef .tc main_v111)
    = Val.Lin2 (W10 m ρ c (Proc.devRef .tc main_v110)) (W10 m ρ c (Proc.devRef .tc main_v107))
        (W10 m ρ c (Proc.devRef .tc main_v109)) :=
  (W11_arr m ρ c 3).trans (Val.lin2_arr (V10 m ρ) c)

theorem xpad_at10 : W10 m ρ c (Proc.devRef .tc main_v110)
    = pad S1007616x24 ![0, 0] ![7616, 0] ![0, 0] (W9 m ρ c (Proc.devRef .tc main_v100))
        (sitofp (F := Ideal) .f32 (W9 m ρ c (Proc.devRef .tc main_c_21))) pads_S1000000x24_S1007616x24_076160_000 h_S_ :=
  Host.h2_1_main_v110 (W9 m ρ c)

theorem wfull_at10 : W10 m ρ c (Proc.devRef .tc main_v107)
    = (concatenate S24x64 1
        [⟨S24x16, (m ((c : Thread nD τ).loc main_arg10) : FVec Ideal S24x16 .f32)⟩,
         ⟨S24x16, shapeCast S24x16 (extractStridedSlice S1x24x16 ![0, 0, 0] (m ((c : Thread nD τ).loc main_arg9) : FVec Ideal S3x24x16 .f32) slices_S3x24x16_S1x24x16_0_0_0) shapeCasts_S1x24x16_S24x16⟩,
         ⟨S24x16, shapeCast S24x16 (extractStridedSlice S1x24x16 ![1, 0, 0] (m ((c : Thread nD τ).loc main_arg9) : FVec Ideal S3x24x16 .f32) slices_S3x24x16_S1x24x16_1_0_0) shapeCasts_S1x24x16_S24x16⟩,
         ⟨S24x16, shapeCast S24x16 (extractStridedSlice S1x24x16 ![2, 0, 0] (m ((c : Thread nD τ).loc main_arg9) : FVec Ideal S3x24x16 .f32) slices_S3x24x16_S1x24x16_2_0_0) shapeCasts_S1x24x16_S24x16⟩]
        concatenates_S24x16_S24x16_S24x16_S24x16_S24x64_d1 : FVec Ideal S24x64 .f32) := by
  rw [keep10_main_v107 m ρ c, ← arg8_10 m ρ c, ← arg8_9 m ρ c]
  exact Host.h2_main_v107 (W8 m ρ c)

theorem bfull_at10 : W10 m ρ c (Proc.devRef .tc main_v109)
    = (concatenate S64 0
        [⟨S16, (m ((c : Thread nD τ).loc main_arg11) : FVec Ideal S16 .f32)⟩,
         ⟨S48, broadcastInDim S48 ![] bcast_S_S48 (constant (F := Ideal) S_ .f32 0x00000000#32)⟩]
        concatenates_S16_S48_S64_d0 : FVec Ideal S64 .f32) := by
  rw [keep10_main_v109 m ρ c, ← arg8_11 m ρ c]
  exact Host.h2_main_v109 (W8 m ρ c)

theorem y1_full : W11 m ρ c (Proc.devRef .tc main_v111)
    = Val.Lin2
        (pad S1007616x24 ![0, 0] ![7616, 0] ![0, 0] (W9 m ρ c (Proc.devRef .tc main_v100))
          (sitofp (F := Ideal) .f32 (W9 m ρ c (Proc.devRef .tc main_c_21))) pads_S1000000x24_S1007616x24_076160_000 h_S_)
        (concatenate S24x64 1
          [⟨S24x16, (m ((c : Thread nD τ).loc main_arg10) : FVec Ideal S24x16 .f32)⟩,
           ⟨S24x16, shapeCast S24x16 (extractStridedSlice S1x24x16 ![0, 0, 0] (m ((c : Thread nD τ).loc main_arg9) : FVec Ideal S3x24x16 .f32) slices_S3x24x16_S1x24x16_0_0_0) shapeCasts_S1x24x16_S24x16⟩,
           ⟨S24x16, shapeCast S24x16 (extractStridedSlice S1x24x16 ![1, 0, 0] (m ((c : Thread nD τ).loc main_arg9) : FVec Ideal S3x24x16 .f32) slices_S3x24x16_S1x24x16_1_0_0) shapeCasts_S1x24x16_S24x16⟩,
           ⟨S24x16, shapeCast S24x16 (extractStridedSlice S1x24x16 ![2, 0, 0] (m ((c : Thread nD τ).loc main_arg9) : FVec Ideal S3x24x16 .f32) slices_S3x24x16_S1x24x16_2_0_0) shapeCasts_S1x24x16_S24x16⟩]
          concatenates_S24x16_S24x16_S24x16_S24x16_S24x64_d1)
        (concatenate S64 0
          [⟨S16, (m ((c : Thread nD τ).loc main_arg11) : FVec Ideal S16 .f32)⟩,
           ⟨S48, broadcastInDim S48 ![] bcast_S_S48 (constant (F := Ideal) S_ .f32 0x00000000#32)⟩]
          concatenates_S16_S48_S64_d0) := by
  rw [y1_at11, xpad_at10, wfull_at10, bfull_at10]

theorem cur2_cols : W12 m ρ c (Proc.devRef .tc main_v191)
    = (addf (addf (addf
        (extractStridedSlice S1000000x16 ![0, 0] (extractStridedSlice S1000000x64 ![0, 0] (W11 m ρ c (Proc.devRef .tc main_v111)) slices_S1007616x64_S1000000x64_0_0) slices_S1000000x64_S1000000x16_0_0)
        (Cert.Tail.rel16 (extractStridedSlice S1000000x16 ![0, 16] (extractStridedSlice S1000000x64 ![0, 0] (W11 m ρ c (Proc.devRef .tc main_v111)) slices_S1007616x64_S1000000x64_0_0) slices_S1000000x64_S1000000x16_0_16)
          (Cert.Tail.srcOf (m ((c : Thread nD τ).loc main_arg2))) (Cert.Tail.dstOf (m ((c : Thread nD τ).loc main_arg2))) (Cert.Tail.maskOf 0#32 (m ((c : Thread nD τ).loc main_arg3)))))
        (Cert.Tail.rel16 (extractStridedSlice S1000000x16 ![0, 32] (extractStridedSlice S1000000x64 ![0, 0] (W11 m ρ c (Proc.devRef .tc main_v111)) slices_S1007616x64_S1000000x64_0_0) slices_S1000000x64_S1000000x16_0_32)
          (Cert.Tail.srcOf (m ((c : Thread nD τ).loc main_arg2))) (Cert.Tail.dstOf (m ((c : Thread nD τ).loc main_arg2))) (Cert.Tail.maskOf 1#32 (m ((c : Thread nD τ).loc main_arg3)))))
        (Cert.Tail.rel16 (extractStridedSlice S1000000x16 ![0, 48] (extractStridedSlice S1000000x64 ![0, 0] (W11 m ρ c (Proc.devRef .tc main_v111)) slices_S1007616x64_S1000000x64_0_0) slices_S1000000x64_S1000000x16_0_48)
          (Cert.Tail.srcOf (m ((c : Thread nD τ).loc main_arg2))) (Cert.Tail.dstOf (m ((c : Thread nD τ).loc main_arg2))) (Cert.Tail.maskOf 2#32 (m ((c : Thread nD τ).loc main_arg3)))) : FVec Ideal S1000000x16 .f32) := by
  rw [← src_at11 m ρ c, ← dst_at11 m ρ c, ← et_at11 m ρ c]
  exact Host.h3_main_v191 (W11 m ρ c)

theorem cur2_at12 : W12 m ρ c (Proc.devRef .tc main_v191)
    = Cert.RefSpec.out1 (F := Ideal) (Cert.RefSpec.relu24 (W9 m ρ c (Proc.devRef .tc main_v100)))
        (m ((c : Thread nD τ).loc main_arg10)) (m ((c : Thread nD τ).loc main_arg11)) (m ((c : Thread nD τ).loc main_arg9))
        (m ((c : Thread nD τ).loc main_arg2)) (m ((c : Thread nD τ).loc main_arg3)) := by
  rw [cur2_cols, y1_full]
  rw [Val.lin2_own, Val.lin2_msg0, Val.lin2_msg1, Val.lin2_msg2]
  rfl

end Cert.KernelIdeal.Chain

end
-- ==== Proof.KIHost4.lean ====
import proofs.«415972_j72490458022035_1_alg».proof.Proof.Gen.KernelIdeal.Launch
import proofs.«415972_j72490458022035_1_alg».proof.Proof.Tail8
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F] [Cert.ReferenceIdeal.Facts₀]

set_option maxHeartbeats 4000000 in

theorem h4_main_v282 (W : Valuation τ sig (Elt F)) :
    after (hostOps4 (F := F)) W (Proc.devRef .tc main_v282)
      = addf (addf (addf
          (extractStridedSlice S1000000x8 ![0, 0] (extractStridedSlice S1000000x32 ![0, 0] (W (Proc.devRef .tc main_v202)) slices_S1007616x32_S1000000x32_0_0) slices_S1000000x32_S1000000x8_0_0)
          (Cert.Tail.rel8 (extractStridedSlice S1000000x8 ![0, 8] (extractStridedSlice S1000000x32 ![0, 0] (W (Proc.devRef .tc main_v202)) slices_S1007616x32_S1000000x32_0_0) slices_S1000000x32_S1000000x8_0_8)
            (W (Proc.devRef .tc main_v1)) (W (Proc.devRef .tc main_v3)) (Cert.Tail.maskOf 0#32 (W (Proc.devRef .tc main_arg3)))))
          (Cert.Tail.rel8 (extractStridedSlice S1000000x8 ![0, 16] (extractStridedSlice S1000000x32 ![0, 0] (W (Proc.devRef .tc main_v202)) slices_S1007616x32_S1000000x32_0_0) slices_S1000000x32_S1000000x8_0_16)
            (W (Proc.devRef .tc main_v1)) (W (Proc.devRef .tc main_v3)) (Cert.Tail.maskOf 1#32 (W (Proc.devRef .tc main_arg3)))))
          (Cert.Tail.rel8 (extractStridedSlice S1000000x8 ![0, 24] (extractStridedSlice S1000000x32 ![0, 0] (W (Proc.devRef .tc main_v202)) slices_S1007616x32_S1000000x32_0_0) slices_S1000000x32_S1000000x8_0_24)
            (W (Proc.devRef .tc main_v1)) (W (Proc.devRef .tc main_v3)) (Cert.Tail.maskOf 2#32 (W (Proc.devRef .tc main_arg3)))) := by
  after_results_simp
  rfl

set_option maxHeartbeats 4000000 in

theorem h4_main_v289 (W : Valuation τ sig (Elt F)) :
    after (hostOps4 (F := F)) W (Proc.devRef .tc main_v289)
      = concatenate S8x16 1
          [⟨S8x4, W (Proc.devRef .tc main_arg16)⟩,
           ⟨S8x4, shapeCast S8x4 (extractStridedSlice S1x8x4 ![0, 0, 0] (W (Proc.devRef .tc main_arg15)) slices_S3x8x4_S1x8x4_0_0_0) shapeCasts_S1x8x4_S8x4⟩,
           ⟨S8x4, shapeCast S8x4 (extractStridedSlice S1x8x4 ![1, 0, 0] (W (Proc.devRef .tc main_arg15)) slices_S3x8x4_S1x8x4_1_0_0) shapeCasts_S1x8x4_S8x4⟩,
           ⟨S8x4, shapeCast S8x4 (extractStridedSlice S1x8x4 ![2, 0, 0] (W (Proc.devRef .tc main_arg15)) slices_S3x8x4_S1x8x4_2_0_0) shapeCasts_S1x8x4_S8x4⟩]
          concatenates_S8x4_S8x4_S8x4_S8x4_S8x16_d1 := by
  after_results
  rfl

set_option maxHeartbeats 4000000 in

theorem h4_main_v291 (W : Valuation τ sig (Elt F)) :
    after (hostOps4 (F := F)) W (Proc.devRef .tc main_v291)
      = concatenate S16 0
          [⟨S4, W (Proc.devRef .tc main_arg17)⟩,
           ⟨S12, broadcastInDim S12 ![] bcast_S_S12 (constant S_ .f32 0x00000000#32)⟩]
          concatenates_S4_S12_S16_d0 := by
  after_results_simp
  rfl

set_option maxHeartbeats 4000000 in

theorem h4_1_main_v292 (W : Valuation τ sig (Elt F)) :
    after (hostOps4_1 (F := F)) W (Proc.devRef .tc main_v292)
      = pad S1007616x8 ![0, 0] ![7616, 0] ![0, 0] (W (Proc.devRef .tc main_v282))
          (sitofp (F := F) .f32 (W (Proc.devRef .tc main_c_61))) pads_S1000000x8_S1007616x8_076160_000 h_S_ := by
  after_results
  rfl

end Cert.KernelIdeal.Host

end
-- ==== Proof.LinPay3.lean ====
/- The arithmetic of the third linear layer's block, read at one entry: a row block x of 8192 rows and 16 features is
   first rectified (the maximum with zero, entry by entry), then multiplied by the weight matrix w (16 x 32), and the bias
   row b (32) is added:  (∑ k, max (x (p, k)) 0 * w (k, q)) + b q  at row p, column q. At the extended reals the change of
   float format before the product is the identity, the zero word is the real 0, and the product into the zero accumulator
   is the plain sum. -/
import proofs.«415972_j72490458022035_1_alg».proof.Proof.Gen.KernelIdeal.Skeleton
import proofs.«415972_j72490458022035_1_alg».proof.Proof.PlainDot
import Idealize.ShloMosaic.Lib.ValueLayout

open Idealize.ShloMosaic Idealize.ShloMosaic.ValueIdx
open scoped BigOperators

namespace Cert.KernelIdeal.Val

open Cert.KernelIdeal Cert.KernelIdeal.Gen Cert.KernelIdeal.Facts₀ Cert.KernelIdeal.Facts

/-- The block's product is a plain matrix product. -/
theorem dot3_eq : dot_S8192x16_S16x32_S8192x32_1_0_0_1_n_n = plainDims Facts₀.dot_S8192x16_S16x32_S8192x32_1_0_0_1_n_n_wf := rfl

/-- The third layer's block at (p, q). -/
theorem k3_pay1_apply (x : FVec Ideal S8192x16 .f32) (w : FVec Ideal S16x32 .f32) (b : FVec Ideal S32 .f32)
    (p : Fin 8192) (q : Fin 32) :
    k3_pay1 (F := Ideal) x w b (ix2 p q) = (∑ k : Fin 16, max (x (ix2 p k)) 0 * w (ix2 k q)) + b (ix1 q) := by
  unfold k3_pay1
  rw [shapeCast_self, shapeCast_self, shapeCast_self]
  refine (addf_apply _ _ _).trans ?_
  refine congrArg₂ (· + ·) ?_ ?_
  · rw [dot3_eq]
    refine (plain_matmul_zero_apply _ none _ w p q).trans ?_
    refine Finset.sum_congr rfl fun k _ => ?_
    show max (x (ix2 p k)) (Ideal.ofBits .f32 0x00000000#32) * w (ix2 k q) = _
    rw [Ideal.ofBits_zero_f32]
  · rw [broadcastTo_1b_ab_apply, shapeCast_a_1a_apply]

end Cert.KernelIdeal.Val
-- ==== Proof.LinArr3.lean ====
/- The third linear layer's output array in closed form. The region runs 123 grid points; point t reads rows
   8192 t … 8192 t + 8191 of the padded input (all 16 columns), the whole weight matrix and the whole bias row, and writes
   back rows 8192 t … 8192 t + 8191 of the output (all 32 columns). Each written entry is the block's arithmetic at that
   entry, which depends on the input only through the entry's own row; the 123 row blocks cover the 1007616 rows, so the
   output array ends as ONE function of the three arrays:  Y (i, q) = (∑ k, max (X (i, k)) 0 * W (k, q)) + B q  (the input rectified first). -/
import proofs.«415972_j72490458022035_1_alg».proof.Proof.KIBody3
import proofs.«415972_j72490458022035_1_alg».proof.Proof.LinPay3
import Idealize.ShloMosaic.Lib.Pipeline.Value

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Facts₀ Cert.KernelIdeal.Facts

/-- The layer as one function of the padded input, the weight matrix and the bias row. -/
def Lin3 (X : FVec Ideal S1007616x16 .f32) (Wt : FVec Ideal S16x32 .f32) (B : FVec Ideal S32 .f32) :
    FVec Ideal S1007616x32 .f32 :=
  fun i => (∑ k : Fin 16, max (X (ix2 (n0 := 1007616) (i 0) k)) 0 * Wt (ix2 (n1 := 32) k (i 1))) + B (ix1 (n := 32) (i 1))

/-- … read at (r, q). -/
theorem Lin3_apply (X : FVec Ideal S1007616x16 .f32) (Wt : FVec Ideal S16x32 .f32) (B : FVec Ideal S32 .f32)
    (r : Fin 1007616) (q : Fin 32) :
    Lin3 X Wt B (ix2 r q) = (∑ k : Fin 16, max (X (ix2 r k)) 0 * Wt (ix2 k q)) + B (ix1 q) := rfl

-- the buffer contents of the core when the region is entered
variable (V : (c : Dev nD) → (b : Ref sig .tc) → Buf (Elt Ideal) ((c : Thread nD τ).loc b))

private theorem zeros2 : (![0, 0] : Fin 2 → Nat) = fun _ => 0 := funext fun a => by fin_cases a <;> rfl
private theorem zeros1 : (![0] : Fin 1 → Nat) = fun _ => 0 := funext fun a => by fin_cases a <;> rfl

/-- The windows' block indices at point t, decided over the grid: the row block t of the input and of the output,
    block 0 of everything else. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The input's block at point t, at (p, k), is the array at row 8192 t + p. -/
theorem iblk3_0_apply (c : Dev nD) (t : Fin cfg3.N) (p : Fin 8192) (k : Fin 16) (r : Fin 1007616)
    (hr : r.val = 8192 * t.val + p.val) :
    (iblk3 V c 0 t : Vec Ideal S8192x16 .f32) (ix2 p k) = (V c main_v201 : S1007616x16.Idx → EReal) (ix2 r k) := by
  obtain ⟨e0, e1, -⟩ := idx_facts3 t
  unfold iblk3
  rw [View.read_apply]
  show V c main_v201 _ = V c main_v201 _
  refine congrArg (V c main_v201) ?_
  funext a; apply Fin.ext
  match a with
  | ⟨0, _⟩ => show win3_0.index t (0 : Fin 2) * 8192 + 1 * p.val = r.val; rw [e0, hr]; omega
  | ⟨1, _⟩ => show win3_0.index t (1 : Fin 2) * 16 + 1 * k.val = k.val; rw [e1]; omega

/-- The weight window's one block is the weight array. -/
theorem iblk3_1_apply (c : Dev nD) (t : Fin cfg3.N) (k : Fin 16) (q : Fin 32) :
    (iblk3 V c 1 t : Vec Ideal S16x32 .f32) (ix2 k q) = (V c main_v198 : S16x32.Idx → EReal) (ix2 k q) := by
  obtain ⟨-, -, e2, e3, -⟩ := idx_facts3 t
  unfold iblk3
  rw [View.read_apply]
  show V c main_v198 _ = V c main_v198 _
  refine congrArg (V c main_v198) ?_
  funext a; apply Fin.ext
  match a with
  | ⟨0, _⟩ => show win3_1.index t (0 : Fin 2) * 16 + 1 * k.val = k.val; rw [e2]; omega
  | ⟨1, _⟩ => show win3_1.index t (1 : Fin 2) * 32 + 1 * q.val = q.val; rw [e3]; omega

/-- The bias window's one block is the bias array. -/
theorem iblk3_2_apply (c : Dev nD) (t : Fin cfg3.N) (q : Fin 32) :
    (iblk3 V c 2 t : Vec Ideal S32 .f32) (ix1 q) = (V c main_v200 : S32.Idx → EReal) (ix1 q) := by
  obtain ⟨-, -, -, -, e4, -⟩ := idx_facts3 t
  unfold iblk3
  rw [View.read_apply]
  show V c main_v200 _ = V c main_v200 _
  refine congrArg (V c main_v200) ?_
  funext a; apply Fin.ext
  match a with
  | ⟨0, _⟩ => show win3_2.index t (0 : Fin 1) * 32 + 1 * q.val = q.val; rw [e4]; omega

/-- What point t writes back is block t of the closed form of the arrays as the region finds them. -/
theorem flushed3_eq (c : Dev nD) (t : Fin cfg3.N) :
    (dat3 V c).flushed 3 t
      = ((cfg3.win 3).blk t).view.read (Elt Ideal) (Lin3 (V c main_v201) (V c main_v198) (V c main_v200)) := by
  show (cfg3.win 3).cut (grid3.coords t) ((dat3 V c).after 3 t) = _
  rw [after3_3]
  unfold out3_3
  rw [View.canon_unit_zero zeros2]
  simp only [View.ld_unit_zero (S := S8192x16) zeros2, View.ld_unit_zero (S := S16x32) zeros2,
    View.ld_unit_zero (S := S32) zeros1]
  funext j
  obtain ⟨p, q, rfl⟩ : ∃ (p : Fin 8192) (q : Fin 32), j = ix2 p q := ⟨j 0, j 1, eq_ix2 j⟩
  have hN : cfg3.N = 123 := N_3
  have ht : t.val < 123 := hN ▸ t.isLt
  obtain ⟨-, -, -, -, -, e5, e6⟩ := idx_facts3 t
  have hemb : ((cfg3.win 3).blk t).view.emb (ix2 p q) = ix2 (⟨8192 * t.val + p.val, by omega⟩ : Fin 1007616) q := by
    funext a; apply Fin.ext
    match a with
    | ⟨0, _⟩ => show win3_3.index t (0 : Fin 2) * 8192 + 1 * p.val = 8192 * t.val + p.val; rw [e5]; omega
    | ⟨1, _⟩ => show win3_3.index t (1 : Fin 2) * 32 + 1 * q.val = q.val; rw [e6]; omega
  rw [View.read_apply, hemb, Lin3_apply]
  refine (k3_pay1_apply (iblk3 V c 0 t) (iblk3 V c 1 t) (iblk3 V c 2 t) p q).trans ?_
  refine congrArg₂ (· + ·) (Finset.sum_congr rfl fun k _ => ?_) (iblk3_2_apply V c t q)
  rw [iblk3_0_apply V c t p k ⟨8192 * t.val + p.val, by omega⟩ rfl, iblk3_1_apply V c t k q]

/-- An index of the output array is in point t's block iff each coordinate is in the block's range on its axis. -/
theorem mem_blk3 (t : Fin cfg3.N) (i : S1007616x32.Idx) :
    i ∈ ((cfg3.win 3).blk t).view.set ↔ ∀ a : Fin 2, win3_3.index t a * S8192x32.size a ≤ (i a).val
      ∧ (i a).val < win3_3.index t a * S8192x32.size a + S8192x32.size a := by
  show i ∈ ((View.whole main_v202).slice (win3_3.rect t)).set ↔ _
  rw [View.set_slice_whole, Rect.mem_set_unit]
  exact Iff.rfl

/-- THE ARRAY after the region: the closed form of the three arrays as the region finds them. The point that covers
    row r is r / 8192. -/
theorem lin3_arr (c : Dev nD) :
    (dat3 V c).arrAt 3 cfg3.N = Lin3 (V c main_v201) (V c main_v198) (V c main_v200) :=
  (dat3 V c).arrAt_eq_of_cover 3 _ (fun t _ => flushed3_eq V c t) (fun i => by
    have hi0 : (i 0).val < 1007616 := (i 0).isLt
    have hi1 : (i 1).val < 32 := (i 1).isLt
    have hN : cfg3.N = 123 := N_3
    have hlt : (i 0).val / 8192 < cfg3.N := by rw [hN]; omega
    obtain ⟨-, -, -, -, -, e5, e6⟩ := idx_facts3 ⟨(i 0).val / 8192, hlt⟩
    refine ⟨⟨(i 0).val / 8192, hlt⟩, flush3_3 _, ?_⟩
    rw [mem_blk3]
    intro a
    match a with
    | ⟨0, _⟩ =>
      show win3_3.index ⟨(i 0).val / 8192, hlt⟩ (0 : Fin 2) * 8192 ≤ (i 0).val
        ∧ (i 0).val < win3_3.index ⟨(i 0).val / 8192, hlt⟩ (0 : Fin 2) * 8192 + 8192
      rw [e5]; show (i 0).val / 8192 * 8192 ≤ (i 0).val ∧ (i 0).val < (i 0).val / 8192 * 8192 + 8192; omega
    | ⟨1, _⟩ =>
      show win3_3.index ⟨(i 0).val / 8192, hlt⟩ (1 : Fin 2) * 32 ≤ (i 1).val
        ∧ (i 1).val < win3_3.index ⟨(i 0).val / 8192, hlt⟩ (1 : Fin 2) * 32 + 32
      rw [e6]; omega)

end Cert.KernelIdeal.Val

end
-- ==== Proof.LinCols3.lean ====
/- The third linear layer's four bands of columns against the reference's four products. The kernel's program pads
   the input's rows with 7616 further rows, runs the layer on the joined weights [root | W_0 | W_1 | W_2] (16 x 32) and the
   joined bias [b | 0 … 0] (32), cuts the padded rows off again and cuts the result into four bands of 8 columns. A kept
   row never reads a padded row, the joined weights' column 8 p + q is column q of the p-th matrix, and the joined bias is
   b on the first band and zero on the others; so, with R = max X 0
   the input rectified (the reference computes it first), the first band is R·root + b spread over the rows and the band of
   relation r is R·W_r, which is what the reference computes with four separate products. -/
import proofs.«415972_j72490458022035_1_alg».proof.Proof.LinArr3
import proofs.«415972_j72490458022035_1_alg».proof.Proof.LinLib
import proofs.«415972_j72490458022035_1_alg».proof.Proof.LibRows
import proofs.«415972_j72490458022035_1_alg».proof.Proof.RefSpec

noncomputable section

open Idealize.ShloMosaic Idealize.ShloMosaic.ValueIdx
open scoped BigOperators

namespace Cert.KernelIdeal.Val

open Cert.KernelIdeal

-- the reference program's stated side conditions (its shapes are the kernel program's, by name and by value)
variable [Cert.ReferenceIdeal.Facts₀]

/-- The reference's product of this layer is a plain matrix product. -/
theorem refdot3_eq : Cert.ReferenceIdeal.dot_S1000000x16_S16x8_S1000000x8_1_0_0_1_n_n
    = plainDims Cert.ReferenceIdeal.Facts₀.dot_S1000000x16_S16x8_S1000000x8_1_0_0_1_n_n_wf := rfl

/-- The reference rectifies the layer's input first: the maximum with zero, entry by entry. -/
theorem ref_relu3_apply (X : FVec Ideal S1000000x16 .f32) (i : S1000000x16.Idx) :
    Cert.RefSpec.relu16 X i = max (X i) 0 :=
  relu_apply X _ i

/-- The layer on the padded input, its padded rows cut off again, at a kept row r: the unpadded input's row r enters. -/
theorem lin3_rows_apply (X : FVec Ideal S1000000x16 .f32) (v : FVec Ideal S_ .f32) (Wc : FVec Ideal S16x32 .f32)
    (Bc : FVec Ideal S32 .f32)
    (hp : S1000000x16.Pads (![0, 0] : Fin 2 → Nat) ![7616, 0] ![0, 0] S1007616x16) (hu : 0 < S_.numel)
    (hrows : S1007616x32.Slices ![0, 0] S1000000x32) (r : Fin 1000000) (c : Fin 32) :
    extractStridedSlice S1000000x32 ![0, 0] (Lin3 (pad S1007616x16 ![0, 0] ![7616, 0] ![0, 0] X v hp hu) Wc Bc) hrows (ix2 r c)
      = (∑ k : Fin 16, max (X (ix2 r k)) 0 * Wc (ix2 k c)) + Bc (ix1 c) := by
  rw [slice_rows_eq, Lin3_apply]
  refine congrArg₂ (· + ·) (Finset.sum_congr rfl fun k _ => ?_) rfl
  rw [pad_rows_eq X v hp hu _ k r.isLt]

/-- The first band of 8 columns is the reference's own transform: the input times the root weights plus the bias spread
    over the rows. -/
theorem lin3_own (X : FVec Ideal S1000000x16 .f32) (v : FVec Ideal S_ .f32) (root : FVec Ideal S16x8 .f32)
    (w : FVec Ideal S3x16x8 .f32) (b : FVec Ideal S8 .f32)
    (hp : S1000000x16.Pads (![0, 0] : Fin 2 → Nat) ![7616, 0] ![0, 0] S1007616x16) (hu : 0 < S_.numel)
    (hs0 : S3x16x8.Slices ![0, 0, 0] S1x16x8) (hs1 : S3x16x8.Slices ![1, 0, 0] S1x16x8)
    (hs2 : S3x16x8.Slices ![2, 0, 0] S1x16x8) (hc : S1x16x8.ShapeCasts S16x8)
    (hcatW : Shape.Concatenates [S16x8, S16x8, S16x8, S16x8] S16x32 1)
    (hbz : S_.BroadcastsInDim S24 (![] : Fin 0 → Fin S24.rank))
    (hcatB : Shape.Concatenates [S8, S24] S32 0)
    (hrows : S1007616x32.Slices ![0, 0] S1000000x32)
    (hcol : S1000000x32.Slices ![0, 0] S1000000x8) :
    extractStridedSlice S1000000x8 ![0, 0]
        (extractStridedSlice S1000000x32 ![0, 0]
          (Lin3 (pad S1007616x16 ![0, 0] ![7616, 0] ![0, 0] X v hp hu)
            (concatenate S16x32 1 [⟨S16x8, root⟩,
              ⟨S16x8, shapeCast S16x8 (extractStridedSlice S1x16x8 ![0, 0, 0] w hs0) hc⟩,
              ⟨S16x8, shapeCast S16x8 (extractStridedSlice S1x16x8 ![1, 0, 0] w hs1) hc⟩,
              ⟨S16x8, shapeCast S16x8 (extractStridedSlice S1x16x8 ![2, 0, 0] w hs2) hc⟩] hcatW)
            (concatenate S32 0 [⟨S8, b⟩, ⟨S24, broadcastInDim S24 ![] hbz (constant S_ .f32 0x00000000#32)⟩] hcatB))
          hrows) hcol
      = Cert.RefSpec.own2 (Cert.RefSpec.relu16 X) root b := by
  funext i
  obtain ⟨r, q, rfl⟩ : ∃ (r : Fin 1000000) (q : Fin 8), i = ix2 r q := ⟨i 0, i 1, eq_ix2 i⟩
  rw [slice_cols_eq 0, lin3_rows_apply]
  unfold Cert.RefSpec.own2
  rw [addf_apply]
  simp only [Host.dotGeneral]
  rw [refdot3_eq, plain_dotGeneral_apply, bias_rows_apply]
  refine congrArg₂ (· + ·) (Finset.sum_congr rfl fun k _ => ?_) ?_
  · rw [concat4_cols_0 _ _ _ _ hcatW k _ q (Nat.zero_add _), ref_relu3_apply]
  · exact concat2_vec_left b _ hcatB _ q (Nat.zero_add _)

/-- The band of 8 columns from column 8 on is the reference's messages of relation 0: the input times that relation's
    weight matrix (the joined weights' columns 8 + q are that matrix's columns q, and the joined bias is zero there). -/
theorem lin3_msg0 (X : FVec Ideal S1000000x16 .f32) (v : FVec Ideal S_ .f32) (root : FVec Ideal S16x8 .f32)
    (w : FVec Ideal S3x16x8 .f32) (b : FVec Ideal S8 .f32)
    (hp : S1000000x16.Pads (![0, 0] : Fin 2 → Nat) ![7616, 0] ![0, 0] S1007616x16) (hu : 0 < S_.numel)
    (hs0 : S3x16x8.Slices ![0, 0, 0] S1x16x8) (hs1 : S3x16x8.Slices ![1, 0, 0] S1x16x8)
    (hs2 : S3x16x8.Slices ![2, 0, 0] S1x16x8) (hc : S1x16x8.ShapeCasts S16x8)
    (hcatW : Shape.Concatenates [S16x8, S16x8, S16x8, S16x8] S16x32 1)
    (hbz : S_.BroadcastsInDim S24 (![] : Fin 0 → Fin S24.rank))
    (hcatB : Shape.Concatenates [S8, S24] S32 0)
    (hrows : S1007616x32.Slices ![0, 0] S1000000x32)
    (hcol : S1000000x32.Slices ![0, 8] S1000000x8) :
    extractStridedSlice S1000000x8 ![0, 8]
        (extractStridedSlice S1000000x32 ![0, 0]
          (Lin3 (pad S1007616x16 ![0, 0] ![7616, 0] ![0, 0] X v hp hu)
            (concatenate S16x32 1 [⟨S16x8, root⟩,
              ⟨S16x8, shapeCast S16x8 (extractStridedSlice S1x16x8 ![0, 0, 0] w hs0) hc⟩,
              ⟨S16x8, shapeCast S16x8 (extractStridedSlice S1x16x8 ![1, 0, 0] w hs1) hc⟩,
              ⟨S16x8, shapeCast S16x8 (extractStridedSlice S1x16x8 ![2, 0, 0] w hs2) hc⟩] hcatW)
            (concatenate S32 0 [⟨S8, b⟩, ⟨S24, broadcastInDim S24 ![] hbz (constant S_ .f32 0x00000000#32)⟩] hcatB))
          hrows) hcol
      = Cert.RefSpec.msg2_0 (Cert.RefSpec.relu16 X) w := by
  funext i
  obtain ⟨r, q, rfl⟩ : ∃ (r : Fin 1000000) (q : Fin 8), i = ix2 r q := ⟨i 0, i 1, eq_ix2 i⟩
  have hq := q.isLt
  rw [slice_cols_eq 8, lin3_rows_apply]
  unfold Cert.RefSpec.msg2_0
  simp only [Host.dotGeneral]
  rw [refdot3_eq, plain_dotGeneral_apply]
  rw [concat2_vec_right b _ hcatB _ (⟨q.val, by omega⟩ : Fin 24) rfl, zero_splat_apply, add_zero]
  refine Finset.sum_congr rfl fun k _ => ?_
  rw [concat4_cols_1 _ _ _ _ hcatW k _ q rfl, ref_relu3_apply]

/-- The band of 8 columns from column 16 on is the reference's messages of relation 1: the input times that relation's
    weight matrix (the joined weights' columns 16 + q are that matrix's columns q, and the joined bias is zero there). -/
theorem lin3_msg1 (X : FVec Ideal S1000000x16 .f32) (v : FVec Ideal S_ .f32) (root : FVec Ideal S16x8 .f32)
    (w : FVec Ideal S3x16x8 .f32) (b : FVec Ideal S8 .f32)
    (hp : S1000000x16.Pads (![0, 0] : Fin 2 → Nat) ![7616, 0] ![0, 0] S1007616x16) (hu : 0 < S_.numel)
    (hs0 : S3x16x8.Slices ![0, 0, 0] S1x16x8) (hs1 : S3x16x8.Slices ![1, 0, 0] S1x16x8)
    (hs2 : S3x16x8.Slices ![2, 0, 0] S1x16x8) (hc : S1x16x8.ShapeCasts S16x8)
    (hcatW : Shape.Concatenates [S16x8, S16x8, S16x8, S16x8] S16x32 1)
    (hbz : S_.BroadcastsInDim S24 (![] : Fin 0 → Fin S24.rank))
    (hcatB : Shape.Concatenates [S8, S24] S32 0)
    (hrows : S1007616x32.Slices ![0, 0] S1000000x32)
    (hcol : S1000000x32.Slices ![0, 16] S1000000x8) :
    extractStridedSlice S1000000x8 ![0, 16]
        (extractStridedSlice S1000000x32 ![0, 0]
          (Lin3 (pad S1007616x16 ![0, 0] ![7616, 0] ![0, 0] X v hp hu)
            (concatenate S16x32 1 [⟨S16x8, root⟩,
              ⟨S16x8, shapeCast S16x8 (extractStridedSlice S1x16x8 ![0, 0, 0] w hs0) hc⟩,
              ⟨S16x8, shapeCast S16x8 (extractStridedSlice S1x16x8 ![1, 0, 0] w hs1) hc⟩,
              ⟨S16x8, shapeCast S16x8 (extractStridedSlice S1x16x8 ![2, 0, 0] w hs2) hc⟩] hcatW)
            (concatenate S32 0 [⟨S8, b⟩, ⟨S24, broadcastInDim S24 ![] hbz (constant S_ .f32 0x00000000#32)⟩] hcatB))
          hrows) hcol
      = Cert.RefSpec.msg2_1 (Cert.RefSpec.relu16 X) w := by
  funext i
  obtain ⟨r, q, rfl⟩ : ∃ (r : Fin 1000000) (q : Fin 8), i = ix2 r q := ⟨i 0, i 1, eq_ix2 i⟩
  have hq := q.isLt
  rw [slice_cols_eq 16, lin3_rows_apply]
  unfold Cert.RefSpec.msg2_1
  simp only [Host.dotGeneral]
  rw [refdot3_eq, plain_dotGeneral_apply]
  rw [concat2_vec_right b _ hcatB _ (⟨8 + q.val, by omega⟩ : Fin 24) (by show 16 + q.val = 8 + (8 + q.val); omega), zero_splat_apply, add_zero]
  refine Finset.sum_congr rfl fun k _ => ?_
  rw [concat4_cols_2 _ _ _ _ hcatW k _ q (by show 16 + q.val = 8 + 8 + q.val; omega), ref_relu3_apply]

/-- The band of 8 columns from column 24 on is the reference's messages of relation 2: the input times that relation's
    weight matrix (the joined weights' columns 24 + q are that matrix's columns q, and the joined bias is zero there). -/
theorem lin3_msg2 (X : FVec Ideal S1000000x16 .f32) (v : FVec Ideal S_ .f32) (root : FVec Ideal S16x8 .f32)
    (w : FVec Ideal S3x16x8 .f32) (b : FVec Ideal S8 .f32)
    (hp : S1000000x16.Pads (![0, 0] : Fin 2 → Nat) ![7616, 0] ![0, 0] S1007616x16) (hu : 0 < S_.numel)
    (hs0 : S3x16x8.Slices ![0, 0, 0] S1x16x8) (hs1 : S3x16x8.Slices ![1, 0, 0] S1x16x8)
    (hs2 : S3x16x8.Slices ![2, 0, 0] S1x16x8) (hc : S1x16x8.ShapeCasts S16x8)
    (hcatW : Shape.Concatenates [S16x8, S16x8, S16x8, S16x8] S16x32 1)
    (hbz : S_.BroadcastsInDim S24 (![] : Fin 0 → Fin S24.rank))
    (hcatB : Shape.Concatenates [S8, S24] S32 0)
    (hrows : S1007616x32.Slices ![0, 0] S1000000x32)
    (hcol : S1000000x32.Slices ![0, 24] S1000000x8) :
    extractStridedSlice S1000000x8 ![0, 24]
        (extractStridedSlice S1000000x32 ![0, 0]
          (Lin3 (pad S1007616x16 ![0, 0] ![7616, 0] ![0, 0] X v hp hu)
            (concatenate S16x32 1 [⟨S16x8, root⟩,
              ⟨S16x8, shapeCast S16x8 (extractStridedSlice S1x16x8 ![0, 0, 0] w hs0) hc⟩,
              ⟨S16x8, shapeCast S16x8 (extractStridedSlice S1x16x8 ![1, 0, 0] w hs1) hc⟩,
              ⟨S16x8, shapeCast S16x8 (extractStridedSlice S1x16x8 ![2, 0, 0] w hs2) hc⟩] hcatW)
            (concatenate S32 0 [⟨S8, b⟩, ⟨S24, broadcastInDim S24 ![] hbz (constant S_ .f32 0x00000000#32)⟩] hcatB))
          hrows) hcol
      = Cert.RefSpec.msg2_2 (Cert.RefSpec.relu16 X) w := by
  funext i
  obtain ⟨r, q, rfl⟩ : ∃ (r : Fin 1000000) (q : Fin 8), i = ix2 r q := ⟨i 0, i 1, eq_ix2 i⟩
  have hq := q.isLt
  rw [slice_cols_eq 24, lin3_rows_apply]
  unfold Cert.RefSpec.msg2_2
  simp only [Host.dotGeneral]
  rw [refdot3_eq, plain_dotGeneral_apply]
  rw [concat2_vec_right b _ hcatB _ (⟨16 + q.val, by omega⟩ : Fin 24) (by show 24 + q.val = 8 + (16 + q.val); omega), zero_splat_apply, add_zero]
  refine Finset.sum_congr rfl fun k _ => ?_
  rw [concat4_cols_3 _ _ _ _ hcatW k _ q (by show 24 + q.val = 8 + 8 + 8 + q.val; omega), ref_relu3_apply]

end Cert.KernelIdeal.Val

end
-- ==== Proof.ChainL2.lean ====
import proofs.«415972_j72490458022035_1_alg».proof.Proof.KIFold
import proofs.«415972_j72490458022035_1_alg».proof.Proof.KIKeep
import proofs.«415972_j72490458022035_1_alg».proof.Proof.KIHost0
import proofs.«415972_j72490458022035_1_alg».proof.Proof.KIHost3
import proofs.«415972_j72490458022035_1_alg».proof.Proof.KIHost4
import proofs.«415972_j72490458022035_1_alg».proof.Proof.LinArr3
import proofs.«415972_j72490458022035_1_alg».proof.Proof.LinCols3
import proofs.«415972_j72490458022035_1_alg».proof.Proof.RefSpec

set_option maxRecDepth 16384

noncomputable section

namespace Cert.KernelIdeal.Chain

open Idealize.ShloMosaic Idealize.ShloMosaic.TcCoe Idealize.SL.Sem
open Cert.KernelIdeal Cert.KernelIdeal.Gen

variable [Cert.ReferenceIdeal.Facts₀]
variable (m : (ℓ : Loc nD τ sig) → Buf (Elt Ideal) ℓ) (ρ : Dev nD → PrngReg) (c : Dev nD)

theorem src_at14 : W14 m ρ c (Proc.devRef .tc main_v1) = Cert.Tail.srcOf (m ((c : Thread nD τ).loc main_arg2)) :=
  (keep14_main_v1 m ρ c).trans (Host.h0_main_v1 (W0 m ρ c))

theorem dst_at14 : W14 m ρ c (Proc.devRef .tc main_v3) = Cert.Tail.dstOf (m ((c : Thread nD τ).loc main_arg2)) :=
  (keep14_main_v3 m ρ c).trans (Host.h0_main_v3 (W0 m ρ c))

theorem et_at14 : W14 m ρ c (Proc.devRef .tc main_arg3) = m ((c : Thread nD τ).loc main_arg3) := arg14_3 m ρ c

theorem y2_at14 : W14 m ρ c (Proc.devRef .tc main_v202)
    = Val.Lin3 (W13 m ρ c (Proc.devRef .tc main_v201)) (W13 m ρ c (Proc.devRef .tc main_v198))
        (W13 m ρ c (Proc.devRef .tc main_v200)) :=
  (W14_arr m ρ c 3).trans (Val.lin3_arr (V13 m ρ) c)

theorem xpad_at13 : W13 m ρ c (Proc.devRef .tc main_v201)
    = pad S1007616x16 ![0, 0] ![7616, 0] ![0, 0] (W12 m ρ c (Proc.devRef .tc main_v191))
        (sitofp (F := Ideal) .f32 (W12 m ρ c (Proc.devRef .tc main_c_41))) pads_S1000000x16_S1007616x16_076160_000 h_S_ :=
  Host.h3_1_main_v201 (W12 m ρ c)

theorem wfull_at13 : W13 m ρ c (Proc.devRef .tc main_v198)
    = (concatenate S16x32 1
        [⟨S16x8, (m ((c : Thread nD τ).loc main_arg13) : FVec Ideal S16x8 .f32)⟩,
         ⟨S16x8, shapeCast S16x8 (extractStridedSlice S1x16x8 ![0, 0, 0] (m ((c : Thread nD τ).loc main_arg12) : FVec Ideal S3x16x8 .f32) slices_S3x16x8_S1x16x8_0_0_0) shapeCasts_S1x16x8_S16x8⟩,
         ⟨S16x8, shapeCast S16x8 (extractStridedSlice S1x16x8 ![1, 0, 0] (m ((c : Thread nD τ).loc main_arg12) : FVec Ideal S3x16x8 .f32) slices_S3x16x8_S1x16x8_1_0_0) shapeCasts_S1x16x8_S16x8⟩,
         ⟨S16x8, shapeCast S16x8 (extractStridedSlice S1x16x8 ![2, 0, 0] (m ((c : Thread nD τ).loc main_arg12) : FVec Ideal S3x16x8 .f32) slices_S3x16x8_S1x16x8_2_0_0) shapeCasts_S1x16x8_S16x8⟩]
        concatenates_S16x8_S16x8_S16x8_S16x8_S16x32_d1 : FVec Ideal S16x32 .f32) := by
  rw [keep13_main_v198 m ρ c, ← arg11_13 m ρ c, ← arg11_12 m ρ c]
  exact Host.h3_main_v198 (W11 m ρ c)

theorem bfull_at13 : W13 m ρ c (Proc.devRef .tc main_v200)
    = (concatenate S32 0
        [⟨S8, (m ((c : Thread nD τ).loc main_arg14) : FVec Ideal S8 .f32)⟩,
         ⟨S24, broadcastInDim S24 ![] bcast_S_S24 (constant (F := Ideal) S_ .f32 0x00000000#32)⟩]
        concatenates_S8_S24_S32_d0 : FVec Ideal S32 .f32) := by
  rw [keep13_main_v200 m ρ c, ← arg11_14 m ρ c]
  exact Host.h3_main_v200 (W11 m ρ c)

theorem y2_full : W14 m ρ c (Proc.devRef .tc main_v202)
    = Val.Lin3
        (pad S1007616x16 ![0, 0] ![7616, 0] ![0, 0] (W12 m ρ c (Proc.devRef .tc main_v191))
          (sitofp (F := Ideal) .f32 (W12 m ρ c (Proc.devRef .tc main_c_41))) pads_S1000000x16_S1007616x16_076160_000 h_S_)
        (concatenate S16x32 1
          [⟨S16x8, (m ((c : Thread nD τ).loc main_arg13) : FVec Ideal S16x8 .f32)⟩,
           ⟨S16x8, shapeCast S16x8 (extractStridedSlice S1x16x8 ![0, 0, 0] (m ((c : Thread nD τ).loc main_arg12) : FVec Ideal S3x16x8 .f32) slices_S3x16x8_S1x16x8_0_0_0) shapeCasts_S1x16x8_S16x8⟩,
           ⟨S16x8, shapeCast S16x8 (extractStridedSlice S1x16x8 ![1, 0, 0] (m ((c : Thread nD τ).loc main_arg12) : FVec Ideal S3x16x8 .f32) slices_S3x16x8_S1x16x8_1_0_0) shapeCasts_S1x16x8_S16x8⟩,
           ⟨S16x8, shapeCast S16x8 (extractStridedSlice S1x16x8 ![2, 0, 0] (m ((c : Thread nD τ).loc main_arg12) : FVec Ideal S3x16x8 .f32) slices_S3x16x8_S1x16x8_2_0_0) shapeCasts_S1x16x8_S16x8⟩]
          concatenates_S16x8_S16x8_S16x8_S16x8_S16x32_d1)
        (concatenate S32 0
          [⟨S8, (m ((c : Thread nD τ).loc main_arg14) : FVec Ideal S8 .f32)⟩,
           ⟨S24, broadcastInDim S24 ![] bcast_S_S24 (constant (F := Ideal) S_ .f32 0x00000000#32)⟩]
          concatenates_S8_S24_S32_d0) := by
  rw [y2_at14, xpad_at13, wfull_at13, bfull_at13]

theorem cur3_cols : W15 m ρ c (Proc.devRef .tc main_v282)
    = (addf (addf (addf
        (extractStridedSlice S1000000x8 ![0, 0] (extractStridedSlice S1000000x32 ![0, 0] (W14 m ρ c (Proc.devRef .tc main_v202)) slices_S1007616x32_S1000000x32_0_0) slices_S1000000x32_S1000000x8_0_0)
        (Cert.Tail.rel8 (extractStridedSlice S1000000x8 ![0, 8] (extractStridedSlice S1000000x32 ![0, 0] (W14 m ρ c (Proc.devRef .tc main_v202)) slices_S1007616x32_S1000000x32_0_0) slices_S1000000x32_S1000000x8_0_8)
          (Cert.Tail.srcOf (m ((c : Thread nD τ).loc main_arg2))) (Cert.Tail.dstOf (m ((c : Thread nD τ).loc main_arg2))) (Cert.Tail.maskOf 0#32 (m ((c : Thread nD τ).loc main_arg3)))))
        (Cert.Tail.rel8 (extractStridedSlice S1000000x8 ![0, 16] (extractStridedSlice S1000000x32 ![0, 0] (W14 m ρ c (Proc.devRef .tc main_v202)) slices_S1007616x32_S1000000x32_0_0) slices_S1000000x32_S1000000x8_0_16)
          (Cert.Tail.srcOf (m ((c : Thread nD τ).loc main_arg2))) (Cert.Tail.dstOf (m ((c : Thread nD τ).loc main_arg2))) (Cert.Tail.maskOf 1#32 (m ((c : Thread nD τ).loc main_arg3)))))
        (Cert.Tail.rel8 (extractStridedSlice S1000000x8 ![0, 24] (extractStridedSlice S1000000x32 ![0, 0] (W14 m ρ c (Proc.devRef .tc main_v202)) slices_S1007616x32_S1000000x32_0_0) slices_S1000000x32_S1000000x8_0_24)
          (Cert.Tail.srcOf (m ((c : Thread nD τ).loc main_arg2))) (Cert.Tail.dstOf (m ((c : Thread nD τ).loc main_arg2))) (Cert.Tail.maskOf 2#32 (m ((c : Thread nD τ).loc main_arg3)))) : FVec Ideal S1000000x8 .f32) := by
  rw [← src_at14 m ρ c, ← dst_at14 m ρ c, ← et_at14 m ρ c]
  exact Host.h4_main_v282 (W14 m ρ c)

theorem cur3_at15 : W15 m ρ c (Proc.devRef .tc main_v282)
    = Cert.RefSpec.out2 (F := Ideal) (Cert.RefSpec.relu16 (W12 m ρ c (Proc.devRef .tc main_v191)))
        (m ((c : Thread nD τ).loc main_arg13)) (m ((c : Thread nD τ).loc main_arg14)) (m ((c : Thread nD τ).loc main_arg12))
        (m ((c : Thread nD τ).loc main_arg2)) (m ((c : Thread nD τ).loc main_arg3)) := by
  rw [cur3_cols, y2_full]
  rw [Val.lin3_own, Val.lin3_msg0, Val.lin3_msg1, Val.lin3_msg2]
  rfl

end Cert.KernelIdeal.Chain

end
-- ==== Proof.KIHost5.lean ====
import proofs.«415972_j72490458022035_1_alg».proof.Proof.Gen.KernelIdeal.Launch
import proofs.«415972_j72490458022035_1_alg».proof.Proof.Tail4
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F] [Cert.ReferenceIdeal.Facts₀]

set_option maxHeartbeats 4000000 in

theorem h5_main_v373 (W : Valuation τ sig (Elt F)) :
    after (hostOps5 (F := F)) W (Proc.devRef .tc main_v373)
      = addf (addf (addf
          (extractStridedSlice S1000000x4 ![0, 0] (extractStridedSlice S1000000x16 ![0, 0] (W (Proc.devRef .tc main_v293)) slices_S1007616x16_S1000000x16_0_0) slices_S1000000x16_S1000000x4_0_0)
          (Cert.Tail.rel4 (extractStridedSlice S1000000x4 ![0, 4] (extractStridedSlice S1000000x16 ![0, 0] (W (Proc.devRef .tc main_v293)) slices_S1007616x16_S1000000x16_0_0) slices_S1000000x16_S1000000x4_0_4)
            (W (Proc.devRef .tc main_v1)) (W (Proc.devRef .tc main_v3)) (Cert.Tail.maskOf 0#32 (W (Proc.devRef .tc main_arg3)))))
          (Cert.Tail.rel4 (extractStridedSlice S1000000x4 ![0, 8] (extractStridedSlice S1000000x16 ![0, 0] (W (Proc.devRef .tc main_v293)) slices_S1007616x16_S1000000x16_0_0) slices_S1000000x16_S1000000x4_0_8)
            (W (Proc.devRef .tc main_v1)) (W (Proc.devRef .tc main_v3)) (Cert.Tail.maskOf 1#32 (W (Proc.devRef .tc main_arg3)))))
          (Cert.Tail.rel4 (extractStridedSlice S1000000x4 ![0, 12] (extractStridedSlice S1000000x16 ![0, 0] (W (Proc.devRef .tc main_v293)) slices_S1007616x16_S1000000x16_0_0) slices_S1000000x16_S1000000x4_0_12)
            (W (Proc.devRef .tc main_v1)) (W (Proc.devRef .tc main_v3)) (Cert.Tail.maskOf 2#32 (W (Proc.devRef .tc main_arg3)))) := by
  after_results_simp
  rfl

set_option maxHeartbeats 4000000 in

theorem h5_1_main_v374 (W : Valuation τ sig (Elt F)) :
    after (hostOps5_1 (F := F)) W (Proc.devRef .tc main_v374)
      = pad S1007616x4 ![0, 0] ![7616, 0] ![0, 0] (W (Proc.devRef .tc main_v373))
          (sitofp (F := F) .f32 (W (Proc.devRef .tc main_c_80))) pads_S1000000x4_S1007616x4_076160_000 h_S_ := by
  after_results
  rfl

end Cert.KernelIdeal.Host

end
-- ==== Proof.LinPay4.lean ====
/- The arithmetic of the fourth linear layer's block, read at one entry: a row block x of 8192 rows and 8 features is
   first rectified (the maximum with zero, entry by entry), then multiplied by the weight matrix w (8 x 16), and the bias
   row b (16) is added:  (∑ k, max (x (p, k)) 0 * w (k, q)) + b q  at row p, column q. At the extended reals the change of
   float format before the product is the identity, the zero word is the real 0, and the product into the zero accumulator
   is the plain sum. -/
import proofs.«415972_j72490458022035_1_alg».proof.Proof.Gen.KernelIdeal.Skeleton
import proofs.«415972_j72490458022035_1_alg».proof.Proof.PlainDot
import Idealize.ShloMosaic.Lib.ValueLayout

open Idealize.ShloMosaic Idealize.ShloMosaic.ValueIdx
open scoped BigOperators

namespace Cert.KernelIdeal.Val

open Cert.KernelIdeal Cert.KernelIdeal.Gen Cert.KernelIdeal.Facts₀ Cert.KernelIdeal.Facts

/-- The block's product is a plain matrix product. -/
theorem dot4_eq : dot_S8192x8_S8x16_S8192x16_1_0_0_1_n_n = plainDims Facts₀.dot_S8192x8_S8x16_S8192x16_1_0_0_1_n_n_wf := rfl

/-- The fourth layer's block at (p, q). -/
theorem k4_pay1_apply (x : FVec Ideal S8192x8 .f32) (w : FVec Ideal S8x16 .f32) (b : FVec Ideal S16 .f32)
    (p : Fin 8192) (q : Fin 16) :
    k4_pay1 (F := Ideal) x w b (ix2 p q) = (∑ k : Fin 8, max (x (ix2 p k)) 0 * w (ix2 k q)) + b (ix1 q) := by
  unfold k4_pay1
  rw [shapeCast_self, shapeCast_self, shapeCast_self]
  refine (addf_apply _ _ _).trans ?_
  refine congrArg₂ (· + ·) ?_ ?_
  · rw [dot4_eq]
    refine (plain_matmul_zero_apply _ none _ w p q).trans ?_
    refine Finset.sum_congr rfl fun k _ => ?_
    show max (x (ix2 p k)) (Ideal.ofBits .f32 0x00000000#32) * w (ix2 k q) = _
    rw [Ideal.ofBits_zero_f32]
  · rw [broadcastTo_1b_ab_apply, shapeCast_a_1a_apply]

end Cert.KernelIdeal.Val
-- ==== Proof.LinArr4.lean ====
/- The fourth linear layer's output array in closed form. The region runs 123 grid points; point t reads rows
   8192 t … 8192 t + 8191 of the padded input (all 8 columns), the whole weight matrix and the whole bias row, and writes
   back rows 8192 t … 8192 t + 8191 of the output (all 16 columns). Each written entry is the block's arithmetic at that
   entry, which depends on the input only through the entry's own row; the 123 row blocks cover the 1007616 rows, so the
   output array ends as ONE function of the three arrays:  Y (i, q) = (∑ k, max (X (i, k)) 0 * W (k, q)) + B q  (the input rectified first). -/
import proofs.«415972_j72490458022035_1_alg».proof.Proof.KIBody4
import proofs.«415972_j72490458022035_1_alg».proof.Proof.LinPay4
import Idealize.ShloMosaic.Lib.Pipeline.Value

noncomputable section

open Idealize.ShloMosaic Idealize.ShloMosaic.TcCoe Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Facts₀ Cert.KernelIdeal.Facts

/-- The layer as one function of the padded input, the weight matrix and the bias row. -/
def Lin4 (X : FVec Ideal S1007616x8 .f32) (Wt : FVec Ideal S8x16 .f32) (B : FVec Ideal S16 .f32) :
    FVec Ideal S1007616x16 .f32 :=
  fun i => (∑ k : Fin 8, max (X (ix2 (n0 := 1007616) (i 0) k)) 0 * Wt (ix2 (n1 := 16) k (i 1))) + B (ix1 (n := 16) (i 1))

/-- … read at (r, q). -/
theorem Lin4_apply (X : FVec Ideal S1007616x8 .f32) (Wt : FVec Ideal S8x16 .f32) (B : FVec Ideal S16 .f32)
    (r : Fin 1007616) (q : Fin 16) :
    Lin4 X Wt B (ix2 r q) = (∑ k : Fin 8, max (X (ix2 r k)) 0 * Wt (ix2 k q)) + B (ix1 q) := rfl

-- the buffer contents of the core when the region is entered
variable (V : (c : Dev nD) → (b : Ref sig .tc) → Buf (Elt Ideal) ((c : Thread nD τ).loc b))

private theorem zeros2 : (![0, 0] : Fin 2 → Nat) = fun _ => 0 := funext fun a => by fin_cases a <;> rfl
private theorem zeros1 : (![0] : Fin 1 → Nat) = fun _ => 0 := funext fun a => by fin_cases a <;> rfl

/-- The windows' block indices at point t, decided over the grid: the row block t of the input and of the output,
    block 0 of everything else. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The input's block at point t, at (p, k), is the array at row 8192 t + p. -/
theorem iblk4_0_apply (c : Dev nD) (t : Fin cfg4.N) (p : Fin 8192) (k : Fin 8) (r : Fin 1007616)
    (hr : r.val = 8192 * t.val + p.val) :
    (iblk4 V c 0 t : Vec Ideal S8192x8 .f32) (ix2 p k) = (V c main_v292 : S1007616x8.Idx → EReal) (ix2 r k) := by
  obtain ⟨e0, e1, -⟩ := idx_facts4 t
  unfold iblk4
  rw [View.read_apply]
  show V c main_v292 _ = V c main_v292 _
  refine congrArg (V c main_v292) ?_
  funext a; apply Fin.ext
  match a with
  | ⟨0, _⟩ => show win4_0.index t (0 : Fin 2) * 8192 + 1 * p.val = r.val; rw [e0, hr]; omega
  | ⟨1, _⟩ => show win4_0.index t (1 : Fin 2) * 8 + 1 * k.val = k.val; rw [e1]; omega

/-- The weight window's one block is the weight array. -/
theorem iblk4_1_apply (c : Dev nD) (t : Fin cfg4.N) (k : Fin 8) (q : Fin 16) :
    (iblk4 V c 1 t : Vec Ideal S8x16 .f32) (ix2 k q) = (V c main_v289 : S8x16.Idx → EReal) (ix2 k q) := by
  obtain ⟨-, -, e2, e3, -⟩ := idx_facts4 t
  unfold iblk4
  rw [View.read_apply]
  show V c main_v289 _ = V c main_v289 _
  refine congrArg (V c main_v289) ?_
  funext a; apply Fin.ext
  match a with
  | ⟨0, _⟩ => show win4_1.index t (0 : Fin 2) * 8 + 1 * k.val = k.val; rw [e2]; omega
  | ⟨1, _⟩ => show win4_1.index t (1 : Fin 2) * 16 + 1 * q.val = q.val; rw [e3]; omega

/-- The bias window's one block is the bias array. -/
theorem iblk4_2_apply (c : Dev nD) (t : Fin cfg4.N) (q : Fin 16) :
    (iblk4 V c 2 t : Vec Ideal S16 .f32) (ix1 q) = (V c main_v291 : S16.Idx → EReal) (ix1 q) := by
  obtain ⟨-, -, -, -, e4, -⟩ := idx_facts4 t
  unfold iblk4
  rw [View.read_apply]
  show V c main_v291 _ = V c main_v291 _
  refine congrArg (V c main_v291) ?_
  funext a; apply Fin.ext
  match a with
  | ⟨0, _⟩ => show win4_2.index t (0 : Fin 1) * 16 + 1 * q.val = q.val; rw [e4]; omega

/-- What point t writes back is block t of the closed form of the arrays as the region finds them. -/
theorem flushed4_eq (c : Dev nD) (t : Fin cfg4.N) :
    (dat4 V c).flushed 3 t
      = ((cfg4.win 3).blk t).view.read (Elt Ideal) (Lin4 (V c main_v292) (V c main_v289) (V c main_v291)) := by
  show (cfg4.win 3).cut (grid4.coords t) ((dat4 V c).after 3 t) = _
  rw [after4_3]
  unfold out4_3
  rw [View.canon_unit_zero zeros2]
  simp only [View.ld_unit_zero (S := S8192x8) zeros2, View.ld_unit_zero (S := S8x16) zeros2,
    View.ld_unit_zero (S := S16) zeros1]
  funext j
  obtain ⟨p, q, rfl⟩ : ∃ (p : Fin 8192) (q : Fin 16), j = ix2 p q := ⟨j 0, j 1, eq_ix2 j⟩
  have hN : cfg4.N = 123 := N_4
  have ht : t.val < 123 := hN ▸ t.isLt
  obtain ⟨-, -, -, -, -, e5, e6⟩ := idx_facts4 t
  have hemb : ((cfg4.win 3).blk t).view.emb (ix2 p q) = ix2 (⟨8192 * t.val + p.val, by omega⟩ : Fin 1007616) q := by
    funext a; apply Fin.ext
    match a with
    | ⟨0, _⟩ => show win4_3.index t (0 : Fin 2) * 8192 + 1 * p.val = 8192 * t.val + p.val; rw [e5]; omega
    | ⟨1, _⟩ => show win4_3.index t (1 : Fin 2) * 16 + 1 * q.val = q.val; rw [e6]; omega
  rw [View.read_apply, hemb, Lin4_apply]
  refine (k4_pay1_apply (iblk4 V c 0 t) (iblk4 V c 1 t) (iblk4 V c 2 t) p q).trans ?_
  refine congrArg₂ (· + ·) (Finset.sum_congr rfl fun k _ => ?_) (iblk4_2_apply V c t q)
  rw [iblk4_0_apply V c t p k ⟨8192 * t.val + p.val, by omega⟩ rfl, iblk4_1_apply V c t k q]

/-- An index of the output array is in point t's block iff each coordinate is in the block's range on its axis. -/
theorem mem_blk4 (t : Fin cfg4.N) (i : S1007616x16.Idx) :
    i ∈ ((cfg4.win 3).blk t).view.set ↔ ∀ a : Fin 2, win4_3.index t a * S8192x16.size a ≤ (i a).val
      ∧ (i a).val < win4_3.index t a * S8192x16.size a + S8192x16.size a := by
  show i ∈ ((View.whole main_v293).slice (win4_3.rect t)).set ↔ _
  rw [View.set_slice_whole, Rect.mem_set_unit]
  exact Iff.rfl

/-- THE ARRAY after the region: the closed form of the three arrays as the region finds them. The point that covers
    row r is r / 8192. -/
theorem lin4_arr (c : Dev nD) :
    (dat4 V c).arrAt 3 cfg4.N = Lin4 (V c main_v292) (V c main_v289) (V c main_v291) :=
  (dat4 V c).arrAt_eq_of_cover 3 _ (fun t _ => flushed4_eq V c t) (fun i => by
    have hi0 : (i 0).val < 1007616 := (i 0).isLt
    have hi1 : (i 1).val < 16 := (i 1).isLt
    have hN : cfg4.N = 123 := N_4
    have hlt : (i 0).val / 8192 < cfg4.N := by rw [hN]; omega
    obtain ⟨-, -, -, -, -, e5, e6⟩ := idx_facts4 ⟨(i 0).val / 8192, hlt⟩
    refine ⟨⟨(i 0).val / 8192, hlt⟩, flush4_3 _, ?_⟩
    rw [mem_blk4]
    intro a
    match a with
    | ⟨0, _⟩ =>
      show win4_3.index ⟨(i 0).val / 8192, hlt⟩ (0 : Fin 2) * 8192 ≤ (i 0).val
        ∧ (i 0).val < win4_3.index ⟨(i 0).val / 8192, hlt⟩ (0 : Fin 2) * 8192 + 8192
      rw [e5]; show (i 0).val / 8192 * 8192 ≤ (i 0).val ∧ (i 0).val < (i 0).val / 8192 * 8192 + 8192; omega
    | ⟨1, _⟩ =>
      show win4_3.index ⟨(i 0).val / 8192, hlt⟩ (1 : Fin 2) * 16 ≤ (i 1).val
        ∧ (i 1).val < win4_3.index ⟨(i 0).val / 8192, hlt⟩ (1 : Fin 2) * 16 + 16
      rw [e6]; omega)

end Cert.KernelIdeal.Val

end
-- ==== Proof.LinCols4.lean ====
/- The fourth linear layer's four bands of columns against the reference's four products. The kernel's program pads
   the input's rows with 7616 further rows, runs the layer on the joined weights [root | W_0 | W_1 | W_2] (8 x 16) and the
   joined bias [b | 0 … 0] (16), cuts the padded rows off again and cuts the result into four bands of 4 columns. A kept
   row never reads a padded row, the joined weights' column 4 p + q is column q of the p-th matrix, and the joined bias is
   b on the first band and zero on the others; so, with R = max X 0
   the input rectified (the reference computes it first), the first band is R·root + b spread over the rows and the band of
   relation r is R·W_r, which is what the reference computes with four separate products. -/
import proofs.«415972_j72490458022035_1_alg».proof.Proof.LinArr4
import proofs.«415972_j72490458022035_1_alg».proof.Proof.LinLib
import proofs.«415972_j72490458022035_1_alg».proof.Proof.LibRows
import proofs.«415972_j72490458022035_1_alg».proof.Proof.RefSpec

noncomputable section

open Idealize.ShloMosaic Idealize.ShloMosaic.ValueIdx
open scoped BigOperators

namespace Cert.KernelIdeal.Val

open Cert.KernelIdeal

-- the reference program's stated side conditions (its shapes are the kernel program's, by name and by value)
variable [Cert.ReferenceIdeal.Facts₀]

/-- The reference's product of this layer is a plain matrix product. -/
theorem refdot4_eq : Cert.ReferenceIdeal.dot_S1000000x8_S8x4_S1000000x4_1_0_0_1_n_n
    = plainDims Cert.ReferenceIdeal.Facts₀.dot_S1000000x8_S8x4_S1000000x4_1_0_0_1_n_n_wf := rfl

/-- The reference rectifies the layer's input first: the maximum with zero, entry by entry. -/
theorem ref_relu4_apply (X : FVec Ideal S1000000x8 .f32) (i : S1000000x8.Idx) :
    Cert.RefSpec.relu8 X i = max (X i) 0 :=
  relu_apply X _ i

/-- The layer on the padded input, its padded rows cut off again, at a kept row r: the unpadded input's row r enters. -/
theorem lin4_rows_apply (X : FVec Ideal S1000000x8 .f32) (v : FVec Ideal S_ .f32) (Wc : FVec Ideal S8x16 .f32)
    (Bc : FVec Ideal S16 .f32)
    (hp : S1000000x8.Pads (![0, 0] : Fin 2 → Nat) ![7616, 0] ![0, 0] S1007616x8) (hu : 0 < S_.numel)
    (hrows : S1007616x16.Slices ![0, 0] S1000000x16) (r : Fin 1000000) (c : Fin 16) :
    extractStridedSlice S1000000x16 ![0, 0] (Lin4 (pad S1007616x8 ![0, 0] ![7616, 0] ![0, 0] X v hp hu) Wc Bc) hrows (ix2 r c)
      = (∑ k : Fin 8, max (X (ix2 r k)) 0 * Wc (ix2 k c)) + Bc (ix1 c) := by
  rw [slice_rows_eq, Lin4_apply]
  refine congrArg₂ (· + ·) (Finset.sum_congr rfl fun k _ => ?_) rfl
  rw [pad_rows_eq X v hp hu _ k r.isLt]

/-- The first band of 4 columns is the reference's own transform: the input times the root weights plus the bias spread
    over the rows. -/
theorem lin4_own (X : FVec Ideal S1000000x8 .f32) (v : FVec Ideal S_ .f32) (root : FVec Ideal S8x4 .f32)
    (w : FVec Ideal S3x8x4 .f32) (b : FVec Ideal S4 .f32)
    (hp : S1000000x8.Pads (![0, 0] : Fin 2 → Nat) ![7616, 0] ![0, 0] S1007616x8) (hu : 0 < S_.numel)
    (hs0 : S3x8x4.Slices ![0, 0, 0] S1x8x4) (hs1 : S3x8x4.Slices ![1, 0, 0] S1x8x4)
    (hs2 : S3x8x4.Slices ![2, 0, 0] S1x8x4) (hc : S1x8x4.ShapeCasts S8x4)
    (hcatW : Shape.Concatenates [S8x4, S8x4, S8x4, S8x4] S8x16 1)
    (hbz : S_.BroadcastsInDim S12 (![] : Fin 0 → Fin S12.rank))
    (hcatB : Shape.Concatenates [S4, S12] S16 0)
    (hrows : S1007616x16.Slices ![0, 0] S1000000x16)
    (hcol : S1000000x16.Slices ![0, 0] S1000000x4) :
    extractStridedSlice S1000000x4 ![0, 0]
        (extractStridedSlice S1000000x16 ![0, 0]
          (Lin4 (pad S1007616x8 ![0, 0] ![7616, 0] ![0, 0] X v hp hu)
            (concatenate S8x16 1 [⟨S8x4, root⟩,
              ⟨S8x4, shapeCast S8x4 (extractStridedSlice S1x8x4 ![0, 0, 0] w hs0) hc⟩,
              ⟨S8x4, shapeCast S8x4 (extractStridedSlice S1x8x4 ![1, 0, 0] w hs1) hc⟩,
              ⟨S8x4, shapeCast S8x4 (extractStridedSlice S1x8x4 ![2, 0, 0] w hs2) hc⟩] hcatW)
            (concatenate S16 0 [⟨S4, b⟩, ⟨S12, broadcastInDim S12 ![] hbz (constant S_ .f32 0x00000000#32)⟩] hcatB))
          hrows) hcol
      = Cert.RefSpec.own3 (Cert.RefSpec.relu8 X) root b := by
  funext i
  obtain ⟨r, q, rfl⟩ : ∃ (r : Fin 1000000) (q : Fin 4), i = ix2 r q := ⟨i 0, i 1, eq_ix2 i⟩
  rw [slice_cols_eq 0, lin4_rows_apply]
  unfold Cert.RefSpec.own3
  rw [addf_apply]
  simp only [Host.dotGeneral]
  rw [refdot4_eq, plain_dotGeneral_apply, bias_rows_apply]
  refine congrArg₂ (· + ·) (Finset.sum_congr rfl fun k _ => ?_) ?_
  · rw [concat4_cols_0 _ _ _ _ hcatW k _ q (Nat.zero_add _), ref_relu4_apply]
  · exact concat2_vec_left b _ hcatB _ q (Nat.zero_add _)

/-- The band of 4 columns from column 4 on is the reference's messages of relation 0: the input times that relation's
    weight matrix (the joined weights' columns 4 + q are that matrix's columns q, and the joined bias is zero there). -/
theorem lin4_msg0 (X : FVec Ideal S1000000x8 .f32) (v : FVec Ideal S_ .f32) (root : FVec Ideal S8x4 .f32)
    (w : FVec Ideal S3x8x4 .f32) (b : FVec Ideal S4 .f32)
    (hp : S1000000x8.Pads (![0, 0] : Fin 2 → Nat) ![7616, 0] ![0, 0] S1007616x8) (hu : 0 < S_.numel)
    (hs0 : S3x8x4.Slices ![0, 0, 0] S1x8x4) (hs1 : S3x8x4.Slices ![1, 0, 0] S1x8x4)
    (hs2 : S3x8x4.Slices ![2, 0, 0] S1x8x4) (hc : S1x8x4.ShapeCasts S8x4)
    (hcatW : Shape.Concatenates [S8x4, S8x4, S8x4, S8x4] S8x16 1)
    (hbz : S_.BroadcastsInDim S12 (![] : Fin 0 → Fin S12.rank))
    (hcatB : Shape.Concatenates [S4, S12] S16 0)
    (hrows : S1007616x16.Slices ![0, 0] S1000000x16)
    (hcol : S1000000x16.Slices ![0, 4] S1000000x4) :
    extractStridedSlice S1000000x4 ![0, 4]
        (extractStridedSlice S1000000x16 ![0, 0]
          (Lin4 (pad S1007616x8 ![0, 0] ![7616, 0] ![0, 0] X v hp hu)
            (concatenate S8x16 1 [⟨S8x4, root⟩,
              ⟨S8x4, shapeCast S8x4 (extractStridedSlice S1x8x4 ![0, 0, 0] w hs0) hc⟩,
              ⟨S8x4, shapeCast S8x4 (extractStridedSlice S1x8x4 ![1, 0, 0] w hs1) hc⟩,
              ⟨S8x4, shapeCast S8x4 (extractStridedSlice S1x8x4 ![2, 0, 0] w hs2) hc⟩] hcatW)
            (concatenate S16 0 [⟨S4, b⟩, ⟨S12, broadcastInDim S12 ![] hbz (constant S_ .f32 0x00000000#32)⟩] hcatB))
          hrows) hcol
      = Cert.RefSpec.msg3_0 (Cert.RefSpec.relu8 X) w := by
  funext i
  obtain ⟨r, q, rfl⟩ : ∃ (r : Fin 1000000) (q : Fin 4), i = ix2 r q := ⟨i 0, i 1, eq_ix2 i⟩
  have hq := q.isLt
  rw [slice_cols_eq 4, lin4_rows_apply]
  unfold Cert.RefSpec.msg3_0
  simp only [Host.dotGeneral]
  rw [refdot4_eq, plain_dotGeneral_apply]
  rw [concat2_vec_right b _ hcatB _ (⟨q.val, by omega⟩ : Fin 12) rfl, zero_splat_apply, add_zero]
  refine Finset.sum_congr rfl fun k _ => ?_
  rw [concat4_cols_1 _ _ _ _ hcatW k _ q rfl, ref_relu4_apply]

/-- The band of 4 columns from column 8 on is the reference's messages of relation 1: the input times that relation's
    weight matrix (the joined weights' columns 8 + q are that matrix's columns q, and the joined bias is zero there). -/
theorem lin4_msg1 (X : FVec Ideal S1000000x8 .f32) (v : FVec Ideal S_ .f32) (root : FVec Ideal S8x4 .f32)
    (w : FVec Ideal S3x8x4 .f32) (b : FVec Ideal S4 .f32)
    (hp : S1000000x8.Pads (![0, 0] : Fin 2 → Nat) ![7616, 0] ![0, 0] S1007616x8) (hu : 0 < S_.numel)
    (hs0 : S3x8x4.Slices ![0, 0, 0] S1x8x4) (hs1 : S3x8x4.Slices ![1, 0, 0] S1x8x4)
    (hs2 : S3x8x4.Slices ![2, 0, 0] S1x8x4) (hc : S1x8x4.ShapeCasts S8x4)
    (hcatW : Shape.Concatenates [S8x4, S8x4, S8x4, S8x4] S8x16 1)
    (hbz : S_.BroadcastsInDim S12 (![] : Fin 0 → Fin S12.rank))
    (hcatB : Shape.Concatenates [S4, S12] S16 0)
    (hrows : S1007616x16.Slices ![0, 0] S1000000x16)
    (hcol : S1000000x16.Slices ![0, 8] S1000000x4) :
    extractStridedSlice S1000000x4 ![0, 8]
        (extractStridedSlice S1000000x16 ![0, 0]
          (Lin4 (pad S1007616x8 ![0, 0] ![7616, 0] ![0, 0] X v hp hu)
            (concatenate S8x16 1 [⟨S8x4, root⟩,
              ⟨S8x4, shapeCast S8x4 (extractStridedSlice S1x8x4 ![0, 0, 0] w hs0) hc⟩,
              ⟨S8x4, shapeCast S8x4 (extractStridedSlice S1x8x4 ![1, 0, 0] w hs1) hc⟩,
              ⟨S8x4, shapeCast S8x4 (extractStridedSlice S1x8x4 ![2, 0, 0] w hs2) hc⟩] hcatW)
            (concatenate S16 0 [⟨S4, b⟩, ⟨S12, broadcastInDim S12 ![] hbz (constant S_ .f32 0x00000000#32)⟩] hcatB))
          hrows) hcol
      = Cert.RefSpec.msg3_1 (Cert.RefSpec.relu8 X) w := by
  funext i
  obtain ⟨r, q, rfl⟩ : ∃ (r : Fin 1000000) (q : Fin 4), i = ix2 r q := ⟨i 0, i 1, eq_ix2 i⟩
  have hq := q.isLt
  rw [slice_cols_eq 8, lin4_rows_apply]
  unfold Cert.RefSpec.msg3_1
  simp only [Host.dotGeneral]
  rw [refdot4_eq, plain_dotGeneral_apply]
  rw [concat2_vec_right b _ hcatB _ (⟨4 + q.val, by omega⟩ : Fin 12) (by show 8 + q.val = 4 + (4 + q.val); omega), zero_splat_apply, add_zero]
  refine Finset.sum_congr rfl fun k _ => ?_
  rw [concat4_cols_2 _ _ _ _ hcatW k _ q (by show 8 + q.val = 4 + 4 + q.val; omega), ref_relu4_apply]

/-- The band of 4 columns from column 12 on is the reference's messages of relation 2: the input times that relation's
    weight matrix (the joined weights' columns 12 + q are that matrix's columns q, and the joined bias is zero there). -/
theorem lin4_msg2 (X : FVec Ideal S1000000x8 .f32) (v : FVec Ideal S_ .f32) (root : FVec Ideal S8x4 .f32)
    (w : FVec Ideal S3x8x4 .f32) (b : FVec Ideal S4 .f32)
    (hp : S1000000x8.Pads (![0, 0] : Fin 2 → Nat) ![7616, 0] ![0, 0] S1007616x8) (hu : 0 < S_.numel)
    (hs0 : S3x8x4.Slices ![0, 0, 0] S1x8x4) (hs1 : S3x8x4.Slices ![1, 0, 0] S1x8x4)
    (hs2 : S3x8x4.Slices ![2, 0, 0] S1x8x4) (hc : S1x8x4.ShapeCasts S8x4)
    (hcatW : Shape.Concatenates [S8x4, S8x4, S8x4, S8x4] S8x16 1)
    (hbz : S_.BroadcastsInDim S12 (![] : Fin 0 → Fin S12.rank))
    (hcatB : Shape.Concatenates [S4, S12] S16 0)
    (hrows : S1007616x16.Slices ![0, 0] S1000000x16)
    (hcol : S1000000x16.Slices ![0, 12] S1000000x4) :
    extractStridedSlice S1000000x4 ![0, 12]
        (extractStridedSlice S1000000x16 ![0, 0]
          (Lin4 (pad S1007616x8 ![0, 0] ![7616, 0] ![0, 0] X v hp hu)
            (concatenate S8x16 1 [⟨S8x4, root⟩,
              ⟨S8x4, shapeCast S8x4 (extractStridedSlice S1x8x4 ![0, 0, 0] w hs0) hc⟩,
              ⟨S8x4, shapeCast S8x4 (extractStridedSlice S1x8x4 ![1, 0, 0] w hs1) hc⟩,
              ⟨S8x4, shapeCast S8x4 (extractStridedSlice S1x8x4 ![2, 0, 0] w hs2) hc⟩] hcatW)
            (concatenate S16 0 [⟨S4, b⟩, ⟨S12, broadcastInDim S12 ![] hbz (constant S_ .f32 0x00000000#32)⟩] hcatB))
          hrows) hcol
      = Cert.RefSpec.msg3_2 (Cert.RefSpec.relu8 X) w := by
  funext i
  obtain ⟨r, q, rfl⟩ : ∃ (r : Fin 1000000) (q : Fin 4), i = ix2 r q := ⟨i 0, i 1, eq_ix2 i⟩
  have hq := q.isLt
  rw [slice_cols_eq 12, lin4_rows_apply]
  unfold Cert.RefSpec.msg3_2
  simp only [Host.dotGeneral]
  rw [refdot4_eq, plain_dotGeneral_apply]
  rw [concat2_vec_right b _ hcatB _ (⟨8 + q.val, by omega⟩ : Fin 12) (by show 12 + q.val = 4 + (8 + q.val); omega), zero_splat_apply, add_zero]
  refine Finset.sum_congr rfl fun k _ => ?_
  rw [concat4_cols_3 _ _ _ _ hcatW k _ q (by show 12 + q.val = 4 + 4 + 4 + q.val; omega), ref_relu4_apply]

end Cert.KernelIdeal.Val

end
-- ==== Proof.ChainL3.lean ====
import proofs.«415972_j72490458022035_1_alg».proof.Proof.KIFold
import proofs.«415972_j72490458022035_1_alg».proof.Proof.KIKeep
import proofs.«415972_j72490458022035_1_alg».proof.Proof.KIHost0
import proofs.«415972_j72490458022035_1_alg».proof.Proof.KIHost4
import proofs.«415972_j72490458022035_1_alg».proof.Proof.KIHost5
import proofs.«415972_j72490458022035_1_alg».proof.Proof.LinArr4
import proofs.«415972_j72490458022035_1_alg».proof.Proof.LinCols4
import proofs.«415972_j72490458022035_1_alg».proof.Proof.RefSpec

set_option maxRecDepth 16384

noncomputable section

namespace Cert.KernelIdeal.Chain

open Idealize.ShloMosaic Idealize.ShloMosaic.TcCoe Idealize.SL.Sem
open Cert.KernelIdeal Cert.KernelIdeal.Gen

variable [Cert.ReferenceIdeal.Facts₀]
variable (m : (ℓ : Loc nD τ sig) → Buf (Elt Ideal) ℓ) (ρ : Dev nD → PrngReg) (c : Dev nD)

theorem src_at17 : W17 m ρ c (Proc.devRef .tc main_v1) = Cert.Tail.srcOf (m ((c : Thread nD τ).loc main_arg2)) :=
  (keep17_main_v1 m ρ c).trans (Host.h0_main_v1 (W0 m ρ c))

theorem dst_at17 : W17 m ρ c (Proc.devRef .tc main_v3) = Cert.Tail.dstOf (m ((c : Thread nD τ).loc main_arg2)) :=
  (keep17_main_v3 m ρ c).trans (Host.h0_main_v3 (W0 m ρ c))

theorem et_at17 : W17 m ρ c (Proc.devRef .tc main_arg3) = m ((c : Thread nD τ).loc main_arg3) := arg17_3 m ρ c

theorem y3_at17 : W17 m ρ c (Proc.devRef .tc main_v293)
    = Val.Lin4 (W16 m ρ c (Proc.devRef .tc main_v292)) (W16 m ρ c (Proc.devRef .tc main_v289))
        (W16 m ρ c (Proc.devRef .tc main_v291)) :=
  (W17_arr m ρ c 3).trans (Val.lin4_arr (V16 m ρ) c)

theorem xpad_at16 : W16 m ρ c (Proc.devRef .tc main_v292)
    = pad S1007616x8 ![0, 0] ![7616, 0] ![0, 0] (W15 m ρ c (Proc.devRef .tc main_v282))
        (sitofp (F := Ideal) .f32 (W15 m ρ c (Proc.devRef .tc main_c_61))) pads_S1000000x8_S1007616x8_076160_000 h_S_ :=
  Host.h4_1_main_v292 (W15 m ρ c)

theorem wfull_at16 : W16 m ρ c (Proc.devRef .tc main_v289)
    = (concatenate S8x16 1
        [⟨S8x4, (m ((c : Thread nD τ).loc main_arg16) : FVec Ideal S8x4 .f32)⟩,
         ⟨S8x4, shapeCast S8x4 (extractStridedSlice S1x8x4 ![0, 0, 0] (m ((c : Thread nD τ).loc main_arg15) : FVec Ideal S3x8x4 .f32) slices_S3x8x4_S1x8x4_0_0_0) shapeCasts_S1x8x4_S8x4⟩,
         ⟨S8x4, shapeCast S8x4 (extractStridedSlice S1x8x4 ![1, 0, 0] (m ((c : Thread nD τ).loc main_arg15) : FVec Ideal S3x8x4 .f32) slices_S3x8x4_S1x8x4_1_0_0) shapeCasts_S1x8x4_S8x4⟩,
         ⟨S8x4, shapeCast S8x4 (extractStridedSlice S1x8x4 ![2, 0, 0] (m ((c : Thread nD τ).loc main_arg15) : FVec Ideal S3x8x4 .f32) slices_S3x8x4_S1x8x4_2_0_0) shapeCasts_S1x8x4_S8x4⟩]
        concatenates_S8x4_S8x4_S8x4_S8x4_S8x16_d1 : FVec Ideal S8x16 .f32) := by
  rw [keep16_main_v289 m ρ c, ← arg14_16 m ρ c, ← arg14_15 m ρ c]
  exact Host.h4_main_v289 (W14 m ρ c)

theorem bfull_at16 : W16 m ρ c (Proc.devRef .tc main_v291)
    = (concatenate S16 0
        [⟨S4, (m ((c : Thread nD τ).loc main_arg17) : FVec Ideal S4 .f32)⟩,
         ⟨S12, broadcastInDim S12 ![] bcast_S_S12 (constant (F := Ideal) S_ .f32 0x00000000#32)⟩]
        concatenates_S4_S12_S16_d0 : FVec Ideal S16 .f32) := by
  rw [keep16_main_v291 m ρ c, ← arg14_17 m ρ c]
  exact Host.h4_main_v291 (W14 m ρ c)

theorem y3_full : W17 m ρ c (Proc.devRef .tc main_v293)
    = Val.Lin4
        (pad S1007616x8 ![0, 0] ![7616, 0] ![0, 0] (W15 m ρ c (Proc.devRef .tc main_v282))
          (sitofp (F := Ideal) .f32 (W15 m ρ c (Proc.devRef .tc main_c_61))) pads_S1000000x8_S1007616x8_076160_000 h_S_)
        (concatenate S8x16 1
          [⟨S8x4, (m ((c : Thread nD τ).loc main_arg16) : FVec Ideal S8x4 .f32)⟩,
           ⟨S8x4, shapeCast S8x4 (extractStridedSlice S1x8x4 ![0, 0, 0] (m ((c : Thread nD τ).loc main_arg15) : FVec Ideal S3x8x4 .f32) slices_S3x8x4_S1x8x4_0_0_0) shapeCasts_S1x8x4_S8x4⟩,
           ⟨S8x4, shapeCast S8x4 (extractStridedSlice S1x8x4 ![1, 0, 0] (m ((c : Thread nD τ).loc main_arg15) : FVec Ideal S3x8x4 .f32) slices_S3x8x4_S1x8x4_1_0_0) shapeCasts_S1x8x4_S8x4⟩,
           ⟨S8x4, shapeCast S8x4 (extractStridedSlice S1x8x4 ![2, 0, 0] (m ((c : Thread nD τ).loc main_arg15) : FVec Ideal S3x8x4 .f32) slices_S3x8x4_S1x8x4_2_0_0) shapeCasts_S1x8x4_S8x4⟩]
          concatenates_S8x4_S8x4_S8x4_S8x4_S8x16_d1)
        (concatenate S16 0
          [⟨S4, (m ((c : Thread nD τ).loc main_arg17) : FVec Ideal S4 .f32)⟩,
           ⟨S12, broadcastInDim S12 ![] bcast_S_S12 (constant (F := Ideal) S_ .f32 0x00000000#32)⟩]
          concatenates_S4_S12_S16_d0) := by
  rw [y3_at17, xpad_at16, wfull_at16, bfull_at16]

theorem cur4_cols : W18 m ρ c (Proc.devRef .tc main_v373)
    = (addf (addf (addf
        (extractStridedSlice S1000000x4 ![0, 0] (extractStridedSlice S1000000x16 ![0, 0] (W17 m ρ c (Proc.devRef .tc main_v293)) slices_S1007616x16_S1000000x16_0_0) slices_S1000000x16_S1000000x4_0_0)
        (Cert.Tail.rel4 (extractStridedSlice S1000000x4 ![0, 4] (extractStridedSlice S1000000x16 ![0, 0] (W17 m ρ c (Proc.devRef .tc main_v293)) slices_S1007616x16_S1000000x16_0_0) slices_S1000000x16_S1000000x4_0_4)
          (Cert.Tail.srcOf (m ((c : Thread nD τ).loc main_arg2))) (Cert.Tail.dstOf (m ((c : Thread nD τ).loc main_arg2))) (Cert.Tail.maskOf 0#32 (m ((c : Thread nD τ).loc main_arg3)))))
        (Cert.Tail.rel4 (extractStridedSlice S1000000x4 ![0, 8] (extractStridedSlice S1000000x16 ![0, 0] (W17 m ρ c (Proc.devRef .tc main_v293)) slices_S1007616x16_S1000000x16_0_0) slices_S1000000x16_S1000000x4_0_8)
          (Cert.Tail.srcOf (m ((c : Thread nD τ).loc main_arg2))) (Cert.Tail.dstOf (m ((c : Thread nD τ).loc main_arg2))) (Cert.Tail.maskOf 1#32 (m ((c : Thread nD τ).loc main_arg3)))))
        (Cert.Tail.rel4 (extractStridedSlice S1000000x4 ![0, 12] (extractStridedSlice S1000000x16 ![0, 0] (W17 m ρ c (Proc.devRef .tc main_v293)) slices_S1007616x16_S1000000x16_0_0) slices_S1000000x16_S1000000x4_0_12)
          (Cert.Tail.srcOf (m ((c : Thread nD τ).loc main_arg2))) (Cert.Tail.dstOf (m ((c : Thread nD τ).loc main_arg2))) (Cert.Tail.maskOf 2#32 (m ((c : Thread nD τ).loc main_arg3)))) : FVec Ideal S1000000x4 .f32) := by
  rw [← src_at17 m ρ c, ← dst_at17 m ρ c, ← et_at17 m ρ c]
  exact Host.h5_main_v373 (W17 m ρ c)

theorem cur4_at18 : W18 m ρ c (Proc.devRef .tc main_v373)
    = Cert.RefSpec.out3 (F := Ideal) (Cert.RefSpec.relu8 (W15 m ρ c (Proc.devRef .tc main_v282)))
        (m ((c : Thread nD τ).loc main_arg16)) (m ((c : Thread nD τ).loc main_arg17)) (m ((c : Thread nD τ).loc main_arg15))
        (m ((c : Thread nD τ).loc main_arg2)) (m ((c : Thread nD τ).loc main_arg3)) := by
  rw [cur4_cols, y3_full]
  rw [Val.lin4_own, Val.lin4_msg0, Val.lin4_msg1, Val.lin4_msg2]
  rfl

end Cert.KernelIdeal.Chain

end
-- ==== Proof.KIHost6.lean ====
import proofs.«415972_j72490458022035_1_alg».proof.Proof.Gen.KernelIdeal.Launch
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

theorem h6_main_v376 (W : Valuation τ sig (Elt F)) :
    after (hostOps6 (F := F)) W (Proc.devRef .tc main_v376)
      = extractStridedSlice S1000000x2 ![0, 0] (W (Proc.devRef .tc main_v375)) slices_S1007616x2_S1000000x2_0_0 := by
  after_results

end Cert.KernelIdeal.Host

end
-- ==== Proof.LinVal5.lean ====
import proofs.«415972_j72490458022035_1_alg».proof.Proof.Gen.KernelIdeal.Skeleton
import proofs.«415972_j72490458022035_1_alg».proof.Proof.KIBody5
import proofs.«415972_j72490458022035_1_alg».proof.Proof.RefSpec
import proofs.«415972_j72490458022035_1_alg».proof.Proof.LibRows
import proofs.«415972_j72490458022035_1_alg».proof.Proof.PlainDot
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx Idealize.ShloMosaic.TcCoe Idealize.SL.Sem
open Idealize.ShloMosaic.Pipeline (Dat Cfg Window)
open Cert.KernelIdeal Cert.KernelIdeal.Gen
open Cert.KernelIdeal.Facts₀ Cert.KernelIdeal.Facts

section Payload

variable [Cert.KernelIdeal.Facts]

theorem lhs_k5_0 (i : S8192x2.Idx) (q : dot_S8192x4_S4x2_S8192x2_1_0_0_1_n_n.contr.Idx) :
    (dot_S8192x4_S4x2_S8192x2_1_0_0_1_n_n.lhsIdx i q 0).val = (i 0).val := by
  unfold DotDims.lhsIdx
  rw [dif_neg (show ¬(0 : Fin S8192x4.rank) ∈ dot_S8192x4_S4x2_S8192x2_1_0_0_1_n_n.lhsBatch by decide), dif_pos (show (0 : Fin S8192x4.rank) ∈ dot_S8192x4_S4x2_S8192x2_1_0_0_1_n_n.lhsNonContracting by decide)]
  rfl

theorem lhs_k5_1 (i : S8192x2.Idx) (q : dot_S8192x4_S4x2_S8192x2_1_0_0_1_n_n.contr.Idx) :
    (dot_S8192x4_S4x2_S8192x2_1_0_0_1_n_n.lhsIdx i q 1).val = (q ⟨0, by decide⟩).val :=
  dot_S8192x4_S4x2_S8192x2_1_0_0_1_n_n.lhsIdx_val_of_single rfl i q

theorem rhs_k5_0 (i : S8192x2.Idx) (q : dot_S8192x4_S4x2_S8192x2_1_0_0_1_n_n.contr.Idx) :
    (dot_S8192x4_S4x2_S8192x2_1_0_0_1_n_n.rhsIdx i q 0).val = (q ⟨0, by decide⟩).val :=
  dot_S8192x4_S4x2_S8192x2_1_0_0_1_n_n.rhsIdx_val_of_single rfl i q

theorem rhs_k5_1 (i : S8192x2.Idx) (q : dot_S8192x4_S4x2_S8192x2_1_0_0_1_n_n.contr.Idx) :
    (dot_S8192x4_S4x2_S8192x2_1_0_0_1_n_n.rhsIdx i q 1).val = (i 1).val := by
  unfold DotDims.rhsIdx
  rw [dif_neg (show ¬(1 : Fin S4x2.rank) ∈ dot_S8192x4_S4x2_S8192x2_1_0_0_1_n_n.rhsBatch by decide), dif_pos (show (1 : Fin S4x2.rank) ∈ dot_S8192x4_S4x2_S8192x2_1_0_0_1_n_n.rhsNonContracting by decide)]
  rfl

theorem matmul_k5_apply (a : FVec Ideal S8192x4 .bf16) (w : FVec Ideal S4x2 .bf16) (p : Fin 8192) (q : Fin 2) :
    matmul dot_S8192x4_S4x2_S8192x2_1_0_0_1_n_n none a w (constant (F := Ideal) S8192x2 .f32 0x00000000#32) (ix2 p q)
      = ∑ k : Fin 4, a (ix2 p k) * w (ix2 k q) := by
  simp only [matmul]
  rw [Ideal.matmul_constant_zero_apply, ← Equiv.sum_comp (contrEquiv1 dot_S8192x4_S4x2_S8192x2_1_0_0_1_n_n 4 rfl rfl).symm]
  refine Finset.sum_congr rfl fun k _ => ?_
  have hk := contrEquiv1_symm_val dot_S8192x4_S4x2_S8192x2_1_0_0_1_n_n 4 rfl rfl k
  have el : dot_S8192x4_S4x2_S8192x2_1_0_0_1_n_n.lhsIdx (ix2 p q) ((contrEquiv1 dot_S8192x4_S4x2_S8192x2_1_0_0_1_n_n 4 rfl rfl).symm k) = ix2 p k :=
    funext fun ax => Fin.ext (by
      match ax with
      | ⟨0, _⟩ => exact lhs_k5_0 _ _
      | ⟨1, _⟩ => exact (lhs_k5_1 _ _).trans hk)
  have er : dot_S8192x4_S4x2_S8192x2_1_0_0_1_n_n.rhsIdx (ix2 p q) ((contrEquiv1 dot_S8192x4_S4x2_S8192x2_1_0_0_1_n_n 4 rfl rfl).symm k) = ix2 k q :=
    funext fun ax => Fin.ext (by
      match ax with
      | ⟨0, _⟩ => exact (rhs_k5_0 _ _).trans hk
      | ⟨1, _⟩ => exact rhs_k5_1 _ _)
  rw [el, er]

theorem k5_pay1_apply (x : FVec Ideal S8192x4 .f32) (w : FVec Ideal S4x2 .f32) (b : FVec Ideal S2 .f32) (p : Fin 8192) (q : Fin 2) :
    k5_pay1 (F := Ideal) x w b (ix2 p q)
      = (∑ k : Fin 4, max (x (ix2 p k)) (Ideal.ofBits .f32 0x00000000#32) * w (ix2 k q)) + b (ix1 q) := by
  unfold k5_pay1
  rw [addf_apply, matmul_k5_apply, broadcastTo_1b_ab_apply, shapeCast_a_1a_apply]
  refine congrArg (· + b (ix1 q)) (Finset.sum_congr rfl fun k _ => ?_)
  rw [truncf_apply, truncf_apply, maximumf_apply, shapeCast_self, broadcast_apply]
  rfl

def Lin5 (X : FVec Ideal S1007616x4 .f32) (Wt : FVec Ideal S4x2 .f32) (B : FVec Ideal S2 .f32) : FVec Ideal S1007616x2 .f32 :=
  fun i => (∑ k : Fin 4, max (X (ix2 (i 0) k)) (Ideal.ofBits .f32 0x00000000#32) * Wt (ix2 k (i 1))) + B (ix1 (i 1))

theorem Lin5_apply (X : FVec Ideal S1007616x4 .f32) (Wt : FVec Ideal S4x2 .f32) (B : FVec Ideal S2 .f32) (r : Fin 1007616) (q : Fin 2) :
    Lin5 X Wt B (ix2 r q) = (∑ k : Fin 4, max (X (ix2 r k)) (Ideal.ofBits .f32 0x00000000#32) * Wt (ix2 k q)) + B (ix1 q) := rfl

end Payload

section Blocks

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

set_option maxHeartbeats 400000 in

theorem flushed5_eq (c : Dev nD) (t : Fin cfg5.N) :
    (dat5 V c).flushed 3 t = ((cfg5.win 3).blk t).view.read (Elt Ideal)
      (Lin5 (V c main_v374) (V c main_arg18) (V c main_arg19)) := by
  show (cfg5.win 3).cut (grid5.coords t) ((dat5 V c).after 3 t) = _
  rw [after5_3]
  unfold out5_3
  rw [View.canon_unit_zero zeros2]
  simp only [View.ld_unit_zero (S := S8192x4) zeros2, View.ld_unit_zero (S := S4x2) zeros2, View.ld_unit_zero (S := S2) zeros1]
  obtain ⟨e00, e01, e10, e11, e20, e30, e31⟩ := idx_facts5 t
  have hN : t.val < 123 := t.isLt
  funext j
  obtain ⟨p, q, rfl⟩ : ∃ (p : Fin 8192) (q : Fin 2), j = ix2 p q := ⟨j 0, j 1, eq_ix2 (n0 := 8192) (n1 := 2) j⟩
  have hp : p.val < 8192 := p.isLt
  show k5_pay1 (F := Ideal) (iblk5 V c 0 t) (iblk5 V c 1 t) (iblk5 V c 2 t) (ix2 p q)
    = Lin5 (V c main_v374) (V c main_arg18) (V c main_arg19) (((cfg5.win 3).blk t).view.emb (ix2 p q))
  have e3 : ((cfg5.win 3).blk t).view.emb (ix2 p q) = ix2 (⟨t.val * 8192 + p.val, by omega⟩ : Fin 1007616) q := by
    funext a; apply Fin.ext
    match a with
    | ⟨0, _⟩ => show win5_3.index t (0 : Fin 2) * 8192 + 1 * p.val = t.val * 8192 + p.val; omega
    | ⟨1, _⟩ => show win5_3.index t (1 : Fin 2) * 2 + 1 * q.val = q.val; omega
  have b0 : ∀ k : Fin 4, iblk5 V c 0 t (ix2 p k) = V c main_v374 (ix2 (⟨t.val * 8192 + p.val, by omega⟩ : Fin 1007616) k) := fun k => by
    show V c main_v374 (((cfg5.win 0).blk t).view.emb (ix2 p k)) = _
    refine congrArg _ (funext fun a => Fin.ext ?_)
    match a with
    | ⟨0, _⟩ => show win5_0.index t (0 : Fin 2) * 8192 + 1 * p.val = t.val * 8192 + p.val; omega
    | ⟨1, _⟩ => show win5_0.index t (1 : Fin 2) * 4 + 1 * k.val = k.val; omega
  have b1 : ∀ k : Fin 4, iblk5 V c 1 t (ix2 k q) = V c main_arg18 (ix2 k q) := fun k => by
    show V c main_arg18 (((cfg5.win 1).blk t).view.emb (ix2 k q)) = _
    refine congrArg _ (funext fun a => Fin.ext ?_)
    match a with
    | ⟨0, _⟩ => show win5_1.index t (0 : Fin 2) * 4 + 1 * k.val = k.val; omega
    | ⟨1, _⟩ => show win5_1.index t (1 : Fin 2) * 2 + 1 * q.val = q.val; omega
  have b2 : iblk5 V c 2 t (ix1 q) = V c main_arg19 (ix1 q) := by
    show V c main_arg19 (((cfg5.win 2).blk t).view.emb (ix1 q)) = _
    refine congrArg _ (funext fun a => Fin.ext ?_)
    match a with
    | ⟨0, _⟩ => show win5_2.index t (0 : Fin 1) * 2 + 1 * q.val = q.val; omega
  rw [e3, k5_pay1_apply, Lin5_apply, b2]
  refine congrArg (· + V c main_arg19 (ix1 q)) (Finset.sum_congr rfl fun k _ => ?_)
  rw [b0 k, b1 k]

theorem mem_blk5 (t : Fin cfg5.N) (i : S1007616x2.Idx) :
    i ∈ ((cfg5.win 3).blk t).view.set ↔ ∀ a : Fin 2, win5_3.index t a * S8192x2.size a ≤ (i a).val ∧ (i a).val < win5_3.index t a * S8192x2.size a + S8192x2.size a := by
  show i ∈ ((View.whole main_v375).slice (win5_3.rect t)).set ↔ _
  rw [View.set_slice_whole, Rect.mem_set_unit]
  exact Iff.rfl

theorem cover5 (i : S1007616x2.Idx) :
    ∃ t : Fin cfg5.N, (cfg5.win 3).flush t = true ∧ i ∈ ((cfg5.win 3).blk t).view.set := by
  have hi0 : (i 0).val < 1007616 := (i 0).isLt
  have hi1 : (i 1).val < 2 := (i 1).isLt
  refine ⟨(⟨(i 0).val / 8192, by show (i 0).val / 8192 < 123; omega⟩ : Fin cfg5.N), flush5_3 _, ?_⟩
  rw [mem_blk5]
  obtain ⟨-, -, -, -, -, e30, e31⟩ := idx_facts5 (⟨(i 0).val / 8192, by show (i 0).val / 8192 < 123; omega⟩ : Fin cfg5.N)
  intro a
  match a with
  | ⟨0, _⟩ =>
    show win5_3.index _ (0 : Fin 2) * 8192 ≤ (i 0).val ∧ (i 0).val < win5_3.index _ (0 : Fin 2) * 8192 + 8192
    rw [e30]; show (i 0).val / 8192 * 8192 ≤ (i 0).val ∧ (i 0).val < (i 0).val / 8192 * 8192 + 8192; omega
  | ⟨1, _⟩ =>
    show win5_3.index _ (1 : Fin 2) * 2 ≤ (i 1).val ∧ (i 1).val < win5_3.index _ (1 : Fin 2) * 2 + 2
    rw [e31]; omega

theorem lin5_arr (c : Dev nD) :
    (dat5 V c).arrAt 3 cfg5.N
      = Lin5 (V c main_v374) (V c main_arg18) (V c main_arg19) :=
  (dat5 V c).arrAt_eq_of_cover 3 _ (fun t _ => flushed5_eq V c t) cover5

end Blocks

section Bridge
variable [Cert.KernelIdeal.Facts] [Cert.ReferenceIdeal.Facts₀]

theorem lin_dot_apply (X : FVec Ideal S1000000x4 .f32) (w : FVec Ideal S4x2 .f32) (p : Fin 1000000) (q : Fin 2) :
    Host.dotGeneral Cert.ReferenceIdeal.dot_S1000000x4_S4x2_S1000000x2_1_0_0_1_n_n none X w (ix2 p q)
      = ∑ k : Fin 4, X (ix2 p k) * w (ix2 k q) :=
  plain_dotGeneral_apply (M := 1000000) (K := 4) (N := 2)
    Cert.ReferenceIdeal.Facts₀.dot_S1000000x4_S4x2_S1000000x2_1_0_0_1_n_n_wf none _ X w p q

theorem lin_bias_apply (lb : FVec Ideal S2 .f32) (p : Fin 1000000) (q : Fin 2) :
    broadcastInDim Cert.ReferenceIdeal.S1000000x2 ![0, 1] Cert.ReferenceIdeal.Facts₀.bcast_S1x2_S1000000x2_0_1
        (broadcastInDim Cert.ReferenceIdeal.S1x2 ![1] Cert.ReferenceIdeal.Facts₀.bcast_S2_S1x2_1 lb) (ix2 p q)
      = lb (ix1 q) := by
  rw [broadcastInDim_apply _ _ _ (ix2 p q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

theorem relu4_apply (C : FVec Ideal S1000000x4 .f32) (i : S1000000x4.Idx) :
    Cert.RefSpec.relu4 (F := Ideal) C i = max (C i) (Ideal.ofBits .f32 0x00000000#32) := rfl

theorem lin5_res (C : FVec Ideal S1000000x4 .f32) (v : FVec Ideal S_ .f32) (lw : FVec Ideal S4x2 .f32) (lb : FVec Ideal S2 .f32) :
    extractStridedSlice S1000000x2 ![0, 0]
        (Lin5 (pad S1007616x4 ![0, 0] ![7616, 0] ![0, 0] C v Facts₀.pads_S1000000x4_S1007616x4_076160_000 Facts₀.h_S_) lw lb)
        Facts₀.slices_S1007616x2_S1000000x2_0_0
      = Cert.RefSpec.lin (F := Ideal) (Cert.RefSpec.relu4 C) lw lb := by
  funext i
  obtain ⟨p, q, rfl⟩ : ∃ (p : Fin 1000000) (q : Fin 2), i = ix2 p q := ⟨i 0, i 1, eq_ix2 i⟩
  rw [slice_rows_eq, Lin5_apply]
  unfold Cert.RefSpec.lin
  rw [addf_apply, lin_dot_apply, lin_bias_apply]
  refine congrArg (· + lb (ix1 q)) (Finset.sum_congr rfl fun k _ => ?_)
  rw [relu4_apply]
  exact congrArg (fun y => max y (Ideal.ofBits .f32 0x00000000#32) * lw (ix2 k q)) (pad_rows_apply C v _ _ _ k p rfl)

end Bridge

end Cert.KernelIdeal.Val

end
-- ==== Proof.ChainRes.lean ====
import proofs.«415972_j72490458022035_1_alg».proof.Proof.KIFold
import proofs.«415972_j72490458022035_1_alg».proof.Proof.KIHost5
import proofs.«415972_j72490458022035_1_alg».proof.Proof.KIHost6
import proofs.«415972_j72490458022035_1_alg».proof.Proof.LinVal5

set_option maxRecDepth 16384

noncomputable section

namespace Cert.KernelIdeal.Chain

open Idealize.ShloMosaic Idealize.ShloMosaic.TcCoe Idealize.SL.Sem
open Cert.KernelIdeal Cert.KernelIdeal.Gen

variable [Cert.ReferenceIdeal.Facts₀]
variable (m : (ℓ : Loc nD τ sig) → Buf (Elt Ideal) ℓ) (ρ : Dev nD → PrngReg) (c : Dev nD)

set_option maxHeartbeats 4000000 in

theorem arg18_at19 : W19 m ρ c (Proc.devRef .tc main_arg18) = m ((c : Thread nD τ).loc main_arg18) :=
  (W19_keep m ρ c _ (by decide)).trans <| (W18_keep m ρ c _ (by decide)).trans <|
  (W17_of_ne m ρ c _ (by decide)).trans <| (W16_keep m ρ c _ (by decide)).trans <| (W15_keep m ρ c _ (by decide)).trans <|
  (W14_of_ne m ρ c _ (by decide)).trans <| (W13_keep m ρ c _ (by decide)).trans <| (W12_keep m ρ c _ (by decide)).trans <|
  (W11_of_ne m ρ c _ (by decide)).trans <| (W10_keep m ρ c _ (by decide)).trans <| (W9_keep m ρ c _ (by decide)).trans <|
  (W8_of_ne m ρ c _ (by decide)).trans <| (W7_keep m ρ c _ (by decide)).trans <| (W6_keep m ρ c _ (by decide)).trans <|
  (W5_of_ne m ρ c _ (by decide)).trans <| (W4_keep m ρ c _ (by decide)).trans <| (W3_keep m ρ c _ (by decide)).trans <|
  (W2_keep m ρ c _ (by decide)).trans <| (W1_keep m ρ c _ (by decide)).trans rfl

set_option maxHeartbeats 4000000 in

theorem arg19_at19 : W19 m ρ c (Proc.devRef .tc main_arg19) = m ((c : Thread nD τ).loc main_arg19) :=
  (W19_keep m ρ c _ (by decide)).trans <| (W18_keep m ρ c _ (by decide)).trans <|
  (W17_of_ne m ρ c _ (by decide)).trans <| (W16_keep m ρ c _ (by decide)).trans <| (W15_keep m ρ c _ (by decide)).trans <|
  (W14_of_ne m ρ c _ (by decide)).trans <| (W13_keep m ρ c _ (by decide)).trans <| (W12_keep m ρ c _ (by decide)).trans <|
  (W11_of_ne m ρ c _ (by decide)).trans <| (W10_keep m ρ c _ (by decide)).trans <| (W9_keep m ρ c _ (by decide)).trans <|
  (W8_of_ne m ρ c _ (by decide)).trans <| (W7_keep m ρ c _ (by decide)).trans <| (W6_keep m ρ c _ (by decide)).trans <|
  (W5_of_ne m ρ c _ (by decide)).trans <| (W4_keep m ρ c _ (by decide)).trans <| (W3_keep m ρ c _ (by decide)).trans <|
  (W2_keep m ρ c _ (by decide)).trans <| (W1_keep m ρ c _ (by decide)).trans rfl

theorem v374_at19 :
    W19 m ρ c (Proc.devRef .tc main_v374)
      = pad S1007616x4 ![0, 0] ![7616, 0] ![0, 0] (W18 m ρ c (Proc.devRef .tc main_v373))
          (sitofp (F := Ideal) .f32 (W18 m ρ c (Proc.devRef .tc main_c_80))) pads_S1000000x4_S1007616x4_076160_000 h_S_ :=
  Host.h5_1_main_v374 (W18 m ρ c)

theorem v375_at20 :
    W20 m ρ c (Proc.devRef .tc main_v375)
      = Val.Lin5 (W19 m ρ c (Proc.devRef .tc main_v374)) (W19 m ρ c (Proc.devRef .tc main_arg18))
          (W19 m ρ c (Proc.devRef .tc main_arg19)) :=
  (W20_arr m ρ c 3).trans (Val.lin5_arr (V19 m ρ) c)

theorem res_at21 [Cert.KernelIdeal.Facts] :
    W21 m ρ c (Proc.devRef .tc main_v376)
      = Cert.RefSpec.lin (F := Ideal) (Cert.RefSpec.relu4 (W18 m ρ c (Proc.devRef .tc main_v373)))
          (m ((c : Thread nD τ).loc main_arg18)) (m ((c : Thread nD τ).loc main_arg19)) := by
  refine (Host.h6_main_v376 (W20 m ρ c)).trans ?_
  rw [v375_at20, v374_at19, arg18_at19, arg19_at19]
  exact Val.lin5_res _ _ _ _

end Cert.KernelIdeal.Chain

end
-- ==== Proof.ChainAll.lean ====
import proofs.«415972_j72490458022035_1_alg».proof.Proof.ChainEmb
import proofs.«415972_j72490458022035_1_alg».proof.Proof.ChainL0
import proofs.«415972_j72490458022035_1_alg».proof.Proof.ChainL1
import proofs.«415972_j72490458022035_1_alg».proof.Proof.ChainL2
import proofs.«415972_j72490458022035_1_alg».proof.Proof.ChainL3
import proofs.«415972_j72490458022035_1_alg».proof.Proof.ChainRes

set_option maxRecDepth 16384

noncomputable section

namespace Cert.KernelIdeal.Chain

open Idealize.ShloMosaic Idealize.ShloMosaic.TcCoe Idealize.SL.Sem
open Cert.KernelIdeal Cert.KernelIdeal.Gen

variable [Cert.KernelIdeal.Facts] [Cert.ReferenceIdeal.Facts₀]
variable (m : (ℓ : Loc nD τ sig) → Buf (Elt Ideal) ℓ) (ρ : Dev nD → PrngReg) (c : Dev nD)

theorem kernel_value
    (hs : ∀ i : S1000000.Idx, 0 ≤ ((m ((c : Thread nD τ).loc main_arg1) : IVec S1000000 32) i).toInt
        ∧ ((m ((c : Thread nD τ).loc main_arg1) : IVec S1000000 32) i).toInt < 15)
    (hc : ∀ i : S1000000.Idx, 0 ≤ ((m ((c : Thread nD τ).loc main_arg0) : IVec S1000000 32) i).toInt
        ∧ ((m ((c : Thread nD τ).loc main_arg0) : IVec S1000000 32) i).toInt < 202) :
    W21 m ρ c (Proc.devRef .tc main_v376)
      = Cert.RefSpec.res (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18))
          (m ((c : Thread nD τ).loc main_arg19)) := by
  rw [res_at21 m ρ c, cur4_at18 m ρ c, cur3_at15 m ρ c, cur2_at12 m ρ c, cur1_at9 m ρ c, x0_at6 m ρ c hs hc]
  rfl

end Cert.KernelIdeal.Chain

end
-- ==== Proof.lean ====
import proofs.«415972_j72490458022035_1_alg».proof.Proof.Claims
import proofs.«415972_j72490458022035_1_alg».proof.Proof.ChainAll
import Idealize.ShloMosaic.Adequacy
import Idealize.ShloMosaic.Init

noncomputable section

namespace Cert.Proof

open Idealize.ShloMosaic Idealize.SL.Sem

theorem kernel_value_of_pre (m : (ℓ : Loc Cert.KernelIdeal.nD Cert.KernelIdeal.τ Cert.KernelIdeal.sig) → Buf (Elt Ideal) ℓ)
    (g : Dev Cert.KernelIdeal.nD → PrngReg)
    (hpre : Cert.Pre_KernelIdeal (hPre_finite_inputs := Cert.Pre_finite_inputs.Gen.facts) m) (c : Dev Cert.KernelIdeal.nD) :
    Cert.KernelIdeal.Gen.W21 m g c (Proc.devRef .tc Cert.KernelIdeal.main_v376) = Claims.resOf m c :=
  haveI := Cert.KernelIdeal.Gen.facts
  haveI := Cert.ReferenceIdeal.Gen.facts
  haveI := Cert.Pre_finite_inputs.Gen.facts
  Cert.KernelIdeal.Chain.kernel_value m g c (Cert.PreRanges.ranges_KernelIdeal m hpre c).1 (Cert.PreRanges.ranges_KernelIdeal m hpre c).2

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic kernel_value_of_pre⟩

end Cert.Proof

end
